-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S262144x64 : Shape := ⟨2, ![262144, 64]⟩
abbrev S262144 : Shape := ⟨1, ![262144]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x64 .f32) (main_arg1 : IVec S262144 32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_c_0 : IVec S_ 32 := constantI S_ 32 0#32
  let main_v4 : IVec S262144 32 := broadcastInDim S262144 ![] bcast_S_S262144 main_c_0
  let main_v5 : IVec S262144 1 := cmpi .sge main_arg1 main_v4
  let main_c_1 : IVec S_ 32 := constantI S_ 32 63#32
  let main_v6 : IVec S262144 32 := broadcastInDim S262144 ![] bcast_S_S262144 main_c_1
  let main_v7 : IVec S262144 1 := cmpi .sle main_arg1 main_v6
  let main_v8 : IVec S262144 1 := andi main_v5 main_v7
  let main_c_2 : IVec S_ 1 := constantI S_ 1 1#1
  let main_v9 : IVec S_ 1 := (fun x v => Host.reduce IntOp.andi x v reducesTo_S262144_S_d0 h_S_) main_v8 main_c_2
  let main_v10 : IVec S_ 1 := andi main_v3 main_v9
  main_v10
-- ==== Kernel.lean ====
abbrev S262144x64 : Shape := ⟨2, ![262144, 64]⟩
abbrev S262144 : Shape := ⟨1, ![262144]⟩
abbrev S64x262144 : Shape := ⟨2, ![64, 262144]⟩
abbrev S8x8x2048x128 : Shape := ⟨4, ![8, 8, 2048, 128]⟩
abbrev S8x2048x8x128 : Shape := ⟨4, ![8, 2048, 8, 128]⟩
abbrev S16777216 : Shape := ⟨1, ![16777216]⟩
abbrev S2048x128 : Shape := ⟨2, ![2048, 128]⟩
abbrev S4096 : Shape := ⟨1, ![4096]⟩
abbrev S6144 : Shape := ⟨1, ![6144]⟩
abbrev S128 : Shape := ⟨1, ![128]⟩
abbrev S_ : Shape := ⟨0, ![]⟩
abbrev S2048 : Shape := ⟨1, ![2048]⟩
abbrev S16 : Shape := ⟨1, ![16]⟩
abbrev S512 : Shape := ⟨1, ![512]⟩
abbrev S1536 : Shape := ⟨1, ![1536]⟩
abbrev S64x128 : Shape := ⟨2, ![64, 128]⟩
abbrev S1x64 : Shape := ⟨2, ![1, 64]⟩
abbrev S256x128 : Shape := ⟨2, ![256, 128]⟩
abbrev S64x8192 : Shape := ⟨2, ![64, 8192]⟩
abbrev S16x128 : Shape := ⟨2, ![16, 128]⟩
abbrev S1x128 : Shape := ⟨2, ![1, 128]⟩
abbrev S32x128 : Shape := ⟨2, ![32, 128]⟩
abbrev S1x1 : Shape := ⟨2, ![1, 1]⟩
abbrev S64 : Shape := ⟨1, ![64]⟩
abbrev S64x1 : Shape := ⟨2, ![64, 1]⟩
abbrev S1x64x1 : Shape := ⟨3, ![1, 64, 1]⟩
abbrev S1 : Shape := ⟨1, ![1]⟩
abbrev S1x1x1 : Shape := ⟨3, ![1, 1, 1]⟩

abbrev nBuf : Table → Nat
  | .hbm => 14
  | .local .tc .vmem => 15
  | .local .scVector .vmem => 4
  | _ => 0

abbrev bufTy : (tb : Table) → Fin (nBuf tb) → BufTy
  | .hbm, ⟨0, _⟩ => ⟨S262144x64, .f32⟩
  | .hbm, ⟨1, _⟩ => ⟨S262144, .i32⟩
  | .hbm, ⟨2, _⟩ => ⟨S64x262144, .f32⟩
  | .hbm, ⟨3, _⟩ => ⟨S8x8x2048x128, .f32⟩
  | .hbm, ⟨4, _⟩ => ⟨S8x2048x8x128, .f32⟩
  | .hbm, ⟨5, _⟩ => ⟨S16777216, .f32⟩
  | .hbm, ⟨6, _⟩ => ⟨S64x262144, .f32⟩
  | .hbm, ⟨7, _⟩ => ⟨S2048x128, .i32⟩
  | .hbm, ⟨8, _⟩ => ⟨S4096, .f32⟩
  | .hbm, ⟨9, _⟩ => ⟨S64x128, .i32⟩
  | .hbm, ⟨10, _⟩ => ⟨S1x64, .f32⟩
  | .hbm, ⟨11, _⟩ => ⟨S32x128, .f32⟩
  | .hbm, ⟨12, _⟩ => ⟨S1x1, .f32⟩
  | .hbm, ⟨13, _⟩ => ⟨S_, .f32⟩
  | .local .tc .vmem, ⟨0, _⟩ => ⟨S256x128, .i32⟩
  | .local .tc .vmem, ⟨1, _⟩ => ⟨S256x128, .i32⟩
  | .local .tc .vmem, ⟨2, _⟩ => ⟨S64x128, .i32⟩
  | .local .tc .vmem, ⟨3, _⟩ => ⟨S64x128, .i32⟩
  | .local .tc .vmem, ⟨4, _⟩ => ⟨S64x8192, .f32⟩
  | .local .tc .vmem, ⟨5, _⟩ => ⟨S64x8192, .f32⟩
  | .local .tc .vmem, ⟨6, _⟩ => ⟨S64x128, .i32⟩
  | .local .tc .vmem, ⟨7, _⟩ => ⟨S1x64, .f32⟩
  | .local .tc .vmem, ⟨8, _⟩ => ⟨S64x128, .i16⟩
  | .local .tc .vmem, ⟨9, _⟩ => ⟨S64x128, .f32⟩
  | .local .tc .vmem, ⟨10, _⟩ => ⟨S256x128, .i16⟩
  | .local .tc .vmem, ⟨11, _⟩ => ⟨S32x128, .f32⟩
  | .local .tc .vmem, ⟨12, _⟩ => ⟨S1x64, .f32⟩
  | .local .tc .vmem, ⟨13, _⟩ => ⟨S64x128, .i32⟩
  | .local .tc .vmem, ⟨14, _⟩ => ⟨S1x1, .f32⟩
  | .local .scVector .vmem, ⟨0, _⟩ => ⟨S6144, .i32⟩
  | .local .scVector .vmem, ⟨1, _⟩ => ⟨S6144, .i32⟩
  | .local .scVector .vmem, ⟨2, _⟩ => ⟨S6144, .f32⟩
  | .local .scVector .vmem, ⟨3, _⟩ => ⟨S128, .f32⟩
  | _, _ => ⟨S262144x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v3_scv : Ref sig .scVector := ⟨.hbm, 5, rfl⟩
abbrev main_arg1_scv : Ref sig .scVector := ⟨.hbm, 1, rfl⟩
abbrev main_v6_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_scratch0 : Ref sig .tc := ⟨.vmem, 8, rfl⟩
abbrev cc1_scratch1 : Ref sig .tc := ⟨.vmem, 9, rfl⟩
abbrev cc1_scratch2 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc2_sem0_0 : DmaSem sig := 19
abbrev cc2_sem1_0 : DmaSem sig := 20
abbrev cc2_sem2_0 : DmaSem sig := 21
abbrev cc2_sem3_0 : DmaSem sig := 22
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6144_i32 : BitVec 32 := 6144#32
  let v2 : BitVec 32 := Scalar.muli v1 c6144_i32
  ![v2.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6144_i32 : BitVec 32 := 6144#32
  let v2 : BitVec 32 := Scalar.muli v1 c6144_i32
  let c2048_i32 : BitVec 32 := 2048#32
  let v7 : BitVec 32 := Scalar.addi v2 c2048_i32
  ![v7.toNat]
@[reducible] def k0_t1_loop : Scf.Loop 32 :=
  let c0_i32_6 : BitVec 32 := 0#32
  let c16_i32 : BitVec 32 := 16#32
  let v17 : BitVec 32 := Scalar.addi c0_i32_6 c16_i32
  let c1_i32 : BitVec 32 := 1#32
  ⟨c0_i32_6, v17, c1_i32⟩
def k0_off3 (k0_t1 : Fin k0_t1_loop.trips) : Fin 1 → Nat :=
  let c0_i32_6 : BitVec 32 := 0#32
  let c1_i32 : BitVec 32 := 1#32
  let arg19 : BitVec 32 := Scf.iv c0_i32_6 c1_i32 k0_t1
  let c2_i32_58 : BitVec 32 := 2#32
  let v83 : BitVec 32 := Scalar.muli arg19 c2_i32_58
  let c16_i32_59 : BitVec 32 := 16#32
  let v84 : BitVec 32 := Scalar.muli v83 c16_i32_59
  let v85 : Index := Scalar.indexCast v84
  ![v85.toNat]
def k0_off4 (k0_t1 : Fin k0_t1_loop.trips) : Fin 1 → Nat :=
  let c0_i32_6 : BitVec 32 := 0#32
  let c1_i32 : BitVec 32 := 1#32
  let arg19 : BitVec 32 := Scf.iv c0_i32_6 c1_i32 k0_t1
  let c2_i32_58 : BitVec 32 := 2#32
  let v83 : BitVec 32 := Scalar.muli arg19 c2_i32_58
  let c16_i32_60 : BitVec 32 := 16#32
  let v88 : BitVec 32 := Scalar.muli v83 c16_i32_60
  let c16_i32_61 : BitVec 32 := 16#32
  let v89 : BitVec 32 := Scalar.addi v88 c16_i32_61
  let v90 : Index := Scalar.indexCast v89
  ![v90.toNat]
@[reducible] def k0_t2_loop : Scf.Loop 32 :=
  let c16_i32_12 : BitVec 32 := 16#32
  let c48_i32 : BitVec 32 := 48#32
  let v21 : BitVec 32 := Scalar.addi c16_i32_12 c48_i32
  let c1_i32_13 : BitVec 32 := 1#32
  ⟨c16_i32_12, v21, c1_i32_13⟩
def k0_off5 (k0_t2 : Fin k0_t2_loop.trips) : Fin 1 → Nat :=
  let c16_i32_12 : BitVec 32 := 16#32
  let c1_i32_13 : BitVec 32 := 1#32
  let arg19 : BitVec 32 := Scf.iv c16_i32_12 c1_i32_13 k0_t2
  let c2_i32_58 : BitVec 32 := 2#32
  let v83 : BitVec 32 := Scalar.muli arg19 c2_i32_58
  let c16_i32_59 : BitVec 32 := 16#32
  let v84 : BitVec 32 := Scalar.muli v83 c16_i32_59
  let v85 : Index := Scalar.indexCast v84
  ![v85.toNat]
def k0_off6 (k0_t2 : Fin k0_t2_loop.trips) : Fin 1 → Nat :=
  let c16_i32_12 : BitVec 32 := 16#32
  let c1_i32_13 : BitVec 32 := 1#32
  let arg19 : BitVec 32 := Scf.iv c16_i32_12 c1_i32_13 k0_t2
  let c2_i32_58 : BitVec 32 := 2#32
  let v83 : BitVec 32 := Scalar.muli arg19 c2_i32_58
  let c16_i32_60 : BitVec 32 := 16#32
  let v88 : BitVec 32 := Scalar.muli v83 c16_i32_60
  let c16_i32_61 : BitVec 32 := 16#32
  let v89 : BitVec 32 := Scalar.addi v88 c16_i32_61
  let v90 : Index := Scalar.indexCast v89
  ![v90.toNat]
@[reducible] def k0_t3_loop : Scf.Loop 32 :=
  let c64_i32 : BitVec 32 := 64#32
  let c64_i32_20 : BitVec 32 := 64#32
  let v29 : BitVec 32 := Scalar.addi c64_i32 c64_i32_20
  let c1_i32_21 : BitVec 32 := 1#32
  ⟨c64_i32, v29, c1_i32_21⟩
def k0_off7 (k0_t3 : Fin k0_t3_loop.trips) : Fin 1 → Nat :=
  let c64_i32 : BitVec 32 := 64#32
  let c1_i32_21 : BitVec 32 := 1#32
  let arg19 : BitVec 32 := Scf.iv c64_i32 c1_i32_21 k0_t3
  let c2_i32_58 : BitVec 32 := 2#32
  let v83 : BitVec 32 := Scalar.muli arg19 c2_i32_58
  let c16_i32_59 : BitVec 32 := 16#32
  let v84 : BitVec 32 := Scalar.muli v83 c16_i32_59
  let v85 : Index := Scalar.indexCast v84
  ![v85.toNat]
def k0_off8 (k0_t3 : Fin k0_t3_loop.trips) : Fin 1 → Nat :=
  let c64_i32 : BitVec 32 := 64#32
  let c1_i32_21 : BitVec 32 := 1#32
  let arg19 : BitVec 32 := Scf.iv c64_i32 c1_i32_21 k0_t3
  let c2_i32_58 : BitVec 32 := 2#32
  let v83 : BitVec 32 := Scalar.muli arg19 c2_i32_58
  let c16_i32_60 : BitVec 32 := 16#32
  let v88 : BitVec 32 := Scalar.muli v83 c16_i32_60
  let c16_i32_61 : BitVec 32 := 16#32
  let v89 : BitVec 32 := Scalar.addi v88 c16_i32_61
  let v90 : Index := Scalar.indexCast v89
  ![v90.toNat]
@[reducible] def k0_t4_loop : Scf.Loop 32 :=
  let c128_i32 : BitVec 32 := 128#32
  let c64_i32_27 : BitVec 32 := 64#32
  let v33 : BitVec 32 := Scalar.addi c128_i32 c64_i32_27
  let c1_i32_28 : BitVec 32 := 1#32
  ⟨c128_i32, v33, c1_i32_28⟩
def k0_off9 (k0_t4 : Fin k0_t4_loop.trips) : Fin 1 → Nat :=
  let c128_i32 : BitVec 32 := 128#32
  let c1_i32_28 : BitVec 32 := 1#32
  let arg19 : BitVec 32 := Scf.iv c128_i32 c1_i32_28 k0_t4
  let c2_i32_58 : BitVec 32 := 2#32
  let v83 : BitVec 32 := Scalar.muli arg19 c2_i32_58
  let c16_i32_59 : BitVec 32 := 16#32
  let v84 : BitVec 32 := Scalar.muli v83 c16_i32_59
  let v85 : Index := Scalar.indexCast v84
  ![v85.toNat]
def k0_off10 (k0_t4 : Fin k0_t4_loop.trips) : Fin 1 → Nat :=
  let c128_i32 : BitVec 32 := 128#32
  let c1_i32_28 : BitVec 32 := 1#32
  let arg19 : BitVec 32 := Scf.iv c128_i32 c1_i32_28 k0_t4
  let c2_i32_58 : BitVec 32 := 2#32
  let v83 : BitVec 32 := Scalar.muli arg19 c2_i32_58
  let c16_i32_60 : BitVec 32 := 16#32
  let v88 : BitVec 32 := Scalar.muli v83 c16_i32_60
  let c16_i32_61 : BitVec 32 := 16#32
  let v89 : BitVec 32 := Scalar.addi v88 c16_i32_61
  let v90 : Index := Scalar.indexCast v89
  ![v90.toNat]
@[reducible] def k0_t5_loop : Scf.Loop 32 :=
  let c0_i32_35 : BitVec 32 := 0#32
  let c8_i32 : BitVec 32 := 8#32
  let v41 : BitVec 32 := Scalar.addi c0_i32_35 c8_i32
  let c1_i32_36 : BitVec 32 := 1#32
  ⟨c0_i32_35, v41, c1_i32_36⟩
def k0_off11 (k0_t5 : Fin k0_t5_loop.trips) : Fin 1 → Nat :=
  let c0_i32_35 : BitVec 32 := 0#32
  let c1_i32_36 : BitVec 32 := 1#32
  let arg19 : BitVec 32 := Scf.iv c0_i32_35 c1_i32_36 k0_t5
  let c64_i32_58 : BitVec 32 := 64#32
  let v83 : BitVec 32 := Scalar.muli arg19 c64_i32_58
  let v84 : Index := Scalar.indexCast v83
  ![v84.toNat]
def k0_off12 (k0_t5 : Fin k0_t5_loop.trips) (c16_i32_59 : BitVec 32) : Fin 1 → Nat :=
  let c0_i32_35 : BitVec 32 := 0#32
  let c1_i32_36 : BitVec 32 := 1#32
  let arg19 : BitVec 32 := Scf.iv c0_i32_35 c1_i32_36 k0_t5
  let c64_i32_58 : BitVec 32 := 64#32
  let v83 : BitVec 32 := Scalar.muli arg19 c64_i32_58
  let v88 : BitVec 32 := Scalar.addi v83 c16_i32_59
  let v89 : Index := Scalar.indexCast v88
  ![v89.toNat]
@[reducible] def k0_t6_loop : Scf.Loop 32 :=
  let c8_i32_41 : BitVec 32 := 8#32
  let c24_i32 : BitVec 32 := 24#32
  let v46 : BitVec 32 := Scalar.addi c8_i32_41 c24_i32
  let c1_i32_42 : BitVec 32 := 1#32
  ⟨c8_i32_41, v46, c1_i32_42⟩
def k0_off13 (k0_t6 : Fin k0_t6_loop.trips) : Fin 1 → Nat :=
  let c8_i32_41 : BitVec 32 := 8#32
  let c1_i32_42 : BitVec 32 := 1#32
  let arg19 : BitVec 32 := Scf.iv c8_i32_41 c1_i32_42 k0_t6
  let c64_i32_58 : BitVec 32 := 64#32
  let v83 : BitVec 32 := Scalar.muli arg19 c64_i32_58
  let v84 : Index := Scalar.indexCast v83
  ![v84.toNat]
def k0_off14 (k0_t6 : Fin k0_t6_loop.trips) (c16_i32_59 : BitVec 32) : Fin 1 → Nat :=
  let c8_i32_41 : BitVec 32 := 8#32
  let c1_i32_42 : BitVec 32 := 1#32
  let arg19 : BitVec 32 := Scf.iv c8_i32_41 c1_i32_42 k0_t6
  let c64_i32_58 : BitVec 32 := 64#32
  let v83 : BitVec 32 := Scalar.muli arg19 c64_i32_58
  let v88 : BitVec 32 := Scalar.addi v83 c16_i32_59
  let v89 : Index := Scalar.indexCast v88
  ![v89.toNat]
@[reducible] def k0_t7_loop : Scf.Loop 32 :=
  let c32_i32 : BitVec 32 := 32#32
  let c32_i32_47 : BitVec 32 := 32#32
  let v51 : BitVec 32 := Scalar.addi c32_i32 c32_i32_47
  let c1_i32_48 : BitVec 32 := 1#32
  ⟨c32_i32, v51, c1_i32_48⟩
def k0_off15 (k0_t7 : Fin k0_t7_loop.trips) : Fin 1 → Nat :=
  let c32_i32 : BitVec 32 := 32#32
  let c1_i32_48 : BitVec 32 := 1#32
  let arg19 : BitVec 32 := Scf.iv c32_i32 c1_i32_48 k0_t7
  let c64_i32_58 : BitVec 32 := 64#32
  let v83 : BitVec 32 := Scalar.muli arg19 c64_i32_58
  let v84 : Index := Scalar.indexCast v83
  ![v84.toNat]
def k0_off16 (k0_t7 : Fin k0_t7_loop.trips) (c16_i32_59 : BitVec 32) : Fin 1 → Nat :=
  let c32_i32 : BitVec 32 := 32#32
  let c1_i32_48 : BitVec 32 := 1#32
  let arg19 : BitVec 32 := Scf.iv c32_i32 c1_i32_48 k0_t7
  let c64_i32_58 : BitVec 32 := 64#32
  let v83 : BitVec 32 := Scalar.muli arg19 c64_i32_58
  let v88 : BitVec 32 := Scalar.addi v83 c16_i32_59
  let v89 : Index := Scalar.indexCast v88
  ![v89.toNat]
@[reducible] def k0_t8_loop : Scf.Loop 32 :=
  let c64_i32_53 : BitVec 32 := 64#32
  let c32_i32_54 : BitVec 32 := 32#32
  let v56 : BitVec 32 := Scalar.addi c64_i32_53 c32_i32_54
  let c1_i32_55 : BitVec 32 := 1#32
  ⟨c64_i32_53, v56, c1_i32_55⟩
def k0_off17 (k0_t8 : Fin k0_t8_loop.trips) : Fin 1 → Nat :=
  let c64_i32_53 : BitVec 32 := 64#32
  let c1_i32_55 : BitVec 32 := 1#32
  let arg19 : BitVec 32 := Scf.iv c64_i32_53 c1_i32_55 k0_t8
  let c64_i32_58 : BitVec 32 := 64#32
  let v83 : BitVec 32 := Scalar.muli arg19 c64_i32_58
  let v84 : Index := Scalar.indexCast v83
  ![v84.toNat]
def k0_off18 (k0_t8 : Fin k0_t8_loop.trips) (c16_i32_59 : BitVec 32) : Fin 1 → Nat :=
  let c64_i32_53 : BitVec 32 := 64#32
  let c1_i32_55 : BitVec 32 := 1#32
  let arg19 : BitVec 32 := Scf.iv c64_i32_53 c1_i32_55 k0_t8
  let c64_i32_58 : BitVec 32 := 64#32
  let v83 : BitVec 32 := Scalar.muli arg19 c64_i32_58
  let v88 : BitVec 32 := Scalar.addi v83 c16_i32_59
  let v89 : Index := Scalar.indexCast v88
  ![v89.toNat]
def k0_off19 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_57 : BitVec 32 := 128#32
  let v82 : BitVec 32 := Scalar.muli v1 c128_i32_57
  ![v82.toNat]
abbrev grid1 : Pipeline.Grid := ⟨1, ![8], ![false]⟩

@[reducible] def k1_t1_loop : Scf.Loop 32 :=
  let c0_i32_6 : BitVec 32 := 0#32
  let c16_i32 : BitVec 32 := 16#32
  let v11 : BitVec 32 := Scalar.addi c0_i32_6 c16_i32
  let c1_i32 : BitVec 32 := 1#32
  ⟨c0_i32_6, v11, c1_i32⟩
def k1_mult1 (k1_t1 : Fin k1_t1_loop.trips) : BitVec 32 :=
  let c0_i32_6 : BitVec 32 := 0#32
  let c1_i32 : BitVec 32 := 1#32
  let arg9 : BitVec 32 := Scf.iv c0_i32_6 c1_i32 k1_t1
  let c16_i32_145 : BitVec 32 := 16#32
  let v538 : BitVec 32 := Scalar.muli arg9 c16_i32_145
  v538
def k1_off1 (k1_t1 : Fin k1_t1_loop.trips) : Fin 2 → Nat :=
  let c0_i32_6 : BitVec 32 := 0#32
  let c1_i32 : BitVec 32 := 1#32
  let arg9 : BitVec 32 := Scf.iv c0_i32_6 c1_i32 k1_t1
  let c16_i32_145 : BitVec 32 := 16#32
  let v538 : BitVec 32 := Scalar.muli arg9 c16_i32_145
  let v539 : BitVec 32 := v538
  let v540 : Index := Scalar.indexCast v539
  let c0_146 : Index := 0#32
  ![v540.toNat, 0]
def k1_cond2 (i : grid1.Coords) : BitVec 1 :=
  let arg0 : BitVec 32 := BitVec.ofNat 32 (i 0).val
  let c7_i32 : BitVec 32 := 7#32
  let v535 : BitVec 1 := Scalar.cmpi .eq arg0 c7_i32
  let v536 : BitVec 32 := Scalar.extui v535
  let c0_i32_144 : BitVec 32 := 0#32
  let v537 : BitVec 1 := Scalar.cmpi .ne v536 c0_i32_144
  v537

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := .none

abbrev stage2_0 : Fin 1 → Memref sig .tc .vmem S32x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S64x128 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S262144x64_S64x262144_1_0 : S262144x64.Transposes [1, 0] S64x262144
  shapeCasts_S64x262144_S8x8x2048x128 : S64x262144.ShapeCasts S8x8x2048x128
  transposes_S8x8x2048x128_S8x2048x8x128_0_2_1_3 : S8x8x2048x128.Transposes [0, 2, 1, 3] S8x2048x8x128
  shapeCasts_S8x2048x8x128_S16777216 : S8x2048x8x128.ShapeCasts S16777216
  shapeCasts_S262144_S2048x128 : S262144.ShapeCasts S2048x128
  inb_S6144_S2048_0 : ∀ a, (![0] : Fin 1 → Nat) a + S2048.size a ≤ S6144.size a
  inb_S6144_S4096_2048 : ∀ a, (![2048] : Fin 1 → Nat) a + S4096.size a ≤ S6144.size a
  iota_S16_d0_w32_scVector : S16.Iotas .scVector 32 [0]
  h_S16 : 0 < S16.numel
  shapeCasts_S16_S16 : S16.ShapeCasts S16
  inb_S6144_S512_0 : ∀ a, (![0] : Fin 1 → Nat) a + S512.size a ≤ S6144.size a
  inb_S16777216_S16777216_0 : ∀ a, (![0] : Fin 1 → Nat) a + S16777216.size a ≤ S16777216.size a
  gathers_S16777216_S512 : S16777216.Gathers 0 S512
  inb_S6144_S1536_512 : ∀ a, (![512] : Fin 1 → Nat) a + S1536.size a ≤ S6144.size a
  gathers_S16777216_S1536 : S16777216.Gathers 0 S1536
  inb_S6144_S2048_2048 : ∀ a, (![2048] : Fin 1 → Nat) a + S2048.size a ≤ S6144.size a
  gathers_S16777216_S2048 : S16777216.Gathers 0 S2048
  inb_S6144_S2048_4096 : ∀ a, (![4096] : Fin 1 → Nat) a + S2048.size a ≤ S6144.size a
  inb_S128_S16_0 : ∀ a, (![0] : Fin 1 → Nat) a + S16.size a ≤ S128.size a
  inb_S128_S16_64 : ∀ a, (![64] : Fin 1 → Nat) a + S16.size a ≤ S128.size a
  inb_S128_S16_16 : ∀ a, (![16] : Fin 1 → Nat) a + S16.size a ≤ S128.size a
  inb_S128_S16_80 : ∀ a, (![80] : Fin 1 → Nat) a + S16.size a ≤ S128.size a
  inb_S128_S16_32 : ∀ a, (![32] : Fin 1 → Nat) a + S16.size a ≤ S128.size a
  inb_S128_S16_96 : ∀ a, (![96] : Fin 1 → Nat) a + S16.size a ≤ S128.size a
  inb_S128_S16_48 : ∀ a, (![48] : Fin 1 → Nat) a + S16.size a ≤ S128.size a
  inb_S128_S16_112 : ∀ a, (![112] : Fin 1 → Nat) a + S16.size a ≤ S128.size a
  inb_S64x128_S64x128_0_0 : ∀ a, (![0, 0] : Fin 2 → Nat) a + S64x128.size a ≤ S64x128.size a
  h_S64x128 : 0 < S64x128.numel
  shapeCasts_S64x128_S64x128 : S64x128.ShapeCasts S64x128
  packedi16_S64x128_S64x128_0_0 : (Rect.unit (s := S64x128) ![0, 0] S64x128.size inb_S64x128_S64x128_0_0).PackedRows (EltTy.packing .i16)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  natLt_16_32 : 16 < 32
  packedi16_S256x128_S256x128_0_0 : (Rect.unit (s := S256x128) ![0, 0] S256x128.size inb_S256x128_S256x128_0_0).PackedRows (EltTy.packing .i16)
  iota_S64x128_d0_w16 : S64x128.Iotas .tc 16 [0]
  h_S16x128 : 0 < S16x128.numel
  slices_S16x128_o0_0_S1x128 : S16x128.Slices ![0, 0] S1x128
  broadcasts_S1x128_S64x128 : S1x128.Broadcasts S64x128
  natLt_1_16 : 1 < 16
  slices_S16x128_o1_0_S1x128 : S16x128.Slices ![1, 0] S1x128
  slices_S16x128_o2_0_S1x128 : S16x128.Slices ![2, 0] S1x128
  slices_S16x128_o3_0_S1x128 : S16x128.Slices ![3, 0] S1x128
  slices_S16x128_o4_0_S1x128 : S16x128.Slices ![4, 0] S1x128
  slices_S16x128_o5_0_S1x128 : S16x128.Slices ![5, 0] S1x128
  slices_S16x128_o6_0_S1x128 : S16x128.Slices ![6, 0] S1x128
  slices_S16x128_o7_0_S1x128 : S16x128.Slices ![7, 0] S1x128
  slices_S16x128_o8_0_S1x128 : S16x128.Slices ![8, 0] S1x128
  slices_S16x128_o9_0_S1x128 : S16x128.Slices ![9, 0] S1x128
  slices_S16x128_o10_0_S1x128 : S16x128.Slices ![10, 0] S1x128
  slices_S16x128_o11_0_S1x128 : S16x128.Slices ![11, 0] S1x128
  slices_S16x128_o12_0_S1x128 : S16x128.Slices ![12, 0] S1x128
  slices_S16x128_o13_0_S1x128 : S16x128.Slices ![13, 0] S1x128
  slices_S16x128_o14_0_S1x128 : S16x128.Slices ![14, 0] S1x128
  slices_S16x128_o15_0_S1x128 : S16x128.Slices ![15, 0] S1x128
  iota_S64x128_d0_w32 : S64x128.Iotas .tc 32 [0]
  slices_S64x128_o0_0_S1x128 : S64x128.Slices ![0, 0] S1x128
  inb_S64x8192_S64x128_0_0 : ∀ a, (![0, 0] : Fin 2 → Nat) a + S64x128.size a ≤ S64x8192.size a
  slices_S64x128_o1_0_S1x128 : S64x128.Slices ![1, 0] S1x128
  inb_S64x8192_S64x128_0_128 : ∀ a, (![0, 128] : Fin 2 → Nat) a + S64x128.size a ≤ S64x8192.size a
  slices_S64x128_o2_0_S1x128 : S64x128.Slices ![2, 0] S1x128
  inb_S64x8192_S64x128_0_256 : ∀ a, (![0, 256] : Fin 2 → Nat) a + S64x128.size a ≤ S64x8192.size a
  slices_S64x128_o3_0_S1x128 : S64x128.Slices ![3, 0] S1x128
  inb_S64x8192_S64x128_0_384 : ∀ a, (![0, 384] : Fin 2 → Nat) a + S64x128.size a ≤ S64x8192.size a
  slices_S64x128_o4_0_S1x128 : S64x128.Slices ![4, 0] S1x128
  inb_S64x8192_S64x128_0_512 : ∀ a, (![0, 512] : Fin 2 → Nat) a + S64x128.size a ≤ S64x8192.size a
  slices_S64x128_o5_0_S1x128 : S64x128.Slices ![5, 0] S1x128
  inb_S64x8192_S64x128_0_640 : ∀ a, (![0, 640] : Fin 2 → Nat) a + S64x128.size a ≤ S64x8192.size a
  slices_S64x128_o6_0_S1x128 : S64x128.Slices ![6, 0] S1x128
  inb_S64x8192_S64x128_0_768 : ∀ a, (![0, 768] : Fin 2 → Nat) a + S64x128.size a ≤ S64x8192.size a
  slices_S64x128_o7_0_S1x128 : S64x128.Slices ![7, 0] S1x128
  inb_S64x8192_S64x128_0_896 : ∀ a, (![0, 896] : Fin 2 → Nat) a + S64x128.size a ≤ S64x8192.size a
  slices_S64x128_o8_0_S1x128 : S64x128.Slices ![8, 0] S1x128
  inb_S64x8192_S64x128_0_1024 : ∀ a, (![0, 1024] : Fin 2 → Nat) a + S64x128.size a ≤ S64x8192.size a
  slices_S64x128_o9_0_S1x128 : S64x128.Slices ![9, 0] S1x128
  inb_S64x8192_S64x128_0_1152 : ∀ a, (![0, 1152] : Fin 2 → Nat) a + S64x128.size a ≤ S64x8192.size a
  slices_S64x128_o10_0_S1x128 : S64x128.Slices ![10, 0] S1x128
  inb_S64x8192_S64x128_0_1280 : ∀ a, (![0, 1280] : Fin 2 → Nat) a + S64x128.size a ≤ S64x8192.size a
  slices_S64x128_o11_0_S1x128 : S64x128.Slices ![11, 0] S1x128
  inb_S64x8192_S64x128_0_1408 : ∀ a, (![0, 1408] : Fin 2 → Nat) a + S64x128.size a ≤ S64x8192.size a
  slices_S64x128_o12_0_S1x128 : S64x128.Slices ![12, 0] S1x128
  inb_S64x8192_S64x128_0_1536 : ∀ a, (![0, 1536] : Fin 2 → Nat) a + S64x128.size a ≤ S64x8192.size a
  slices_S64x128_o13_0_S1x128 : S64x128.Slices ![13, 0] S1x128
  inb_S64x8192_S64x128_0_1664 : ∀ a, (![0, 1664] : Fin 2 → Nat) a + S64x128.size a ≤ S64x8192.size a
  slices_S64x128_o14_0_S1x128 : S64x128.Slices ![14, 0] S1x128
  inb_S64x8192_S64x128_0_1792 : ∀ a, (![0, 1792] : Fin 2 → Nat) a + S64x128.size a ≤ S64x8192.size a
  slices_S64x128_o15_0_S1x128 : S64x128.Slices ![15, 0] S1x128
  inb_S64x8192_S64x128_0_1920 : ∀ a, (![0, 1920] : Fin 2 → Nat) a + S64x128.size a ≤ S64x8192.size a
  slices_S64x128_o16_0_S1x128 : S64x128.Slices ![16, 0] S1x128
  inb_S64x8192_S64x128_0_2048 : ∀ a, (![0, 2048] : Fin 2 → Nat) a + S64x128.size a ≤ S64x8192.size a
  slices_S64x128_o17_0_S1x128 : S64x128.Slices ![17, 0] S1x128
  inb_S64x8192_S64x128_0_2176 : ∀ a, (![0, 2176] : Fin 2 → Nat) a + S64x128.size a ≤ S64x8192.size a
  slices_S64x128_o18_0_S1x128 : S64x128.Slices ![18, 0] S1x128
  inb_S64x8192_S64x128_0_2304 : ∀ a, (![0, 2304] : Fin 2 → Nat) a + S64x128.size a ≤ S64x8192.size a
  slices_S64x128_o19_0_S1x128 : S64x128.Slices ![19, 0] S1x128
  inb_S64x8192_S64x128_0_2432 : ∀ a, (![0, 2432] : Fin 2 → Nat) a + S64x128.size a ≤ S64x8192.size a
  slices_S64x128_o20_0_S1x128 : S64x128.Slices ![20, 0] S1x128
  inb_S64x8192_S64x128_0_2560 : ∀ a, (![0, 2560] : Fin 2 → Nat) a + S64x128.size a ≤ S64x8192.size a
  slices_S64x128_o21_0_S1x128 : S64x128.Slices ![21, 0] S1x128
  inb_S64x8192_S64x128_0_2688 : ∀ a, (![0, 2688] : Fin 2 → Nat) a + S64x128.size a ≤ S64x8192.size a
  slices_S64x128_o22_0_S1x128 : S64x128.Slices ![22, 0] S1x128
  inb_S64x8192_S64x128_0_2816 : ∀ a, (![0, 2816] : Fin 2 → Nat) a + S64x128.size a ≤ S64x8192.size a
  slices_S64x128_o23_0_S1x128 : S64x128.Slices ![23, 0] S1x128
  inb_S64x8192_S64x128_0_2944 : ∀ a, (![0, 2944] : Fin 2 → Nat) a + S64x128.size a ≤ S64x8192.size a
  slices_S64x128_o24_0_S1x128 : S64x128.Slices ![24, 0] S1x128
  inb_S64x8192_S64x128_0_3072 : ∀ a, (![0, 3072] : Fin 2 → Nat) a + S64x128.size a ≤ S64x8192.size a
  slices_S64x128_o25_0_S1x128 : S64x128.Slices ![25, 0] S1x128
  inb_S64x8192_S64x128_0_3200 : ∀ a, (![0, 3200] : Fin 2 → Nat) a + S64x128.size a ≤ S64x8192.size a
  slices_S64x128_o26_0_S1x128 : S64x128.Slices ![26, 0] S1x128
  inb_S64x8192_S64x128_0_3328 : ∀ a, (![0, 3328] : Fin 2 → Nat) a + S64x128.size a ≤ S64x8192.size a
  slices_S64x128_o27_0_S1x128 : S64x128.Slices ![27, 0] S1x128
  inb_S64x8192_S64x128_0_3456 : ∀ a, (![0, 3456] : Fin 2 → Nat) a + S64x128.size a ≤ S64x8192.size a
  slices_S64x128_o28_0_S1x128 : S64x128.Slices ![28, 0] S1x128
  inb_S64x8192_S64x128_0_3584 : ∀ a, (![0, 3584] : Fin 2 → Nat) a + S64x128.size a ≤ S64x8192.size a
  slices_S64x128_o29_0_S1x128 : S64x128.Slices ![29, 0] S1x128
  inb_S64x8192_S64x128_0_3712 : ∀ a, (![0, 3712] : Fin 2 → Nat) a + S64x128.size a ≤ S64x8192.size a
  slices_S64x128_o30_0_S1x128 : S64x128.Slices ![30, 0] S1x128
  inb_S64x8192_S64x128_0_3840 : ∀ a, (![0, 3840] : Fin 2 → Nat) a + S64x128.size a ≤ S64x8192.size a
  slices_S64x128_o31_0_S1x128 : S64x128.Slices ![31, 0] S1x128
  inb_S64x8192_S64x128_0_3968 : ∀ a, (![0, 3968] : Fin 2 → Nat) a + S64x128.size a ≤ S64x8192.size a
  slices_S64x128_o32_0_S1x128 : S64x128.Slices ![32, 0] S1x128
  inb_S64x8192_S64x128_0_4096 : ∀ a, (![0, 4096] : Fin 2 → Nat) a + S64x128.size a ≤ S64x8192.size a
  slices_S64x128_o33_0_S1x128 : S64x128.Slices ![33, 0] S1x128
  inb_S64x8192_S64x128_0_4224 : ∀ a, (![0, 4224] : Fin 2 → Nat) a + S64x128.size a ≤ S64x8192.size a
  slices_S64x128_o34_0_S1x128 : S64x128.Slices ![34, 0] S1x128
  inb_S64x8192_S64x128_0_4352 : ∀ a, (![0, 4352] : Fin 2 → Nat) a + S64x128.size a ≤ S64x8192.size a
  slices_S64x128_o35_0_S1x128 : S64x128.Slices ![35, 0] S1x128
  inb_S64x8192_S64x128_0_4480 : ∀ a, (![0, 4480] : Fin 2 → Nat) a + S64x128.size a ≤ S64x8192.size a
  slices_S64x128_o36_0_S1x128 : S64x128.Slices ![36, 0] S1x128
  inb_S64x8192_S64x128_0_4608 : ∀ a, (![0, 4608] : Fin 2 → Nat) a + S64x128.size a ≤ S64x8192.size a
  slices_S64x128_o37_0_S1x128 : S64x128.Slices ![37, 0] S1x128
  inb_S64x8192_S64x128_0_4736 : ∀ a, (![0, 4736] : Fin 2 → Nat) a + S64x128.size a ≤ S64x8192.size a
  slices_S64x128_o38_0_S1x128 : S64x128.Slices ![38, 0] S1x128
  inb_S64x8192_S64x128_0_4864 : ∀ a, (![0, 4864] : Fin 2 → Nat) a + S64x128.size a ≤ S64x8192.size a
  slices_S64x128_o39_0_S1x128 : S64x128.Slices ![39, 0] S1x128
  inb_S64x8192_S64x128_0_4992 : ∀ a, (![0, 4992] : Fin 2 → Nat) a + S64x128.size a ≤ S64x8192.size a
  slices_S64x128_o40_0_S1x128 : S64x128.Slices ![40, 0] S1x128
  inb_S64x8192_S64x128_0_5120 : ∀ a, (![0, 5120] : Fin 2 → Nat) a + S64x128.size a ≤ S64x8192.size a
  slices_S64x128_o41_0_S1x128 : S64x128.Slices ![41, 0] S1x128
  inb_S64x8192_S64x128_0_5248 : ∀ a, (![0, 5248] : Fin 2 → Nat) a + S64x128.size a ≤ S64x8192.size a
  slices_S64x128_o42_0_S1x128 : S64x128.Slices ![42, 0] S1x128
  inb_S64x8192_S64x128_0_5376 : ∀ a, (![0, 5376] : Fin 2 → Nat) a + S64x128.size a ≤ S64x8192.size a
  slices_S64x128_o43_0_S1x128 : S64x128.Slices ![43, 0] S1x128
  inb_S64x8192_S64x128_0_5504 : ∀ a, (![0, 5504] : Fin 2 → Nat) a + S64x128.size a ≤ S64x8192.size a
  slices_S64x128_o44_0_S1x128 : S64x128.Slices ![44, 0] S1x128
  inb_S64x8192_S64x128_0_5632 : ∀ a, (![0, 5632] : Fin 2 → Nat) a + S64x128.size a ≤ S64x8192.size a
  slices_S64x128_o45_0_S1x128 : S64x128.Slices ![45, 0] S1x128
  inb_S64x8192_S64x128_0_5760 : ∀ a, (![0, 5760] : Fin 2 → Nat) a + S64x128.size a ≤ S64x8192.size a
  slices_S64x128_o46_0_S1x128 : S64x128.Slices ![46, 0] S1x128
  inb_S64x8192_S64x128_0_5888 : ∀ a, (![0, 5888] : Fin 2 → Nat) a + S64x128.size a ≤ S64x8192.size a
  slices_S64x128_o47_0_S1x128 : S64x128.Slices ![47, 0] S1x128
  inb_S64x8192_S64x128_0_6016 : ∀ a, (![0, 6016] : Fin 2 → Nat) a + S64x128.size a ≤ S64x8192.size a
  slices_S64x128_o48_0_S1x128 : S64x128.Slices ![48, 0] S1x128
  inb_S64x8192_S64x128_0_6144 : ∀ a, (![0, 6144] : Fin 2 → Nat) a + S64x128.size a ≤ S64x8192.size a
  slices_S64x128_o49_0_S1x128 : S64x128.Slices ![49, 0] S1x128
  inb_S64x8192_S64x128_0_6272 : ∀ a, (![0, 6272] : Fin 2 → Nat) a + S64x128.size a ≤ S64x8192.size a
  slices_S64x128_o50_0_S1x128 : S64x128.Slices ![50, 0] S1x128
  inb_S64x8192_S64x128_0_6400 : ∀ a, (![0, 6400] : Fin 2 → Nat) a + S64x128.size a ≤ S64x8192.size a
  slices_S64x128_o51_0_S1x128 : S64x128.Slices ![51, 0] S1x128
  inb_S64x8192_S64x128_0_6528 : ∀ a, (![0, 6528] : Fin 2 → Nat) a + S64x128.size a ≤ S64x8192.size a
  slices_S64x128_o52_0_S1x128 : S64x128.Slices ![52, 0] S1x128
  inb_S64x8192_S64x128_0_6656 : ∀ a, (![0, 6656] : Fin 2 → Nat) a + S64x128.size a ≤ S64x8192.size a
  slices_S64x128_o53_0_S1x128 : S64x128.Slices ![53, 0] S1x128
  inb_S64x8192_S64x128_0_6784 : ∀ a, (![0, 6784] : Fin 2 → Nat) a + S64x128.size a ≤ S64x8192.size a
  slices_S64x128_o54_0_S1x128 : S64x128.Slices ![54, 0] S1x128
  inb_S64x8192_S64x128_0_6912 : ∀ a, (![0, 6912] : Fin 2 → Nat) a + S64x128.size a ≤ S64x8192.size a
  slices_S64x128_o55_0_S1x128 : S64x128.Slices ![55, 0] S1x128
  inb_S64x8192_S64x128_0_7040 : ∀ a, (![0, 7040] : Fin 2 → Nat) a + S64x128.size a ≤ S64x8192.size a
  slices_S64x128_o56_0_S1x128 : S64x128.Slices ![56, 0] S1x128
  inb_S64x8192_S64x128_0_7168 : ∀ a, (![0, 7168] : Fin 2 → Nat) a + S64x128.size a ≤ S64x8192.size a
  slices_S64x128_o57_0_S1x128 : S64x128.Slices ![57, 0] S1x128
  inb_S64x8192_S64x128_0_7296 : ∀ a, (![0, 7296] : Fin 2 → Nat) a + S64x128.size a ≤ S64x8192.size a
  slices_S64x128_o58_0_S1x128 : S64x128.Slices ![58, 0] S1x128
  inb_S64x8192_S64x128_0_7424 : ∀ a, (![0, 7424] : Fin 2 → Nat) a + S64x128.size a ≤ S64x8192.size a
  slices_S64x128_o59_0_S1x128 : S64x128.Slices ![59, 0] S1x128
  inb_S64x8192_S64x128_0_7552 : ∀ a, (![0, 7552] : Fin 2 → Nat) a + S64x128.size a ≤ S64x8192.size a
  slices_S64x128_o60_0_S1x128 : S64x128.Slices ![60, 0] S1x128
  inb_S64x8192_S64x128_0_7680 : ∀ a, (![0, 7680] : Fin 2 → Nat) a + S64x128.size a ≤ S64x8192.size a
  slices_S64x128_o61_0_S1x128 : S64x128.Slices ![61, 0] S1x128
  inb_S64x8192_S64x128_0_7808 : ∀ a, (![0, 7808] : Fin 2 → Nat) a + S64x128.size a ≤ S64x8192.size a
  slices_S64x128_o62_0_S1x128 : S64x128.Slices ![62, 0] S1x128
  inb_S64x8192_S64x128_0_7936 : ∀ a, (![0, 7936] : Fin 2 → Nat) a + S64x128.size a ≤ S64x8192.size a
  slices_S64x128_o63_0_S1x128 : S64x128.Slices ![63, 0] S1x128
  inb_S64x8192_S64x128_0_8064 : ∀ a, (![0, 8064] : Fin 2 → Nat) a + S64x128.size a ≤ S64x8192.size a
  reduces_S64x128_S128 : S64x128.Reduces [0] S128
  shapeCasts_S128_S1x128 : S128.ShapeCasts S1x128
  slices_S1x128_o0_0_S1x64 : S1x128.Slices ![0, 0] S1x64
  slices_S1x128_o0_64_S1x64 : S1x128.Slices ![0, 64] S1x64
  inb_S1x64_S1x64_0_0 : ∀ a, (![0, 0] : Fin 2 → Nat) a + S1x64.size a ≤ S1x64.size a
  h_S1x64 : 0 < S1x64.numel
  shapeCasts_S4096_S32x128 : S4096.ShapeCasts S32x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  reduces_S32x128_S128 : S32x128.Reduces [0] S128
  shapeCasts_S1x64_S1x64 : S1x64.ShapeCasts S1x64
  reduces_S64x128_S64 : S64x128.Reduces [1] S64
  shapeCasts_S64_S64x1 : S64.ShapeCasts S64x1
  natLt_1_32 : 1 < 32
  shapeCasts_S64x1_S1x64x1 : S64x1.ShapeCasts S1x64x1
  reduces_S1x64x1_S1 : S1x64x1.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  dot_S1x64_S64x1_S1x1_1_0_0_1_n_n_wf : DotDims.WF S1x64 S64x1 S1x1 [1] [0] [0] [1] [] []
  hcc0_scratch4 : 0 + S_.numel ≤ 23
  hcc0_scratch5 : 1 + S_.numel ≤ 23
  hcc0_scratch6 : 2 + S_.numel ≤ 23
  hcc0_scratch7 : 3 + S_.numel ≤ 23
  hcc0_scratch8 : 4 + S_.numel ≤ 23
  hcc0_scratch9 : 5 + S_.numel ≤ 23
  hcc0_scratch10 : 6 + S_.numel ≤ 23
  hcc0_scratch11 : 7 + S_.numel ≤ 23
  hcc0_scratch12 : 8 + S_.numel ≤ 23
  hcc0_scratch13 : 9 + S_.numel ≤ 23
  hcc0_scoped0 : 10 + S_.numel ≤ 23
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S2048.size a ≤ S262144.size a
  k0_off2_inb : ∀ i : grid0.Coords, ∀ a, (k0_off2 i) a + S4096.size a ≤ S262144.size a
  k0_t1_ok : k0_t1_loop.OK
  k0_off3_inb : ∀ k0_t1 : Fin k0_t1_loop.trips, ∀ a, (k0_off3 k0_t1) a + S16.size a ≤ S6144.size a
  k0_off4_inb : ∀ k0_t1 : Fin k0_t1_loop.trips, ∀ a, (k0_off4 k0_t1) a + S16.size a ≤ S6144.size a
  k0_t2_ok : k0_t2_loop.OK
  k0_off5_inb : ∀ k0_t2 : Fin k0_t2_loop.trips, ∀ a, (k0_off5 k0_t2) a + S16.size a ≤ S6144.size a
  k0_off6_inb : ∀ k0_t2 : Fin k0_t2_loop.trips, ∀ a, (k0_off6 k0_t2) a + S16.size a ≤ S6144.size a
  k0_t3_ok : k0_t3_loop.OK
  k0_off7_inb : ∀ k0_t3 : Fin k0_t3_loop.trips, ∀ a, (k0_off7 k0_t3) a + S16.size a ≤ S6144.size a
  k0_off8_inb : ∀ k0_t3 : Fin k0_t3_loop.trips, ∀ a, (k0_off8 k0_t3) a + S16.size a ≤ S6144.size a
  k0_t4_ok : k0_t4_loop.OK
  k0_off9_inb : ∀ k0_t4 : Fin k0_t4_loop.trips, ∀ a, (k0_off9 k0_t4) a + S16.size a ≤ S6144.size a
  k0_off10_inb : ∀ k0_t4 : Fin k0_t4_loop.trips, ∀ a, (k0_off10 k0_t4) a + S16.size a ≤ S6144.size a
  k0_t5_ok : k0_t5_loop.OK
  k0_off11_inb : ∀ k0_t5 : Fin k0_t5_loop.trips, ∀ a, (k0_off11 k0_t5) a + S16.size a ≤ S6144.size a
  k0_off12_inb : ∀ k0_t5 : Fin k0_t5_loop.trips, ∀ (r : Fin 3), ∀ a, (k0_off12 k0_t5 (BitVec.ofNat 32 (16 + 16 * r.val))) a + S16.size a ≤ S6144.size a
  k0_t6_ok : k0_t6_loop.OK
  k0_off13_inb : ∀ k0_t6 : Fin k0_t6_loop.trips, ∀ a, (k0_off13 k0_t6) a + S16.size a ≤ S6144.size a
  k0_off14_inb : ∀ k0_t6 : Fin k0_t6_loop.trips, ∀ (r : Fin 3), ∀ a, (k0_off14 k0_t6 (BitVec.ofNat 32 (16 + 16 * r.val))) a + S16.size a ≤ S6144.size a
  k0_t7_ok : k0_t7_loop.OK
  k0_off15_inb : ∀ k0_t7 : Fin k0_t7_loop.trips, ∀ a, (k0_off15 k0_t7) a + S16.size a ≤ S6144.size a
  k0_off16_inb : ∀ k0_t7 : Fin k0_t7_loop.trips, ∀ (r : Fin 3), ∀ a, (k0_off16 k0_t7 (BitVec.ofNat 32 (16 + 16 * r.val))) a + S16.size a ≤ S6144.size a
  k0_t8_ok : k0_t8_loop.OK
  k0_off17_inb : ∀ k0_t8 : Fin k0_t8_loop.trips, ∀ a, (k0_off17 k0_t8) a + S16.size a ≤ S6144.size a
  k0_off18_inb : ∀ k0_t8 : Fin k0_t8_loop.trips, ∀ (r : Fin 3), ∀ a, (k0_off18 k0_t8 (BitVec.ofNat 32 (16 + 16 * r.val))) a + S16.size a ≤ S6144.size a
  k0_off19_inb : ∀ i : grid0.Coords, ∀ a, (k0_off19 i) a + S128.size a ≤ S4096.size a
  hrank1 : 0 < grid1.rank
  k1_t1_ok : k1_t1_loop.OK
  k1_mult1_dvd : ∀ k1_t1 : Fin k1_t1_loop.trips, 16 ∣ (k1_mult1 k1_t1).toNat
  k1_off1_inb : ∀ k1_t1 : Fin k1_t1_loop.trips, ∀ a, (k1_off1 k1_t1) a + S16x128.size a ≤ S256x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S2048x128.size a
  hwx1_0 : ∀ i : grid1.Coords, EltTy.bits .i32 = 32 ∨ (Rect.block (s := S2048x128) S256x128.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S2048x128.size a
  hwx1_1 : ∀ i : grid1.Coords, EltTy.bits .i32 = 32 ∨ (Rect.block (s := S2048x128) S64x128.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x8192.size a ≤ S64x262144.size a
  hwx1_2 : ∀ i : grid1.Coords, EltTy.bits .f32 = 32 ∨ (Rect.block (s := S64x262144) S64x8192.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .i32 = 32 ∨ (Rect.block (s := S64x128) S64x128.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage2_0 : ∀ j, (stage2_0 j).IsWhole
  hstage2_1 : ∀ j, (stage2_1 j).IsWhole
  hstage2_2 : ∀ j, (stage2_2 j).IsWhole
  hstage2_3 : ∀ j, (stage2_3 j).IsWhole

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scratch8 : DmaSems sig S_ := SemArray.consecutive 4 S_ hcc0_scratch8
abbrev cc0_scratch9 : DmaSems sig S_ := SemArray.consecutive 5 S_ hcc0_scratch9
abbrev cc0_scratch10 : DmaSems sig S_ := SemArray.consecutive 6 S_ hcc0_scratch10
abbrev cc0_scratch11 : DmaSems sig S_ := SemArray.consecutive 7 S_ hcc0_scratch11
abbrev cc0_scratch12 : DmaSems sig S_ := SemArray.consecutive 8 S_ hcc0_scratch12
abbrev cc0_scratch13 : DmaSems sig S_ := SemArray.consecutive 9 S_ hcc0_scratch13
abbrev cc0_scoped0 : DmaSems sig S_ := SemArray.consecutive 10 S_ hcc0_scoped0
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

abbrev win1_0 : Pipeline.Window sig grid1 :=
  Pipeline.Window.ofSpec (Memref.whole main_v5) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S64x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S64x8192.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7_0) S64x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7_1) S1x64.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

abbrev win2_0 : Pipeline.Window sig grid2 :=
  Pipeline.Window.whole (Memref.whole main_v8) false false (stage2_0 0) (sem2_0 0) (Memref.isWhole_whole _) (hstage2_0 0)

abbrev win2_1 : Pipeline.Window sig grid2 :=
  Pipeline.Window.whole (Memref.whole main_v7_1) false false (stage2_1 0) (sem2_1 0) (Memref.isWhole_whole _) (hstage2_1 0)

abbrev win2_2 : Pipeline.Window sig grid2 :=
  Pipeline.Window.whole (Memref.whole main_v7_0) false false (stage2_2 0) (sem2_2 0) (Memref.isWhole_whole _) (hstage2_2 0)

abbrev win2_3 : Pipeline.Window sig grid2 :=
  Pipeline.Window.whole (Memref.whole main_v9) true false (stage2_3 0) (sem2_3 0) (Memref.isWhole_whole _) (hstage2_3 0)

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S262144x64 : Shape := ⟨2, ![262144, 64]⟩
abbrev S262144 : Shape := ⟨1, ![262144]⟩
abbrev S262144x1 : Shape := ⟨2, ![262144, 1]⟩
abbrev S_ : Shape := ⟨0, ![]⟩
abbrev S262144x1x1 : Shape := ⟨3, ![262144, 1, 1]⟩
abbrev S1 : Shape := ⟨1, ![1]⟩
abbrev S1x1x1 : Shape := ⟨3, ![1, 1, 1]⟩
abbrev S4096x64 : Shape := ⟨2, ![4096, 64]⟩
abbrev S64 : Shape := ⟨1, ![64]⟩

abbrev nBuf : Space → Nat
  | .hbm => 68
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S262144, .i32⟩
  | .hbm, ⟨2, _⟩ => ⟨S262144x1, .i32⟩
  | .hbm, ⟨3, _⟩ => ⟨S_, .i32⟩
  | .hbm, ⟨4, _⟩ => ⟨S262144x1, .i32⟩
  | .hbm, ⟨5, _⟩ => ⟨S262144x1, .i1⟩
  | .hbm, ⟨6, _⟩ => ⟨S_, .i32⟩
  | .hbm, ⟨7, _⟩ => ⟨S262144x1, .i32⟩
  | .hbm, ⟨8, _⟩ => ⟨S262144x1, .i32⟩
  | .hbm, ⟨9, _⟩ => ⟨S262144x1, .i32⟩
  | .hbm, ⟨10, _⟩ => ⟨S262144x1x1, .i32⟩
  | .hbm, ⟨11, _⟩ => ⟨S1, .i32⟩
  | .hbm, ⟨12, _⟩ => ⟨S_, .i32⟩
  | .hbm, ⟨13, _⟩ => ⟨S262144x1x1, .i32⟩
  | .hbm, ⟨14, _⟩ => ⟨S262144x1x1, .i1⟩
  | .hbm, ⟨15, _⟩ => ⟨S1x1x1, .i32⟩
  | .hbm, ⟨16, _⟩ => ⟨S262144x1x1, .i32⟩
  | .hbm, ⟨17, _⟩ => ⟨S262144x1x1, .i1⟩
  | .hbm, ⟨18, _⟩ => ⟨S262144x1x1, .i1⟩
  | .hbm, ⟨19, _⟩ => ⟨S_, .i1⟩
  | .hbm, ⟨20, _⟩ => ⟨S262144x1, .i1⟩
  | .hbm, ⟨21, _⟩ => ⟨S262144x1, .f32⟩
  | .hbm, ⟨22, _⟩ => ⟨S_, .f32⟩
  | .hbm, ⟨23, _⟩ => ⟨S262144x1, .f32⟩
  | .hbm, ⟨24, _⟩ => ⟨S262144x1, .f32⟩
  | .hbm, ⟨25, _⟩ => ⟨S262144, .f32⟩
  | .hbm, ⟨26, _⟩ => ⟨S4096x64, .f32⟩
  | .hbm, ⟨27, _⟩ => ⟨S_, .i32⟩
  | .hbm, ⟨28, _⟩ => ⟨S64, .i32⟩
  | .hbm, ⟨29, _⟩ => ⟨S_, .i32⟩
  | .hbm, ⟨30, _⟩ => ⟨S_, .i32⟩
  | .hbm, ⟨31, _⟩ => ⟨S262144, .i32⟩
  | .hbm, ⟨32, _⟩ => ⟨S262144, .i32⟩
  | .hbm, ⟨33, _⟩ => ⟨S_, .i32⟩
  | .hbm, ⟨34, _⟩ => ⟨S262144, .i32⟩
  | .hbm, ⟨35, _⟩ => ⟨S262144, .i1⟩
  | .hbm, ⟨36, _⟩ => ⟨S_, .i32⟩
  | .hbm, ⟨37, _⟩ => ⟨S262144, .i32⟩
  | .hbm, ⟨38, _⟩ => ⟨S262144, .i32⟩
  | .hbm, ⟨39, _⟩ => ⟨S262144, .i32⟩
  | .hbm, ⟨40, _⟩ => ⟨S262144x1, .i32⟩
  | .hbm, ⟨41, _⟩ => ⟨S_, .i32⟩
  | .hbm, ⟨42, _⟩ => ⟨S262144, .i32⟩
  | .hbm, ⟨43, _⟩ => ⟨S64, .i32⟩
  | .hbm, ⟨44, _⟩ => ⟨S_, .i32⟩
  | .hbm, ⟨45, _⟩ => ⟨S64, .i32⟩
  | .hbm, ⟨46, _⟩ => ⟨S64, .i1⟩
  | .hbm, ⟨47, _⟩ => ⟨S_, .f32⟩
  | .hbm, ⟨48, _⟩ => ⟨S64, .f32⟩
  | .hbm, ⟨49, _⟩ => ⟨S_, .i32⟩
  | .hbm, ⟨50, _⟩ => ⟨S64, .i32⟩
  | .hbm, ⟨51, _⟩ => ⟨S64, .i32⟩
  | .hbm, ⟨52, _⟩ => ⟨S64, .f32⟩
  | .hbm, ⟨53, _⟩ => ⟨S64, .f32⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S64, .i32⟩
  | .hbm, ⟨58, _⟩ => ⟨S_, .i32⟩
  | .hbm, ⟨59, _⟩ => ⟨S_, .i32⟩
  | .hbm, ⟨60, _⟩ => ⟨S64, .f32⟩
  | .hbm, ⟨61, _⟩ => ⟨S64, .f32⟩
  | .hbm, ⟨62, _⟩ => ⟨S_, .f32⟩
  | .hbm, ⟨63, _⟩ => ⟨S_, .f32⟩
  | .hbm, ⟨64, _⟩ => ⟨S_, .i32⟩
  | .hbm, ⟨65, _⟩ => ⟨S_, .i32⟩
  | .hbm, ⟨66, _⟩ => ⟨S_, .f32⟩
  | .hbm, ⟨67, _⟩ => ⟨S_, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_v5 : Ref sig .tc := ⟨.hbm, 32, rfl⟩
abbrev main_c_1 : Ref sig .tc := ⟨.hbm, 33, rfl⟩
abbrev main_v6 : Ref sig .tc := ⟨.hbm, 34, rfl⟩
abbrev main_v7 : Ref sig .tc := ⟨.hbm, 35, rfl⟩
abbrev main_c_2 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_c_3 : Ref sig .tc := ⟨.hbm, 41, rfl⟩
abbrev main_v12 : Ref sig .tc := ⟨.hbm, 42, rfl⟩
abbrev main_v13 : Ref sig .tc := ⟨.hbm, 43, rfl⟩
abbrev main_c_4 : Ref sig .tc := ⟨.hbm, 44, rfl⟩
abbrev main_v14 : Ref sig .tc := ⟨.hbm, 45, rfl⟩
abbrev main_v15 : Ref sig .tc := ⟨.hbm, 46, rfl⟩
abbrev main_cst : Ref sig .tc := ⟨.hbm, 47, rfl⟩
abbrev main_v16 : Ref sig .tc := ⟨.hbm, 48, rfl⟩
abbrev main_c_5 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_6 : Ref sig .tc := ⟨.hbm, 54, rfl⟩
abbrev main_call2_v0 : Ref sig .tc := ⟨.hbm, 55, rfl⟩
abbrev main_v21 : Ref sig .tc := ⟨.hbm, 56, rfl⟩
abbrev main_v22 : Ref sig .tc := ⟨.hbm, 57, rfl⟩
abbrev main_c_7 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_cst_8 : Ref sig .tc := ⟨.hbm, 62, rfl⟩
abbrev main_v26 : Ref sig .tc := ⟨.hbm, 63, rfl⟩
abbrev main_c_9 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩

abbrev nD : Nat := 1
abbrev τ : Topo := Topo.v7x

variable {F : FTy → Type} [FloatOps F]

class Facts₀ : Prop where
  bcast_S262144_S262144x1_0 : S262144.BroadcastsInDim S262144x1 (![0] : Fin 1 → Fin S262144x1.rank)
  bcast_S_S262144x1 : S_.BroadcastsInDim S262144x1 (![] : Fin 0 → Fin S262144x1.rank)
  shapeCasts_S262144x1_S262144x1x1 : S262144x1.ShapeCasts S262144x1x1
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  h_S_ : 0 < S_.numel
  shapeCasts_S262144x1_S262144 : S262144x1.ShapeCasts S262144
  shapeCasts_S262144_S4096x64 : S262144.ShapeCasts S4096x64
  bcast_S_S64 : S_.BroadcastsInDim S64 (![] : Fin 0 → Fin S64.rank)
  bcast_S_S262144 : S_.BroadcastsInDim S262144 (![] : Fin 0 → Fin S262144.rank)
  reducesTo_S4096x64_S64_d0 : S4096x64.ReducesTo [0] S64
  natLt_1_32 : 1 < 32
  reducesTo_S64_S_d0 : S64.ReducesTo [0] S_
  gather_S262144x64_S262144x1x1_S262144x1_n_1_0_0_1_2_11_wf : GatherDims.WF S262144x64 S262144x1x1 S262144x1 [] [1] [0] [1] [0] 2 ![1, 1]
  scatter_S64_S262144x1_S262144_n_0_0_1_wf : ScatterDims.WF S64 S262144x1 S262144 [] [0] [0] 1

variable [Facts₀]

def gather_S262144x64_S262144x1x1_S262144x1_n_1_0_0_1_2_11 : GatherDims S262144x64 S262144x1x1 S262144x1 where
  offsetDims := []
  collapsedSliceDims := [1]
  operandBatchingDims := [0]
  startIndicesBatchingDims := [0]
  startIndexMap := [1]
  indexVectorDim := 2
  sliceSizes := ![1, 1]
  wf := gather_S262144x64_S262144x1x1_S262144x1_n_1_0_0_1_2_11_wf
def scatter_S64_S262144x1_S262144_n_0_0_1 : ScatterDims S64 S262144x1 S262144 where
  updateWindowDims := []
  insertedWindowDims := [0]
  scatterDimsToOperandDims := [0]
  indexVectorDim := 1
  wf := scatter_S64_S262144x1_S262144_n_0_0_1_wf

class Facts : Prop extends Facts₀ where

variable [Facts]
-- ==== Proof.K.Ctx.lean ====
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«218716_g83915071029270_cont_9to1c4b_613_31_alg».proof.Proof.Gen.Kernel
import proofs.«218716_g83915071029270_cont_9to1c4b_613_31_alg».proof.Proof.Gen.Kernel.Launch

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm

abbrev K : SparseCore.Cfg τ sig (ΛP (F := F)) 1 := sc (F := F)
theorem nCore_zero : (K (F := F)).nCore 0 = 2 := rfl
theorem nSub_zero : (K (F := F)).nSub 0 = 16 := rfl

abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev adm [FloatOps F] : (p : Fin 2) → (pcfgs (F := F) p).Adm := fun p => (cfgs p).toPCfg_adm

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := UR sig nD τ
abbrev UU : Type := UH × (UP × Counters)

abbrev EH : Emb UH (MT nD τ sig (HIx 1) (Elt F) ℕ UU ℕ) := embL

def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP (F := F)).LandsIn (upEmb : UEmb _ (MT nD τ sig (HIx 1) (Elt F) ℕ UU ℕ)) := by
  unfold EP; infer_instance

end Cert.Kernel.Hand

end
-- ==== Proof.K.Main1.lean ====
import proofs.«218716_g83915071029270_cont_9to1c4b_613_31_alg».proof.Proof.K.Ctx

noncomputable section

namespace Cert.Kernel.Hand

open Cert.Kernel Cert.Kernel.Gen

open Idealize.ShloMosaic Idealize.SL.Sem

variable {F : FTy → Type} [FloatOps F]

-- the re-layouts of the two arguments: the table transposed, cut in blocks and flattened; the table transposed; the labels as a matrix
abbrev opsA : List (HloOp τ sig (Elt F)) :=
  [ StableHlo.unary main_arg0 main_v0 ((transpose S64x262144 [1, 0] · transposes_S262144x64_S64x262144_1_0) : (⟨S262144x64, .f32⟩ : BufTy).Contents (Elt F) → (⟨S64x262144, .f32⟩ : BufTy).Contents (Elt F)),
    StableHlo.reshape main_v0 main_v1 rfl shapeCasts_S64x262144_S8x8x2048x128,
    StableHlo.unary main_v1 main_v2 ((transpose S8x2048x8x128 [0, 2, 1, 3] · transposes_S8x8x2048x128_S8x2048x8x128_0_2_1_3) : (⟨S8x8x2048x128, .f32⟩ : BufTy).Contents (Elt F) → (⟨S8x2048x8x128, .f32⟩ : BufTy).Contents (Elt F)),
    StableHlo.reshape main_v2 main_v3 rfl shapeCasts_S8x2048x8x128_S16777216,
    StableHlo.unary main_arg0 main_v4 ((transpose S64x262144 [1, 0] · transposes_S262144x64_S64x262144_1_0) : (⟨S262144x64, .f32⟩ : BufTy).Contents (Elt F) → (⟨S64x262144, .f32⟩ : BufTy).Contents (Elt F)),
    StableHlo.reshape main_arg1 main_v5 rfl shapeCasts_S262144_S2048x128 ]
abbrev opsB : List (HloOp τ sig (Elt F)) := [ StableHlo.reshape main_v6 main_v8 rfl shapeCasts_S4096_S32x128 ]
abbrev opsC : List (HloOp τ sig (Elt F)) := [ StableHlo.reshape main_v9 main_v10 rfl shapeCasts_S1x1_S_ ]

-- what follows the call: the two regions, each followed by one reshape
def innerTail : Prog (TpuEff nD τ sig (Elt F) (ΛP (F := F)) .tc) PUnit :=
  .op (.customCall (Pipeline.entry 0) ()) fun _ =>
    (StableHlo.seq (opsB (F := F)) >>= fun _ =>
      .op (.customCall (Pipeline.entry 1) ()) fun _ =>
        (StableHlo.seq (opsC (F := F)) >>= fun _ => .ret ⟨⟩))

theorem main_split (d : Dev nD) :
    main (F := F) d = (StableHlo.seq (opsA (F := F)) >>= fun _ => ((sc (F := F)).run d 0 >>= fun _ => SparseCore.liftProg (Q := 1) (innerTail (F := F)))) := by
  rfl

end Cert.Kernel.Hand

end
-- ==== Proof.K.LaunchElem.lean ====
import proofs.«218716_g83915071029270_cont_9to1c4b_613_31_alg».proof.Proof.K.Ctx

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

abbrev uP : UP := initOf (Pipeline.cells cfgs cellOf_inj) (Pipeline.launchToks cfgs cellOf_inj)

def u₀ : UU := (initOf (K (F := F)).hsCells (K (F := F)).hsToks, (uP, 1))

abbrev G (d : Dev nD) : sProp 𝕄 := Pipeline.ghostOn (pcfgs (F := F)) adm (EP (F := F)) Finset.univ d

theorem bigSep_emp' {I : Type} (s : Finset I) : (bigSep s fun _ => iprop(emp)) = (iprop(emp) : sProp 𝕄) := bigSep_emp_const s

theorem hu₀ (P : (K (F := F)).Pay (nD := nD) (Val := Elt F) (Name := ℕ) (U := UU)) (hx : ∀ q thr, P.x q thr = iprop(emp)) :
    (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => P.x q thr) := by
  unfold u₀
  have hEP : (BI.own (((Emb.inl : Emb UP (UP × Counters)).trans (embR : Emb (UP × Counters) 𝕄)) uP) : sProp 𝕄) ⊢ BI.own (EP (F := F) uP) := .rfl
  iintro Hu
  ihave H := (ownU_pair (initOf (K (F := F)).hsCells (K (F := F)).hsToks) ((uP, 1) : UP × Counters)) $$ Hu
  icases H with ⟨HH, HR⟩
  ihave H2 := (own_pair_emb (embR : Emb (UP × Counters) 𝕄) uP (1 : Counters)) $$ HR
  icases H2 with ⟨HP, -⟩
  ihave HP' := hEP $$ HP
  imod (Pipeline.fund_ghost (cfgs) (EP (F := F)) cellOf_inj) $$ HP' with ⟨Hc, Ht⟩
  imodintro
  isplitl [HH]; · iexact HH
  isplitl [Hc Ht]
  · rw [show (bigSep Finset.univ fun d : Dev nD => G (F := F) d)
        = iprop((bigSep Finset.univ fun c : Dev nD => bigSep Finset.univ fun p => Pipeline.cellsGhost cfgs (EP (F := F)) p c)
          ∗ (bigSep Finset.univ fun c : Dev nD => bigSep Finset.univ fun p => (Pipeline.toksInit cfgs (EP (F := F)) p c : sProp 𝕄))) from by
      rw [← bigSep_sep']; refine bigSep_congr fun c _ => ?_; rw [← bigSep_sep']; rfl]
    isplitl [Hc] <;> iassumption
  simp only [hx, bigSep_emp']
  iempintro

end Cert.Kernel.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![262144, 64]⟩
abbrev SA : Shape := ⟨1, ![262144]⟩

def InRange (a : IVec SA 32) : Prop := ∀ i : Fin 262144, (a (ix1 i)).toNat < 64

def col (a : IVec SA 32) (i : Fin 262144) : Fin 64 := ⟨(a (ix1 i)).toNat % 64, by omega⟩

theorem col_val {a : IVec SA 32} (h : InRange a) (i : Fin 262144) : (col a i).val = (a (ix1 i)).toNat :=
  Nat.mod_eq_of_lt (h i)

def sel (x : FVec Ideal SX .f32) (a : IVec SA 32) (i : Fin 262144) : EReal := x (ix2 i (col a i))

def rowOf (r : Fin 4096) (k : Fin 64) : Fin 262144 := ⟨r.val * 64 + k.val, by omega⟩

def colsum (x : FVec Ideal SX .f32) (a : IVec SA 32) (k : Fin 64) : EReal := ∑ r : Fin 4096, sel x a (rowOf r k)

def size (a : IVec SA 32) (k : Fin 64) : ℕ := (Finset.univ.filter fun i : Fin 262144 => (a (ix1 i)).toNat = k.val).card

def nvalid (a : IVec SA 32) : ℕ := (Finset.univ.filter fun k : Fin 64 => 0 < size a k).card

def mean (x : FVec Ideal SX .f32) (a : IVec SA 32) (k : Fin 64) : EReal :=
  if 0 < size a k then Ideal.div (colsum x a k) (((size a k : ℕ) : ℝ) : EReal) else 0

def G (x : FVec Ideal SX .f32) (a : IVec SA 32) : EReal :=
  Ideal.div (∑ k : Fin 64, mean x a k) (((max (nvalid a) 1 : ℕ) : ℝ) : EReal)

def workerRow (w : Fin 32) (j : Fin 6144) : Fin 262144 := ⟨w.val * 6144 + j.val, by omega⟩

def workerSum (x : FVec Ideal SX .f32) (a : IVec SA 32) (w : Fin 32) (k : Fin 64) : EReal :=
  ∑ g : Fin 96, sel x a (workerRow w ⟨g.val * 64 + k.val, by omega⟩)

def tailRow (j : Fin 65536) : Fin 262144 := ⟨196608 + j.val, by omega⟩

def tailSum (x : FVec Ideal SX .f32) (a : IVec SA 32) (k : Fin 64) : EReal :=
  ∑ g : Fin 1024, sel x a (tailRow ⟨g.val * 64 + k.val, by omega⟩)

end Cert.Spec

end
-- ==== Proof.K.TileDefs.lean ====
import proofs.«218716_g83915071029270_cont_9to1c4b_613_31_alg».proof.Proof.K.Ctx
import proofs.«218716_g83915071029270_cont_9to1c4b_613_31_alg».proof.Proof.Spec
import Idealize.ShloMosaic.Lib.ValueIdx

noncomputable section

namespace Cert.Kernel.Hand

open Cert.Kernel Cert.Kernel.Gen

open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

def pIdx (r a : ℕ) : ℕ := a * 128 + a / 8 * 2096128 + (r / 128 * 1024 + r % 128)

theorem pIdx_lt {r a : ℕ} (hr : r < 262144) (ha : a < 64) : pIdx r a < 16777216 := by
  unfold pIdx; omega

def gIx (r a : ℕ) : Fin 16777216 := ⟨pIdx r a % 16777216, Nat.mod_lt _ (by decide)⟩

theorem gIx_val {r a : ℕ} (hr : r < 262144) (ha : a < 64) : (gIx r a).val = pIdx r a :=
  Nat.mod_eq_of_lt (pIdx_lt hr ha)

def wid (c : Fin 2) (s : Fin 16) : Fin 32 := ⟨s.val * 2 + c.val, by have := c.isLt; have := s.isLt; omega⟩

def wrow (w : Fin 32) (j : Fin 6144) : Fin 262144 := ⟨w.val * 6144 + j.val, by have := w.isLt; have := j.isLt; omega⟩

section Words

variable [FloatOps F]

def zeroF : F .f32 := FloatOps.ofBits .f32 0x00000000#32

def gathered (x : S16777216.Idx → F .f32) (a : S262144.Idx → BitVec 32) (w : Fin 32) (j : Fin 6144) : F .f32 :=
  x (ix1 (gIx (wrow w j).val (a (ix1 (wrow w j))).toNat))

def accAt (x : S16777216.Idx → F .f32) (a : S262144.Idx → BitVec 32) (w : Fin 32) (k : Fin 64) : ℕ → F .f32
  | 0 => zeroF
  | n + 1 =>
    if h : n < 96 then FloatOps.addf (accAt x a w k n) (gathered x a w ⟨64 * n + k.val, by have := k.isLt; omega⟩)
    else accAt x a w k n

theorem accAt_succ (x : S16777216.Idx → F .f32) (a : S262144.Idx → BitVec 32) (w : Fin 32) (k : Fin 64) {n : ℕ} (h : n < 96) :
    accAt x a w k (n + 1)
      = FloatOps.addf (accAt x a w k n) (gathered x a w ⟨64 * n + k.val, by have := k.isLt; omega⟩) := by
  rw [accAt, dif_pos h]

def tileOut (x : S16777216.Idx → F .f32) (a : S262144.Idx → BitVec 32) (w : Fin 32) : S128.Idx → F .f32 :=
  fun i => if h : (i 0).val < 64 then accAt x a w ⟨(i 0).val, h⟩ 96 else zeroF

end Words

abbrev xLoc (d : Dev nD) : Loc nD τ sig := (SparseCore.T d).loc main_v3
abbrev aLoc (d : Dev nD) : Loc nD τ sig := (SparseCore.T d).loc main_arg1
abbrev oLoc (d : Dev nD) : Loc nD τ sig := (SparseCore.T d).loc main_v6

section Out

variable [FloatOps F]

def cs6 (f3 : (d : Dev nD) → Buf (Elt F) (xLoc d)) (fa : (d : Dev nD) → Buf (Elt F) (aLoc d)) (d : Dev nD) : Buf (Elt F) (oLoc d) :=
  fun i : S4096.Idx => tileOut (F := F) (f3 d) (fa d) ⟨(i 0).val / 128, by have : (i 0).val < 4096 := (i 0).isLt; omega⟩
    (ix1 ⟨(i 0).val % 128, Nat.mod_lt _ (by decide)⟩)

end Out

theorem odiv : 32 ∣ S4096.size 0 := ⟨128, rfl⟩

abbrev orow (w : Fin 32) : Rect S4096 := Rect.part (s := S4096) (a₀ := 0) odiv w
abbrev oSet (w : Fin 32) : Finset S4096.Idx := ((Memref.whole main_v6_scv : Memref sig .scVector .hbm S4096 .f32).view.slice (orow w)).set

def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

abbrev rsh (w : Fin 32) : PosShare TreeShare := leaf 5 fullShare w

section Pay

variable [FloatOps F]
variable (f3 : (d : Dev nD) → Buf (Elt F) (xLoc d)) (fa : (d : Dev nD) → Buf (Elt F) (aLoc d)) (f6 : (d : Dev nD) → Buf (Elt F) (oLoc d))

abbrev goW (d : Dev nD) (w : Fin 32) : sProp 𝕄 :=
  iprop((xLoc d ↦{rsh w} f3 d) ∗ (aLoc d ↦{rsh w} fa d) ∗ (oLoc d ↦[oSet w]{fullShare} f6 d))

abbrev tdW (d : Dev nD) (w : Fin 32) : sProp 𝕄 :=
  iprop((xLoc d ↦{rsh w} f3 d) ∗ (aLoc d ↦{rsh w} fa d) ∗ (oLoc d ↦[oSet w]{fullShare} cs6 f3 fa d))

def P : (K (F := F)).Pay (nD := nD) (Val := Elt F) (Name := ℕ) (U := UU) where
  st := fun q d c => match q with
    | 0 => bigSep Finset.univ fun i : Fin 16 => goW f3 fa f6 d (wid (Fin.cast nCore_zero c) i)
  dn := fun q d c => match q with
    | 0 => bigSep Finset.univ fun i : Fin 16 => tdW f3 fa d (wid (Fin.cast nCore_zero c) i)
  go := fun q d c i => match q with
    | 0 => goW f3 fa f6 d (wid (Fin.cast nCore_zero c) (Fin.cast nSub_zero i))
  td := fun q d c i => match q with
    | 0 => tdW f3 fa d (wid (Fin.cast nCore_zero c) (Fin.cast nSub_zero i))
  x := fun _ _ => iprop(emp)

instance P_storable : (P (F := F) f3 fa f6).IsStorable := by
  constructor <;> intro q <;> match q with | 0 => intros; unfold P; infer_instance

end Pay

end Cert.Kernel.Hand

end
-- ==== Proof.K.TileArith.lean ====
import proofs.«218716_g83915071029270_cont_9to1c4b_613_31_alg».proof.Proof.K.TileDefs

namespace Cert.Kernel.Hand

open Idealize.ShloMosaic

def baseTerm (s : BitVec 32) : BitVec 32 := Scalar.addi (Scalar.muli (Scalar.shrsi s 7#32) 1024#32) (Scalar.andi s 127#32)

def pw (a s ℓ : BitVec 32) : BitVec 32 :=
  IntOp.addi (IntOp.addi (IntOp.shli .vector a 7#32) (IntOp.muli (IntOp.shrsi .vector a 3#32) 2096128#32)) (IntOp.addi (baseTerm s) ℓ)

theorem tile_shli7_toNat (a : BitVec 32) (ha : a.toNat < 64) : (IntOp.shli .vector a 7#32).toNat = a.toNat * 128 := by
  unfold IntOp.shli
  rw [if_pos (by decide)]
  rw [BitVec.shiftLeft_eq', BitVec.toNat_shiftLeft, Nat.shiftLeft_eq]
  show a.toNat * 2 ^ 7 % 2 ^ 32 = _
  omega

theorem tile_shrsi_toNat (u : ArithUnit) (x : BitVec 32) (n : ℕ) (hn : n < 32) (hx : x.toNat < 2 ^ 31) :
    (IntOp.shrsi u x (BitVec.ofNat 32 n)).toNat = x.toNat / 2 ^ n := by
  unfold IntOp.shrsi
  have hn' : (BitVec.ofNat 32 n).toNat = n := by simp [BitVec.toNat_ofNat]; omega
  rw [if_pos (by rw [hn']; exact hn)]
  have hm : x.msb = false := (BitVec.msb_eq_false_iff_two_mul_lt).2 (by omega)
  show (x.sshiftRight (BitVec.ofNat 32 n).toNat).toNat = _
  rw [hn', BitVec.sshiftRight_eq_of_msb_false hm, BitVec.toNat_ushiftRight, Nat.shiftRight_eq_div_pow]

theorem tile_andi127_toNat (s : BitVec 32) : (Scalar.andi s 127#32).toNat = s.toNat % 128 := by
  show (s &&& 127#32).toNat = _
  rw [BitVec.toNat_and]
  exact Nat.and_two_pow_sub_one_eq_mod s.toNat 7

theorem baseTerm_toNat (r : ℕ) (hr : r < 262144) : (baseTerm (BitVec.ofNat 32 r)).toNat = r / 128 * 1024 + r % 128 := by
  have hs : (BitVec.ofNat 32 r).toNat = r := by simp [BitVec.toNat_ofNat]; omega
  unfold baseTerm
  show (IntOp.shrsi .scalar (BitVec.ofNat 32 r) (BitVec.ofNat 32 7) * 1024#32 + Scalar.andi (BitVec.ofNat 32 r) 127#32).toNat = _
  rw [BitVec.toNat_add, BitVec.toNat_mul, tile_shrsi_toNat _ _ 7 (by decide) (by rw [hs]; omega), tile_andi127_toNat, hs]
  simp only [BitVec.toNat_ofNat]
  omega

theorem pw_toNat (r : ℕ) (hr16 : r % 16 = 0) (hr : r + 16 ≤ 262144) (ℓ : ℕ) (hℓ : ℓ < 16) (a : BitVec 32) (ha : a.toNat < 64) :
    (pw a (BitVec.ofNat 32 r) (BitVec.ofNat 32 ℓ)).toNat = pIdx (r + ℓ) a.toNat := by
  unfold pw pIdx
  show (IntOp.shli .vector a 7#32 + IntOp.shrsi .vector a (BitVec.ofNat 32 3) * 2096128#32 + (baseTerm (BitVec.ofNat 32 r) + BitVec.ofNat 32 ℓ)).toNat = _
  rw [BitVec.toNat_add, BitVec.toNat_add, BitVec.toNat_add, BitVec.toNat_mul, tile_shli7_toNat a ha,
    tile_shrsi_toNat _ a 3 (by decide) (by omega), baseTerm_toNat r (by omega)]
  simp only [BitVec.toNat_ofNat]
  omega

theorem rowWord_eq (c0 c1 lb t : ℕ) :
    Scalar.addi (Scalar.muli (Scalar.addi (Scalar.muli (BitVec.ofNat 32 c1) 2#32) (BitVec.ofNat 32 c0)) 6144#32)
        (Scalar.muli (Scalar.muli (Scf.iv (BitVec.ofNat 32 lb) 1#32 t) 2#32) 16#32)
      = BitVec.ofNat 32 ((c1 * 2 + c0) * 6144 + 32 * (lb + t)) := by
  apply BitVec.eq_of_toNat_eq
  show ((BitVec.ofNat 32 c1 * 2#32 + BitVec.ofNat 32 c0) * 6144#32 + (BitVec.ofNat 32 lb + BitVec.ofNat 32 t * 1#32) * 2#32 * 16#32).toNat = _
  simp only [BitVec.toNat_add, BitVec.toNat_mul, BitVec.toNat_ofNat]
  omega

end Cert.Kernel.Hand
-- ==== Proof.K.TileRW.lean ====
import proofs.«218716_g83915071029270_cont_9to1c4b_613_31_alg».proof.Proof.K.TileDefs
import Idealize.ShloMosaic.Lib.Writes
import Idealize.ShloMosaic.Lib.WritesUnit

namespace Cert.Kernel.Hand

open Cert.Kernel
open Idealize.ShloMosaic Idealize.ShloMosaic.ValueIdx

variable {F : FTy → Type}

-- Element `x` of the consecutive elements from `o` on is element `o + x` of the array.
theorem unit_idx (o sz : Fin 1 → ℕ) (inb : ∀ a, o a + sz a ≤ S6144.size a) (x : (Rect.unit (s := S6144) o sz inb).shape.Idx) (j : Fin 6144)
    (h : j.val = o 0 + (x 0).val) : (Rect.unit (s := S6144) o sz inb).idx x = ix1 j := by
  funext a
  match a with
  | ⟨0, _⟩ => exact Fin.ext (by simp [h])

theorem val_readAt (o : Fin 1 → ℕ) (inb : ∀ a, o a + S16.size a ≤ S6144.size a) (A : S6144.Idx → Elt F .f32) (x : S16.Idx) :
    View.readAt (Elt F) (Memref.whole cc0_scratch2 : Memref sig .scVector .vmem S6144 .f32).view (Rect.unit (s := S6144) o S16.size inb).toLoadRect A x
      = A (ix1 (n := 6144) ⟨o 0 + (x 0).val, by have := inb 0; have : (x 0).val < 16 := (x 0).isLt; simp at *; omega⟩) :=
  congrArg A (unit_idx o _ inb x _ rfl)

-- The newest write wins on its interval; an element off it is read from what was there before.
theorem idx_write_apply (o : Fin 1 → ℕ) (inb : ∀ a, o a + S16.size a ≤ S6144.size a) (f : S6144.Idx → Elt F .i32) (p : S16.Idx → Elt F .i32)
    (j : Fin 6144) :
    View.write (Elt F) ((Memref.whole cc0_scratch1 : Memref sig .scVector .vmem S6144 .i32).access (Rect.unit (s := S6144) o S16.size inb)) f p Finset.univ (ix1 j)
      = if h : o 0 ≤ j.val ∧ j.val < o 0 + 16 then p (ix1 (n := 16) ⟨j.val - o 0, by omega⟩) else f (ix1 j) := by
  split
  · next h =>
    exact View.read_writes_cons_unit_of_mem (Memref.whole cc0_scratch1 : Memref sig .scVector .vmem S6144 .i32).view f inb p [] (ix1 j)
      (ix1 (n := 16) ⟨j.val - o 0, by omega⟩) rfl fun a => by
        match a with
        | ⟨0, _⟩ => show j.val = o 0 + (j.val - o 0); omega
  · next h =>
    exact View.read_writes_cons_unit_of_not_mem (Memref.whole cc0_scratch1 : Memref sig .scVector .vmem S6144 .i32).view f inb p [] (ix1 j) rfl 0
      (by show j.val < o 0 ∨ o 0 + 16 ≤ j.val; omega)

end Cert.Kernel.Hand
-- ==== Proof.K.TileTrips.lean ====
import proofs.«218716_g83915071029270_cont_9to1c4b_613_31_alg».proof.Proof.K.TileDefs
import proofs.«218716_g83915071029270_cont_9to1c4b_613_31_alg».proof.Proof.Gen.Kernel.Skeleton
import proofs.«218716_g83915071029270_cont_9to1c4b_613_31_alg».proof.Proof.K.TileArith
import proofs.«218716_g83915071029270_cont_9to1c4b_613_31_alg».proof.Proof.K.TileRW
import Idealize.ShloMosaic.Lib.Pipeline.Value

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v3_scv : Memref Cert.Kernel.sig Kind.scVector Space.hbm Cert.Kernel.S16777216 EltTy.f32)
local notation "aV" => (Memref.whole Cert.Kernel.main_arg1_scv : Memref Cert.Kernel.sig Kind.scVector Space.hbm Cert.Kernel.S262144 EltTy.i32)
local notation "oV" => (Memref.whole Cert.Kernel.main_v6_scv : Memref Cert.Kernel.sig Kind.scVector Space.hbm Cert.Kernel.S4096 EltTy.f32)
local notation "lV" => (Memref.whole Cert.Kernel.cc0_scratch0 : Memref Cert.Kernel.sig Kind.scVector Space.vmem Cert.Kernel.S6144 EltTy.i32)
local notation "iV" => (Memref.whole Cert.Kernel.cc0_scratch1 : Memref Cert.Kernel.sig Kind.scVector Space.vmem Cert.Kernel.S6144 EltTy.i32)
local notation "vV" => (Memref.whole Cert.Kernel.cc0_scratch2 : Memref Cert.Kernel.sig Kind.scVector Space.vmem Cert.Kernel.S6144 EltTy.f32)
local notation "cV'" => (Memref.whole Cert.Kernel.cc0_scratch3 : Memref Cert.Kernel.sig Kind.scVector Space.vmem Cert.Kernel.S128 EltTy.f32)

abbrev cV (L : grid0.Coords) : Fin τ.nSC := (L 0).castLE hcore0
abbrev jV (L : grid0.Coords) : Fin τ.nSub := (L 1).castLE hsub0
def wL (L : grid0.Coords) : Fin 32 :=
  ⟨(L 1).val * 2 + (L 0).val, by have h0 : (L 0).val < 2 := (L 0).isLt; have h1 : (L 1).val < 16 := (L 1).isLt; omega⟩
theorem wL_val (L : grid0.Coords) : (wL L).val = (L 1).val * 2 + (L 0).val := rfl

def semEmb (thr : Thread nD τ) : DmaSem sig ↪ GSem nD τ sig :=
  ⟨fun s => (thr, SemLoc.dma s), fun _ _ h => SemLoc.dma.inj (Prod.mk.inj h).2⟩

def used7 : Finset (DmaSem sig) :=
  {cc0_scratch4.sem, cc0_scratch5.sem, cc0_scratch6.sem, cc0_scratch7.sem, cc0_scratch12.sem, cc0_scratch13.sem, cc0_scoped0.sem}

theorem used7_scoped : ∀ s ∈ used7, (SemLoc.dma s : SemLoc sig).isScoped .scVector = true := by decide

theorem used7_sub (d : Dev nD) (c : Fin τ.nSC) (i : Fin τ.nSub) : used7.map (semEmb (V d c i)) ⊆ ownCells (V d c i) := by
  intro g hg
  obtain ⟨s, hs, rfl⟩ := Finset.mem_map.1 hg
  exact mem_ownCells.2 ⟨rfl, used7_scoped s hs⟩

theorem ownSems0_V (d : Dev nD) (c : Fin τ.nSC) (i : Fin τ.nSub) :
    (ownSems0 (V d c i) : sProp 𝕄)
      = iprop((semVal (V d c i, SemLoc.dma cc0_scratch4.sem) 0 ∗ semVal (V d c i, SemLoc.dma cc0_scratch5.sem) 0
          ∗ semVal (V d c i, SemLoc.dma cc0_scratch6.sem) 0 ∗ semVal (V d c i, SemLoc.dma cc0_scratch7.sem) 0
          ∗ semVal (V d c i, SemLoc.dma cc0_scratch12.sem) 0 ∗ semVal (V d c i, SemLoc.dma cc0_scratch13.sem) 0
          ∗ semVal (V d c i, SemLoc.dma cc0_scoped0.sem) 0)
          ∗ bigSep (ownCells (V d c i) \ used7.map (semEmb (V d c i))) fun g => semVal g 0) := by
  unfold SparseCore.Cfg.ownSems0
  rw [SparseCore.bigSep_sdiff_split' (used7_sub d c i), bigSep_map]
  unfold used7
  iterate 6 rw [SparseCore.bigSep_insert' (by decide)]
  rw [bigSep_singleton]
  rfl

theorem ownBufs_V (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch3 ↦{fullShare} f)
          ∗ bigSep ((((ownRefs (τ := τ) (.scVector c i)).erase ((Proc.scVector c i).devRef cc0_scratch0)).erase
              ((Proc.scVector c i).devRef cc0_scratch1)).erase ((Proc.scVector c i).devRef cc0_scratch2) |>.erase ((Proc.scVector c i).devRef cc0_scratch3))
              fun b => iprop(∃ f, ((d, b) : Loc nD τ sig) ↦{fullShare} f)) := by
  unfold SparseCore.Cfg.ownBufs
  have m (r : Ref sig .scVector) (h : ((Proc.scVector c i).devRef r).owner = Owner.proc (Proc.scVector c i)) :
      (Proc.scVector c i).devRef r ∈ ownRefs (τ := τ) (sig := sig) (.scVector c i) := SparseCore.Cfg.mem_ownRefs_of_owner h
  have e {a b : Ref sig .scVector} {s : Finset (DevRef τ sig)} (h : a ≠ b) (hs : (Proc.scVector c i).devRef a ∈ s) :
      (Proc.scVector c i).devRef a ∈ s.erase ((Proc.scVector c i).devRef b) := Finset.mem_erase.mpr ⟨fun q => h (Proc.devRef_injective _ q), hs⟩
  refine (SparseCore.bigSep_erase' (m cc0_scratch0 rfl)).trans ?_
  rw [SparseCore.bigSep_erase' (e (b := cc0_scratch0) (by decide) (m cc0_scratch1 rfl)),
    SparseCore.bigSep_erase' (e (b := cc0_scratch1) (by decide) (e (b := cc0_scratch0) (by decide) (m cc0_scratch2 rfl))),
    SparseCore.bigSep_erase' (e (b := cc0_scratch2) (by decide) (e (b := cc0_scratch1) (by decide) (e (b := cc0_scratch0) (by decide) (m cc0_scratch3 rfl))))]

section Pts

variable (d : Dev nD) (L : grid0.Coords)

abbrev orowK (L : grid0.Coords) : Rect S4096 := Rect.unit (s := S4096) (k0_off19 L) S128.size (k0_off19_inb L)
abbrev oRowK (L : grid0.Coords) : Memref sig .scVector .hbm S128 .f32 := (oV).slice (orowK L) (fun _ => rfl)

theorem orowK_eq : orowK L = orow (wL L) := by
  unfold orowK orow Rect.part Rect.block
  congr 1 <;> funext a
  · rw [k0_off19_eq]
    match a with
    | 0 => simp [Shape.partIx, Shape.partSize, wL_val]; omega
  · match a with
    | 0 => simp [Shape.partSize]

theorem set_oRowK : (oRowK L).view.set = oSet (wL L) := by
  show ((oV).view.slice (orowK L)).set = ((oV).view.slice (orow (wL L))).set
  rw [orowK_eq]

theorem pts_oRowK (f : Buf (Elt F) (oLoc d)) :
    ((oRowK L).view.loc (V d (cV L) (jV L)) ↦[(oRowK L).view.set]{fullShare} f : sProp 𝕄) = oLoc d ↦[oSet (wL L)]{fullShare} f := by
  rw [set_oRowK]
theorem pts_xV (q : PosShare TreeShare) (f : Buf (Elt F) (xLoc d)) :
    ((xV).view.loc (V d (cV L) (jV L)) ↦{q} f : sProp 𝕄) = xLoc d ↦{q} f := rfl
theorem pts_aV (q : PosShare TreeShare) (f : Buf (Elt F) (aLoc d)) :
    ((aV).view.loc (V d (cV L) (jV L)) ↦{q} f : sProp 𝕄) = aLoc d ↦{q} f := rfl
theorem pts_lV (f : Buf (Elt F) ((V d (cV L) (jV L)).loc cc0_scratch0)) :
    ((lV).view.loc (V d (cV L) (jV L)) ↦{fullShare} f : sProp 𝕄) = (V d (cV L) (jV L)).loc cc0_scratch0 ↦{fullShare} f := rfl
theorem pts_iV (f : Buf (Elt F) ((V d (cV L) (jV L)).loc cc0_scratch1)) :
    ((iV).view.loc (V d (cV L) (jV L)) ↦{fullShare} f : sProp 𝕄) = (V d (cV L) (jV L)).loc cc0_scratch1 ↦{fullShare} f := rfl
theorem pts_vV (f : Buf (Elt F) ((V d (cV L) (jV L)).loc cc0_scratch2)) :
    ((vV).view.loc (V d (cV L) (jV L)) ↦{fullShare} f : sProp 𝕄) = (V d (cV L) (jV L)).loc cc0_scratch2 ↦{fullShare} f := rfl
theorem pts_cV (f : Buf (Elt F) ((V d (cV L) (jV L)).loc cc0_scratch3)) :
    ((cV').view.loc (V d (cV L) (jV L)) ↦{fullShare} f : sProp 𝕄) = (V d (cV L) (jV L)).loc cc0_scratch3 ↦{fullShare} f := rfl

end Pts

abbrev RL1 : Rect S6144 := Rect.unit (s := S6144) ![0] S2048.size inb_S6144_S2048_0
abbrev RL2 : Rect S6144 := Rect.unit (s := S6144) ![2048] S4096.size inb_S6144_S4096_2048
abbrev RG0 : Rect S6144 := Rect.unit (s := S6144) ![0] S512.size inb_S6144_S512_0
abbrev RG1 : Rect S6144 := Rect.unit (s := S6144) ![512] S1536.size inb_S6144_S1536_512
abbrev RG2 : Rect S6144 := Rect.unit (s := S6144) ![2048] S2048.size inb_S6144_S2048_2048
abbrev RG3 : Rect S6144 := Rect.unit (s := S6144) ![4096] S2048.size inb_S6144_S2048_4096

abbrev l1M : Memref sig .scVector .vmem S2048 .i32 := (lV).slice RL1 (fun _ => rfl)
abbrev l2M : Memref sig .scVector .vmem S4096 .i32 := (lV).slice RL2 (fun _ => rfl)
abbrev i0M : Memref sig .scVector .vmem S512 .i32 := (iV).slice RG0 (fun _ => rfl)
abbrev i1M : Memref sig .scVector .vmem S1536 .i32 := (iV).slice RG1 (fun _ => rfl)
abbrev i2M : Memref sig .scVector .vmem S2048 .i32 := (iV).slice RG2 (fun _ => rfl)
abbrev i3M : Memref sig .scVector .vmem S2048 .i32 := (iV).slice RG3 (fun _ => rfl)
abbrev v0M : Memref sig .scVector .vmem S512 .f32 := (vV).slice RG0 (fun _ => rfl)
abbrev v1M : Memref sig .scVector .vmem S1536 .f32 := (vV).slice RG1 (fun _ => rfl)
abbrev v2M : Memref sig .scVector .vmem S2048 .f32 := (vV).slice RG2 (fun _ => rfl)
abbrev v3M : Memref sig .scVector .vmem S2048 .f32 := (vV).slice RG3 (fun _ => rfl)

-- A slice of a whole buffer holds exactly its rectangle's elements, and intervals that one bound separates are disjoint.
theorem disj_slices {b : Ref sig .scVector} {o sz o' sz' : Fin b.ty.shape.rank → ℕ} {inb inb'} (a : Fin b.ty.shape.rank) (h : o' a + sz' a ≤ o a) :
    Disjoint ((View.whole b).slice (Rect.unit o sz inb)).set ((View.whole b).slice (Rect.unit o' sz' inb')).set := by
  rw [View.set_slice_whole, View.set_slice_whole]; exact Rect.unit_disjoint a (Or.inr h)

theorem disj_L : Disjoint (l2M).view.set (l1M).view.set := disj_slices 0 (by decide)

theorem disj_i10 : Disjoint (i1M).view.set (i0M).view.set := disj_slices 0 (by decide)
theorem disj_v10 : Disjoint (v1M).view.set (v0M).view.set := disj_slices 0 (by decide)

theorem disj_i20 : Disjoint (i2M).view.set (i0M).view.set := disj_slices 0 (by decide)
theorem disj_v20 : Disjoint (v2M).view.set (v0M).view.set := disj_slices 0 (by decide)

theorem disj_i21 : Disjoint (i2M).view.set (i1M).view.set := disj_slices 0 (by decide)
theorem disj_v21 : Disjoint (v2M).view.set (v1M).view.set := disj_slices 0 (by decide)

theorem disj_i30 : Disjoint (i3M).view.set (i0M).view.set := disj_slices 0 (by decide)
theorem disj_v30 : Disjoint (v3M).view.set (v0M).view.set := disj_slices 0 (by decide)

theorem disj_i31 : Disjoint (i3M).view.set (i1M).view.set := disj_slices 0 (by decide)
theorem disj_v31 : Disjoint (v3M).view.set (v1M).view.set := disj_slices 0 (by decide)

theorem disj_i32 : Disjoint (i3M).view.set (i2M).view.set := disj_slices 0 (by decide)
theorem disj_v32 : Disjoint (v3M).view.set (v2M).view.set := disj_slices 0 (by decide)

theorem i0M_read (f : S6144.Idx → Elt F .i32) (x : S512.Idx) :
    (i0M).view.read (Elt F) f x = f (ix1 (n := 6144) ⟨0 + (x 0).val, by have : (x 0).val < 512 := (x 0).isLt; omega⟩) :=
  congrArg f (show RG0.idx x = _ from unit_idx _ _ _ x _ rfl)
theorem i1M_read (f : S6144.Idx → Elt F .i32) (x : S1536.Idx) :
    (i1M).view.read (Elt F) f x = f (ix1 (n := 6144) ⟨512 + (x 0).val, by have : (x 0).val < 1536 := (x 0).isLt; omega⟩) :=
  congrArg f (show RG1.idx x = _ from unit_idx _ _ _ x _ rfl)
theorem i2M_read (f : S6144.Idx → Elt F .i32) (x : S2048.Idx) :
    (i2M).view.read (Elt F) f x = f (ix1 (n := 6144) ⟨2048 + (x 0).val, by have : (x 0).val < 2048 := (x 0).isLt; omega⟩) :=
  congrArg f (show RG2.idx x = _ from unit_idx _ _ _ x _ rfl)
theorem i3M_read (f : S6144.Idx → Elt F .i32) (x : S2048.Idx) :
    (i3M).view.read (Elt F) f x = f (ix1 (n := 6144) ⟨4096 + (x 0).val, by have : (x 0).val < 2048 := (x 0).isLt; omega⟩) :=
  congrArg f (show RG3.idx x = _ from unit_idx _ _ _ x _ rfl)
theorem l1M_emb (x : S2048.Idx) : (l1M).view.emb x = ix1 (n := 6144) ⟨0 + (x 0).val, by have : (x 0).val < 2048 := (x 0).isLt; omega⟩ :=
  show RL1.idx x = _ from unit_idx _ _ _ x _ rfl
theorem l2M_emb (x : S4096.Idx) : (l2M).view.emb x = ix1 (n := 6144) ⟨2048 + (x 0).val, by have : (x 0).val < 4096 := (x 0).isLt; omega⟩ :=
  show RL2.idx x = _ from unit_idx _ _ _ x _ rfl

abbrev v2w (L : grid0.Coords) : BitVec 32 :=
  Scalar.muli (Scalar.addi (Scalar.muli (BitVec.ofNat 32 (L 1).val) 2#32) (BitVec.ofNat 32 (L 0).val)) 6144#32
abbrev v12w : IVec S16 32 := iota .scVector S16 32 [0] iota_S16_d0_w32_scVector

def LabOK (a : S262144.Idx → BitVec 32) (w : Fin 32) (A : S6144.Idx → BitVec 32) (lo hi : ℕ) : Prop :=
  ∀ j : Fin 6144, lo ≤ j.val → j.val < hi → A (ix1 j) = a (ix1 (wrow w j))
def IdxOK (a : S262144.Idx → BitVec 32) (w : Fin 32) (fI : S6144.Idx → BitVec 32) (lo hi : ℕ) : Prop :=
  ∀ j : Fin 6144, lo ≤ j.val → j.val < hi → (fI (ix1 j)).toNat = pIdx (wrow w j).val (a (ix1 (wrow w j))).toNat

def rowW (v2 lb st : BitVec 32) (k : ℕ) : BitVec 32 := Scalar.addi v2 (Scalar.muli (Scalar.muli (Scf.iv lb st k) 2#32) 16#32)

theorem v12w_apply (i : S16.Idx) : v12w i = BitVec.ofNat 32 (i 0).val := by
  simp [v12w, iota]

theorem rowW_v2w (L : grid0.Coords) (lb k : ℕ) :
    rowW (v2w L) (BitVec.ofNat 32 lb) 1#32 k = BitVec.ofNat 32 ((wL L).val * 6144 + 32 * (lb + k)) :=
  rowWord_eq (L 0).val (L 1).val lb k

theorem addi16 (r : ℕ) : Scalar.addi (BitVec.ofNat 32 r) 16#32 = BitVec.ofNat 32 (r + 16) := by
  show BitVec.ofNat 32 r + BitVec.ofNat 32 16 = _
  rw [← BitVec.ofNat_add]

theorem lane_toNat {a : S262144.Idx → BitVec 32} (hin : Cert.Spec.InRange a) (w : Fin 32) (B : ℕ) (hB16 : B % 16 = 0) (i : Fin 16) (j : Fin 6144)
    (hj : j.val = B + i.val) {lab s ℓ : BitVec 32} (hlab : lab = a (ix1 (wrow w j))) {r : ℕ} (hs : s = BitVec.ofNat 32 r) (hr : r = w.val * 6144 + B)
    (hℓ : ℓ = BitVec.ofNat 32 i.val) :
    (pw lab s ℓ).toNat = pIdx (wrow w j).val (a (ix1 (wrow w j))).toNat := by
  subst hlab hr hs hℓ
  have hw := w.isLt; have hi := i.isLt; have hjl := j.isLt
  rw [pw_toNat (w.val * 6144 + B) (by omega) (by omega) i.val i.isLt _ (hin _)]
  congr 1
  show w.val * 6144 + B + i.val = w.val * 6144 + j.val
  omega

-- The step the four index-building loops share: two stores of sixteen indices each extend the rows done by thirty-two.
theorem trip_tail {a : S262144.Idx → BitVec 32} (hin : Cert.Spec.InRange a) (L : grid0.Coords) (lb k c : ℕ) {lo hi off : ℕ}
    {A fI : S6144.Idx → Elt F .i32} (hA : LabOK a (wL L) A lo hi) (hI : IdxOK a (wL L) fI off (32 * (lb + k)))
    (hc : c = 32 * lb) (hlo : lo ≤ 32 * (lb + k)) (hhi : 32 * (lb + k) + 32 ≤ hi)
    {o3 o4 : Fin 1 → ℕ} (inb3 : ∀ a, o3 a + S16.size a ≤ S6144.size a) (inb4 : ∀ a, o4 a + S16.size a ≤ S6144.size a)
    (h3 : o3 = ![32 * k + c]) (h4 : o4 = ![32 * k + (c + 16)]) {p3 p4 : S16.Idx → Elt F .i32}
    (hp3 : p3 = shapeCast S16 (fun i => pw (shapeCast (s := S16) S16 (View.readAt (Elt F) (lV).view (Rect.unit (s := S6144) o3 S16.size inb3).toLoadRect A) shapeCasts_S16_S16 i)
      (rowW (v2w L) (BitVec.ofNat 32 lb) 1#32 k) (v12w i)) shapeCasts_S16_S16)
    (hp4 : p4 = shapeCast S16 (fun i => pw (shapeCast (s := S16) S16 (View.readAt (Elt F) (lV).view (Rect.unit (s := S6144) o4 S16.size inb4).toLoadRect A) shapeCasts_S16_S16 i)
      (Scalar.addi (rowW (v2w L) (BitVec.ofNat 32 lb) 1#32 k) 16#32) (v12w i)) shapeCasts_S16_S16) :
    IdxOK a (wL L) (View.write (Elt F) ((iV).access (Rect.unit (s := S6144) o4 S16.size inb4))
      (View.write (Elt F) ((iV).access (Rect.unit (s := S6144) o3 S16.size inb3)) fI p3 Finset.univ) p4 Finset.univ) off (32 * (lb + (k + 1))) := by
  subst hc
  have e3 : o3 0 = 32 * (lb + k) := by rw [h3]; show 32 * k + 32 * lb = _; omega
  have e4 : o4 0 = 32 * (lb + k) + 16 := by rw [h4]; show 32 * k + (32 * lb + 16) = _; omega
  intro j hlo' hhi'
  rw [idx_write_apply]
  split
  · simp only [hp4, shapeCast_self]
    exact lane_toNat hin (wL L) (32 * (lb + k) + 16) (by omega) ⟨j.val - o4 0, by omega⟩ j (by show j.val = _ + (j.val - o4 0); omega)
      ((congrArg A (unit_idx _ _ inb4 _ j (by show j.val = o4 0 + (j.val - o4 0); omega))).trans (hA j (by omega) (by omega)))
      ((congrArg (Scalar.addi · 16#32) (rowW_v2w L lb k)).trans (addi16 _)) (by omega) (v12w_apply _)
  · rw [idx_write_apply]
    split
    · simp only [hp3, shapeCast_self]
      exact lane_toNat hin (wL L) (32 * (lb + k)) (by omega) ⟨j.val - o3 0, by omega⟩ j (by show j.val = _ + (j.val - o3 0); omega)
        ((congrArg A (unit_idx _ _ inb3 _ j (by show j.val = o3 0 + (j.val - o3 0); omega))).trans (hA j (by omega) (by omega)))
        (rowW_v2w L lb k) rfl (v12w_apply _)
    · exact hI j hlo' (by omega)

section Trips
variable [FloatOps F]
variable (fa : (d : Dev nD) → Buf (Elt F) (aLoc d)) (d : Dev nD) (L : grid0.Coords)

-- A loop body applied to the call's own arguments.
abbrev atArgs {β : grid0.Coords → Sort _} (f : (i : grid0.Coords) → (a2 : Memref sig .scVector .hbm S16777216 .f32) → a2.IsWhole → (a3 : Memref sig .scVector .hbm S262144 .i32) → a3.IsWhole
    → (a4 : Memref sig .scVector .hbm S4096 .f32) → a4.IsWhole → (a5 : Memref sig .scVector .vmem S6144 .i32) → a5.IsWhole → (a6 : Memref sig .scVector .vmem S6144 .i32) → a6.IsWhole
    → (a7 : Memref sig .scVector .vmem S6144 .f32) → a7.IsWhole → (a8 : Memref sig .scVector .vmem S128 .f32) → a8.IsWhole
    → DmaSems sig S_ → DmaSems sig S_ → DmaSems sig S_ → DmaSems sig S_ → DmaSems sig S_ → DmaSems sig S_ → DmaSems sig S_ → DmaSems sig S_ → DmaSems sig S_
    → DmaSems sig S_ → DmaSems sig S_ → BitVec 32 → IVec S16 32 → β i) : β L :=
  f L xV (Memref.isWhole_whole _) aV (Memref.isWhole_whole _) oV (Memref.isWhole_whole _) lV (Memref.isWhole_whole _) iV (Memref.isWhole_whole _) vV (Memref.isWhole_whole _)
    cV' (Memref.isWhole_whole _) cc0_scratch4 cc0_scratch5 cc0_scratch6 cc0_scratch7 cc0_scratch8 cc0_scratch9 cc0_scratch10 cc0_scratch11 cc0_scratch12 cc0_scratch13 cc0_scoped0
    (v2w L) v12w

-- What a trip of an index-building loop keeps: the labels' stretch as it is, and the indices' stretch holding the indices of the rows done.
abbrev idxInv (RL RI : Rect S6144) (A : S6144.Idx → Elt F .i32) (off n : ℕ) (hL : ∀ a, RL.stride a = 1 := by exact fun _ => rfl)
    (hI : ∀ a, RI.stride a = 1 := by exact fun _ => rfl) : sProp 𝕄 :=
  iprop((((lV).slice RL hL).view.loc (V d (cV L) (jV L)) ↦[((lV).slice RL hL).view.set]{fullShare} A)
    ∗ ∃ fI, (((iV).slice RI hI).view.loc (V d (cV L) (jV L)) ↦[((iV).slice RI hI).view.set]{fullShare} fI) ∗ ⌜IdxOK (fa d) (wL L) fI off n⌝)

theorem trip_1 (hin : Cert.Spec.InRange (fa d)) (k : Fin k0_t1_loop.trips) (A : Buf (Elt F) ((l1M).view.loc (V d (cV L) (jV L))))
    (hA : LabOK (fa d) (wL L) A 0 2048) :
    (idxInv fa d L RL1 RG0 A 0 (32 * (0 + k.val)) : sProp 𝕄)
      ⊢ wp frame (wpE (defs₀ (F := F)) 𝒱₀ (V d (cV L) (jV L)) none) Set.univ
          (atArgs L k0_t1_body k ⟨⟩)
          fun _ => idxInv fa d L RL1 RG0 A 0 (32 * (0 + (k.val + 1))) := by
  unfold idxInv atArgs
  have hk : k.val < 16 := Nat.lt_of_lt_of_le k.isLt k0_t1_abs.2.1
  unfold k0_t1_body
  rw [k0_part1_eq_skeleton]; unfold k0_part1_skel
  iintro ⟨Hl, %fI, Hi, %hI⟩
  sl_exec
  sl_step
  isplitl [Hl]; · iexact Hl
  iexists _; isplitl [Hi]; · iexact Hi
  ipureintro
  exact trip_tail hin L 0 k.val 0 hA hI rfl (by omega) (by omega) _ _ (k0_off3_eq k) (k0_off4_eq k) rfl rfl

theorem trip_2 (hin : Cert.Spec.InRange (fa d)) (k : Fin k0_t2_loop.trips) (A : Buf (Elt F) ((l1M).view.loc (V d (cV L) (jV L))))
    (hA : LabOK (fa d) (wL L) A 0 2048) :
    (idxInv fa d L RL1 RG1 A 512 (32 * (16 + k.val)) : sProp 𝕄)
      ⊢ wp frame (wpE (defs₀ (F := F)) 𝒱₀ (V d (cV L) (jV L)) none) Set.univ
          (atArgs L k0_t2_body k ⟨⟩)
          fun _ => idxInv fa d L RL1 RG1 A 512 (32 * (16 + (k.val + 1))) := by
  unfold idxInv atArgs
  have hk : k.val < 48 := Nat.lt_of_lt_of_le k.isLt k0_t2_abs.2.1
  unfold k0_t2_body
  rw [k0_part2_eq_skeleton]; unfold k0_part2_skel
  iintro ⟨Hl, %fI, Hi, %hI⟩
  sl_exec
  sl_step
  isplitl [Hl]; · iexact Hl
  iexists _; isplitl [Hi]; · iexact Hi
  ipureintro
  exact trip_tail hin L 16 k.val 512 hA hI rfl (by omega) (by omega) _ _ (k0_off5_eq k) (k0_off6_eq k) rfl rfl

theorem trip_3 (hin : Cert.Spec.InRange (fa d)) (k : Fin k0_t3_loop.trips) (A : Buf (Elt F) ((l2M).view.loc (V d (cV L) (jV L))))
    (hA : LabOK (fa d) (wL L) A 2048 6144) :
    (idxInv fa d L RL2 RG2 A 2048 (32 * (64 + k.val)) : sProp 𝕄)
      ⊢ wp frame (wpE (defs₀ (F := F)) 𝒱₀ (V d (cV L) (jV L)) none) Set.univ
          (atArgs L k0_t3_body k ⟨⟩)
          fun _ => idxInv fa d L RL2 RG2 A 2048 (32 * (64 + (k.val + 1))) := by
  unfold idxInv atArgs
  have hk : k.val < 64 := Nat.lt_of_lt_of_le k.isLt k0_t3_abs.2.1
  unfold k0_t3_body
  rw [k0_part3_eq_skeleton]; unfold k0_part3_skel
  iintro ⟨Hl, %fI, Hi, %hI⟩
  sl_exec
  sl_step
  isplitl [Hl]; · iexact Hl
  iexists _; isplitl [Hi]; · iexact Hi
  ipureintro
  exact trip_tail hin L 64 k.val 2048 hA hI rfl (by omega) (by omega) _ _ (k0_off7_eq k) (k0_off8_eq k) rfl rfl

theorem trip_4 (hin : Cert.Spec.InRange (fa d)) (k : Fin k0_t4_loop.trips) (A : Buf (Elt F) ((l2M).view.loc (V d (cV L) (jV L))))
    (hA : LabOK (fa d) (wL L) A 2048 6144) :
    (idxInv fa d L RL2 RG3 A 4096 (32 * (128 + k.val)) : sProp 𝕄)
      ⊢ wp frame (wpE (defs₀ (F := F)) 𝒱₀ (V d (cV L) (jV L)) none) Set.univ
          (atArgs L k0_t4_body k ⟨⟩)
          fun _ => idxInv fa d L RL2 RG3 A 4096 (32 * (128 + (k.val + 1))) := by
  unfold idxInv atArgs
  have hk : k.val < 64 := Nat.lt_of_lt_of_le k.isLt k0_t4_abs.2.1
  unfold k0_t4_body
  rw [k0_part4_eq_skeleton]; unfold k0_part4_skel
  iintro ⟨Hl, %fI, Hi, %hI⟩
  sl_exec
  sl_step
  isplitl [Hl]; · iexact Hl
  iexists _; isplitl [Hi]; · iexact Hi
  ipureintro
  exact trip_tail hin L 128 k.val 4096 hA hI rfl (by omega) (by omega) _ _ (k0_off9_eq k) (k0_off10_eq k) rfl rfl

end Trips

end Cert.Kernel.Hand

end
-- ==== Proof.K.TileAccDefs.lean ====
import proofs.«218716_g83915071029270_cont_9to1c4b_613_31_alg».proof.Proof.K.TileDefs

noncomputable section

namespace Cert.Kernel.Hand

open Cert.Kernel
open Idealize.ShloMosaic Idealize.ShloMosaic.ValueIdx

variable {F : FTy → Type}

def ValOK [FloatOps F] (x : S16777216.Idx → F .f32) (a : S262144.Idx → BitVec 32) (w : Fin 32) (fV : S6144.Idx → F .f32) (lo hi : ℕ) : Prop :=
  ∀ j : Fin 6144, lo ≤ j.val → j.val < hi → fV (ix1 j) = gathered x a w j

def AccOK [FloatOps F] (x : S16777216.Idx → F .f32) (a : S262144.Idx → BitVec 32) (w : Fin 32) (c0 c1 c2 c3 : FVec F S16 .f32) (n : ℕ) : Prop :=
  ∀ i : Fin 16, c0 (ix1 i) = accAt x a w ⟨i.val, by omega⟩ n ∧ c1 (ix1 i) = accAt x a w ⟨16 + i.val, by omega⟩ n
    ∧ c2 (ix1 i) = accAt x a w ⟨32 + i.val, by omega⟩ n ∧ c3 (ix1 i) = accAt x a w ⟨48 + i.val, by omega⟩ n

-- Adding row `64 n + kq`'s gathered word extends column `kq`'s left fold by one group.
theorem acc_lane [FloatOps F] (x : S16777216.Idx → F .f32) (a : S262144.Idx → BitVec 32) (w : Fin 32) {n : ℕ} (hn : n < 96) (kq : Fin 64)
    {c v : F .f32} (hc : c = accAt x a w kq n) (j : Fin 6144) (hj : j.val = 64 * n + kq.val) (hv : v = gathered x a w j) :
    FloatOps.addf c v = accAt x a w kq (n + 1) := by
  subst hc hv
  rw [accAt_succ x a w kq hn]
  congr 2
  exact Fin.ext hj

end Cert.Kernel.Hand

end
-- ==== Proof.K.TileAccTrips.lean ====
import proofs.«218716_g83915071029270_cont_9to1c4b_613_31_alg».proof.Proof.K.TileDefs
import proofs.«218716_g83915071029270_cont_9to1c4b_613_31_alg».proof.Proof.Gen.Kernel.Skeleton
import proofs.«218716_g83915071029270_cont_9to1c4b_613_31_alg».proof.Proof.K.TileTrips
import proofs.«218716_g83915071029270_cont_9to1c4b_613_31_alg».proof.Proof.K.TileAccDefs

noncomputable section

namespace Cert.Kernel.Hand

open Cert.Kernel Cert.Kernel.Gen

open Idealize.ShloMosaic Idealize.ShloMosaic.ValueIdx
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

local notation "xV" => (Memref.whole main_v3_scv : Memref sig Kind.scVector Space.hbm S16777216 EltTy.f32)
local notation "aV" => (Memref.whole main_arg1_scv : Memref sig Kind.scVector Space.hbm S262144 EltTy.i32)
local notation "oV" => (Memref.whole main_v6_scv : Memref sig Kind.scVector Space.hbm S4096 EltTy.f32)
local notation "lV" => (Memref.whole cc0_scratch0 : Memref sig Kind.scVector Space.vmem S6144 EltTy.i32)
local notation "iV" => (Memref.whole cc0_scratch1 : Memref sig Kind.scVector Space.vmem S6144 EltTy.i32)
local notation "vV" => (Memref.whole cc0_scratch2 : Memref sig Kind.scVector Space.vmem S6144 EltTy.f32)
local notation "cV'" => (Memref.whole cc0_scratch3 : Memref sig Kind.scVector Space.vmem S128 EltTy.f32)

theorem payA [FloatOps F] (c : FVec F S16 .f32) (v : Vec F S16 .f32) (i : S16.Idx) : k0_pay32 c v i = FloatOps.addf (c i) (v i) := by
  unfold k0_pay32
  simp only [shapeCast_self]
  rfl

-- One trip adds group `g + k`'s sixty-four gathered words to the four accumulators, sixteen lanes each.
theorem accOK_step [FloatOps F] (g T : ℕ) {k : ℕ} {x a w fV}
    (hV : ValOK x a w fV (64 * g) (64 * (g + T))) (hk : k < T) (hT : g + T ≤ 96) {c0 c1 c2 c3} (hc : AccOK x a w c0 c1 c2 c3 (g + k))
    {o : Fin 1 → ℕ} {o' : BitVec 32 → Fin 1 → ℕ} (i0 i1 i2 i3) (e : o = ![64 * k + 64 * g])
    (e' : ∀ r : Fin 3, o' (BitVec.ofNat 32 (16 + 16 * r.val)) = ![64 * k + 16 * r.val + (64 * g + 16)]) :
    AccOK x a w (k0_pay32 c0 (View.readAt (Elt F) (vV).view (Rect.unit (s := S6144) o S16.size i0).toLoadRect fV))
      (k0_pay32 c1 (View.readAt (Elt F) (vV).view (Rect.unit (s := S6144) (o' 16#32) S16.size i1).toLoadRect fV))
      (k0_pay32 c2 (View.readAt (Elt F) (vV).view (Rect.unit (s := S6144) (o' 32#32) S16.size i2).toLoadRect fV))
      (k0_pay32 c3 (View.readAt (Elt F) (vV).view (Rect.unit (s := S6144) (o' 48#32) S16.size i3).toLoadRect fV)) (g + (k + 1)) := by
  rw [← Nat.add_assoc g k 1]
  intro i
  have q0 : o 0 = 64 * k + 64 * g := congrFun e 0
  have q1 : o' 16#32 0 = 64 * k + 16 * 0 + (64 * g + 16) := congrFun (e' ⟨0, by decide⟩) 0
  have q2 : o' 32#32 0 = 64 * k + 16 * 1 + (64 * g + 16) := congrFun (e' ⟨1, by decide⟩) 0
  have q3 : o' 48#32 0 = 64 * k + 16 * 2 + (64 * g + 16) := congrFun (e' ⟨2, by decide⟩) 0
  obtain ⟨h0, h1, h2, h3⟩ := hc i
  have hi := i.isLt
  have key : ∀ (kq : Fin 64) {c : FVec F S16 .f32} (p : Fin 1 → ℕ) (ip), c (ix1 i) = accAt x a w kq (g + k) → p 0 + i.val = 64 * (g + k) + kq.val →
      k0_pay32 c (View.readAt (Elt F) (vV).view (Rect.unit (s := S6144) p S16.size ip).toLoadRect fV) (ix1 i) = accAt x a w kq (g + k + 1) := fun kq c p ip h hp => by
    rw [payA, val_readAt]
    exact acc_lane x a w (by omega) kq h _ hp (hV _ (by show _ ≤ p 0 + i.val; omega) (by show p 0 + i.val < _; omega))
  exact ⟨key _ _ _ h0 (by show _ = 64 * (g + k) + i.val; omega), key _ _ _ h1 (by show _ = 64 * (g + k) + (16 + i.val); omega),
    key _ _ _ h2 (by show _ = 64 * (g + k) + (32 + i.val); omega), key _ _ _ h3 (by show _ = 64 * (g + k) + (48 + i.val); omega)⟩

section AccTrips
variable [FloatOps F]
variable (d : Dev nD) (L : grid0.Coords)

theorem tripA_5 (x : S16777216.Idx → F .f32) (a : S262144.Idx → BitVec 32) (k : Fin k0_t5_loop.trips)
    (fV : Buf (Elt F) ((v0M).view.loc (V d (cV L) (jV L)))) (hV : ValOK x a (wL L) fV 0 512)
    (c0 c1 c2 c3 : FVec F S16 .f32) (hc : AccOK x a (wL L) c0 c1 c2 c3 (0 + k.val)) (v2 : BitVec 32) (v12 : IVec S16 32) :
    (((v0M).view.loc (V d (cV L) (jV L)) ↦[(v0M).view.set]{fullShare} fV) : sProp 𝕄)
      ⊢ wp frame (wpE (defs₀ (F := F)) 𝒱₀ (V d (cV L) (jV L)) none) Set.univ
          (k0_t5_body L xV (Memref.isWhole_whole _) aV (Memref.isWhole_whole _) oV (Memref.isWhole_whole _)
            lV (Memref.isWhole_whole _) iV (Memref.isWhole_whole _) vV (Memref.isWhole_whole _) cV' (Memref.isWhole_whole _)
            cc0_scratch4 cc0_scratch5 cc0_scratch6 cc0_scratch7 cc0_scratch8 cc0_scratch9 cc0_scratch10 cc0_scratch11 cc0_scratch12 cc0_scratch13 cc0_scoped0 v2 v12 k (c0, c1, c2, c3))
          fun r => iprop(((v0M).view.loc (V d (cV L) (jV L)) ↦[(v0M).view.set]{fullShare} fV)
            ∗ ⌜AccOK x a (wL L) r.1 r.2.1 r.2.2.1 r.2.2.2 (0 + (k.val + 1))⌝) := by
  have hk : k.val < 8 := k.isLt.trans_le k0_t5_abs.2.1
  unfold k0_t5_body
  iintro Hv
  sl_exec
  sl_step
  isplitl [Hv]; · iexact Hv
  ipureintro
  exact accOK_step 0 8 hV hk (by decide) hc _ _ _ _ (k0_off11_eq k) (k0_off12_eq k)

theorem tripA_6 (x : S16777216.Idx → F .f32) (a : S262144.Idx → BitVec 32) (k : Fin k0_t6_loop.trips)
    (fV : Buf (Elt F) ((v1M).view.loc (V d (cV L) (jV L)))) (hV : ValOK x a (wL L) fV 512 2048)
    (c0 c1 c2 c3 : FVec F S16 .f32) (hc : AccOK x a (wL L) c0 c1 c2 c3 (8 + k.val)) (v37 v42_0 v42_1 v42_2 v42_3 : FVec F S16 .f32) (c8 c1' : BitVec 32) :
    (((v1M).view.loc (V d (cV L) (jV L)) ↦[(v1M).view.set]{fullShare} fV) : sProp 𝕄)
      ⊢ wp frame (wpE (defs₀ (F := F)) 𝒱₀ (V d (cV L) (jV L)) none) Set.univ
          (k0_t6_body L xV (Memref.isWhole_whole _) aV (Memref.isWhole_whole _) oV (Memref.isWhole_whole _)
            lV (Memref.isWhole_whole _) iV (Memref.isWhole_whole _) vV (Memref.isWhole_whole _) cV' (Memref.isWhole_whole _)
            cc0_scratch4 cc0_scratch5 cc0_scratch6 cc0_scratch7 cc0_scratch8 cc0_scratch9 cc0_scratch10 cc0_scratch11 cc0_scratch12 cc0_scratch13 cc0_scoped0 v37 v42_0 v42_1 v42_2 v42_3 c8 c1' k (c0, c1, c2, c3))
          fun r => iprop(((v1M).view.loc (V d (cV L) (jV L)) ↦[(v1M).view.set]{fullShare} fV)
            ∗ ⌜AccOK x a (wL L) r.1 r.2.1 r.2.2.1 r.2.2.2 (8 + (k.val + 1))⌝) := by
  have hk : k.val < 24 := k.isLt.trans_le k0_t6_abs.2.1
  unfold k0_t6_body
  iintro Hv
  sl_exec
  sl_step
  isplitl [Hv]; · iexact Hv
  ipureintro
  exact accOK_step 8 24 hV hk (by decide) hc _ _ _ _ (k0_off13_eq k) (k0_off14_eq k)

theorem tripA_7 (x : S16777216.Idx → F .f32) (a : S262144.Idx → BitVec 32) (k : Fin k0_t7_loop.trips)
    (fV : Buf (Elt F) ((v2M).view.loc (V d (cV L) (jV L)))) (hV : ValOK x a (wL L) fV 2048 4096)
    (c0 c1 c2 c3 : FVec F S16 .f32) (hc : AccOK x a (wL L) c0 c1 c2 c3 (32 + k.val)) (v37 v42_0 v42_1 v42_2 v42_3 : FVec F S16 .f32) (c8 c1' : BitVec 32) :
    (((v2M).view.loc (V d (cV L) (jV L)) ↦[(v2M).view.set]{fullShare} fV) : sProp 𝕄)
      ⊢ wp frame (wpE (defs₀ (F := F)) 𝒱₀ (V d (cV L) (jV L)) none) Set.univ
          (k0_t7_body L xV (Memref.isWhole_whole _) aV (Memref.isWhole_whole _) oV (Memref.isWhole_whole _)
            lV (Memref.isWhole_whole _) iV (Memref.isWhole_whole _) vV (Memref.isWhole_whole _) cV' (Memref.isWhole_whole _)
            cc0_scratch4 cc0_scratch5 cc0_scratch6 cc0_scratch7 cc0_scratch8 cc0_scratch9 cc0_scratch10 cc0_scratch11 cc0_scratch12 cc0_scratch13 cc0_scoped0 v37 v42_0 v42_1 v42_2 v42_3 c8 c1' k (c0, c1, c2, c3))
          fun r => iprop(((v2M).view.loc (V d (cV L) (jV L)) ↦[(v2M).view.set]{fullShare} fV)
            ∗ ⌜AccOK x a (wL L) r.1 r.2.1 r.2.2.1 r.2.2.2 (32 + (k.val + 1))⌝) := by
  have hk : k.val < 32 := k.isLt.trans_le k0_t7_abs.2.1
  unfold k0_t7_body
  iintro Hv
  sl_exec
  sl_step
  isplitl [Hv]; · iexact Hv
  ipureintro
  exact accOK_step 32 32 hV hk (by decide) hc _ _ _ _ (k0_off15_eq k) (k0_off16_eq k)

theorem tripA_8 (x : S16777216.Idx → F .f32) (a : S262144.Idx → BitVec 32) (k : Fin k0_t8_loop.trips)
    (fV : Buf (Elt F) ((v3M).view.loc (V d (cV L) (jV L)))) (hV : ValOK x a (wL L) fV 4096 6144)
    (c0 c1 c2 c3 : FVec F S16 .f32) (hc : AccOK x a (wL L) c0 c1 c2 c3 (64 + k.val)) (v37 v42_0 v42_1 v42_2 v42_3 : FVec F S16 .f32) (c8 c1' : BitVec 32) :
    (((v3M).view.loc (V d (cV L) (jV L)) ↦[(v3M).view.set]{fullShare} fV) : sProp 𝕄)
      ⊢ wp frame (wpE (defs₀ (F := F)) 𝒱₀ (V d (cV L) (jV L)) none) Set.univ
          (k0_t8_body L xV (Memref.isWhole_whole _) aV (Memref.isWhole_whole _) oV (Memref.isWhole_whole _)
            lV (Memref.isWhole_whole _) iV (Memref.isWhole_whole _) vV (Memref.isWhole_whole _) cV' (Memref.isWhole_whole _)
            cc0_scratch4 cc0_scratch5 cc0_scratch6 cc0_scratch7 cc0_scratch8 cc0_scratch9 cc0_scratch10 cc0_scratch11 cc0_scratch12 cc0_scratch13 cc0_scoped0 v37 v42_0 v42_1 v42_2 v42_3 c8 c1' k (c0, c1, c2, c3))
          fun r => iprop(((v3M).view.loc (V d (cV L) (jV L)) ↦[(v3M).view.set]{fullShare} fV)
            ∗ ⌜AccOK x a (wL L) r.1 r.2.1 r.2.2.1 r.2.2.2 (64 + (k.val + 1))⌝) := by
  have hk : k.val < 32 := k.isLt.trans_le k0_t8_abs.2.1
  unfold k0_t8_body
  iintro Hv
  sl_exec
  sl_step
  isplitl [Hv]; · iexact Hv
  ipureintro
  exact accOK_step 64 32 hV hk (by decide) hc _ _ _ _ (k0_off17_eq k) (k0_off18_eq k)

end AccTrips

end Cert.Kernel.Hand

end
-- ==== Proof.K.TileFinal.lean ====
import proofs.«218716_g83915071029270_cont_9to1c4b_613_31_alg».proof.Proof.K.TileAccDefs
import Idealize.ShloMosaic.Lib.Writes
import Idealize.ShloMosaic.Lib.WritesUnit
import Idealize.ShloMosaic.Lib.Pipeline.Value

noncomputable section

namespace Cert.Kernel.Hand

open Cert.Kernel Cert.Kernel.Gen
open Idealize.ShloMosaic Idealize.ShloMosaic.ValueIdx

variable {F : FTy → Type}

theorem acc_write_apply (o : ℕ) (inb : ∀ a, (![o] : Fin 1 → ℕ) a + S16.size a ≤ S128.size a) (f : S128.Idx → Elt F .f32)
    (p : S16.Idx → Elt F .f32) (j : Fin 128) :
    View.write (Elt F) ((Memref.whole cc0_scratch3 : Memref sig .scVector .vmem S128 .f32).access (Rect.unit (s := S128) ![o] S16.size inb)) f p Finset.univ (ix1 j)
      = if h : o ≤ j.val ∧ j.val < o + 16 then p (ix1 (n := 16) ⟨j.val - o, by omega⟩) else f (ix1 j) := by
  by_cases h : o ≤ j.val ∧ j.val < o + 16
  · rw [dif_pos h]
    exact View.read_writes_cons_unit_of_mem (Val := Elt F) (Memref.whole cc0_scratch3 : Memref sig .scVector .vmem S128 .f32).view f inb p [] (ix1 j)
      (ix1 (n := 16) ⟨j.val - o, by omega⟩) rfl fun a => match a with | ⟨0, _⟩ => by show j.val = o + (j.val - o); omega
  · rw [dif_neg h]
    exact View.read_writes_cons_unit_of_not_mem (Val := Elt F) (Memref.whole cc0_scratch3 : Memref sig .scVector .vmem S128 .f32).view f inb p [] (ix1 j) rfl 0
      (by show j.val < o ∨ o + 16 ≤ j.val; omega)

abbrev accWrites [FloatOps F] (fc : S128.Idx → F .f32) (c0 c1 c2 c3 z : S16.Idx → F .f32) : S128.Idx → F .f32 :=
  (Memref.whole cc0_scratch3 : Memref sig .scVector .vmem S128 .f32).view.writes (Elt F) fc
    [⟨Rect.unit (s := S128) ![112] S16.size inb_S128_S16_112, z⟩, ⟨Rect.unit (s := S128) ![48] S16.size inb_S128_S16_48, c3⟩,
     ⟨Rect.unit (s := S128) ![96] S16.size inb_S128_S16_96, z⟩, ⟨Rect.unit (s := S128) ![32] S16.size inb_S128_S16_32, c2⟩,
     ⟨Rect.unit (s := S128) ![80] S16.size inb_S128_S16_80, z⟩, ⟨Rect.unit (s := S128) ![16] S16.size inb_S128_S16_16, c1⟩,
     ⟨Rect.unit (s := S128) ![64] S16.size inb_S128_S16_64, z⟩, ⟨Rect.unit (s := S128) ![0] S16.size inb_S128_S16_0, c0⟩]

-- Each word lies in exactly one store's box: the lower four hold the accumulators, which are the column sums; the upper four hold zeros.
theorem accOut [FloatOps F] (x : S16777216.Idx → F .f32) (a : S262144.Idx → BitVec 32) (w : Fin 32) (fc : S128.Idx → F .f32)
    (c0 c1 c2 c3 z : S16.Idx → F .f32) (hc : AccOK x a w c0 c1 c2 c3 96) (hz : ∀ i, z i = zeroF) (m : Fin 128) :
    accWrites fc c0 c1 c2 c3 z (ix1 m) = tileOut x a w (ix1 m) := by
  have hm := m.isLt
  have lo : ∀ k : Fin 64, m.val = k.val → accAt x a w k 96 = tileOut x a w (ix1 m) := fun k hk => by
    unfold tileOut
    rw [dif_pos (show ((ix1 m : S128.Idx) 0).val < 64 from hk ▸ k.isLt)]
    exact congrArg (accAt x a w · 96) (Fin.ext hk.symm)
  have hi : 64 ≤ m.val → zeroF = tileOut x a w (ix1 m) := fun h => by
    unfold tileOut
    rw [dif_neg (show ¬ ((ix1 m : S128.Idx) 0).val < 64 from Nat.not_lt.2 h)]
  unfold accWrites
  simp only [View.writes_cons, View.writes_nil]
  rw [acc_write_apply (F := F) 112, acc_write_apply (F := F) 48, acc_write_apply (F := F) 96, acc_write_apply (F := F) 32,
    acc_write_apply (F := F) 80, acc_write_apply (F := F) 16, acc_write_apply (F := F) 64, acc_write_apply (F := F) 0]
  split_ifs
  · rw [hz]; exact hi (by omega)
  · rw [(hc _).2.2.2]; exact lo _ (by show m.val = 48 + (m.val - 48); omega)
  · rw [hz]; exact hi (by omega)
  · rw [(hc _).2.2.1]; exact lo _ (by show m.val = 32 + (m.val - 32); omega)
  · rw [hz]; exact hi (by omega)
  · rw [(hc _).2.1]; exact lo _ (by show m.val = 16 + (m.val - 16); omega)
  · rw [hz]; exact hi (by omega)
  · rw [(hc _).1]; exact lo _ (by show m.val = m.val - 0; omega)
  · omega

end Cert.Kernel.Hand

end
-- ==== Proof.K.TileOut.lean ====
import proofs.«218716_g83915071029270_cont_9to1c4b_613_31_alg».proof.Proof.K.TileTrips
import proofs.«218716_g83915071029270_cont_9to1c4b_613_31_alg».proof.Proof.K.TileFinal
import Idealize.ShloMosaic.Lib.Writes

noncomputable section

namespace Cert.Kernel.Hand

open Cert.Kernel Cert.Kernel.Gen
open Idealize.ShloMosaic Idealize.ShloMosaic.ValueIdx

variable {F : FTy → Type}

theorem oRowK_emb (L : grid0.Coords) (y : S128.Idx) :
    (oRowK L).view.emb y
      = ix1 (n := 4096) ⟨(wL L).val * 128 + (y 0).val, by
          have := (wL L).isLt; have : (y 0).val < 128 := (y 0).isLt; omega⟩ := by
  show (orowK L).idx y = _
  funext a
  match a with
  | ⟨0, _⟩ =>
    apply Fin.ext
    have e := congrFun (k0_off19_eq L) 0
    simp [wL_val, e]
    omega

theorem cs6_at [FloatOps F] (f3 : (d : Dev nD) → Buf (Elt F) (xLoc d)) (fa : (d : Dev nD) → Buf (Elt F) (aLoc d)) (d : Dev nD)
    (w : Fin 32) (m : Fin 128) (h : w.val * 128 + m.val < 4096) :
    cs6 f3 fa d (ix1 (n := 4096) ⟨w.val * 128 + m.val, h⟩) = tileOut (f3 d) (fa d) w (ix1 m) := by
  have hm := m.isLt
  unfold cs6
  congr 1
  · exact Fin.ext (by show (w.val * 128 + m.val) / 128 = w.val; omega)
  · exact congrArg ix1 (Fin.ext (by show (w.val * 128 + m.val) % 128 = m.val; omega))

theorem out_congr [FloatOps F] (f3 : (d : Dev nD) → Buf (Elt F) (xLoc d)) (fa : (d : Dev nD) → Buf (Elt F) (aLoc d)) (d : Dev nD)
    (L : grid0.Coords) (g6 : S4096.Idx → F .f32) (P : S128.Idx → F .f32)
    (hP : ∀ m : Fin 128, P (ix1 m) = tileOut (f3 d) (fa d) (wL L) (ix1 m)) :
    ∀ i ∈ (oRowK L).view.set, ((oRowK L).view.writes (Elt F) g6 [⟨Rect.whole S128, P⟩]) i = cs6 f3 fa d i := by
  intro i hi
  obtain ⟨y, -, rfl⟩ := Finset.mem_map.1 hi
  obtain ⟨k, rfl⟩ : ∃ k : Fin 128, y = ix1 k := ⟨y 0, eq_ix1 y⟩
  refine (congrFun (View.read_writes_whole (Val := Elt F) (oRowK L).view g6 P) (ix1 k)).trans ((hP k).trans ?_)
  rw [oRowK_emb]
  exact (cs6_at f3 fa d (wL L) k _).symm

theorem accPay_eq [FloatOps F] (v : S16.Idx → F .f32) (h : S16.ShapeCasts S16) : shapeCast S16 v h = v := shapeCast_self v h

end Cert.Kernel.Hand

end
-- ==== Proof.K.TilePure.lean ====
import proofs.«218716_g83915071029270_cont_9to1c4b_613_31_alg».proof.Proof.K.TileTrips
import proofs.«218716_g83915071029270_cont_9to1c4b_613_31_alg».proof.Proof.K.TileAccDefs
import Idealize.ShloMosaic.Lib.SparseCore.Stream
import Idealize.ShloMosaic.Lib.Writes

noncomputable section

namespace Cert.Kernel.Hand

open Cert.Kernel Cert.Kernel.Gen
open Idealize.ShloMosaic Idealize.ShloMosaic.ValueIdx

variable {F : FTy → Type}

theorem rowMajor_symm_rank1 (n : ℕ) (k : Fin (⟨1, ![n]⟩ : Shape).numel) :
    (⟨1, ![n]⟩ : Shape).rowMajor.symm k = ix1 (n := n) ⟨k.val, lt_of_lt_of_eq k.isLt (Shape.numel_rank1 _)⟩ := by
  rw [Equiv.symm_apply_eq]
  apply Fin.ext
  rw [Shape.rowMajor_val_one]
  rfl

-- A whole-stretch write through a slice of a buffer, read back at the slice's own elements, is the payload.
theorem writes_whole_emb {κ : Kind} (b : Ref sig κ) (r : Rect b.ty.shape) (f : ((View.whole b).slice r).ty.Contents (Elt F)) (P : r.shape.Idx → Elt F b.ty.elt)
    (y : r.shape.Idx) : ((View.whole b).slice r).writes (Elt F) f [⟨Rect.whole r.shape, P⟩] (((View.whole b).slice r).emb y) = P y :=
  congrFun (View.read_writes_whole _ f P) y

-- A label copy into rows `[lo, lo + n)` from the worker's own stretch of the label array leaves the worker's labels on those rows.
theorem labOK_copy (n lo : ℕ) (inb : ∀ a, (![lo] : Fin 1 → ℕ) a + (![n] : Fin 1 → ℕ) a ≤ S6144.size a) (fa : S262144.Idx → Elt F .i32) (L : grid0.Coords)
    (fl : S6144.Idx → Elt F .i32) {o : Fin 1 → ℕ} (io : ∀ a, o a + (![n] : Fin 1 → ℕ) a ≤ S262144.size a)
    (eo : o = ![12288 * (L 1).val + 6144 * (L 0).val + lo]) :
    LabOK fa (wL L) (((Memref.whole cc0_scratch0 : Memref sig .scVector .vmem S6144 .i32).slice (Rect.unit (s := S6144) ![lo] ![n] inb) (fun _ => rfl)).view.writes (Elt F) fl [⟨Rect.whole _,
      ReadAs.same.apply (View.read (Elt F) ((Memref.whole main_arg1_scv : Memref sig .scVector .hbm S262144 .i32).slice (Rect.unit (s := S262144) o ![n] io) (fun _ => rfl)).view fa)⟩]) lo (lo + n) := by
  subst eo
  intro j hlo hhi
  have hj := j.isLt
  have e : (ix1 j : S6144.Idx) = (Rect.unit (s := S6144) ![lo] ![n] inb).idx (ix1 (n := n) ⟨j.val - lo, by omega⟩) := by
    funext b
    match b with
    | ⟨0, _⟩ => exact Fin.ext (by show j.val = lo + 1 * (j.val - lo); omega)
  rw [e]
  refine (writes_whole_emb cc0_scratch0 (Rect.unit (s := S6144) ![lo] ![n] inb) fl _ _).trans ?_
  rw [ReadAs.apply_same, View.read_apply]
  show fa (LoadRect.idx _ _) = _
  refine congrArg fa (funext fun b => ?_)
  match b with
  | ⟨0, _⟩ => exact Fin.ext (by show 12288 * (L 1).val + 6144 * (L 0).val + lo + 1 * (j.val - lo) = ((L 1).val * 2 + (L 0).val) * 6144 + j.val; omega)

-- The gather through rows `[lo, lo + n)` of the index scratch leaves there the words gathered for those rows: row `j`'s index word is the position its label selects.
theorem valOK_gen [FloatOps F] (n lo : ℕ) (inb : ∀ a, (![lo] : Fin 1 → ℕ) a + (![n] : Fin 1 → ℕ) a ≤ S6144.size a) (G : S16777216.Gathers 0 ⟨1, ![n]⟩)
    (x : S16777216.Idx → F .f32) (a : S262144.Idx → BitVec 32) (w : Fin 32) (hin : Cert.Spec.InRange a) (fv : S6144.Idx → F .f32)
    (fI : S6144.Idx → Elt F .i32) (hI : IdxOK a w fI lo (lo + n)) (hn : (⟨1, ![n]⟩ : Shape).numel = (⟨1, ![n]⟩ : Shape).size G.axis')
    (hg : ∀ y, (((Memref.whole cc0_scratch1 : Memref sig .scVector .vmem S6144 .i32).slice (Rect.unit (s := S6144) ![lo] ![n] inb) (fun _ => rfl)).view.read (Elt F) fI y).toNat < S16777216.size G.axis) :
    ValOK x a w (((Memref.whole cc0_scratch2 : Memref sig .scVector .vmem S6144 .f32).slice (Rect.unit (s := S6144) ![lo] ![n] inb) (fun _ => rfl)).view.writes (Elt F) fv [⟨Rect.whole _,
      SparseCore.gatherPayload G
        (View.read (Elt F) ((Memref.whole main_v3_scv : Memref sig .scVector .hbm S16777216 .f32).slice
          (Rect.unit (s := S16777216) ![0] S16777216.size inb_S16777216_S16777216_0) (fun _ => rfl)).view x)
        (SparseCore.rows (View.read (Elt F) ((Memref.whole cc0_scratch1 : Memref sig .scVector .vmem S6144 .i32).slice (Rect.unit (s := S6144) ![lo] ![n] inb) (fun _ => rfl)).view fI) hn hg)⟩]) lo (lo + n) := by
  intro j hlo hhi
  have e : (ix1 j : S6144.Idx) = (Rect.unit (s := S6144) ![lo] ![n] inb).idx (ix1 (n := n) ⟨j.val - lo, by omega⟩) := by
    funext b
    match b with
    | ⟨0, _⟩ => exact Fin.ext (by show j.val = lo + 1 * (j.val - lo); omega)
  rw [e]
  refine (writes_whole_emb cc0_scratch2 (Rect.unit (s := S6144) ![lo] ![n] inb) fv _ _).trans ?_
  unfold SparseCore.gatherPayload gathered
  rw [View.read_apply]
  show x (LoadRect.idx _ _) = _
  refine congrArg x (funext fun b => ?_)
  match b with
  | ⟨0, _⟩ =>
    apply Fin.ext
    rw [show ((ix1 (gIx (wrow w j).val (a (ix1 (wrow w j))).toNat) : S16777216.Idx) ⟨0, by decide⟩).val
        = pIdx (wrow w j).val (a (ix1 (wrow w j))).toNat from gIx_val (wrow w j).isLt (hin (wrow w j)), ← hI j hlo hhi]
    show 0 + 1 * (G.idx _ _ G.axis).val = _
    rw [Shape.Gathers.idx_axis, Nat.zero_add, Nat.one_mul]
    show BitVec.toNat (View.read (e := .i32) (Elt F) _ _ ((⟨1, ![n]⟩ : Shape).rowMajor.symm _)) = _
    rw [rowMajor_symm_rank1, e]
    rfl

end Cert.Kernel.Hand

end
-- ==== Proof.K.TileBody.lean ====
import proofs.«218716_g83915071029270_cont_9to1c4b_613_31_alg».proof.Proof.K.TileDefs
import proofs.«218716_g83915071029270_cont_9to1c4b_613_31_alg».proof.Proof.Gen.Kernel.Skeleton
import proofs.«218716_g83915071029270_cont_9to1c4b_613_31_alg».proof.Proof.K.TileAccTrips
import proofs.«218716_g83915071029270_cont_9to1c4b_613_31_alg».proof.Proof.K.TileFinal
import proofs.«218716_g83915071029270_cont_9to1c4b_613_31_alg».proof.Proof.K.TileOut
import proofs.«218716_g83915071029270_cont_9to1c4b_613_31_alg».proof.Proof.K.TilePure

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v3_scv : Memref Cert.Kernel.sig Kind.scVector Space.hbm Cert.Kernel.S16777216 EltTy.f32)
local notation "aV" => (Memref.whole Cert.Kernel.main_arg1_scv : Memref Cert.Kernel.sig Kind.scVector Space.hbm Cert.Kernel.S262144 EltTy.i32)
local notation "oV" => (Memref.whole Cert.Kernel.main_v6_scv : Memref Cert.Kernel.sig Kind.scVector Space.hbm Cert.Kernel.S4096 EltTy.f32)
local notation "lV" => (Memref.whole Cert.Kernel.cc0_scratch0 : Memref Cert.Kernel.sig Kind.scVector Space.vmem Cert.Kernel.S6144 EltTy.i32)
local notation "iV" => (Memref.whole Cert.Kernel.cc0_scratch1 : Memref Cert.Kernel.sig Kind.scVector Space.vmem Cert.Kernel.S6144 EltTy.i32)
local notation "vV" => (Memref.whole Cert.Kernel.cc0_scratch2 : Memref Cert.Kernel.sig Kind.scVector Space.vmem Cert.Kernel.S6144 EltTy.f32)
local notation "cV'" => (Memref.whole Cert.Kernel.cc0_scratch3 : Memref Cert.Kernel.sig Kind.scVector Space.vmem Cert.Kernel.S128 EltTy.f32)

section Body

variable [FloatOps F]
variable (f3 : (d : Dev nD) → Buf (Elt F) (xLoc d)) (fa : (d : Dev nD) → Buf (Elt F) (aLoc d)) (f6 : (d : Dev nD) → Buf (Elt F) (oLoc d))
variable (d : Dev nD) (L : grid0.Coords)

theorem gin {a : S262144.Idx → BitVec 32} {w : Fin 32} (hin : Cert.Spec.InRange a) {fI : S6144.Idx → BitVec 32} {lo n : ℕ} (hI : IdxOK a w fI lo (lo + n))
    {v : BitVec 32} {i : ℕ} {h : lo + i < 6144} (e : v = fI (ix1 ⟨lo + i, h⟩)) (hi : i < n) : v.toNat < 16777216 := by
  rw [e, hI _ (Nat.le_add_right lo i) (Nat.add_lt_add_left hi lo)]
  exact pIdx_lt (wrow _ _).isLt (hin _)

theorem join_rest {ℓ : Loc nD τ sig} {I S : Finset (Idx ℓ)} (h : I ⊆ S) :
    (iprop((∃ g, ℓ ↦[I]{fullShare} g) ∗ (∃ f, ℓ ↦[S \ I]{fullShare} f)) : sProp 𝕄) ⊢ iprop(∃ h', ℓ ↦[S]{fullShare} h') := by
  iintro ⟨⟨%g, Hg⟩, %f, Hf⟩
  iexists (I.piecewise g f)
  iapply (pointsTo_join_subset h)
  isplitl [Hg] <;> iassumption

-- What a trip of a summing loop keeps: the gathered stretch as it is, and the four running sums of the groups done.
abbrev accInv {s : Shape} (vM : Memref sig .scVector .vmem s .f32) (W : Buf (Elt F) (vM.view.loc (V d (cV L) (jV L)))) (lb k : ℕ)
    (acc : FVec F S16 .f32 × FVec F S16 .f32 × FVec F S16 .f32 × FVec F S16 .f32) : sProp 𝕄 :=
  iprop((vM.view.loc (V d (cV L) (jV L)) ↦[vM.view.set]{fullShare} W) ∗ ⌜AccOK (f3 d) (fa d) (wL L) acc.1 acc.2.1 acc.2.2.1 acc.2.2.2 (lb + k)⌝)

set_option maxHeartbeats 8000000 in
theorem tile_body (hF : (K (F := F)).Facts) (hin : Cert.Spec.InRange (fa d)) (O : CellTallies nD τ sig (HIx 1)) (W : Waits sig (HIx 1)) (hO : ∀ g, O g none = 0) :
    iprop(levAts (K (F := F)).L (K (F := F)).lev ∗ emp
        ∗ goW f3 fa f6 d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_kernel L xV (Memref.isWhole_whole _) aV (Memref.isWhole_whole _) oV (Memref.isWhole_whole _)
            lV (Memref.isWhole_whole _) iV (Memref.isWhole_whole _) vV (Memref.isWhole_whole _) cV' (Memref.isWhole_whole _)
            cc0_scratch4 cc0_scratch5 cc0_scratch6 cc0_scratch7 cc0_scratch8 cc0_scratch9 cc0_scratch10 cc0_scratch11 cc0_scratch12 cc0_scratch13 cc0_scoped0)
          fun _ => iprop(tdW f3 fa d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_kernel_eq_skeleton]; unfold cc0_sc_kernel_skel
  rw [(K (F := F)).scopedBufs_V hF d (cV L) (jV L), SparseCore.Cfg.scopedSems0_V (Val := Elt F) d (cV L) (jV L), ownSems0_V, ownBufs_V]
  iintro ⟨#Hlv, -, ⟨Hx, Ha, Ho⟩, ⟨⟨%fl, Hl⟩, ⟨%fi, Hi⟩, ⟨%fv, Hv⟩, ⟨%fc, Hc⟩, Hbufs⟩, ⟨⟨Hs0, Hs1, Hs2, Hs3, Hs8, Hs9, Hs10⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_oRowK (F := F) d L _).symm) $$ Ho
  ihave Hx' := (Entails.of_eq (pts_xV (F := F) d L _ _).symm) $$ Hx
  ihave Ha' := (Entails.of_eq (pts_aV (F := F) d L _ _).symm) $$ Ha
  ihave Hl' := (Entails.of_eq (pts_lV (F := F) d L _).symm) $$ Hl
  ihave Hi' := (Entails.of_eq (pts_iV (F := F) d L _).symm) $$ Hi
  ihave Hv' := (Entails.of_eq (pts_vV (F := F) d L _).symm) $$ Hv
  ihave Hc' := (Entails.of_eq (pts_cV (F := F) d L _).symm) $$ Hc
  rw [k0_part5_eq_skeleton]; unfold k0_part5_skel
  rw [k0_part6_eq_skeleton]; unfold k0_part6_skel
  rw [k0_part7_eq_skeleton]; unfold k0_part7_skel
  ihave T_ := (pointsTo_share (PosShare.mem_left_op_right (rsh (wL L)))).1 $$ Ha'
  icases T_ with ⟨HaL, HaR⟩
  ihave T_ := (pointsTo_share (PosShare.mem_left_op_right (rsh (wL L)))).1 $$ Hx'
  icases T_ with ⟨HxL, HxR⟩
  ihave T_ := (pointsTo_share (PosShare.mem_left_op_right (rsh (wL L)).left)).1 $$ HxL
  icases T_ with ⟨Hx0, Hx1⟩
  ihave T_ := (pointsTo_share (PosShare.mem_left_op_right (rsh (wL L)).right)).1 $$ HxR
  icases T_ with ⟨Hx2, Hx3⟩
  ihave T_ := (pointsTo_split_subset (S := Finset.univ) (I := (l1M).view.set) (Finset.subset_univ (l1M).view.set)).1 $$ Hl'
  icases T_ with ⟨Hl0_, Hlr⟩
  ihave Hl0 := (Entails.of_eq (show ((lV).view.loc (V d (cV L) (jV L)) ↦[(l1M).view.set]{fullShare} fl : sProp 𝕄)
      = (l1M).view.loc (V d (cV L) (jV L)) ↦[(l1M).view.set]{fullShare} fl from rfl)) $$ Hl0_
  ihave T_ := (pointsTo_split_subset (S := Finset.univ \ (l1M).view.set) (I := (l2M).view.set) (Finset.subset_sdiff.2 ⟨Finset.subset_univ _, disj_L⟩)).1 $$ Hlr
  icases T_ with ⟨Hl1_, Hlr⟩
  ihave Hl1 := (Entails.of_eq (show ((lV).view.loc (V d (cV L) (jV L)) ↦[(l2M).view.set]{fullShare} fl : sProp 𝕄)
      = (l2M).view.loc (V d (cV L) (jV L)) ↦[(l2M).view.set]{fullShare} fl from rfl)) $$ Hl1_
  ihave T_ := (pointsTo_split_subset (S := Finset.univ) (I := (i0M).view.set) (Finset.subset_univ (i0M).view.set)).1 $$ Hi'
  icases T_ with ⟨Hi0_, Hir⟩
  ihave Hi0 := (Entails.of_eq (show ((iV).view.loc (V d (cV L) (jV L)) ↦[(i0M).view.set]{fullShare} fi : sProp 𝕄)
      = (i0M).view.loc (V d (cV L) (jV L)) ↦[(i0M).view.set]{fullShare} fi from rfl)) $$ Hi0_
  ihave T_ := (pointsTo_split_subset (S := Finset.univ \ (i0M).view.set) (I := (i1M).view.set) (Finset.subset_sdiff.2 ⟨Finset.subset_univ _, disj_i10⟩)).1 $$ Hir
  icases T_ with ⟨Hi1_, Hir⟩
  ihave Hi1 := (Entails.of_eq (show ((iV).view.loc (V d (cV L) (jV L)) ↦[(i1M).view.set]{fullShare} fi : sProp 𝕄)
      = (i1M).view.loc (V d (cV L) (jV L)) ↦[(i1M).view.set]{fullShare} fi from rfl)) $$ Hi1_
  ihave T_ := (pointsTo_split_subset (S := (Finset.univ \ (i0M).view.set) \ (i1M).view.set) (I := (i2M).view.set) (Finset.subset_sdiff.2 ⟨Finset.subset_sdiff.2 ⟨Finset.subset_univ _, disj_i20⟩, disj_i21⟩)).1 $$ Hir
  icases T_ with ⟨Hi2_, Hir⟩
  ihave Hi2 := (Entails.of_eq (show ((iV).view.loc (V d (cV L) (jV L)) ↦[(i2M).view.set]{fullShare} fi : sProp 𝕄)
      = (i2M).view.loc (V d (cV L) (jV L)) ↦[(i2M).view.set]{fullShare} fi from rfl)) $$ Hi2_
  ihave T_ := (pointsTo_split_subset (S := ((Finset.univ \ (i0M).view.set) \ (i1M).view.set) \ (i2M).view.set) (I := (i3M).view.set) (Finset.subset_sdiff.2 ⟨Finset.subset_sdiff.2 ⟨Finset.subset_sdiff.2 ⟨Finset.subset_univ _, disj_i30⟩, disj_i31⟩, disj_i32⟩)).1 $$ Hir
  icases T_ with ⟨Hi3_, Hir⟩
  ihave Hi3 := (Entails.of_eq (show ((iV).view.loc (V d (cV L) (jV L)) ↦[(i3M).view.set]{fullShare} fi : sProp 𝕄)
      = (i3M).view.loc (V d (cV L) (jV L)) ↦[(i3M).view.set]{fullShare} fi from rfl)) $$ Hi3_
  ihave T_ := (pointsTo_split_subset (S := Finset.univ) (I := (v0M).view.set) (Finset.subset_univ (v0M).view.set)).1 $$ Hv'
  icases T_ with ⟨Hv0_, Hvr⟩
  ihave Hv0 := (Entails.of_eq (show ((vV).view.loc (V d (cV L) (jV L)) ↦[(v0M).view.set]{fullShare} fv : sProp 𝕄)
      = (v0M).view.loc (V d (cV L) (jV L)) ↦[(v0M).view.set]{fullShare} fv from rfl)) $$ Hv0_
  ihave T_ := (pointsTo_split_subset (S := Finset.univ \ (v0M).view.set) (I := (v1M).view.set) (Finset.subset_sdiff.2 ⟨Finset.subset_univ _, disj_v10⟩)).1 $$ Hvr
  icases T_ with ⟨Hv1_, Hvr⟩
  ihave Hv1 := (Entails.of_eq (show ((vV).view.loc (V d (cV L) (jV L)) ↦[(v1M).view.set]{fullShare} fv : sProp 𝕄)
      = (v1M).view.loc (V d (cV L) (jV L)) ↦[(v1M).view.set]{fullShare} fv from rfl)) $$ Hv1_
  ihave T_ := (pointsTo_split_subset (S := (Finset.univ \ (v0M).view.set) \ (v1M).view.set) (I := (v2M).view.set) (Finset.subset_sdiff.2 ⟨Finset.subset_sdiff.2 ⟨Finset.subset_univ _, disj_v20⟩, disj_v21⟩)).1 $$ Hvr
  icases T_ with ⟨Hv2_, Hvr⟩
  ihave Hv2 := (Entails.of_eq (show ((vV).view.loc (V d (cV L) (jV L)) ↦[(v2M).view.set]{fullShare} fv : sProp 𝕄)
      = (v2M).view.loc (V d (cV L) (jV L)) ↦[(v2M).view.set]{fullShare} fv from rfl)) $$ Hv2_
  ihave T_ := (pointsTo_split_subset (S := ((Finset.univ \ (v0M).view.set) \ (v1M).view.set) \ (v2M).view.set) (I := (v3M).view.set) (Finset.subset_sdiff.2 ⟨Finset.subset_sdiff.2 ⟨Finset.subset_sdiff.2 ⟨Finset.subset_univ _, disj_v30⟩, disj_v31⟩, disj_v32⟩)).1 $$ Hvr
  icases T_ with ⟨Hv3_, Hvr⟩
  ihave Hv3 := (Entails.of_eq (show ((vV).view.loc (V d (cV L) (jV L)) ↦[(v3M).view.set]{fullShare} fv : sProp 𝕄)
      = (v3M).view.loc (V d (cV L) (jV L)) ↦[(v3M).view.set]{fullShare} fv from rfl)) $$ Hv3_
  sl_exec
  have hA1 : LabOK (fa d) (wL L) ((l1M).view.writes (Elt F) fl [⟨Rect.whole S2048, tile_body.sl.dma0 fa d L⟩]) 0 2048 := labOK_copy 2048 0 _ (fa d) L fl _ (k0_off1_eq L)
  rw [Prog.bind_assoc]
  sl_for (fun (k : ℕ) (_ : PUnit) => idxInv fa d L RL1 RG0 ((l1M).view.writes (Elt F) fl [⟨Rect.whole S2048, tile_body.sl.dma0 fa d L⟩]) 0 (32 * (0 + k))) $$ [Hl0 Hi0]
  case region =>
    intro k _
    exact trip_1 fa d L hin k _ hA1
  · unfold idxInv
    isplitl [Hl0]; · iexact Hl0
    iexists _; isplitl [Hi0]; · iexact Hi0
    ipureintro; intro j h1 h2; omega
  iintro %_ ⟨Hl0, %fI0, Hi0, %hI1⟩
  have hI1' : IdxOK (fa d) (wL L) fI0 0 512 := hI1
  have hg0 := fun x : S512.Idx => gin (n := 512) hin hI1' (i0M_read (F := F) fI0 x) (x 0).isLt
  sl_exec
  rw [Prog.bind_assoc]
  sl_for (fun (k : ℕ) (_ : PUnit) => idxInv fa d L RL1 RG1 ((l1M).view.writes (Elt F) fl [⟨Rect.whole S2048, tile_body.sl.dma0 fa d L⟩]) 512 (32 * (16 + k))) $$ [Hl0 Hi1]
  case region =>
    intro k _
    exact trip_2 fa d L hin k _ hA1
  · unfold idxInv
    isplitl [Hl0]; · iexact Hl0
    iexists _; isplitl [Hi1]; · iexact Hi1
    ipureintro; intro j h1 h2; omega
  iintro %_ ⟨Hl0, %fI1, Hi1, %hI2⟩
  have hI2' : IdxOK (fa d) (wL L) fI1 512 2048 := hI2
  have hg1 := fun x : S1536.Idx => gin (n := 1536) hin hI2' (i1M_read (F := F) fI1 x) (x 0).isLt
  sl_exec
  have hA2 : LabOK (fa d) (wL L) ((l2M).view.writes (Elt F) fl [⟨Rect.whole S4096, tile_body.sl.dma0_1 fa d L⟩]) 2048 6144 := labOK_copy 4096 2048 _ (fa d) L fl _ (k0_off2_eq L)
  rw [Prog.bind_assoc]
  sl_for (fun (k : ℕ) (_ : PUnit) => idxInv fa d L RL2 RG2 ((l2M).view.writes (Elt F) fl [⟨Rect.whole S4096, tile_body.sl.dma0_1 fa d L⟩]) 2048 (32 * (64 + k))) $$ [Hl1 Hi2]
  case region =>
    intro k _
    exact trip_3 fa d L hin k _ hA2
  · unfold idxInv
    isplitl [Hl1]; · iexact Hl1
    iexists _; isplitl [Hi2]; · iexact Hi2
    ipureintro; intro j h1 h2; omega
  iintro %_ ⟨Hl1, %fI2, Hi2, %hI3⟩
  have hI3' : IdxOK (fa d) (wL L) fI2 2048 4096 := hI3
  have hg2 := fun x : S2048.Idx => gin (n := 2048) hin hI3' (i2M_read (F := F) fI2 x) (x 0).isLt
  sl_exec
  rw [Prog.bind_assoc]
  sl_for (fun (k : ℕ) (_ : PUnit) => idxInv fa d L RL2 RG3 ((l2M).view.writes (Elt F) fl [⟨Rect.whole S4096, tile_body.sl.dma0_1 fa d L⟩]) 4096 (32 * (128 + k))) $$ [Hl1 Hi3]
  case region =>
    intro k _
    exact trip_4 fa d L hin k _ hA2
  · unfold idxInv
    isplitl [Hl1]; · iexact Hl1
    iexists _; isplitl [Hi3]; · iexact Hi3
    ipureintro; intro j h1 h2; omega
  iintro %_ ⟨Hl1, %fI3, Hi3, %hI4⟩
  have hI4' : IdxOK (fa d) (wL L) fI3 4096 6144 := hI4
  have hg3 := fun x : S2048.Idx => gin (n := 2048) hin hI4' (i3M_read (F := F) fI3 x) (x 0).isLt
  sl_exec
  have hV0 : ValOK (f3 d) (fa d) (wL L) ((v0M).view.writes (Elt F) fv [⟨Rect.whole S512, tile_body.sl.gather0 f3 d L fI0 hg0⟩]) 0 512 := valOK_gen 512 0 _ gathers_S16777216_S512 (f3 d) (fa d) (wL L) hin fv fI0 hI1' _ hg0
  rw [Prog.bind_assoc]
  sl_for (accInv f3 fa d L v0M ((v0M).view.writes (Elt F) fv [⟨Rect.whole S512, tile_body.sl.gather0 f3 d L fI0 hg0⟩]) 0) $$ [Hv0]
  case region =>
    intro k acc
    obtain ⟨c0, c1, c2, c3⟩ := acc
    iintro ⟨Hv, %hc⟩
    iapply (tripA_5 d L (f3 d) (fa d) k _ hV0 c0 c1 c2 c3 hc)
    iexact Hv
  · unfold accInv
    isplitl [Hv0]; · iexact Hv0
    ipureintro
    intro i; exact ⟨rfl, rfl, rfl, rfl⟩
  iintro %acc5 ⟨Hv0, %hc5⟩
  obtain ⟨a50, a51, a52, a53⟩ := acc5
  sl_exec
  have hV1 : ValOK (f3 d) (fa d) (wL L) ((v1M).view.writes (Elt F) fv [⟨Rect.whole S1536, tile_body.sl.gather0_1 f3 d L fI1 hg1⟩]) 512 2048 := valOK_gen 1536 512 _ gathers_S16777216_S1536 (f3 d) (fa d) (wL L) hin fv fI1 hI2' _ hg1
  rw [Prog.bind_assoc]
  sl_for (accInv f3 fa d L v1M ((v1M).view.writes (Elt F) fv [⟨Rect.whole S1536, tile_body.sl.gather0_1 f3 d L fI1 hg1⟩]) 8) $$ [Hv1]
  case region =>
    intro k acc
    obtain ⟨c0, c1, c2, c3⟩ := acc
    iintro ⟨Hv, %hc⟩
    iapply (tripA_6 d L (f3 d) (fa d) k _ hV1 c0 c1 c2 c3 hc)
    iexact Hv
  · unfold accInv
    isplitl [Hv1]; · iexact Hv1
    ipureintro; exact hc5
  iintro %acc6 ⟨Hv1, %hc6⟩
  obtain ⟨a60, a61, a62, a63⟩ := acc6
  sl_exec
  have hV2 : ValOK (f3 d) (fa d) (wL L) ((v2M).view.writes (Elt F) fv [⟨Rect.whole S2048, tile_body.sl.gather0_2 f3 d L fI2 hg2⟩]) 2048 4096 := valOK_gen 2048 2048 _ gathers_S16777216_S2048 (f3 d) (fa d) (wL L) hin fv fI2 hI3' _ hg2
  rw [Prog.bind_assoc]
  sl_for (accInv f3 fa d L v2M ((v2M).view.writes (Elt F) fv [⟨Rect.whole S2048, tile_body.sl.gather0_2 f3 d L fI2 hg2⟩]) 32) $$ [Hv2]
  case region =>
    intro k acc
    obtain ⟨c0, c1, c2, c3⟩ := acc
    iintro ⟨Hv, %hc⟩
    iapply (tripA_7 d L (f3 d) (fa d) k _ hV2 c0 c1 c2 c3 hc)
    iexact Hv
  · unfold accInv
    isplitl [Hv2]; · iexact Hv2
    ipureintro; exact hc6
  iintro %acc7 ⟨Hv2, %hc7⟩
  obtain ⟨a70, a71, a72, a73⟩ := acc7
  sl_exec
  have hV3 : ValOK (f3 d) (fa d) (wL L) ((v3M).view.writes (Elt F) fv [⟨Rect.whole S2048, tile_body.sl.gather0_3 f3 d L fI3 hg3⟩]) 4096 6144 := valOK_gen 2048 4096 _ gathers_S16777216_S2048 (f3 d) (fa d) (wL L) hin fv fI3 hI4' _ hg3
  rw [Prog.bind_assoc]
  sl_for (accInv f3 fa d L v3M ((v3M).view.writes (Elt F) fv [⟨Rect.whole S2048, tile_body.sl.gather0_3 f3 d L fI3 hg3⟩]) 64) $$ [Hv3]
  case region =>
    intro k acc
    obtain ⟨c0, c1, c2, c3⟩ := acc
    iintro ⟨Hv, %hc⟩
    iapply (tripA_8 d L (f3 d) (fa d) k _ hV3 c0 c1 c2 c3 hc)
    iexact Hv
  · unfold accInv
    isplitl [Hv3]; · iexact Hv3
    ipureintro; exact hc7
  iintro %acc8 ⟨Hv3, %hc8⟩
  obtain ⟨a80, a81, a82, a83⟩ := acc8
  sl_exec
  sl_step
  have hcs : ∀ i ∈ (oRowK L).view.set, ((oRowK L).view.writes (Elt F) (f6 d) [⟨Rect.whole S128, tile_body.sl.dma16 d L fc a80 a81 a82 a83⟩]) i = cs6 f3 fa d i := by
    have e48 : k0_pay48 a80 = a80 := accPay_eq _ _
    have e50 : k0_pay50 a81 = a81 := accPay_eq _ _
    have e52 : k0_pay52 a82 = a82 := accPay_eq _ _
    have e1 : k0_pay1 a83 = a83 := accPay_eq _ _
    have hc96 : AccOK (f3 d) (fa d) (wL L) (k0_pay48 a80) (k0_pay50 a81) (k0_pay52 a82) (k0_pay1 a83) 96 := by
      rw [e48, e50, e52, e1]; exact hc8
    have hz : ∀ i, k0_pay2 (k0_pay31 (F := F)) i = zeroF := fun i => by
      rw [show k0_pay2 (k0_pay31 (F := F)) = k0_pay31 from accPay_eq _ _]; rfl
    refine out_congr f3 fa d L (f6 d) _ fun m => ?_
    show accWrites fc (k0_pay48 a80) (k0_pay50 a81) (k0_pay52 a82) (k0_pay1 a83) (k0_pay2 k0_pay31) (ix1 m) = _
    exact accOut (f3 d) (fa d) (wL L) fc _ _ _ _ _ hc96 hz m
  ihave JHl1 := (join_rest (F := F) (ℓ := (lV).view.loc (V d (cV L) (jV L))) (I := (l2M).view.set) (S := Finset.univ \ (l1M).view.set) (Finset.subset_sdiff.2 ⟨Finset.subset_univ _, disj_L⟩)) $$ [Hl1 Hlr]
  · isplitl [Hl1]
    · iexists _; iexact Hl1
    · iexists _; iexact Hlr
  ihave JHl0 := (join_rest (F := F) (ℓ := (lV).view.loc (V d (cV L) (jV L))) (I := (l1M).view.set) (S := Finset.univ) (Finset.subset_univ (l1M).view.set)) $$ [Hl0 JHl1]
  · isplitl [Hl0]
    · iexists _; iexact Hl0
    · iexact JHl1
  ihave JHi3 := (join_rest (F := F) (ℓ := (iV).view.loc (V d (cV L) (jV L))) (I := (i3M).view.set) (S := ((Finset.univ \ (i0M).view.set) \ (i1M).view.set) \ (i2M).view.set) (Finset.subset_sdiff.2 ⟨Finset.subset_sdiff.2 ⟨Finset.subset_sdiff.2 ⟨Finset.subset_univ _, disj_i30⟩, disj_i31⟩, disj_i32⟩)) $$ [Hi3 Hir]
  · isplitl [Hi3]
    · iexists _; iexact Hi3
    · iexists _; iexact Hir
  ihave JHi2 := (join_rest (F := F) (ℓ := (iV).view.loc (V d (cV L) (jV L))) (I := (i2M).view.set) (S := (Finset.univ \ (i0M).view.set) \ (i1M).view.set) (Finset.subset_sdiff.2 ⟨Finset.subset_sdiff.2 ⟨Finset.subset_univ _, disj_i20⟩, disj_i21⟩)) $$ [Hi2 JHi3]
  · isplitl [Hi2]
    · iexists _; iexact Hi2
    · iexact JHi3
  ihave JHi1 := (join_rest (F := F) (ℓ := (iV).view.loc (V d (cV L) (jV L))) (I := (i1M).view.set) (S := Finset.univ \ (i0M).view.set) (Finset.subset_sdiff.2 ⟨Finset.subset_univ _, disj_i10⟩)) $$ [Hi1 JHi2]
  · isplitl [Hi1]
    · iexists _; iexact Hi1
    · iexact JHi2
  ihave JHi0 := (join_rest (F := F) (ℓ := (iV).view.loc (V d (cV L) (jV L))) (I := (i0M).view.set) (S := Finset.univ) (Finset.subset_univ (i0M).view.set)) $$ [Hi0 JHi1]
  · isplitl [Hi0]
    · iexists _; iexact Hi0
    · iexact JHi1
  ihave JHv3 := (join_rest (F := F) (ℓ := (vV).view.loc (V d (cV L) (jV L))) (I := (v3M).view.set) (S := ((Finset.univ \ (v0M).view.set) \ (v1M).view.set) \ (v2M).view.set) (Finset.subset_sdiff.2 ⟨Finset.subset_sdiff.2 ⟨Finset.subset_sdiff.2 ⟨Finset.subset_univ _, disj_v30⟩, disj_v31⟩, disj_v32⟩)) $$ [Hv3 Hvr]
  · isplitl [Hv3]
    · iexists _; iexact Hv3
    · iexists _; iexact Hvr
  ihave JHv2 := (join_rest (F := F) (ℓ := (vV).view.loc (V d (cV L) (jV L))) (I := (v2M).view.set) (S := (Finset.univ \ (v0M).view.set) \ (v1M).view.set) (Finset.subset_sdiff.2 ⟨Finset.subset_sdiff.2 ⟨Finset.subset_univ _, disj_v20⟩, disj_v21⟩)) $$ [Hv2 JHv3]
  · isplitl [Hv2]
    · iexists _; iexact Hv2
    · iexact JHv3
  ihave JHv1 := (join_rest (F := F) (ℓ := (vV).view.loc (V d (cV L) (jV L))) (I := (v1M).view.set) (S := Finset.univ \ (v0M).view.set) (Finset.subset_sdiff.2 ⟨Finset.subset_univ _, disj_v10⟩)) $$ [Hv1 JHv2]
  · isplitl [Hv1]
    · iexists _; iexact Hv1
    · iexact JHv2
  ihave JHv0 := (join_rest (F := F) (ℓ := (vV).view.loc (V d (cV L) (jV L))) (I := (v0M).view.set) (S := Finset.univ) (Finset.subset_univ (v0M).view.set)) $$ [Hv0 JHv1]
  · isplitl [Hv0]
    · iexists _; iexact Hv0
    · iexact JHv1
  isplitl [Hx0 Hx1 Hx2 Hx3 HaL HaR Ho']
  · isplitl [Hx0 Hx1 Hx2 Hx3]
    · iapply (Entails.of_eq (pts_xV (F := F) d L _ _))
      iapply (pointsTo_share (PosShare.mem_left_op_right (rsh (wL L)))).2
      isplitl [Hx0 Hx1]
      · iapply (pointsTo_share (PosShare.mem_left_op_right (rsh (wL L)).left)).2
        isplitl [Hx0] <;> iassumption
      · iapply (pointsTo_share (PosShare.mem_left_op_right (rsh (wL L)).right)).2
        isplitl [Hx2] <;> iassumption
    isplitl [HaL HaR]
    · iapply (Entails.of_eq (pts_aV (F := F) d L _ _))
      iapply (pointsTo_share (PosShare.mem_left_op_right (rsh (wL L)))).2
      isplitl [HaL] <;> iassumption
    · iapply (Entails.of_eq (pts_oRowK (F := F) d L _))
      iapply (Entails.of_eq (pointsTo_congr hcs))
      iexact Ho'
  isplitl [JHl0 JHi0 JHv0 Hc' Hbufs]
  · iframe JHl0 JHi0 JHv0 Hbufs
    iexists _; iexact Hc'
  isplitl [Hs0 Hs1 Hs2 Hs3 Hs8 Hs9 Hs10 Hsems]
  · isplitl [Hs0 Hs1 Hs2 Hs3 Hs8 Hs9 Hs10]
    · isplitl [Hs0]; · iexact Hs0
      isplitl [Hs1]; · iexact Hs1
      isplitl [Hs2]; · iexact Hs2
      isplitl [Hs3]; · iexact Hs3
      isplitl [Hs8]; · iexact Hs8
      isplitl [Hs9]; · iexact Hs9
      iexact Hs10
    · iexact Hsems
  iexists _; isplitr
  swap; · iexact HO
  ipureintro; intro p hp
  repeat (rcases Finset.mem_insert.mp hp with h | hp; · exact .inr (h ▸ rfl))
  exact .inl hp

end Body

end Cert.Kernel.Hand

end
-- ==== Proof.K.TileIface.lean ====
import proofs.«218716_g83915071029270_cont_9to1c4b_613_31_alg».proof.Proof.K.TileDefs
import proofs.«218716_g83915071029270_cont_9to1c4b_613_31_alg».proof.Proof.Gen.Kernel.Skeleton
import proofs.«218716_g83915071029270_cont_9to1c4b_613_31_alg».proof.Proof.K.TileBody

noncomputable section

namespace Cert.Kernel.Hand

open Cert.Kernel Cert.Kernel.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

def halves (n : ℕ) : Fin (2 ^ n) ⊕ Fin (2 ^ n) ≃ Fin (2 ^ (n + 1)) := finSumFinEquiv.trans (finCongr (by omega))

theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (halves n) (fun i : Fin (2 ^ (n + 1)) => (ℓ ↦[I]{leaf (n + 1) q i} f : sProp 𝕄)), bigSep_univ_sum]
    congr 1 <;> refine bigSep_congr fun i _ => ?_ <;> simp [leaf, halves]

def widE : Fin 2 × Fin 16 ≃ Fin 32 where
  toFun p := wid p.1 p.2
  invFun w := (⟨w.val % 2, Nat.mod_lt _ (by decide)⟩, ⟨w.val / 2, by have := w.isLt; omega⟩)
  left_inv p := by revert p; decide
  right_inv w := by revert w; decide

theorem bigSep_workers (Φ : Fin 32 → sProp 𝕄) :
    (bigSep Finset.univ fun c : Fin 2 => bigSep Finset.univ fun i : Fin 16 => Φ (wid c i)) = bigSep Finset.univ Φ := by
  rw [bigSep_univ_equiv widE Φ, bigSep_univ_prod]; rfl

theorem oSet_eq (w : Fin 32) : oSet w = (orow w).set := by
  show ((View.whole (main_v6_scv : Ref sig .scVector)).slice (orow w)).set = _
  rw [View.set_slice]; exact Finset.map_refl
theorem oSet_cover : (Finset.univ : Finset (Fin 32)).biUnion oSet = Finset.univ :=
  (Finset.biUnion_congr rfl fun i _ => oSet_eq i).trans (Rect.biUnion_part odiv)

theorem oPts_blocks (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet (fun i _ j _ h => by rw [oSet_eq, oSet_eq]; exact Rect.part_disjoint odiv h), oSet_cover]; try rfl
theorem pts_shares {ℓ : Loc nD τ sig} (f : Buf (Elt F) ℓ) :
    (ℓ ↦{fullShare} f : sProp 𝕄) = bigSep Finset.univ fun w : Fin 32 => ℓ ↦{rsh w} f :=
  pointsTo_leaves Finset.univ f 5 fullShare

section Split

variable [FloatOps F]
variable (f3 : (d : Dev nD) → Buf (Elt F) (xLoc d)) (fa : (d : Dev nD) → Buf (Elt F) (aLoc d)) (f6 : (d : Dev nD) → Buf (Elt F) (oLoc d))

theorem whole_eq (d : Dev nD) :
    (bigSep Finset.univ fun c : Fin 2 => bigSep Finset.univ fun i : Fin 16 => goW f3 fa f6 d (wid c i))
      = (iprop((xLoc d ↦{fullShare} f3 d) ∗ (aLoc d ↦{fullShare} fa d) ∗ (oLoc d ↦{fullShare} f6 d)) : sProp 𝕄) := by
  rw [bigSep_workers (F := F) (fun w => goW f3 fa f6 d w), bigSep_sep', bigSep_sep', ← pts_shares, ← pts_shares, ← oPts_blocks]

theorem st_of_whole (d : Dev nD) :
    (iprop((xLoc d ↦{fullShare} f3 d) ∗ (aLoc d ↦{fullShare} fa d) ∗ (oLoc d ↦{fullShare} f6 d)) : sProp 𝕄)
      ⊢ bigSep Finset.univ fun c : Fin ((K (F := F)).nCore 0) => (P f3 fa f6).st 0 d c :=
  Entails.of_eq (whole_eq f3 fa f6 d).symm

theorem whole_of_dn (d : Dev nD) :
    (bigSep Finset.univ fun c : Fin ((K (F := F)).nCore 0) => (P f3 fa f6).dn 0 d c)
      ⊢ (iprop((xLoc d ↦{fullShare} f3 d) ∗ (aLoc d ↦{fullShare} fa d) ∗ (oLoc d ↦{fullShare} cs6 f3 fa d)) : sProp 𝕄) :=
  Entails.of_eq (whole_eq f3 fa (cs6 f3 fa) d)

theorem keep {A B : sProp 𝕄} : A ⊢ |={Set.univ}=> iprop(A ∗ (B -∗ B)) := by
  iintro H; imodintro
  isplitl [H]; · iexact H
  iintro H; iexact H

theorem vecSplit : (K (F := F)).VecSplit' (P f3 fa f6) 0 := fun _ _ => keep

end Split

section Obl

variable [FloatOps F]
variable (f3 : (d : Dev nD) → Buf (Elt F) (xLoc d)) (fa : (d : Dev nD) → Buf (Elt F) (aLoc d)) (f6 : (d : Dev nD) → Buf (Elt F) (oLoc d))

def tileCoords (c : Fin (grid0.bound 0)) (s : Fin (grid0.bound 1)) : grid0.Coords :=
  fun | 0 => c | 1 => s | ⟨_ + 2, h⟩ => absurd h (Nat.not_lt.2 (Nat.le_add_left _ _))

theorem tile_obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

set_option maxRecDepth 16384 in
theorem tileObl (hF : (K (F := F)).Facts) (hin : ∀ d, Cert.Spec.InRange (fa d)) :
    (K (F := F)).TileObl (D (F := F)) 𝒱 (P f3 fa f6) v₀ 0 := by
  intro d c i O W hO _ _
  simp only [show (P f3 fa f6).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [show defs₀ (F := F) (.scVector _ _) 0 () = _ from dif_pos hci]
  exact (tile_body f3 fa f6 d (tileCoords ⟨_, hci.1⟩ ⟨_, hci.2⟩) hF (hin d) O W hO).trans (wp_mono frame _ _ fun _ => tile_obl_post)

end Obl

end Cert.Kernel.Hand

end
-- ==== Proof.K.Main2.lean ====
import proofs.«218716_g83915071029270_cont_9to1c4b_613_31_alg».proof.Proof.K.Main1
import proofs.«218716_g83915071029270_cont_9to1c4b_613_31_alg».proof.Proof.K.LaunchElem
import proofs.«218716_g83915071029270_cont_9to1c4b_613_31_alg».proof.Proof.K.TileIface
import Idealize.ShloMosaic.Lib.Pipeline.Frame

noncomputable section

namespace Cert.Kernel.Hand

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ)

abbrev W0 (d : Dev nD) : Valuation τ sig (Elt F) := fun b => m (d, b)
abbrev W1 (d : Dev nD) : Valuation τ sig (Elt F) := StableHlo.after (opsA (F := F)) (W0 m d)

abbrev x' : DevRef τ sig := Proc.devRef .tc (main_v3 : Ref sig .tc)
abbrev a' : DevRef τ sig := Proc.devRef .tc (main_arg1 : Ref sig .tc)
abbrev o' : DevRef τ sig := Proc.devRef .tc (main_v6 : Ref sig .tc)

def f3 (d : Dev nD) : Buf (Elt F) (xLoc d) := W1 m d x'
def fa (d : Dev nD) : Buf (Elt F) (aLoc d) := W1 m d a'
def f6 (d : Dev nD) : Buf (Elt F) (oLoc d) := W1 m d o'

-- the call changes one array only: the output array, to the tiles' partial column sums
def W2 (d : Dev nD) : Valuation τ sig (Elt F) := Function.update (W1 m d) o' (cs6 (f3 m) (fa m) d)

abbrev S3 : Finset (DevRef τ sig) := {x', a', o'}

theorem S3_sub : (S3 : Finset (DevRef τ sig)) ⊆ Pipeline.ucRefs τ sig := by decide

theorem held_S3 (d : Dev nD) (W : Valuation τ sig (Elt F)) :
    (held (T d) S3 W : sProp 𝕄) = iprop((xLoc d ↦{fullShare} W x') ∗ (aLoc d ↦{fullShare} W a') ∗ oLoc d ↦{fullShare} W o') := by
  unfold held S3
  rw [SparseCore.bigSep_insert' (by decide), SparseCore.bigSep_insert' (by decide), bigSep_singleton]

theorem opsA_sub : ∀ op ∈ (opsA : List (HloOp τ sig (Elt F))), op.bufs ⊆ Pipeline.ucRefs τ sig := by
  have h : (opsA : List (HloOp τ sig (Elt F))).Forall fun op => op.bufs ⊆ StableHlo.tcRefs τ sig :=
    ⟨StableHlo.unary_bufs_sub .., StableHlo.reshape_bufs_sub .., StableHlo.unary_bufs_sub .., StableHlo.reshape_bufs_sub ..,
      StableHlo.unary_bufs_sub .., StableHlo.reshape_bufs_sub ..⟩
  exact fun op hop => Pipeline.sub_ucRefs op ((List.forall_iff_forall_mem.mp h) op hop)

theorem opsA_fresh : ∀ op ∈ (opsA : List (HloOp τ sig (Elt F))), op.fresh = ∅ := by
  have h : (opsA : List (HloOp τ sig (Elt F))).Forall fun op => op.fresh = ∅ := by
    simp only [List.Forall]; repeat' constructor
  exact fun op hop => (List.forall_iff_forall_mem.mp h) op hop

theorem held_split3 (d : Dev nD) (W : Valuation τ sig (Elt F)) :
    (held (T d) (Pipeline.ucRefs τ sig) W : sProp 𝕄)
      = iprop(((xLoc d ↦{fullShare} W x') ∗ (aLoc d ↦{fullShare} W a') ∗ oLoc d ↦{fullShare} W o') ∗ held (T d) (Pipeline.ucRefs τ sig \ S3) W) := by
  rw [StableHlo.held_sub_split (T d) S3_sub W, held_S3]

theorem held_W2 (d : Dev nD) :
    iprop(((xLoc d ↦{fullShare} f3 m d) ∗ (aLoc d ↦{fullShare} fa m d) ∗ oLoc d ↦{fullShare} cs6 (f3 m) (fa m) d) ∗ held (T d) (Pipeline.ucRefs τ sig \ S3) (W1 m d))
      ⊢ (held (T d) (Pipeline.ucRefs τ sig) (W2 m d) : sProp 𝕄) := by
  rw [held_split3 d (W2 m d),
    StableHlo.held_congr (T d) (V := W2 m d) (V' := W1 m d) (S := Pipeline.ucRefs τ sig \ S3) (fun b hb => by
      unfold W2; exact Function.update_of_ne (fun e : b = o' => (Finset.mem_sdiff.mp hb).2 (e ▸ (by decide : o' ∈ (S3 : Finset (DevRef τ sig))))) _ _),
    show W2 m d x' = W1 m d x' from Function.update_of_ne (by decide) _ _,
    show W2 m d a' = W1 m d a' from Function.update_of_ne (by decide) _ _,
    show W2 m d o' = cs6 (f3 m) (fa m) d from Function.update_self _ _ _]
  exact .rfl

theorem unscoped_held (d : Dev nD) :
    (unscopedBufs d (fun b => m ((SparseCore.T d).loc b)) : sProp 𝕄) = held (T d) (Pipeline.ucRefs τ sig) (W0 m d) :=
  Pipeline.unscopedBufs_held d (W0 m d)

abbrev PP : (K (F := F)).Pay (nD := nD) (Val := Elt F) (Name := ℕ) (U := UU) := P (f3 m) (fa m) (f6 m)

end Cert.Kernel.Hand

end
-- ==== Proof.K.Region2.lean ====
import proofs.«218716_g83915071029270_cont_9to1c4b_613_31_alg».proof.Proof.K.Ctx
import proofs.«218716_g83915071029270_cont_9to1c4b_613_31_alg».proof.Proof.Gen.Kernel.Skeleton
import proofs.«218716_g83915071029270_cont_9to1c4b_613_31_alg».proof.Proof.Gen.Kernel.Points
import Idealize.ShloMosaic.Lib.Pipeline.FrameBody
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI Idealize.SL.BI.BIBase Idealize.SL.Sem
open Idealize.ShloMosaic.Pipeline (Dat BodyObligation)

variable {F : FTy → Type} [FloatOps F]

local notation "𝕄" => MT nD τ sig (HIx 1) (Elt F) ℕ UU ℕ

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_3 (x0 : Vec F S32x128 .f32) (x1 : Vec F S1x64 .f32) (x2 : Vec F S64x128 .i32) : Vec F S1x1 .f32 :=
  View.canon [⟨Rect.unit (s := S1x1) ![0, 0] S1x1.size inb_S1x1_S1x1_0_0, k2_pay1 (View.ld x0 (Rect.unit (s := S32x128) ![0, 0] S32x128.size inb_S32x128_S32x128_0_0))
    (View.ld x1 (Rect.unit (s := S1x64) ![0, 0] S1x64.size inb_S1x64_S1x64_0_0)) (View.ld x2 (Rect.unit (s := S64x128) ![0, 0] S64x128.size inb_S64x128_S64x128_0_0))⟩]

private theorem zero2 : (![0, 0] : Fin 2 → Nat) = fun _ => 0 := by
  funext a; match a with | ⟨0, _⟩ => rfl | ⟨1, _⟩ => rfl

-- Every access is the whole of its buffer, so the stored block is the payload of the three blocks themselves.
theorem out2_3_eq (x0 : Vec F S32x128 .f32) (x1 : Vec F S1x64 .f32) (x2 : Vec F S64x128 .i32) :
    out2_3 x0 x1 x2 = k2_pay1 x0 x1 x2 := by
  unfold out2_3
  rw [View.canon_unit_zero (S := S1x1) zero2, View.ld_unit_zero (S := S32x128) zero2, View.ld_unit_zero (S := S1x64) zero2,
    View.ld_unit_zero (S := S64x128) zero2]

theorem sound_kernel2 (c : Dev nD) (E : Set ℕ) (arg0 : Memref sig .tc .vmem S32x128 .f32) (harg0 : arg0.IsWhole)
    (arg1 : Memref sig .tc .vmem S1x64 .f32) (harg1 : arg1.IsWhole) (arg2 : Memref sig .tc .vmem S64x128 .i32) (harg2 : arg2.IsWhole)
    (arg3 : Memref sig .tc .vmem S1x1 .f32) (harg3 : arg3.IsWhole)
    (x0 : Vec F S32x128 .f32) (x1 : Vec F S1x64 .f32) (x2 : Vec F S64x128 .i32) (K : PUnit → sProp 𝕄) :
    iprop(owns c arg0 fullShare x0 ∗ owns c arg1 fullShare x1 ∗ owns c arg2 fullShare x2
        ∗ (∃ d, owns c arg3 fullShare d)
        ∗ (iprop(owns c arg0 fullShare x0 ∗ owns c arg1 fullShare x1 ∗ owns c arg2 fullShare x2
            ∗ owns c arg3 fullShare (out2_3 x0 x1 x2)) -∗ K ⟨⟩))
      ⊢ wp frame (wpE (defs₀ (F := F)) Variants.none c none) E (cc2__combine_body arg0 harg0 arg1 harg1 arg2 harg2 arg3 harg3) K := by
  simp only [cc2__combine_body_eq_skeleton]; unfold cc2__combine_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1x1.size (by rfl))

def Φ2 (c : Dev nD) : sProp 𝕄 :=
  iprop(Pipeline.scopedRest (Ix := HIx 1) (Name := ℕ) (U := UU) (Lvl := ℕ) (Val := Elt F) spec2 c ∗ ∃ r, prngReg c r)

def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Φ2 c
  q _ := fullShare
  owed _ := 0

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

theorem sound_body2 (c : Dev nD) (t : Fin cfg2.N) :
    iprop((dat2 V c).Φ t.castSucc ∗ (dat2 V c).owesAt (none : HIx 1) t.castSucc
        ∗ (∃ d, owns c (st2_0 t) fullShare ((dat2 V c).before 0 t d))
        ∗ (∃ d, owns c (st2_1 t) fullShare ((dat2 V c).before 1 t d))
        ∗ (∃ d, owns c (st2_2 t) fullShare ((dat2 V c).before 2 t d))
        ∗ (∃ d, owns c (st2_3 t) fullShare ((dat2 V c).before 3 t d)))
      ⊢ wp frame (wpE (defs₀ (F := F)) Variants.none c none) Set.univ (bodyAt2 t) (fun _ =>
        iprop((dat2 V c).Φ t.castSucc ∗ (dat2 V c).owesAt (none : HIx 1) t.castSucc
          ∗ owns c (st2_0 t) fullShare (iblk2 V c 0 t)
          ∗ owns c (st2_1 t) fullShare (iblk2 V c 1 t)
          ∗ owns c (st2_2 t) fullShare (iblk2 V c 2 t)
          ∗ owns c (st2_3 t) fullShare (out2_3 (iblk2 V c 0 t) (iblk2 V c 1 t) (iblk2 V c 2 t)))) := by
  unfold bodyAt2
  simp only [before2_0, before2_1, before2_2]
  iintro ⟨HΦ, Ho, ⟨%d0, H0⟩, ⟨%d1, H1⟩, ⟨%d2, H2⟩, ⟨%d3, H3⟩⟩
  iapply (sound_kernel2 c Set.univ _ _ _ _ _ _ _ _ (iblk2 V c 0 t) (iblk2 V c 1 t) (iblk2 V c 2 t) _)
  iframe H0 H1 H2
  isplitl [H3]; · iexists _; iexact H3
  iintro ⟨H0, H1, H2, H3⟩
  iframe HΦ Ho H0 H1 H2
  iexact H3

theorem body_obligation2 (c : Dev nD) :
    BodyObligation (dat2 (F := F) V c) (defs₀ (F := F)) Variants.none (none : HIx 1) Set.univ := fun t => by
  rw [bigSep_W2, bigSep_W2]
  exact sound_body2 V c t

-- A function read at an index whose every coordinate is the zero offset plus the coordinate itself is read at that index.
private theorem rd_id {S : Shape} {β : Type} (f : S.Idx → β) (y j : S.Idx) (h : ∀ a, (y a).val = 0 * S.size a + 1 * (j a).val) : f y = f j :=
  congrArg f (funext fun a => Fin.ext ((h a).trans (by omega)))
private theorem c01 (n x : ℕ) (h : x < n) : 0 * n ≤ x ∧ x < 0 * n + n := by omega

theorem iblk2_0 (c : Dev nD) (t : Fin cfg2.N) : iblk2 V c 0 t = (V c main_v8 : S32x128.Idx → Elt F .f32) :=
  funext fun j => rd_id (S := S32x128) (V c main_v8) _ j fun | ⟨0, _⟩ => rfl | ⟨1, _⟩ => rfl
theorem iblk2_1 (c : Dev nD) (t : Fin cfg2.N) : iblk2 V c 1 t = (V c main_v7_1 : S1x64.Idx → Elt F .f32) :=
  funext fun j => rd_id (S := S1x64) (V c main_v7_1) _ j fun | ⟨0, _⟩ => rfl | ⟨1, _⟩ => rfl
theorem iblk2_2 (c : Dev nD) (t : Fin cfg2.N) : iblk2 V c 2 t = (V c main_v7_0 : S64x128.Idx → Elt F .i32) :=
  funext fun j => rd_id (S := S64x128) (V c main_v7_0) _ j fun | ⟨0, _⟩ => rfl | ⟨1, _⟩ => rfl

def res2 (c : Dev nD) : Vec F S1x1 .f32 := k2_pay1 (V c main_v8) (V c main_v7_1) (V c main_v7_0)

-- The one point's block covers the array, and reading the result through it is the identity on indices.
theorem arrAt2_3 (c : Dev nD) : (dat2 V c).arrAt 3 cfg2.N = res2 V c := by
  refine (dat2 V c).arrAt_eq_of_cover 3 (res2 V c) (fun t _ => ?_) fun (i : S1x1.Idx) => ⟨t2_0, flush2_3 t2_0, ?_⟩
  · show (cfg2.win 3).cut (cfg2.grid.coords t) (out2_3 (iblk2 V c 0 t) (iblk2 V c 1 t) (iblk2 V c 2 t)) = _
    rw [out2_3_eq, iblk2_0, iblk2_1, iblk2_2]
    exact funext fun j => (rd_id (S := S1x1) (res2 V c) _ j fun | ⟨0, _⟩ => rfl | ⟨1, _⟩ => rfl).symm
  · show i ∈ ((View.whole main_v9).slice (win2_3.rect t2_0)).set
    rw [View.set_slice_whole, Rect.mem_set_unit]
    intro a
    match a with
    | ⟨0, _⟩ => exact c01 _ _ (i 0).isLt
    | ⟨1, _⟩ => exact c01 _ _ (i 1).isLt

end Region2

end Cert.Kernel.Hand

end
-- ==== Proof.K.Main3.lean ====
import proofs.«218716_g83915071029270_cont_9to1c4b_613_31_alg».proof.Proof.K.Main2
import proofs.«218716_g83915071029270_cont_9to1c4b_613_31_alg».proof.Proof.K.Region2
import Idealize.ShloMosaic.Lib.Pipeline.RegionsLoop
import Idealize.ShloMosaic.Lib.Pipeline.FrameSuffix

noncomputable section

namespace Cert.Kernel.Hand

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)
variable (dA : (c : Dev nD) → Dat τ (Elt F) (HIx 1) ℕ UU ℕ cfg1 c)

abbrev V2 : (c : Dev nD) → (b : Ref sig .tc) → Buf (Elt F) ((c : Thread nD τ).loc b) := fun c b => W2 m c b

abbrev c0' : DevRef τ sig := Proc.devRef .tc (main_v7_0 : Ref sig .tc)
abbrev c1' : DevRef τ sig := Proc.devRef .tc (main_v7_1 : Ref sig .tc)

-- the counting region writes its two results and nothing else
def W3 (c : Dev nD) : Valuation τ sig (Elt F) :=
  Function.update (Function.update (W2 m c) c0' ((dA c).arrAt 3 cfg1.N)) c1' ((dA c).arrAt 4 cfg1.N)

abbrev W4 (c : Dev nD) : Valuation τ sig (Elt F) := StableHlo.after (opsB (F := F)) (W3 m dA c)
abbrev V4 : (c : Dev nD) → (b : Ref sig .tc) → Buf (Elt F) ((c : Thread nD τ).loc b) := fun c b => W4 m dA c b

def W5 (c : Dev nD) : Valuation τ sig (Elt F) :=
  Pipeline.withArrays spec2 c (W4 m dA c) fun w => (dat2 (V4 m dA) c).arrAt w cfg2.N
theorem W5_arr (c : Dev nD) (w : Fin cfg2.W) :
    W5 m dA c (Proc.devRef .tc (Pipeline.arrRef spec2 w)) = (dat2 (V4 m dA) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m dA c (Proc.devRef .tc b) = W4 m dA c (Proc.devRef .tc b) := by
  unfold W5; exact Pipeline.withArrays_of_ne spec2 c _ _ b hb

abbrev W6 (c : Dev nD) : Valuation τ sig (Elt F) := StableHlo.after (opsC (F := F)) (W5 m dA c)

-- each region's proof data, at the contents the region is entered with
def pdats : (p : Fin 2) → (c : Dev nD) → Dat τ (Elt F) (HIx 1) ℕ UU ℕ (Pipeline.pin (pcfgs (F := F)) adm p) c
  | ⟨0, _⟩ => fun c => dA c
  | ⟨1, _⟩ => fun c => dat2 (V4 m dA) c

abbrev LL : GSem nD τ sig → Finset (HIx 1) := (K (F := F)).L
abbrev lvv : GSem nD τ sig → HIx 1 → ℕ := (K (F := F)).lev

abbrev R (c : Dev nD) : sProp 𝕄 := iprop((∃ r, prngReg c r) ∗ ∃ W, owes (c : Thread nD τ) (0 : CellTallies nD τ sig (HIx 1)) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ (LL (F := F)) (lvv (F := F)) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
def reg2 (howedA : ∀ c t, (dA c).owed t = 0) :
    Pipeline.RegionSeg (pcfgs (F := F)) adm (pdats m dA) (none : HIx 1) defs₀ 𝒱₀ (LL (F := F)) (lvv (F := F)) 1 where
  win := launch2.win.to₀
  block_pos := launch2.block_pos
  stage_whole := launch2.stage_whole
  K := PEmpty
  osem k := k.elim
  ho := Pipeline.OwnSemFacts.none _
  hbody c := (body_obligation2 (V4 m dA) c).loose
  hwaits := Pipeline.hwaits_of_owed_zero _ _ _ _ (LL (F := F)) (lvv (F := F)) 1 fun _ _ => rfl
  pre c := iprop(StableHlo.held (c : Thread nD τ) (Pipeline.ucRefs τ sig) (W4 m dA c) ∗ R c)
  post c := iprop(StableHlo.held (c : Thread nD τ) (Pipeline.ucRefs τ sig) (W5 m dA c) ∗ R c)
  X c := iprop(∃ r, prngReg c r)
  Y c := iprop(∃ r, prngReg c r)
  Z c := Pipeline.unscopedRest spec2 c (V4 m dA c)
  hentry c := by
    rw [Pipeline.ownSems0_none]
    have hsplit := Pipeline.arrays_of_unscopedBufs (p := 1) (pcfgs (F := F)) adm (pdats m dA) launch2.win launch2.arr_whole c
      ((pdats m dA 1 c).share_full fun _ => rfl) (V4 m dA c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m dA 1 c).Φ 0 = Φ2 (F := F) c from rfl]; unfold Φ2
    iintro ⟨Hp, -, Hr⟩
    isplitl [Hr]; · iexact Hr
    iexact Hp
  hout c := by
    rw [Pipeline.ownSems0_none, show (pdats m dA 1 c).Φ (Fin.last _) = Φ2 (F := F) c from rfl]; unfold Φ2
    iintro ⟨Hr, Hp⟩
    isplitl [Hp]; · iexact Hp
    isplitr; · iempintro
    iexact Hr
  hexit c := by
    have hjoin := Pipeline.unscopedBufs_of_arrays (p := 1) (pcfgs (F := F)) adm
      launch2.win launch2.arr_whole c (pdats m dA) ((pdats m dA 1 c).share_full fun _ => rfl)
      (V4 m dA c) (fun b => W5 m dA c b) ((pdats m dA 1 c).arrAt · cfg2.N) (fun w => (W5_arr m dA c w).symm)
      fun b hb => W5_of_ne m dA c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Main3b.lean ====
import proofs.«218716_g83915071029270_cont_9to1c4b_613_31_alg».proof.Proof.K.Main3

noncomputable section

namespace Cert.Kernel.Hand

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)
variable (dA : (c : Dev nD) → Dat τ (Elt F) (HIx 1) ℕ UU ℕ cfg1 c)

theorem arrImage1 : (Finset.univ.image (Pipeline.arrRef spec1) : Finset (Ref sig .tc)) = {main_v5, main_v4, main_v7_0, main_v7_1} := by decide

theorem pointsTo_halves {ℓ : Loc nD τ sig} (f : Buf (Elt F) ℓ) :
    (ℓ ↦{fullShare} f : sProp 𝕄) = iprop((ℓ ↦{(fullShare : PosShare TreeShare).left} f) ∗ (ℓ ↦{(fullShare : PosShare TreeShare).right} f)) :=
  BI.Entails.antisymm (pointsTo_share (PosShare.mem_left_op_right fullShare)).1 (pointsTo_share (PosShare.mem_left_op_right fullShare)).2

-- what the segment asks of the counting region's proof data
structure DAFacts : Prop where
  owed : ∀ c t, (dA c).owed t = 0
  recd : ∀ c t, (dA c).recorded t = Set.univ
  s0 : ∀ c, (dA c).share 0 = (fullShare : PosShare TreeShare).left
  s1 : ∀ c, (dA c).share 1 = (fullShare : PosShare TreeShare).right
  s2 : ∀ c, (dA c).share 2 = fullShare
  s3 : ∀ c, (dA c).share 3 = fullShare
  s4 : ∀ c, (dA c).share 4 = fullShare
  at0 : ∀ c w, (dA c).arrAt w 0 = V2 m c (Pipeline.arrRef spec1 w)
  atN : ∀ c w, (cfg1.win w).isOut = false → (dA c).arrAt w cfg1.N = V2 m c (Pipeline.arrRef spec1 w)
  hin : ∀ c, iprop((∃ r, prngReg c r) ∗ Pipeline.prefHeld (pcfgs (F := F) 0).pre c (fun _ => fullShare) (adm (F := F) 0).1
      ∗ Pipeline.scopedRest (Ix := HIx 1) (Name := ℕ) (U := UU) (Lvl := ℕ) (Val := Elt F) spec1 c) ⊢ ((dA c).Φ 0 : sProp 𝕄)
  hout : ∀ c, ((dA c).Φ (Fin.last cfg1.N) : sProp 𝕄)
    ⊢ iprop((∃ r, prngReg c r) ∗ Pipeline.scopedRest (Ix := HIx 1) (Name := ℕ) (U := UU) (Lvl := ℕ) (Val := Elt F) spec1 c)
  hbody : ∀ c, BodyObligation (dA c) (defs₀ (F := F)) Variants.none (none : HIx 1) Set.univ

-- a full share is its two halves together, so the one array that two windows name is held once
theorem arrays_eq1 (h : DAFacts m dA) (c : Dev nD) (Vv : (b : Ref sig .tc) → Buf (Elt F) ((c : Thread nD τ).loc b))
    (Fv : (w : Fin cfg1.W) → Buf (Elt F) ((cfg1.win w).arr.view.loc (c.tc : Thread nD τ)))
    (hF : ∀ w, Fv w = Vv (Pipeline.arrRef spec1 w)) :
    (Pipeline.arrBufs spec1 c Vv : sProp 𝕄) = (dA c).arrays Fv := by
  unfold Pipeline.arrBufs Pipeline.Dat.arrays
  rw [arrImage1, bigSep_W1, h.s0, h.s1, h.s2, h.s3, h.s4, hF 0, hF 1, hF 2, hF 3, hF 4,
    (arr_whole1 0).set_eq_univ, (arr_whole1 2).set_eq_univ, (arr_whole1 3).set_eq_univ, (arr_whole1 4).set_eq_univ,
    SparseCore.bigSep_insert' (by decide), SparseCore.bigSep_insert' (by decide), SparseCore.bigSep_insert' (by decide), bigSep_singleton,
    pointsTo_halves (Vv main_v5)]
  refine (BI.equiv_iff).mp ⟨?_, ?_⟩
  · show (_ : sProp 𝕄) ⊢ _
    iintro ⟨⟨H0, H1⟩, H2, H3, H4⟩
    iframe
  · show (_ : sProp 𝕄) ⊢ _
    iintro ⟨H0, H1, H2, H3, H4⟩
    iframe

theorem owesAt_eq (h : DAFacts m dA) (c : Dev nD) (t : Fin (cfg1.N + 1)) :
    ((dA c).owesAt (none : HIx 1) t : sProp 𝕄) = iprop(∃ W, owes (c : Thread nD τ) (0 : CellTallies nD τ sig (HIx 1)) W) := by
  unfold Pipeline.Dat.owesAt Pipeline.owesWithin
  rw [h.owed c t]
  refine BI.Entails.antisymm ?_ ?_
  · show (_ : sProp 𝕄) ⊢ _
    iintro ⟨%W, -, HO⟩
    iexists W; iexact HO
  · show (_ : sProp 𝕄) ⊢ _
    iintro ⟨%W, HO⟩
    iexists W
    isplitr
    · ipureintro; unfold Pipeline.Dat.bound; rw [h.recd c t]; exact fun _ _ => Or.inl trivial
    iexact HO

abbrev V3 : (c : Dev nD) → (b : Ref sig .tc) → Buf (Elt F) ((c : Thread nD τ).loc b) := fun c b => W3 m dA c b

theorem V3_c0 (c : Dev nD) : V3 m dA c main_v7_0 = (dA c).arrAt 3 cfg1.N := by
  show W3 m dA c c0' = _
  unfold W3; rw [Function.update_of_ne (show c0' ≠ c1' by decide)]; exact Function.update_self _ _ _
theorem V3_c1 (c : Dev nD) : V3 m dA c main_v7_1 = (dA c).arrAt 4 cfg1.N := by
  show W3 m dA c c1' = _
  unfold W3; exact Function.update_self _ _ _
theorem V3_of_ne (c : Dev nD) (b : Ref sig .tc) (h0 : b ≠ main_v7_0) (h1 : b ≠ main_v7_1) : V3 m dA c b = V2 m c b := by
  show W3 m dA c (Proc.devRef .tc b) = W2 m c (Proc.devRef .tc b)
  unfold W3
  rw [Function.update_of_ne (StableHlo.devRef_ne_of_ne h1), Function.update_of_ne (StableHlo.devRef_ne_of_ne h0)]

theorem unscopedRest_V3 (c : Dev nD) :
    (Pipeline.unscopedRest spec1 c (V3 m dA c) : sProp 𝕄)
      = Pipeline.unscopedRest spec1 c (V2 m c) := by
  unfold Pipeline.unscopedRest
  refine bigSep_congr fun b hb => ?_
  have hb' := (Finset.mem_sdiff.mp hb).2
  rw [arrImage1] at hb'
  rw [V3_of_ne m dA c b (fun e => hb' (by rw [e]; decide)) (fun e => hb' (by rw [e]; decide))]

theorem held_split1 (c : Dev nD) (W : Valuation τ sig (Elt F)) :
    (StableHlo.held (c : Thread nD τ) (Pipeline.ucRefs τ sig) W : sProp 𝕄)
      = iprop(Pipeline.arrBufs spec1 c (fun b => W b)
          ∗ Pipeline.unscopedRest spec1 c (fun b => W b)) := by
  rw [← Pipeline.unscopedBufs_held c W]
  exact Pipeline.unscopedBufs_split₀ cfgs (0 : Fin 2) winFacts₀1.arr_unscoped c (fun b => W b)

set_option backward.isDefEq.respectTransparency.types false in
def reg1 (h : DAFacts m dA) :
    Pipeline.RegionSeg (pcfgs (F := F)) adm (pdats m dA) (none : HIx 1) defs₀ 𝒱₀ (LL (F := F)) (lvv (F := F)) 0 where
  win := winFacts₀1
  block_pos := block_pos1
  stage_whole := stage_whole1
  K := PEmpty
  osem k := k.elim
  ho := Pipeline.OwnSemFacts.none _
  hbody c := (h.hbody c).loose
  hwaits := Pipeline.hwaits_of_owed_zero _ _ _ _ (LL (F := F)) (lvv (F := F)) 0 fun c t => h.owed c t
  pre c := iprop(StableHlo.held (c : Thread nD τ) (Pipeline.ucRefs τ sig) (W2 m c) ∗ R c)
  post c := iprop(StableHlo.held (c : Thread nD τ) (Pipeline.ucRefs τ sig) (W3 m dA c) ∗ R c)
  X c := iprop(∃ r, prngReg c r)
  Y c := iprop(∃ r, prngReg c r)
  Z c := Pipeline.unscopedRest spec1 c (V2 m c)
  hentry c := by
    rw [Pipeline.ownSems0_none]
    have hsplit : (StableHlo.held (c : Thread nD τ) (Pipeline.ucRefs τ sig) (W2 m c) : sProp 𝕄)
        = iprop((pdats m dA 0 c).arrays ((pdats m dA 0 c).arrAt · 0)
            ∗ Pipeline.unscopedRest spec1 c (V2 m c)) := by
      rw [held_split1 c (W2 m c), arrays_eq1 m dA h c (V2 m c) ((dA c).arrAt · 0) (h.at0 c)]
      rfl
    iintro ⟨⟨Hub, Hp, HO⟩, -, -⟩
    ihave H := (Entails.of_eq hsplit) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Entails.of_eq (owesAt_eq m dA h c 0).symm); iexact HO
    isplitl [Hp]; · iexact Hp
    iexact Hrest
  hin c := h.hin c
  hout c := by
    rw [Pipeline.ownSems0_none]
    exact (h.hout c).trans (sep_mono_r emp_sep_intro)
  hexit c := by
    have hjoin : iprop((pdats m dA 0 c).arrays ((pdats m dA 0 c).arrAt · cfg1.N)
          ∗ Pipeline.unscopedRest spec1 c (V2 m c))
        = (StableHlo.held (c : Thread nD τ) (Pipeline.ucRefs τ sig) (W3 m dA c) : sProp 𝕄) := by
      rw [held_split1 c (W3 m dA c), ← unscopedRest_V3 m dA c,
        arrays_eq1 m dA h c (V3 m dA c) ((dA c).arrAt · cfg1.N) (fun w => by
          match w with
          | ⟨0, _⟩ | ⟨1, _⟩ => exact (h.atN c _ rfl).trans (V3_of_ne m dA c main_v5 (by decide) (by decide)).symm
          | ⟨2, _⟩ => exact (h.atN c _ rfl).trans (V3_of_ne m dA c main_v4 (by decide) (by decide)).symm
          | ⟨3, _⟩ => exact (V3_c0 m dA c).symm
          | ⟨4, _⟩ => exact (V3_c1 m dA c).symm)]
      rfl
    iintro ⟨Ha, HO, HY, Hrest⟩
    imodintro
    isplitl [Ha Hrest]
    · iapply (Entails.of_eq hjoin); isplitl [Ha] <;> iassumption
    isplitl [HY]; · iexact HY
    iapply (Entails.of_eq (owesAt_eq m dA h c (Fin.last cfg1.N))); iexact HO

end Cert.Kernel.Hand

end
-- ==== Proof.K.Main4.lean ====
import proofs.«218716_g83915071029270_cont_9to1c4b_613_31_alg».proof.Proof.K.Main3b

noncomputable section

namespace Cert.Kernel.Hand

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)
variable (dA : (c : Dev nD) → Dat τ (Elt F) (HIx 1) ℕ UU ℕ cfg1 c)

abbrev segs (h : DAFacts m dA) : List (Pipeline.Seg (pcfgs (F := F)) adm (pdats m dA) (none : HIx 1) defs₀ 𝒱₀ (LL (F := F)) (lvv (F := F))) :=
  [ .region (reg1 m dA h),
    .host (hseg opsB (StableHlo.reshape_bufs_sub ..) rfl (W3 m dA)),
    .region (reg2 m dA h.owed),
    .host (hseg opsC (StableHlo.reshape_bufs_sub ..) rfl (W5 m dA)) ]

theorem tail_run (h : DAFacts m dA) : innerTail (F := F) = Pipeline.Seg.run (segs m dA h) := rfl

-- with one call only, every recorded level is at most 8
theorem wbelow_any (d : Dev nD) (W : Waits sig (HIx 1)) : (K (F := F)).WBelow (T d) W (8 * 1) := by
  intro p _
  rcases p with ⟨sm, ι⟩
  cases ι with
  | none => simp
  | some q =>
    have := (K (F := F)).lev_some_le (T d, sm) q
    have hq : q.val = 0 := by omega
    show (K (F := F)).lev (T d, sm) (some q) ≤ 8 * 1
    omega

theorem tcSt_swap (d : Dev nD) :
    ((K (F := F)).tcSt EH d 1 : sProp 𝕄) ⊢ iprop((∃ W, owes (T d) (0 : CellTallies nD τ sig (HIx 1)) W)
      ∗ ((∃ W, owes (T d) (0 : CellTallies nD τ sig (HIx 1)) W) -∗ (K (F := F)).tcSt EH d 1)) := by
  unfold SparseCore.Cfg.tcSt
  rw [(K (F := F)).Otc_end d (n := 1) le_rfl]
  iintro ⟨⟨%W, -, HO⟩, Hrest⟩
  isplitl [HO]; · iexists W; iexact HO
  iintro ⟨%W', HO⟩
  isplitl [HO]
  · iexists W'; isplitr; · ipureintro; exact wbelow_any d W'
    iexact HO
  iexact Hrest

abbrev FIN (d : Dev nD) : sProp 𝕄 := held (T d) (Pipeline.ucRefs τ sig) (W6 m dA d)

set_option backward.isDefEq.respectTransparency.types false in
theorem hmain (h : DAFacts m dA) (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m dA d) := by
  unfold SparseCore.Cfg.tcRes
  rw [main_split, unscoped_held]
  iintro ⟨#Hctx, Hst, ⟨Hb, Hheld, -, Hprng⟩, HG⟩
  iapply (StableHlo.wp_seq (defs := (K (F := F)).defs (D (F := F))) 𝒱 none Set.univ d (Pipeline.ucRefs τ sig) _ (opsA (F := F)) opsA_sub opsA_fresh (W0 m d)) $$ [Hb Hheld]
  · isplitl [Hb] <;> iassumption
  iintro ⟨Hb, Hheld⟩
  ihave H3 := (Entails.of_eq (held_split3 (F := F) d (W1 m d))) $$ Hheld
  icases H3 with ⟨⟨Hx, Ha, Ho⟩, Hrest⟩
  rw [wp_bind]
  iapply ((K (F := F)).wp_run (D (F := F)) 𝒱 (EH := EH) (P := PP m) κ d 0) $$ [Hst Hx Ha Ho Hb Hrest Hprng HG]
  isplitr; · iexact Hctx
  isplitl [Hst]; · iexact Hst
  isplitl [Hx Ha Ho]
  · iapply (st_of_whole (f3 m) (fa m) (f6 m) d)
    isplitl [Hx]; · iexact Hx
    isplitl [Ha]; · iexact Ha
    iexact Ho
  iintro ⟨Hst, Hdn⟩
  ihave H := (whole_of_dn (f3 m) (fa m) (f6 m) d) $$ Hdn
  icases H with ⟨Hx, Ha, Ho⟩
  ihave Hheld := (held_W2 m d) $$ [Hx Ha Ho Hrest]
  · iframe
  iapply ((K (F := F)).wp_liftProg (D (F := F)) 𝒱 (SparseCore.T d) Set.univ none (innerTail (F := F)) _)
  rw [tail_run m dA h]
  ihave H := (tcSt_swap (F := F) d) $$ [Hst]
  · iexact Hst
  icases H with ⟨HO, Hclose⟩
  ihave Hlev := ((K (F := F)).ctx_levAts (EH := EH) (P := PP m) κ) $$ Hctx
  iapply (Pipeline.wp_segs (pcfgs (F := F)) adm (pdats m dA) (none : HIx 1) cellOf_inj (EP (F := F)) defs₀ 𝒱₀ (LL (F := F)) (lvv (F := F)) d
      (segs m dA h) Finset.univ
      (fun c => iprop(StableHlo.held (c : Thread nD τ) (Pipeline.ucRefs τ sig) (W2 m c) ∗ R c))
      (fun c => iprop(StableHlo.held (c : Thread nD τ) (Pipeline.ucRefs τ sig) (W6 m dA c) ∗ R c))
      (by simp only [segs, Pipeline.Seg.pipes_host, Pipeline.Seg.pipes_region, Pipeline.Seg.pipes_nil]; decide)
      (fun p _ => Finset.mem_univ p)
      ⟨fun _ => .rfl, fun _ => .rfl, fun _ => .rfl, fun _ => .rfl, fun _ => .rfl⟩) $$ [Hclose Hb Hheld Hprng HO Hlev HG]
  isplitl [Hclose]
  · iintro ⟨-, ⟨Hh, -, HO⟩⟩
    isplitl [HO Hclose]
    · iapply Hclose; iexact HO
    iexact Hh
  isplitl [Hb]; · iexact Hb
  isplitl [Hheld Hprng HO]
  · isplitl [Hheld]; · iexact Hheld
    isplitl [Hprng]; · iexists _; iexact Hprng
    iexact HO
  isplitl [Hlev]; · iexact Hlev
  iexact HG

def fq (d : Dev nD) (s' : Phys nD τ sig (Elt F)) : Prop := ∀ b ∈ Pipeline.ucRefs τ sig, s'.mem.mem (d, b) = W6 m dA d b

theorem hfin (d : Dev nD) (s' : Phys nD τ sig (Elt F)) : iprop(FIN m dA d ∗ SI s') ⊢ (⌜fq m dA d s'⌝ : sProp 𝕄) := by
  unfold FIN StableHlo.held
  iintro ⟨Hh, HSI⟩
  ihave H := (pointsTo_read_all (Pipeline.ucRefs τ sig) (fun b => ((d, b) : Loc nD τ sig)) (W6 m dA d) s') $$ [Hh HSI]
  · isplitl [Hh] <;> iassumption
  icases H with ⟨%hh, -⟩
  ipureintro; exact hh

def QC : PUnit × MemSt nD τ sig (Elt F) → Prop := fun r => ∀ c : Dev nD, ∀ b ∈ Pipeline.ucRefs τ sig, r.2.mem (c, b) = W6 m dA c b

-- the run ends with every buffer that is never scoped at the last boundary's contents
theorem run_main [∀ e, Nonempty (Elt F e)] (h : DAFacts m dA) (hin : ∀ d, Cert.Spec.InRange (fa m d)) :
    θ_run (Cert.Kernel.defs (F := F)) (Cert.Kernel.threads (F := F)) ⟨m, fun _ => 0, ρ⟩ (QC m dA) :=
  SparseCore.Cfg.θ_run_sc (K := K (F := F)) (D := D (F := F)) (𝒱 := 𝒱) (EH := EH) (P := PP m) facts v₀
    (fun q hq => match q with | 0 => nomatch hq)
    (fun q _ => match q with | 0 => tileObl (f3 m) (fa m) (f6 m) facts hin)
    (fun q _ => match q with | 0 => SparseCore.Cfg.VecSplit.of_plain (vecSplit (f3 m) (fa m) (f6 m)))
    m ρ main (fun d => G (F := F) d) (FIN m dA) (u₀ (F := F)) (sep_elim_left.trans (hu₀ (PP m) (fun _ _ => rfl)))
    (hmain m ρ dA h) (fq m dA) (hfin m dA) (QC m dA) (fun _ hh => hh)

end Cert.Kernel.Hand

end
-- ==== Proof.K.Region1Spec.lean ====
import proofs.«218716_g83915071029270_cont_9to1c4b_613_31_alg».proof.Proof.Gen.Kernel.Skeleton
import Idealize.ShloMosaic.Lib.Pipeline.FrameBody

noncomputable section

namespace Cert.Kernel.Hand

open Cert.Kernel Cert.Kernel.Gen
open Idealize.ShloMosaic Idealize.SL.Sem

variable {F : FTy → Type} [FloatOps F]

abbrev LabArr (F : FTy → Type) : Type := Vec F S2048x128 .i32

abbrev DistArr (F : FTy → Type) : Type := Vec F S64x262144 .f32

def lab256 (a5 : LabArr F) (t : Fin cfg1.N) : Vec F S256x128 .i32 := ((cfg1.win 0).blk t).view.read (Elt F) a5

def lab64 (a5 : LabArr F) (t : Fin cfg1.N) : Vec F S64x128 .i32 := ((cfg1.win 1).blk t).view.read (Elt F) a5

def dist8192 (d4 : DistArr F) (t : Fin cfg1.N) : Vec F S64x8192 .f32 := ((cfg1.win 2).blk t).view.read (Elt F) d4

abbrev rows16 (lab16 : Vec F S256x128 .i16) (k : Fin k1_t1_loop.trips) : Vec F S16x128 .i16 :=
  View.ld lab16 (Rect.unit (s := S256x128) (k1_off1 k) S16x128.size (k1_off1_inb k))

def accTrip (lab16 : Vec F S256x128 .i16) (k : Fin k1_t1_loop.trips) (acc : Vec F S64x128 .i16) : Vec F S64x128 .i16 :=
  have v9 : IVec S64x128 16 := iota .tc S64x128 16 [0] iota_S64x128_d0_w16
  have v541 : Vec F S16x128 .i16 := rows16 lab16 k
  k1_pay9 v541 (k1_pay4 v9 acc v541) (k1_pay5 v9 v541)

def accLoop (lab16 : Vec F S256x128 .i16) (init : Vec F S64x128 .i16) : ℕ → Vec F S64x128 .i16
  | 0 => init
  | k + 1 => if h : k < k1_t1_loop.trips then accTrip lab16 ⟨k, h⟩ (accLoop lab16 init k) else accLoop lab16 init k

def accStep (lab : Vec F S256x128 .i32) (acc : Vec F S64x128 .i16) : Vec F S64x128 .i16 :=
  k1_pay10 (F := F) (accLoop (k1_pay8 lab) acc k1_t1_loop.trips)

def accAfter (a5 : LabArr F) : ℕ → Vec F S64x128 .i16
  | 0 => k1_pay6
  | n + 1 => if h : n < cfg1.N then accStep (lab256 a5 ⟨n, h⟩) (accAfter a5 n) else accAfter a5 n

def cntOut (a5 : LabArr F) : IVec S64x128 32 := k1_pay2 (F := F) (accAfter a5 8)

abbrev dslice (dblk : Vec F S64x8192 .f32) (off : ℕ) (inb : ∀ a, (![0, off] : Fin 2 → Nat) a + S64x128.size a ≤ S64x8192.size a) :
    Vec F S64x128 .f32 :=
  View.ld dblk (Rect.unit (s := S64x8192) ![0, off] S64x128.size inb)

def accdStep (lab : Vec F S64x128 .i32) (dblk : Vec F S64x8192 .f32) (accd : Vec F S64x128 .f32) : Vec F S64x128 .f32 :=
  have v16 : IVec S64x128 32 := iota .tc S64x128 32 [0] iota_S64x128_d0_w32
  have v21 := dslice dblk 0 inb_S64x8192_S64x128_0_0
  have v29 := dslice dblk 128 inb_S64x8192_S64x128_0_128
  have v37 := dslice dblk 256 inb_S64x8192_S64x128_0_256
  have v45 := dslice dblk 384 inb_S64x8192_S64x128_0_384
  have v53 := dslice dblk 512 inb_S64x8192_S64x128_0_512
  have v61 := dslice dblk 640 inb_S64x8192_S64x128_0_640
  have v69 := dslice dblk 768 inb_S64x8192_S64x128_0_768
  have v77 := dslice dblk 896 inb_S64x8192_S64x128_0_896
  have v85 := dslice dblk 1024 inb_S64x8192_S64x128_0_1024
  have v93 := dslice dblk 1152 inb_S64x8192_S64x128_0_1152
  have v101 := dslice dblk 1280 inb_S64x8192_S64x128_0_1280
  have v109 := dslice dblk 1408 inb_S64x8192_S64x128_0_1408
  have v117 := dslice dblk 1536 inb_S64x8192_S64x128_0_1536
  have v125 := dslice dblk 1664 inb_S64x8192_S64x128_0_1664
  have v133 := dslice dblk 1792 inb_S64x8192_S64x128_0_1792
  have v141 := dslice dblk 1920 inb_S64x8192_S64x128_0_1920
  have v149 := dslice dblk 2048 inb_S64x8192_S64x128_0_2048
  have v157 := dslice dblk 2176 inb_S64x8192_S64x128_0_2176
  have v165 := dslice dblk 2304 inb_S64x8192_S64x128_0_2304
  have v173 := dslice dblk 2432 inb_S64x8192_S64x128_0_2432
  have v181 := dslice dblk 2560 inb_S64x8192_S64x128_0_2560
  have v189 := dslice dblk 2688 inb_S64x8192_S64x128_0_2688
  have v197 := dslice dblk 2816 inb_S64x8192_S64x128_0_2816
  have v205 := dslice dblk 2944 inb_S64x8192_S64x128_0_2944
  have v213 := dslice dblk 3072 inb_S64x8192_S64x128_0_3072
  have v221 := dslice dblk 3200 inb_S64x8192_S64x128_0_3200
  have v229 := dslice dblk 3328 inb_S64x8192_S64x128_0_3328
  have v237 := dslice dblk 3456 inb_S64x8192_S64x128_0_3456
  have v245 := dslice dblk 3584 inb_S64x8192_S64x128_0_3584
  have v253 := dslice dblk 3712 inb_S64x8192_S64x128_0_3712
  have v261 := dslice dblk 3840 inb_S64x8192_S64x128_0_3840
  have v269 := dslice dblk 3968 inb_S64x8192_S64x128_0_3968
  have v277 := dslice dblk 4096 inb_S64x8192_S64x128_0_4096
  have v285 := dslice dblk 4224 inb_S64x8192_S64x128_0_4224
  have v293 := dslice dblk 4352 inb_S64x8192_S64x128_0_4352
  have v301 := dslice dblk 4480 inb_S64x8192_S64x128_0_4480
  have v309 := dslice dblk 4608 inb_S64x8192_S64x128_0_4608
  have v317 := dslice dblk 4736 inb_S64x8192_S64x128_0_4736
  have v325 := dslice dblk 4864 inb_S64x8192_S64x128_0_4864
  have v333 := dslice dblk 4992 inb_S64x8192_S64x128_0_4992
  have v341 := dslice dblk 5120 inb_S64x8192_S64x128_0_5120
  have v349 := dslice dblk 5248 inb_S64x8192_S64x128_0_5248
  have v357 := dslice dblk 5376 inb_S64x8192_S64x128_0_5376
  have v365 := dslice dblk 5504 inb_S64x8192_S64x128_0_5504
  have v373 := dslice dblk 5632 inb_S64x8192_S64x128_0_5632
  have v381 := dslice dblk 5760 inb_S64x8192_S64x128_0_5760
  have v389 := dslice dblk 5888 inb_S64x8192_S64x128_0_5888
  have v397 := dslice dblk 6016 inb_S64x8192_S64x128_0_6016
  have v405 := dslice dblk 6144 inb_S64x8192_S64x128_0_6144
  have v413 := dslice dblk 6272 inb_S64x8192_S64x128_0_6272
  have v421 := dslice dblk 6400 inb_S64x8192_S64x128_0_6400
  have v429 := dslice dblk 6528 inb_S64x8192_S64x128_0_6528
  have v437 := dslice dblk 6656 inb_S64x8192_S64x128_0_6656
  have v445 := dslice dblk 6784 inb_S64x8192_S64x128_0_6784
  have v453 := dslice dblk 6912 inb_S64x8192_S64x128_0_6912
  have v461 := dslice dblk 7040 inb_S64x8192_S64x128_0_7040
  have v469 := dslice dblk 7168 inb_S64x8192_S64x128_0_7168
  have v477 := dslice dblk 7296 inb_S64x8192_S64x128_0_7296
  have v485 := dslice dblk 7424 inb_S64x8192_S64x128_0_7424
  have v493 := dslice dblk 7552 inb_S64x8192_S64x128_0_7552
  have v501 := dslice dblk 7680 inb_S64x8192_S64x128_0_7680
  have v509 := dslice dblk 7808 inb_S64x8192_S64x128_0_7808
  have v517 := dslice dblk 7936 inb_S64x8192_S64x128_0_7936
  have v525 := dslice dblk 8064 inb_S64x8192_S64x128_0_8064
  have v18 := k1_pay11 (F := F) lab
  have v27 := k1_pay12 lab accd v21
  have v30 := k1_pay13 v29
  have v32 := k1_pay14 (F := F) lab
  have v75 := k1_pay15 v16 v18 v27 v30 v32 v37 v45 v53 v61 v69
  have v76 := k1_pay16 v18
  have v115 := k1_pay17 v16 v18 v75 v76 v77 v85 v93 v101 v109
  have v118 := k1_pay18 v117
  have v119 := k1_pay19 v18
  have v163 := k1_pay20 v16 v18 v115 v118 v119 v125 v133 v141 v149 v157
  have v203 := k1_pay21 v16 v18 v163 v165 v173 v181 v189 v197
  have v204 := k1_pay22 v18
  have v206 := k1_pay23 v205
  have v243 := k1_pay24 v16 v18 v203 v204 v206 v213 v221 v229 v237
  have v250 := k1_pay25 v16 v18 v245
  have v291 := k1_pay26 v16 v18 v243 v250 v253 v261 v269 v277 v285
  have v292 := k1_pay27 v18
  have v331 := k1_pay28 v16 v18 v291 v292 v293 v301 v309 v317 v325
  have v334 := k1_pay29 v333
  have v336 := k1_pay30 v16 v18
  have v337 := k1_pay31 (F := F)
  have v379 := k1_pay32 v16 v18 v331 v334 v336 v337 v341 v349 v357 v365 v373
  have v380 := k1_pay33 v18
  have v419 := k1_pay34 v16 v18 v379 v380 v381 v389 v397 v405 v413
  have v422 := k1_pay35 v421
  have v424 := k1_pay36 v16 v18
  have cst_115 : F .f32 := Scalar.ofBits .f32 0x00000000#32
  have v467 := k1_pay37 v16 v18 v419 v422 v424 cst_115 v429 v437 v445 v453 v461
  have v468 := k1_pay38 v18
  have v507 := k1_pay39 v16 v18 v467 v468 v469 v477 v485 v493 v501
  have v510 := k1_pay40 v509
  have v512 := k1_pay41 v16 v18
  k1_pay1 v16 v18 v507 v510 v512 v517 v525

def accdAfter (a5 : LabArr F) (d4 : DistArr F) : ℕ → Vec F S64x128 .f32
  | 0 => k1_pay7 (F := F)
  | n + 1 => if h : n < cfg1.N then accdStep (lab64 a5 ⟨n, h⟩) (dist8192 d4 ⟨n, h⟩) (accdAfter a5 d4 n) else accdAfter a5 d4 n

def tailOut (a5 : LabArr F) (d4 : DistArr F) : FVec F S1x64 .f32 := k1_pay3 (accdAfter a5 d4 8)

theorem accLoop_zero (lab16 : Vec F S256x128 .i16) (init : Vec F S64x128 .i16) : accLoop lab16 init 0 = init := rfl
theorem accLoop_succ (lab16 : Vec F S256x128 .i16) (init : Vec F S64x128 .i16) (k : Fin k1_t1_loop.trips) :
    accLoop lab16 init (k.val + 1) = accTrip lab16 k (accLoop lab16 init k.val) := by
  rw [accLoop]; exact dif_pos k.isLt
theorem accAfter_succ (a5 : LabArr F) (t : Fin cfg1.N) :
    accAfter a5 (t.val + 1) = accStep (lab256 a5 t) (accAfter a5 t.val) := by
  rw [accAfter]; exact dif_pos t.isLt
theorem accdAfter_succ (a5 : LabArr F) (d4 : DistArr F) (t : Fin cfg1.N) :
    accdAfter a5 d4 (t.val + 1) = accdStep (lab64 a5 t) (dist8192 d4 t) (accdAfter a5 d4 t.val) := by
  rw [accdAfter]; exact dif_pos t.isLt

end Cert.Kernel.Hand

end
-- ==== Proof.K.Region1Loop.lean ====
import proofs.«218716_g83915071029270_cont_9to1c4b_613_31_alg».proof.Proof.K.Ctx
import proofs.«218716_g83915071029270_cont_9to1c4b_613_31_alg».proof.Proof.K.Region1Spec
import proofs.«218716_g83915071029270_cont_9to1c4b_613_31_alg».proof.Proof.Gen.Kernel.Loops
import Idealize.ShloMosaic.Lib.Exec
import Idealize.ShloMosaic.Lib.Tactic

noncomputable section

namespace Cert.Kernel.Hand

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI Idealize.SL.BI.BIBase Idealize.SL.Sem

variable {F : FTy → Type} [FloatOps F]

local notation "𝕄" => MT nD τ sig (HIx 1) (Elt F) ℕ UU ℕ

abbrev inv1 (c : Dev nD) (arg8 : Memref sig .tc .vmem S256x128 .i16) (X_arg8 : BufTy.Contents (Elt F) arg8.view.ty)
    (init : Vec F S64x128 .i16) (k : ℕ) (acc : Vec F S64x128 .i16) : sProp 𝕄 :=
  iprop((arg8.view.loc (c : Thread nD τ) ↦[arg8.view.set]{fullShare} X_arg8) ∗ ⌜acc = accLoop (arg8.view.read (Elt F) X_arg8) init k⌝)

variable (𝒱 : Variants) (c : Dev nD) (bd : Option 𝒱.V) (E : Set ℕ) (i : grid1.Coords) (arg1 : Memref sig .tc .vmem S256x128 .i32) (harg1 : arg1.IsWhole) (arg2 : Memref sig .tc .vmem S64x128 .i32) (harg2 : arg2.IsWhole) (arg3 : Memref sig .tc .vmem S64x8192 .f32) (harg3 : arg3.IsWhole) (arg4 : Memref sig .tc .vmem S64x128 .i32) (harg4 : arg4.IsWhole) (arg5 : Memref sig .tc .vmem S1x64 .f32) (harg5 : arg5.IsWhole) (arg6 : Memref sig .tc .vmem S64x128 .i16) (harg6 : arg6.IsWhole) (arg7 : Memref sig .tc .vmem S64x128 .f32) (harg7 : arg7.IsWhole) (arg8 : Memref sig .tc .vmem S256x128 .i16) (harg8 : arg8.IsWhole)
  (X_arg8 : BufTy.Contents (Elt F) arg8.view.ty)

-- One trip reads sixteen rows of the narrowed labels and yields the counts with their one-hot compares added.
theorem trip1 (v9 : IVec S64x128 16) (hv9 : v9 = iota .tc S64x128 16 [0] iota_S64x128_d0_w16) (k : Fin k1_t1_loop.trips) (acc : Vec F S64x128 .i16) :
    (iprop(arg8.view.loc (c : Thread nD τ) ↦[arg8.view.set]{fullShare} X_arg8) : sProp 𝕄)
      ⊢ wp frame (wpE (defs₀ (F := F)) 𝒱 (c : Thread nD τ) bd) E (k1_t1_body (F := F) i arg1 harg1 arg2 harg2 arg3 harg3 arg4 harg4 arg5 harg5 arg6 harg6 arg7 harg7 arg8 harg8 v9 k acc)
          (fun yld => iprop(⌜yld = accTrip (arg8.view.read (Elt F) X_arg8) k acc⌝ ∗ (arg8.view.loc (c : Thread nD τ) ↦[arg8.view.set]{fullShare} X_arg8))) := by
  have hk : k.val < 16 := Nat.lt_of_lt_of_le k.isLt k1_t1_abs.2.1
  subst hv9
  unfold k1_t1_body
  iintro HR_arg8
  sl_exec
  sl_step
  sl_close

macro_rules | `(tactic| sl_pure) => `(tactic| with_reducible exact (Cert.Kernel.Hand.accLoop_zero ..).symm)

set_option warn.classDefReducibility false in
-- Before trip `k` the running counts are the loop's start with the first `k` trips applied.
@[sl_loop] def loopInv1 (init : Vec F S64x128 .i16) :
    LoopInvTy_k1_t1 (F := F) (HIx 1) ℕ UU ℕ 𝒱 c bd E i arg1 harg1 arg2 harg2 arg3 harg3 arg4 harg4 arg5 harg5 arg6 harg6 arg7 harg7 arg8 harg8 (iota .tc S64x128 16 [0] iota_S64x128_d0_w16) init where
  inv := inv1 (F := F) c arg8 X_arg8 init
  step k acc := by
    iintro ⟨HR_arg8, %h_acc⟩
    subst h_acc
    iapply (wp_wand_r Idealize.ShloMosaic.frame (wpE (defs₀ (F := F)) 𝒱 (c : Thread nD τ) bd) E)
    isplitl [HR_arg8]
    · iapply (trip1 (F := F) 𝒱 c bd E i arg1 harg1 arg2 harg2 arg3 harg3 arg4 harg4 arg5 harg5 arg6 harg6 arg7 harg7 arg8 harg8 X_arg8 _ rfl k _)
      iexact HR_arg8
    · iintro %yld ⟨%h_res, HR_arg8⟩
      isplitl [HR_arg8]; · iexact HR_arg8
      ipureintro; rw [h_res, accLoop_succ]

end Cert.Kernel.Hand

end
-- ==== Proof.K.Region1Runs.lean ====
import proofs.«218716_g83915071029270_cont_9to1c4b_613_31_alg».proof.Proof.K.Region1Loop
import proofs.«218716_g83915071029270_cont_9to1c4b_613_31_alg».proof.Proof.Gen.Kernel.Points
import proofs.«218716_g83915071029270_cont_9to1c4b_613_31_alg».proof.Proof.Gen.Kernel.Launch
import Idealize.ShloMosaic.Lib.Pipeline.FrameBody
import Idealize.ShloMosaic.Lib.Pipeline.Value
import Idealize.ShloMosaic.Lib.Ring

noncomputable section

namespace Cert.Kernel.Hand

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI Idealize.SL.BI.BIBase Idealize.SL.Sem

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

variable {F : FTy → Type} [FloatOps F]

local notation "𝕄" => MT nD τ sig (HIx 1) (Elt F) ℕ UU ℕ

-- The body's triple in a control case `C`: the inputs come back as they were, the two tables at `T0`, `T1` of the inputs and themselves, the two outputs at `O3`, `O4` of themselves and the new tables.
def Run1 (C : grid1.Coords → Prop) (T0 : Vec F S256x128 .i32 → Vec F S64x128 .i16 → Vec F S64x128 .i16)
    (T1 : Vec F S64x128 .i32 → Vec F S64x8192 .f32 → Vec F S64x128 .f32 → Vec F S64x128 .f32)
    (O3 : Vec F S64x128 .i32 → Vec F S64x128 .i16 → Vec F S64x128 .i32) (O4 : Vec F S1x64 .f32 → Vec F S64x128 .f32 → Vec F S1x64 .f32) : Prop :=
  ∀ (c : Dev nD) (i : grid1.Coords) (arg1 : Memref sig .tc .vmem S256x128 .i32) (harg1 : arg1.IsWhole) (arg2 : Memref sig .tc .vmem S64x128 .i32) (harg2 : arg2.IsWhole) (arg3 : Memref sig .tc .vmem S64x8192 .f32) (harg3 : arg3.IsWhole) (arg4 : Memref sig .tc .vmem S64x128 .i32) (harg4 : arg4.IsWhole) (arg5 : Memref sig .tc .vmem S1x64 .f32) (harg5 : arg5.IsWhole) (arg6 : Memref sig .tc .vmem S64x128 .i16) (harg6 : arg6.IsWhole) (arg7 : Memref sig .tc .vmem S64x128 .f32) (harg7 : arg7.IsWhole) (arg8 : Memref sig .tc .vmem S256x128 .i16) (harg8 : arg8.IsWhole), C i →
    ∀ (x0 : Vec F S256x128 .i32) (x1 : Vec F S64x128 .i32) (x2 : Vec F S64x8192 .f32) (x3 : Vec F S64x128 .i32) (x4 : Vec F S1x64 .f32) (x5 : Vec F S64x128 .i16) (x6 : Vec F S64x128 .f32) (E : Set ℕ) (K : PUnit → sProp 𝕄),
    iprop(owns c arg1 fullShare x0 ∗ owns c arg2 fullShare x1 ∗ owns c arg3 fullShare x2 ∗ owns c arg4 fullShare x3 ∗ owns c arg5 fullShare x4
        ∗ owns c arg6 fullShare x5 ∗ owns c arg7 fullShare x6 ∗ (∃ d, owns c arg8 fullShare d)
        ∗ (iprop(owns c arg1 fullShare x0 ∗ owns c arg2 fullShare x1 ∗ owns c arg3 fullShare x2
            ∗ owns c arg4 fullShare (O3 x3 (T0 x0 x5)) ∗ owns c arg5 fullShare (O4 x4 (T1 x1 x2 x6))
            ∗ owns c arg6 fullShare (T0 x0 x5) ∗ owns c arg7 fullShare (T1 x1 x2 x6) ∗ (∃ d, owns c arg8 fullShare d)) -∗ K ⟨⟩))
      ⊢ wp frame (wpE (defs₀ (F := F)) Variants.none c none) E (cc1__bincount_body i arg1 harg1 arg2 harg2 arg3 harg3 arg4 harg4 arg5 harg5 arg6 harg6 arg7 harg7 arg8 harg8) K

abbrev ms1_0 (t : Fin cfg1.N) : Memref sig .tc .vmem S256x128 .i32 := win1_0.stage (cfg1.slots t 0)
abbrev ms1_1 (t : Fin cfg1.N) : Memref sig .tc .vmem S64x128 .i32 := win1_1.stage (cfg1.slots t 1)
abbrev ms1_2 (t : Fin cfg1.N) : Memref sig .tc .vmem S64x8192 .f32 := win1_2.stage (cfg1.slots t 2)
abbrev ms1_3 (t : Fin cfg1.N) : Memref sig .tc .vmem S64x128 .i32 := win1_3.stage (cfg1.slots t 3)
abbrev ms1_4 (t : Fin cfg1.N) : Memref sig .tc .vmem S1x64 .f32 := win1_4.stage (cfg1.slots t 4)
abbrev scM1_0 : Memref sig .tc .vmem S64x128 .i16 := Memref.whole cc1_scratch0
abbrev scM1_1 : Memref sig .tc .vmem S64x128 .f32 := Memref.whole cc1_scratch1
abbrev scM1_2 : Memref sig .tc .vmem S256x128 .i16 := Memref.whole cc1_scratch2

end Cert.Kernel.Hand

end
-- ==== Proof.K.Region1Lib.lean ====
import Idealize.ShloMosaic.Lib.Pipeline.FrameBody
import Idealize.ShloMosaic.Lib.Pipeline.Value

noncomputable section

namespace Cert.Kernel.Hand

open Idealize.ShloMosaic

variable {Val : EltTy → Type} [∀ e, Nonempty (Val e)] {sig : RefSig} {κ : Kind} {sp : Space} {S : Shape} {e : EltTy}

theorem off00 : (![0, 0] : Fin 2 → ℕ) = fun _ => 0 := by
  funext a; fin_cases a <;> rfl

theorem read_writes_whole (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

theorem readAt_whole (v : View sig κ sp S e) (f : v.ty.Contents Val) {off : Fin S.rank → ℕ} (h : off = fun _ => 0)
    (inb : ∀ a, off a + S.size a ≤ S.size a) :
    v.readAt Val (Rect.unit off S.size inb).toLoadRect f = v.read Val f := by
  rw [View.readAt_eq_ld, View.ld_unit_zero h]

end Cert.Kernel.Hand

end
-- ==== Proof.K.Region1RunA.lean ====
import proofs.«218716_g83915071029270_cont_9to1c4b_613_31_alg».proof.Proof.K.Region1Runs
import proofs.«218716_g83915071029270_cont_9to1c4b_613_31_alg».proof.Proof.K.Region1Lib

noncomputable section

namespace Cert.Kernel.Hand

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI Idealize.SL.BI.BIBase Idealize.SL.Sem

variable {F : FTy → Type} [FloatOps F]

local notation "𝕄" => MT nD τ sig (HIx 1) (Elt F) ℕ UU ℕ

theorem run1_A : Run1 (F := F) (fun i => cond1_0 i ∧ ¬cond1_1 i) (fun x0 _ => accStep x0 k1_pay6) (fun x1 x2 _ => accdStep x1 x2 (k1_pay7 (F := F)))
    (fun x3 _ => x3) (fun x4 _ => x4) := by
  rintro c i arg1 harg1 arg2 harg2 arg3 harg3 arg4 harg4 arg5 harg5 arg6 harg6 arg7 harg7 arg8 harg8 ⟨hc0, hc1⟩ x0 x1 x2 xi3 xi4 xs0 xs1 E K
  simp only [cc1__bincount_body_eq_skeleton]; unfold cc1__bincount_body_skel
  unfold owns
  iintro ⟨⟨%f1, %hf1, H1⟩, ⟨%f2, %hf2, H2⟩, ⟨%f3, %hf3, H3⟩, ⟨%f4, %hf4, H4⟩, ⟨%f5, %hf5, H5⟩, ⟨%f6, -, H6⟩, ⟨%f7, -, H7⟩, ⟨%d8, %f8, -, H8⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [read_writes_whole (S := S64x128) _ _ off00]
    unfold accStep
    rw [read_writes_whole (S := S256x128) _ _ off00, readAt_whole (S := S256x128) _ _ off00, View.readCov_unit_zero (S := S64x128) _ off00, harg1.read_unread]
  isplitl [H7]
  · iexists _; isplitr
    swap; · iexact H7
    ipureintro
    sl_unfold_words
    rw [read_writes_whole (S := S64x128) _ _ off00]
    simp only [View.readCov_unit_zero (S := S64x128) _ off00, View.readAt_eq_ld, harg2.read_unread, harg3.read_unread, View.ld_unit_zero (S := S64x128) off00]
    unfold accdStep
    with_reducible rfl
  iexists _, _; isplitr
  swap; · iexact H8
  ipureintro; rfl

end Cert.Kernel.Hand

end
-- ==== Proof.K.Region1RunB.lean ====
import proofs.«218716_g83915071029270_cont_9to1c4b_613_31_alg».proof.Proof.K.Region1Runs
import proofs.«218716_g83915071029270_cont_9to1c4b_613_31_alg».proof.Proof.K.Region1Lib

noncomputable section

namespace Cert.Kernel.Hand

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI Idealize.SL.BI.BIBase Idealize.SL.Sem

variable {F : FTy → Type} [FloatOps F]

local notation "𝕄" => MT nD τ sig (HIx 1) (Elt F) ℕ UU ℕ

theorem run1_B : Run1 (F := F) (fun i => ¬cond1_0 i ∧ ¬cond1_1 i) accStep accdStep (fun x3 _ => x3) (fun x4 _ => x4) := by
  rintro c i arg1 harg1 arg2 harg2 arg3 harg3 arg4 harg4 arg5 harg5 arg6 harg6 arg7 harg7 arg8 harg8 ⟨hc0, hc1⟩ x0 x1 x2 xi3 xi4 xs0 xs1 E K
  simp only [cc1__bincount_body_eq_skeleton]; unfold cc1__bincount_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  obtain rfl := harg1.eq_unread hf1; obtain rfl := harg2.eq_unread hf2; obtain rfl := harg3.eq_unread hf3
  obtain rfl := harg4.eq_unread hf4; obtain rfl := harg5.eq_unread hf5
  obtain rfl := harg6.eq_unread hf6; obtain rfl := harg7.eq_unread hf7
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [read_writes_whole _ _ off00]
    unfold accStep
    sl_unfold_words
    rw [read_writes_whole _ _ off00, readAt_whole _ _ off00, readAt_whole _ _ off00, harg1.read_unread, harg6.read_unread]
  isplitl [H7]
  · iexists _; isplitr
    swap; · iexact H7
    ipureintro
    rw [read_writes_whole _ _ off00]
    sl_unfold_words
    simp only [View.readAt_eq_ld, harg2.read_unread, harg3.read_unread, harg7.read_unread, View.ld_unit_zero (S := S64x128) off00]
    rfl
  iexists _, _; isplitr
  swap; · iexact H8
  ipureintro; rfl

end Cert.Kernel.Hand

end
-- ==== Proof.K.Region1RunC.lean ====
import proofs.«218716_g83915071029270_cont_9to1c4b_613_31_alg».proof.Proof.K.Region1Runs
import proofs.«218716_g83915071029270_cont_9to1c4b_613_31_alg».proof.Proof.K.Region1Lib

noncomputable section

namespace Cert.Kernel.Hand

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI Idealize.SL.BI.BIBase Idealize.SL.Sem

variable {F : FTy → Type} [FloatOps F]

local notation "𝕄" => MT nD τ sig (HIx 1) (Elt F) ℕ UU ℕ

theorem run1_C : Run1 (F := F) (fun i => ¬cond1_0 i ∧ cond1_1 i) accStep accdStep (fun _ s => k1_pay2 (F := F) s) (fun _ s => k1_pay3 s) := by
  rintro c i arg1 harg1 arg2 harg2 arg3 harg3 arg4 harg4 arg5 harg5 arg6 harg6 arg7 harg7 arg8 harg8 ⟨hc0, hc1⟩ x0 x1 x2 xi3 xi4 xs0 xs1 E K
  simp only [cc1__bincount_body_eq_skeleton]; unfold cc1__bincount_body_skel
  unfold owns
  iintro ⟨⟨%f1, %hf1, H1⟩, ⟨%f2, %hf2, H2⟩, ⟨%f3, %hf3, H3⟩, ⟨%f4, -, H4⟩, ⟨%f5, -, H5⟩, ⟨%f6, %hf6, H6⟩, ⟨%f7, %hf7, H7⟩, ⟨%d8, %f8, -, H8⟩, Hk⟩
  obtain rfl := harg1.eq_unread hf1; obtain rfl := harg2.eq_unread hf2; obtain rfl := harg3.eq_unread hf3
  obtain rfl := harg6.eq_unread hf6; obtain rfl := harg7.eq_unread hf7
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [read_writes_whole (S := S64x128) _ _ off00, View.readCov_unit_zero (S := S64x128) _ off00]
    unfold accStep
    rw [read_writes_whole (S := S256x128) _ _ off00, readAt_whole (S := S256x128) _ _ off00, readAt_whole (S := S64x128) _ _ off00, harg1.read_unread, harg6.read_unread]
  isplitl [H5]
  · iexists _; isplitr
    swap; · iexact H5
    ipureintro
    sl_unfold_words
    rw [read_writes_whole (S := S1x64) _ _ off00]
    simp only [View.readCov_unit_zero (S := S64x128) _ off00, View.readAt_eq_ld, harg2.read_unread, harg3.read_unread, harg7.read_unread, View.ld_unit_zero (S := S64x128) off00]
    unfold accdStep
    with_reducible rfl
  isplitl [H6]
  · iexists _; isplitr
    swap; · iexact H6
    ipureintro
    sl_unfold_words
    rw [read_writes_whole (S := S64x128) _ _ off00]
    unfold accStep
    rw [read_writes_whole (S := S256x128) _ _ off00, readAt_whole (S := S256x128) _ _ off00, readAt_whole (S := S64x128) _ _ off00, harg1.read_unread, harg6.read_unread]
  isplitl [H7]
  · iexists _; isplitr
    swap; · iexact H7
    ipureintro
    sl_unfold_words
    rw [read_writes_whole (S := S64x128) _ _ off00]
    simp only [View.readCov_unit_zero (S := S64x128) _ off00, View.readAt_eq_ld, harg2.read_unread, harg3.read_unread, harg7.read_unread, View.ld_unit_zero (S := S64x128) off00]
    unfold accdStep
    with_reducible rfl
  iexists _, _; isplitr
  swap; · iexact H8
  ipureintro; rfl

end Cert.Kernel.Hand

end
-- ==== Proof.K.Region1Last.lean ====
import proofs.«218716_g83915071029270_cont_9to1c4b_613_31_alg».proof.Proof.K.Region1Spec

noncomputable section

namespace Cert.Kernel.Hand

open Cert.Kernel Cert.Kernel.Gen
open Idealize.ShloMosaic

variable {F : FTy → Type} [FloatOps F]

-- There are eight points, so each result is read off its table after the update of the point numbered seven.
theorem cntOut_last (a5 : LabArr F) (t : Fin cfg1.N) (h : t.val = 7) :
    cntOut a5 = k1_pay2 (F := F) (accStep (lab256 a5 t) (accAfter a5 t.val)) := by
  rw [← accAfter_succ, h]; rfl

theorem tailOut_last (a5 : LabArr F) (d4 : DistArr F) (t : Fin cfg1.N) (h : t.val = 7) :
    tailOut a5 d4 = k1_pay3 (accdStep (lab64 a5 t) (dist8192 d4 t) (accdAfter a5 d4 t.val)) := by
  rw [← accdAfter_succ, h]; rfl

end Cert.Kernel.Hand

end
-- ==== Proof.K.Region1.lean ====
import proofs.«218716_g83915071029270_cont_9to1c4b_613_31_alg».proof.Proof.K.Region1RunA
import proofs.«218716_g83915071029270_cont_9to1c4b_613_31_alg».proof.Proof.K.Region1RunB
import proofs.«218716_g83915071029270_cont_9to1c4b_613_31_alg».proof.Proof.K.Region1RunC
import proofs.«218716_g83915071029270_cont_9to1c4b_613_31_alg».proof.Proof.K.Region1Last
import Idealize.ShloMosaic.Lib.Pipeline.FrameBody
import Idealize.ShloMosaic.Lib.Pipeline.Value
import Idealize.ShloMosaic.Lib.Pipeline.Kit
import Idealize.ShloMosaic.Lib.Tactic

noncomputable section

namespace Cert.Kernel.Hand

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI Idealize.SL.BI.BIBase Idealize.SL.Sem
open Idealize.ShloMosaic.Pipeline (Dat BodyObligation)

variable {F : FTy → Type} [FloatOps F]

local notation "𝕄" => MT nD τ sig (HIx 1) (Elt F) ℕ UU ℕ

theorem idleAt1 : ∀ t : Fin cfg1.N, ¬cond1_1 (grid1.coords t) →
    (cfg1.idle 3 (grid1.coords t) = true ∧ (cfg1.win 3).flush t = false) ∧ cfg1.idle 4 (grid1.coords t) = true ∧ (cfg1.win 4).flush t = false := by
  decide +kernel
theorem liveAt1 : ∀ t : Fin cfg1.N, cond1_1 (grid1.coords t) → cfg1.idle 3 (grid1.coords t) = false ∧ cfg1.idle 4 (grid1.coords t) = false := by
  decide +kernel

section Region1
variable (V : (c : Dev nD) → (b : Ref sig .tc) → Buf (Elt F) ((c : Thread nD τ).loc b))

abbrev labArr (c : Dev nD) : LabArr F := V c main_v5
abbrev distArr (c : Dev nD) : DistArr F := V c main_v4

def rest1 (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f))

-- The invariant's shape: the two running tables as `P0` and `P1` say, everything else it holds at arbitrary contents.
def tabs (c : Dev nD) (P0 P1 : sProp 𝕄) : sProp 𝕄 :=
  iprop((P0 ∗ P1 ∗ (∃ d, owns c scM1_2 fullShare d) ∗ rest1 c) ∗ ∃ r, prngReg c r)

def PhiS (c : Dev nD) : ℕ → sProp 𝕄
  | 0 => iprop(Pipeline.scopedRest (Ix := HIx 1) (Name := ℕ) (U := UU) (Lvl := ℕ) (Val := Elt F) spec1 c ∗ ∃ r, prngReg c r)
  | n + 1 => tabs c (owns c scM1_0 fullShare (accAfter (labArr V c) (n + 1))) (owns c scM1_1 fullShare (accdAfter (labArr V c) (distArr V c) (n + 1)))

theorem PhiS_zero_eq (c : Dev nD) :
    PhiS V c 0 = tabs c iprop(∃ d, owns c scM1_0 fullShare d) iprop(∃ d, owns c scM1_1 fullShare d) := by
  rw [PhiS, scopedRest1_eq]; unfold tabs rest1; simp only [scM1_0, scM1_1, scM1_2, owns_whole]; try rfl

theorem PhiS_pos (c : Dev nD) : ∀ n, n ≠ 0 → PhiS V c n = tabs c (owns c scM1_0 fullShare (accAfter (labArr V c) n)) (owns c scM1_1 fullShare (accdAfter (labArr V c) (distArr V c) n))
  | 0, h => absurd rfl h
  | _ + 1, _ => rfl

-- After any point the named contents of the tables are forgotten.
theorem PhiS_out (c : Dev nD) (n : ℕ) (hz : n ≠ 0) : PhiS V c n ⊢ PhiS V c 0 := by
  rw [PhiS_pos V c n hz, PhiS_zero_eq]; unfold tabs
  iintro ⟨⟨HS0, HS1, HS2, HR⟩, Hg⟩
  iframe HS2 HR Hg
  isplitl [HS0]; · iexists _; iexact HS0
  iexists _; iexact HS1

abbrev q1 : Fin 5 → PosShare TreeShare :=
  fun | 0 => (fullShare : PosShare TreeShare).left | 1 => (fullShare : PosShare TreeShare).right | 2 => fullShare | 3 => fullShare | 4 => fullShare | ⟨_ + 5, h⟩ => absurd h (Nat.not_lt.2 (Nat.le_add_left _ _))

def dat1 (c : Dev nD) : Dat τ (Elt F) (HIx 1) ℕ UU ℕ cfg1 c where
  A w := V c (Pipeline.arrRef spec1 w)
  after w t := match w with
    | ⟨0, _⟩ => lab256 (labArr V c) t
    | ⟨1, _⟩ => lab64 (labArr V c) t
    | ⟨2, _⟩ => dist8192 (distArr V c) t
    | ⟨3, _⟩ => cntOut (F := F) (labArr V c)
    | ⟨4, _⟩ => tailOut (labArr V c) (distArr V c)
  Φ t := PhiS V c t.val
  q := q1
  owed _ := 0

theorem A_eq1 (c : Dev nD) (w : Fin cfg1.W) : (dat1 V c).A w = V c (Pipeline.arrRef spec1 w) := by
  dsimp only [dat1]

theorem owed1 (c : Dev nD) (t : Fin (cfg1.N + 1)) : (dat1 V c).owed t = 0 := rfl

theorem before1_0 (c : Dev nD) (t : Fin cfg1.N) (d) : (dat1 V c).before 0 t d = lab256 (labArr V c) t :=
  (dat1 V c).before_in_eq_fetched 0 rfl (fun _ => rfl) (fun _ _ _ => rfl) (fun _ => rfl) t d
theorem before1_1 (c : Dev nD) (t : Fin cfg1.N) (d) : (dat1 V c).before 1 t d = lab64 (labArr V c) t :=
  (dat1 V c).before_in_eq_fetched 1 rfl (fun _ => rfl) (fun _ _ _ => rfl) (fun _ => rfl) t d
theorem before1_2 (c : Dev nD) (t : Fin cfg1.N) (d) : (dat1 V c).before 2 t d = dist8192 (distArr V c) t :=
  (dat1 V c).before_in_eq_fetched 2 rfl (fun _ => rfl) (fun _ _ _ => rfl) (fun _ => rfl) t d

theorem hin1 (c : Dev nD) :
    iprop((∃ r, prngReg c r) ∗ Pipeline.prefHeld (pcfgs (F := F) 0).pre c (fun _ => fullShare) (adm (F := F) 0).1
        ∗ Pipeline.scopedRest (Ix := HIx 1) (Name := ℕ) (U := UU) (Lvl := ℕ) (Val := Elt F) spec1 c)
      ⊢ (dat1 (F := F) V c).Φ 0 := by
  rw [show (dat1 V c).Φ 0 = PhiS V c 0 from rfl, PhiS]
  iintro ⟨Hp, -, Hr⟩
  isplitl [Hr]; · iexact Hr
  iexact Hp

theorem hout1 (c : Dev nD) :
    (dat1 (F := F) V c).Φ (Fin.last cfg1.N)
      ⊢ iprop((∃ r, prngReg c r) ∗ Pipeline.scopedRest (Ix := HIx 1) (Name := ℕ) (U := UU) (Lvl := ℕ) (Val := Elt F) spec1 c) := by
  refine (show (dat1 V c).Φ (Fin.last cfg1.N) ⊢ PhiS V c 0 from
    PhiS_out V c (Fin.last cfg1.N).val (by rw [Fin.val_last, show cfg1.N = 8 from N_1]; omega)).trans ?_
  rw [PhiS]
  iintro ⟨Hr, Hp⟩
  isplitl [Hp]; · iexact Hp
  iexact Hr

-- The body at any point: the tables come in at the recursion's value so far (at anything at the first point, which zeroes them) and go out one step on; the outputs take the results at the last point and pass through before it.
theorem sound_body1 (c : Dev nD) (t : Fin cfg1.N) :
    iprop(PhiS V c t.val ∗ (dat1 V c).owesAt (none : HIx 1) t.castSucc
        ∗ (∃ d, owns c (ms1_0 t) fullShare ((dat1 V c).before 0 t d))
        ∗ (∃ d, owns c (ms1_1 t) fullShare ((dat1 V c).before 1 t d))
        ∗ (∃ d, owns c (ms1_2 t) fullShare ((dat1 V c).before 2 t d))
        ∗ (∃ d, owns c (ms1_3 t) fullShare ((dat1 V c).before 3 t d))
        ∗ (∃ d, owns c (ms1_4 t) fullShare ((dat1 V c).before 4 t d)))
      ⊢ wp frame (wpE (defs₀ (F := F)) Variants.none c none) Set.univ (bodyAt1 t) (fun _ =>
        iprop(tabs c (owns c scM1_0 fullShare (accAfter (labArr V c) (t.val + 1))) (owns c scM1_1 fullShare (accdAfter (labArr V c) (distArr V c) (t.val + 1)))
          ∗ (dat1 V c).owesAt (none : HIx 1) t.castSucc
          ∗ owns c (ms1_0 t) fullShare (lab256 (labArr V c) t)
          ∗ owns c (ms1_1 t) fullShare (lab64 (labArr V c) t)
          ∗ owns c (ms1_2 t) fullShare (dist8192 (distArr V c) t)
          ∗ (dat1 V c).leavesExact 3 t ∗ (dat1 V c).leavesExact 4 t)) := by
  unfold bodyAt1
  simp only [before1_0, before1_1, before1_2]
  rw [accAfter_succ (labArr V c) t, accdAfter_succ (labArr V c) (distArr V c) t]
  have hN : t.val < 8 := lt_of_lt_of_eq t.isLt (show cfg1.N = 8 from N_1)
  have e0 := hcond1_0 t
  have e1 := hcond1_1 t
  by_cases hc1 : cond1_1 (grid1.coords t)
  · have h7 : t.val = 7 := by have := e1.mp hc1; omega
    have hc0 : ¬cond1_0 (grid1.coords t) := fun h => by have := e0.mp h; omega
    rw [PhiS_pos V c t.val (by omega),
      show (dat1 V c).leavesExact 3 t = owns c (ms1_3 t) fullShare (cntOut (F := F) (labArr V c)) from by
        unfold Dat.leavesExact; rw [(liveAt1 t hc1).1] <;> rfl,
      show (dat1 V c).leavesExact 4 t = owns c (ms1_4 t) fullShare (tailOut (labArr V c) (distArr V c)) from by
        unfold Dat.leavesExact; rw [(liveAt1 t hc1).2] <;> rfl,
      cntOut_last (labArr V c) t h7, tailOut_last (labArr V c) (distArr V c) t h7]
    unfold tabs
    iintro ⟨⟨⟨HS0, HS1, HS2, HR⟩, Hg⟩, Ho, ⟨%d0, H0⟩, ⟨%d1, H1⟩, ⟨%d2, H2⟩, ⟨%d3, H3⟩, ⟨%d4, H4⟩⟩
    iapply (run1_C c (grid1.coords t) _ _ _ _ _ _ _ _ _ _ _ _ _ _ _ _ ⟨hc0, hc1⟩
      (lab256 (labArr V c) t) (lab64 (labArr V c) t) (dist8192 (distArr V c) t) ((dat1 V c).before 3 t d3) ((dat1 V c).before 4 t d4) (accAfter (labArr V c) t.val) (accdAfter (labArr V c) (distArr V c) t.val) Set.univ _)
    iframe H0 H1 H2 H3 H4 HS0 HS1 HS2
    iintro ⟨H0, H1, H2, H3, H4, HS0, HS1, HS2⟩
    iframe HS0 HS1 HS2 HR Hg Ho H0 H1 H2 H3
    iexact H4
  · obtain ⟨⟨i3, f3⟩, i4, f4⟩ := idleAt1 t hc1
    rw [Dat.leavesExact_idle (dat1 V c) 3 t i3 f3, Dat.leavesExact_idle (dat1 V c) 4 t i4 f4]
    by_cases hc0 : cond1_0 (grid1.coords t) <;>
    ( first
      | ( have hz : t.val = 0 := by have := e0.mp hc0; omega
          rw [show PhiS V c t.val = PhiS V c 0 from congrArg (PhiS V c) hz, PhiS_zero_eq,
            show accAfter (labArr V c) t.val = k1_pay6 from congrArg (accAfter (labArr V c)) hz,
            show accdAfter (labArr V c) (distArr V c) t.val = k1_pay7 (F := F) from congrArg (accdAfter (labArr V c) (distArr V c)) hz] )
      | rw [PhiS_pos V c t.val fun h => hc0 (e0.mpr (by omega))]
      unfold tabs
      first
      | ( iintro ⟨⟨⟨⟨%s0, HS0⟩, ⟨%s1, HS1⟩, HS2, HR⟩, Hg⟩, Ho, ⟨%d0, H0⟩, ⟨%d1, H1⟩, ⟨%d2, H2⟩, ⟨%d3, H3⟩, ⟨%d4, H4⟩⟩
          iapply (run1_A c (grid1.coords t) _ _ _ _ _ _ _ _ _ _ _ _ _ _ _ _ ⟨hc0, hc1⟩
            (lab256 (labArr V c) t) (lab64 (labArr V c) t) (dist8192 (distArr V c) t) ((dat1 V c).before 3 t d3) ((dat1 V c).before 4 t d4) s0 s1 Set.univ _) )
      | ( iintro ⟨⟨⟨HS0, HS1, HS2, HR⟩, Hg⟩, Ho, ⟨%d0, H0⟩, ⟨%d1, H1⟩, ⟨%d2, H2⟩, ⟨%d3, H3⟩, ⟨%d4, H4⟩⟩
          iapply (run1_B c (grid1.coords t) _ _ _ _ _ _ _ _ _ _ _ _ _ _ _ _ ⟨hc0, hc1⟩
            (lab256 (labArr V c) t) (lab64 (labArr V c) t) (dist8192 (distArr V c) t) ((dat1 V c).before 3 t d3) ((dat1 V c).before 4 t d4) (accAfter (labArr V c) t.val) (accdAfter (labArr V c) (distArr V c) t.val) Set.univ _) )
      iframe H0 H1 H2 H3 H4 HS0 HS1 HS2
      iintro ⟨H0, H1, H2, H3, H4, HS0, HS1, HS2⟩
      iframe HS0 HS1 HS2 HR Hg Ho H0 H1 H2
      isplitl [H3]; · iexists _; iexact H3
      iexists _; iexact H4 )

theorem body_obligation1 (c : Dev nD) :
    BodyObligation (dat1 (F := F) V c) (defs₀ (F := F)) Variants.none (none : HIx 1) Set.univ := fun t => by
  rw [bigSep_W1, bigSep_W1]
  exact sound_body1 V c t

-- A function read at an index whose every coordinate is the zero offset plus the coordinate itself is read at that index.
private theorem rd_id {S : Shape} {β : Type} (f : S.Idx → β) (y j : S.Idx) (h : ∀ a, (y a).val = 0 * S.size a + 1 * (j a).val) : f y = f j :=
  congrArg f (funext fun a => Fin.ext ((h a).trans (by omega)))
private theorem c01 (n x : ℕ) (h : x < n) : 0 * n ≤ x ∧ x < 0 * n + n := by omega

-- The last point's block covers the array, and reading the result through it is the identity on indices.
theorem arrAt1_3 (c : Dev nD) : (dat1 V c).arrAt 3 cfg1.N = cntOut (F := F) (V c main_v5) := by
  refine (dat1 V c).arrAt_eq_of_cover 3 (cntOut (F := F) (labArr V c)) (fun t _ => ?_) fun (i : S64x128.Idx) => ⟨t1_7, (flush1_3 t1_7).mpr rfl, ?_⟩
  · exact funext fun j => (rd_id (S := S64x128) (cntOut (F := F) (labArr V c)) _ j fun | ⟨0, _⟩ => rfl | ⟨1, _⟩ => rfl).symm
  · show i ∈ ((View.whole main_v7_0).slice (win1_3.rect t1_7)).set
    rw [View.set_slice_whole, Rect.mem_set_unit]
    intro a
    match a with
    | ⟨0, _⟩ => exact c01 _ _ (i 0).isLt
    | ⟨1, _⟩ => exact c01 _ _ (i 1).isLt

theorem arrAt1_4 (c : Dev nD) : (dat1 V c).arrAt 4 cfg1.N = tailOut (V c main_v5) (V c main_v4) := by
  refine (dat1 V c).arrAt_eq_of_cover 4 (tailOut (labArr V c) (distArr V c)) (fun t _ => ?_) fun (i : S1x64.Idx) => ⟨t1_7, (flush1_4 t1_7).mpr rfl, ?_⟩
  · exact funext fun j => (rd_id (S := S1x64) (tailOut (labArr V c) (distArr V c)) _ j fun | ⟨0, _⟩ => rfl | ⟨1, _⟩ => rfl).symm
  · show i ∈ ((View.whole main_v7_1).slice (win1_4.rect t1_7)).set
    rw [View.set_slice_whole, Rect.mem_set_unit]
    intro a
    match a with
    | ⟨0, _⟩ => exact c01 _ _ (i 0).isLt
    | ⟨1, _⟩ => exact c01 _ _ (i 1).isLt

theorem arrAt1_in (c : Dev nD) (w : Fin cfg1.W) (hw : (cfg1.win w).isOut = false) :
    (dat1 V c).arrAt w cfg1.N = V c (Pipeline.arrRef spec1 w) :=
  ((dat1 V c).arrAt_in w hw cfg1.N).trans (A_eq1 V c w)

end Region1

end Cert.Kernel.Hand

end
-- ==== Proof.K.Main5.lean ====
import proofs.«218716_g83915071029270_cont_9to1c4b_613_31_alg».proof.Proof.K.Main4
import proofs.«218716_g83915071029270_cont_9to1c4b_613_31_alg».proof.Proof.K.Region1

noncomputable section

namespace Cert.Kernel.Hand

open Cert.Kernel Cert.Kernel.Gen

open Idealize.ShloMosaic

variable {F : FTy → Type} [FloatOps F]

variable (m : (ℓ : Loc nD τ sig) → Buf (Elt F) ℓ)

theorem dafacts : DAFacts m (fun c => dat1 (V2 m) c) where
  owed c t := owed1 (V2 m) c t
  recd c t := rfl
  s0 c := rfl
  s1 c := rfl
  s2 c := rfl
  s3 c := rfl
  s4 c := rfl
  at0 c w := A_eq1 (V2 m) c w
  atN := arrAt1_in (V2 m)
  hin c := hin1 (V2 m) c
  hout c := hout1 (V2 m) c
  hbody c := body_obligation1 (V2 m) c

end Cert.Kernel.Hand

end
-- ==== Proof.K.Layout.lean ====
import Idealize.ShloMosaic.Lib.ValueIdx
import Idealize.ShloMosaic.Lib.Pipeline.Value
import Idealize.ShloMosaic.Lib.ValueLayout
import proofs.«218716_g83915071029270_cont_9to1c4b_613_31_alg».proof.Proof.Gen.Kernel
import proofs.«218716_g83915071029270_cont_9to1c4b_613_31_alg».proof.Proof.Spec

noncomputable section

namespace Cert.Kernel.Hand

open Cert.Kernel
open Idealize.ShloMosaic Idealize.ShloMosaic.ValueIdx

variable {F : FTy → Type} [FloatOps F]

def flatIdx (s : Fin 262144) (k : Fin 64) : Fin 16777216 :=
  ⟨(k.val / 8) * 2097152 + (s.val / 128) * 1024 + (k.val % 8) * 128 + s.val % 128, by omega⟩

theorem flatIdx_val (s : Fin 262144) (k : Fin 64) :
    (flatIdx s k).val = (k.val / 8) * 2097152 + (s.val / 128) * 1024 + (k.val % 8) * 128 + s.val % 128 := rfl

def flatOf (x : Vec F S262144x64 .f32) : Vec F S16777216 .f32 :=
  shapeCast S16777216
    (transpose S8x2048x8x128 [0, 2, 1, 3]
      (shapeCast S8x8x2048x128
        (transpose S64x262144 [1, 0] x Gen.transposes_S262144x64_S64x262144_1_0)
        Gen.shapeCasts_S64x262144_S8x8x2048x128)
      Gen.transposes_S8x8x2048x128_S8x2048x8x128_0_2_1_3)
    Gen.shapeCasts_S8x2048x8x128_S16777216

theorem flatOf_apply (x : Vec F S262144x64 .f32) (s : Fin 262144) (k : Fin 64) :
    flatOf x (ix1 (flatIdx s k)) = x (ix2 s k) := by
  let a : Fin 8 := ⟨k.val / 8, by omega⟩
  let b : Fin 2048 := ⟨s.val / 128, by omega⟩
  let c : Fin 8 := ⟨k.val % 8, by omega⟩
  let d : Fin 128 := ⟨s.val % 128, by omega⟩
  unfold flatOf
  refine (shapeCast_apply _ Gen.shapeCasts_S8x2048x8x128_S16777216 (ix1 (flatIdx s k)) (ix4 a b c d) ?_).trans ?_
  · rw [Shape.rowMajor_val_four, Shape.rowMajor_val_one]
    show (((k.val / 8) * 2048 + s.val / 128) * 8 + k.val % 8) * 128 + s.val % 128
      = (k.val / 8) * 2097152 + (s.val / 128) * 1024 + (k.val % 8) * 128 + s.val % 128
    omega
  refine (transpose_apply _ _ Gen.transposes_S8x8x2048x128_S8x2048x8x128_0_2_1_3 (ix4 a b c d) (ix4 a c b d)
    fun e => match e with | ⟨0, _⟩ => rfl | ⟨1, _⟩ => rfl | ⟨2, _⟩ => rfl | ⟨3, _⟩ => rfl).trans ?_
  refine (shapeCast_apply _ Gen.shapeCasts_S64x262144_S8x8x2048x128 (ix4 a c b d) (ix2 k s) ?_).trans ?_
  · rw [Shape.rowMajor_val_four, Shape.rowMajor_val_two]
    show k.val * 262144 + s.val = (((k.val / 8) * 8 + k.val % 8) * 2048 + s.val / 128) * 128 + s.val % 128
    omega
  exact transpose_ix2_apply x Gen.transposes_S262144x64_S64x262144_1_0 k s

def dtOf (x : Vec F S262144x64 .f32) : Vec F S64x262144 .f32 :=
  transpose S64x262144 [1, 0] x Gen.transposes_S262144x64_S64x262144_1_0

theorem dtOf_apply (x : Vec F S262144x64 .f32) (k : Fin 64) (i : Fin 262144) : dtOf x (ix2 k i) = x (ix2 i k) :=
  transpose_ix2_apply x Gen.transposes_S262144x64_S64x262144_1_0 k i

def a2Of (a : IVec S262144 32) : IVec S2048x128 32 := shapeCast S2048x128 a Gen.shapeCasts_S262144_S2048x128

theorem a2Of_apply (a : IVec S262144 32) (r : Fin 2048) (l : Fin 128) :
    a2Of a (ix2 r l) = a (ix1 ⟨r.val * 128 + l.val, by omega⟩) := by
  unfold a2Of
  refine shapeCast_apply a Gen.shapeCasts_S262144_S2048x128 (ix2 r l) (ix1 _) ?_
  rw [Shape.rowMajor_val_two, Shape.rowMajor_val_one]
  rfl

def cs8Of (f6 : Vec F S4096 .f32) : Vec F S32x128 .f32 := shapeCast S32x128 f6 Gen.shapeCasts_S4096_S32x128

theorem cs8Of_apply (f6 : Vec F S4096 .f32) (w : Fin 32) (k : Fin 128) :
    cs8Of f6 (ix2 w k) = f6 (ix1 ⟨w.val * 128 + k.val, by omega⟩) := by
  unfold cs8Of
  refine shapeCast_apply f6 Gen.shapeCasts_S4096_S32x128 (ix2 w k) (ix1 _) ?_
  rw [Shape.rowMajor_val_two, Shape.rowMajor_val_one]
  rfl

end Cert.Kernel.Hand

end
-- ==== Proof.K.HostVals.lean ====
import Idealize.ShloMosaic.Lib.StableHlo.Run
import proofs.«218716_g83915071029270_cont_9to1c4b_613_31_alg».proof.Proof.K.Main1
import proofs.«218716_g83915071029270_cont_9to1c4b_613_31_alg».proof.Proof.K.Layout

noncomputable section

namespace Cert.Kernel.Hand

open Cert.Kernel Cert.Kernel.Gen
open Idealize.ShloMosaic Idealize.ShloMosaic.ValueIdx

variable {F : FTy → Type} [FloatOps F]

theorem afterA_v3 (W : Valuation τ sig (Elt F)) :
    StableHlo.after (opsA (F := F)) W (Proc.devRef .tc main_v3)
      = flatOf (F := F) (W (Proc.devRef .tc main_arg0)) := by
  after_results
  rfl

theorem afterA_v4 (W : Valuation τ sig (Elt F)) :
    StableHlo.after (opsA (F := F)) W (Proc.devRef .tc main_v4)
      = dtOf (F := F) (W (Proc.devRef .tc main_arg0)) := by
  after_results
  rfl

theorem afterA_v5 (W : Valuation τ sig (Elt F)) :
    StableHlo.after (opsA (F := F)) W (Proc.devRef .tc main_v5)
      = a2Of (W (Proc.devRef .tc main_arg1)) := by
  after_results
  rfl

-- a buffer other than the six results keeps its contents
theorem afterA_keep (W : Valuation τ sig (Elt F)) (b : Ref sig .tc)
    (hb : b ≠ main_v0 ∧ b ≠ main_v1 ∧ b ≠ main_v2 ∧ b ≠ main_v3 ∧ b ≠ main_v4 ∧ b ≠ main_v5) :
    StableHlo.after (opsA (F := F)) W (Proc.devRef .tc b) = W (Proc.devRef .tc b) := by
  refine StableHlo.after_of_forall_not_mem (b := Proc.devRef .tc b) _ _ (List.forall_iff_forall_mem.mp ?_)
  simp only [List.Forall, StableHlo.unary_writes, StableHlo.reshape_writes, Finset.mem_singleton]
  exact ⟨StableHlo.devRef_ne_of_ne hb.1, StableHlo.devRef_ne_of_ne hb.2.1, StableHlo.devRef_ne_of_ne hb.2.2.1,
    StableHlo.devRef_ne_of_ne hb.2.2.2.1, StableHlo.devRef_ne_of_ne hb.2.2.2.2.1, StableHlo.devRef_ne_of_ne hb.2.2.2.2.2⟩

theorem afterB_v8 (W : Valuation τ sig (Elt F)) :
    StableHlo.after (opsB (F := F)) W (Proc.devRef .tc main_v8)
      = cs8Of (F := F) (W (Proc.devRef .tc main_v6)) := by
  after_results
  rfl

theorem afterB_keep (W : Valuation τ sig (Elt F)) (b : Ref sig .tc) (hb : b ≠ main_v8) :
    StableHlo.after (opsB (F := F)) W (Proc.devRef .tc b) = W (Proc.devRef .tc b) := by
  refine StableHlo.after_of_forall_not_mem (b := Proc.devRef .tc b) _ _ (List.forall_iff_forall_mem.mp ?_)
  simp only [List.Forall, StableHlo.reshape_writes, Finset.mem_singleton]
  exact StableHlo.devRef_ne_of_ne hb

theorem afterC_v10 (W : Valuation τ sig (Elt F)) :
    StableHlo.after (opsC (F := F)) W (Proc.devRef .tc main_v10)
      = (shapeCast S_ (W (Proc.devRef .tc main_v9) : Vec F S1x1 .f32) shapeCasts_S1x1_S_ : Vec F S_ .f32) := by
  after_results
  rfl

theorem afterC_v10_apply (W : Valuation τ sig (Elt F)) :
    (StableHlo.after (opsC (F := F)) W (Proc.devRef .tc main_v10) : Vec F S_ .f32) ix0
      = (W (Proc.devRef .tc main_v9) : Vec F S1x1 .f32) (ix2 0 0) := by
  rw [afterC_v10]
  refine shapeCast_apply _ shapeCasts_S1x1_S_ ix0 (ix2 0 0) ?_
  rw [Shape.rowMajor_val_two]
  have h := (S_.rowMajor ix0).isLt
  show 0 * 1 + 0 = (S_.rowMajor ix0).val
  have h1 : S_.numel = 1 := by decide
  omega

end Cert.Kernel.Hand

end
-- ==== Proof.K.ArgsKept.lean ====
import proofs.«218716_g83915071029270_cont_9to1c4b_613_31_alg».proof.Proof.K.Main3
import proofs.«218716_g83915071029270_cont_9to1c4b_613_31_alg».proof.Proof.K.HostVals

noncomputable section

namespace Cert.Kernel.Hand

open Cert.Kernel Cert.Kernel.Gen
open Idealize.ShloMosaic Idealize.ShloMosaic.TcCoe Idealize.ShloMosaic.ValueIdx
open Idealize.ShloMosaic.SparseCore.Cfg (HIx)
open Idealize.SL.Sem
open Idealize.ShloMosaic.Pipeline (Dat)

variable {F : FTy → Type} [FloatOps F]
variable (m : (ℓ : Loc nD τ sig) → Buf (Elt F) ℓ)
variable (dA : (c : Dev nD) → Dat τ (Elt F) (HIx 1) ℕ UU ℕ cfg1 c)

-- a buffer nothing writes holds at the end what it held at launch
theorem W6_of_untouched (c : Dev nD) (b : Ref sig .tc) (hC : b ≠ main_v10) (h2 : ∀ w, Pipeline.arrRef spec2 w ≠ b)
    (hB : b ≠ main_v8) (h71 : b ≠ main_v7_1) (h70 : b ≠ main_v7_0) (h6 : b ≠ main_v6)
    (hA : b ≠ main_v0 ∧ b ≠ main_v1 ∧ b ≠ main_v2 ∧ b ≠ main_v3 ∧ b ≠ main_v4 ∧ b ≠ main_v5) :
    W6 m dA c (Proc.devRef .tc b) = m ((c : Thread nD τ).loc b) :=
  calc W6 m dA c (Proc.devRef .tc b)
    _ = W5 m dA c (Proc.devRef .tc b) := StableHlo.reshape_result_ne (h := hC) ..
    _ = W4 m dA c (Proc.devRef .tc b) := W5_of_ne m dA c b h2
    _ = W3 m dA c (Proc.devRef .tc b) := StableHlo.reshape_result_ne (h := hB) ..
    _ = W2 m c (Proc.devRef .tc b) := by
          unfold W3
          rw [Function.update_of_ne (StableHlo.devRef_ne_of_ne h71), Function.update_of_ne (StableHlo.devRef_ne_of_ne h70)]
    _ = W1 m c (Proc.devRef .tc b) := by unfold W2; exact Function.update_of_ne (StableHlo.devRef_ne_of_ne h6) _ _
    _ = W0 m c (Proc.devRef .tc b) := afterA_keep _ b hA
    _ = m ((c : Thread nD τ).loc b) := rfl

theorem W6_arg0 (c : Dev nD) : W6 m dA c (Proc.devRef .tc main_arg0) = m ((c : Thread nD τ).loc main_arg0) :=
  W6_of_untouched m dA c main_arg0 (by decide) (by decide) (by decide) (by decide) (by decide) (by decide) (by decide)

theorem W6_arg1 (c : Dev nD) : W6 m dA c (Proc.devRef .tc main_arg1) = m ((c : Thread nD τ).loc main_arg1) :=
  W6_of_untouched m dA c main_arg1 (by decide) (by decide) (by decide) (by decide) (by decide) (by decide) (by decide)

theorem fa_eq (d : Dev nD) : fa m d = m ((d : Thread nD τ).loc main_arg1) :=
  afterA_keep (W0 m d) main_arg1 (by decide)

end Cert.Kernel.Hand

end
-- ==== Proof.PreFacts.lean ====
import proofs.«218716_g83915071029270_cont_9to1c4b_613_31_alg».proof.Proof.Gen.Pre_input_domain
import proofs.«218716_g83915071029270_cont_9to1c4b_613_31_alg».proof.Proof.Spec
import Idealize.ShloMosaic.Lib.ReduceAll
import Idealize.ShloMosaic.Lib.StableHlo.Predicate

namespace Cert.PreFacts

open Idealize.ShloMosaic Idealize.ShloMosaic.ValueIdx

instance : Subsingleton Cert.Pre_input_domain.S_.Idx := ⟨fun a b => funext fun d => d.elim0⟩

theorem toNat_lt_of_signed (v : BitVec 32) (h0 : (0#32 : BitVec 32).toInt ≤ v.toInt) (h1 : v.toInt ≤ (63#32 : BitVec 32).toInt) :
    v.toNat < 64 := by
  have e0 : (0#32 : BitVec 32).toInt = 0 := by decide
  have e63 : (63#32 : BitVec 32).toInt = 63 := by decide
  rw [e0] at h0; rw [e63] at h1
  have hv := BitVec.toInt_eq_toNat_cond v
  have hlt := v.isLt
  split at hv <;> omega

theorem inRange {F : FTy → Type} [FloatOps F] (x : Vec F Cert.Spec.SX .f32) (a : IVec Cert.Spec.SA 32)
    (h : Cert.Pre_input_domain.fn (F := F) x a = fun _ => 1#1) : Cert.Spec.InRange a := by
  intro i
  have h0 := congrFun h ix0
  dsimp only [Cert.Pre_input_domain.fn] at h0
  obtain ⟨-, hall⟩ := IntOp.andi_eq_one.1 h0
  have hi := Host.reduce_andi_all _ _ _ _ _ hall (ix1 i)
  obtain ⟨hge, hle⟩ := IntOp.andi_eq_one.1 hi
  exact toNat_lt_of_signed _ (IntOp.cmpi_sge.1 hge) (IntOp.cmpi_sle.1 hle)

end Cert.PreFacts
-- ==== Proof.K.FrameClaim.lean ====
import proofs.«218716_g83915071029270_cont_9to1c4b_613_31_alg».proof.Proof.K.Main4
import proofs.«218716_g83915071029270_cont_9to1c4b_613_31_alg».proof.Proof.K.Main5
import proofs.«218716_g83915071029270_cont_9to1c4b_613_31_alg».proof.Proof.K.ArgsKept
import proofs.«218716_g83915071029270_cont_9to1c4b_613_31_alg».proof.Proof.PreFacts

noncomputable section

namespace Cert.Kernel.Hand

open Cert.Kernel Cert.Kernel.Gen
open Idealize.ShloMosaic Idealize.ShloMosaic.TcCoe Idealize.ShloMosaic.ValueIdx
open Idealize.ShloMosaic.SparseCore.Cfg (HIx)
open Idealize.SL.Sem
open Idealize.ShloMosaic.Pipeline (Dat)

variable {F : FTy → Type} [FloatOps F]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem inRange_fa (m : (ℓ : Loc nD τ sig) → Buf (Elt F) ℓ)
    (hpre : ∀ c : Dev nD, Cert.Pre_input_domain.fn (F := F) (m ((c.tc : Thread nD τ).loc main_arg0)) (m ((c.tc : Thread nD τ).loc main_arg1)) = fun _ => 1#1)
    (d : Dev nD) : Cert.Spec.InRange (fa m d) := by
  rw [show fa m d = m ((d.tc : Thread nD τ).loc main_arg1) from fa_eq m d]
  exact Cert.PreFacts.inRange _ _ (hpre d)

-- the two arguments are among the buffers nothing writes
theorem frame_any [∀ e, Nonempty (Elt F e)] (m : (ℓ : Loc nD τ sig) → Buf (Elt F) ℓ) (ρ : Dev nD → PrngReg)
    (hpre : ∀ c : Dev nD, Cert.Pre_input_domain.fn (F := F) (m ((c.tc : Thread nD τ).loc main_arg0)) (m ((c.tc : Thread nD τ).loc main_arg1)) = fun _ => 1#1) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono
    (fun r hr c => ⟨(hr c _ (mem_uc main_arg0 (by decide))).trans (W6_arg0 m _ c),
      (hr c _ (mem_uc main_arg1 (by decide))).trans (W6_arg1 m _ c)⟩)
    (run_main m ρ _ (dafacts m) (inRange_fa m hpre))

end Cert.Kernel.Hand

end
-- ==== Proof.Ctx.lean ====
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«218716_g83915071029270_cont_9to1c4b_613_31_alg».proof.Proof.Gen.KernelIdeal
import proofs.«218716_g83915071029270_cont_9to1c4b_613_31_alg».proof.Proof.Gen.KernelIdeal.Launch

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm

abbrev K : SparseCore.Cfg τ sig (ΛP (F := F)) 1 := sc (F := F)
theorem nCore_zero : (K (F := F)).nCore 0 = 2 := rfl
theorem nSub_zero : (K (F := F)).nSub 0 = 16 := rfl

abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev adm [FloatOps F] : (p : Fin 2) → (pcfgs (F := F) p).Adm := fun p => (cfgs p).toPCfg_adm

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := UR sig nD τ
abbrev UU : Type := UH × (UP × Counters)

abbrev EH : Emb UH (MT nD τ sig (HIx 1) (Elt F) ℕ UU ℕ) := embL

def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP (F := F)).LandsIn (upEmb : UEmb _ (MT nD τ sig (HIx 1) (Elt F) ℕ UU ℕ)) := by
  unfold EP; infer_instance

end Cert.KernelIdeal.Hand

end
-- ==== Proof.Main1.lean ====
import proofs.«218716_g83915071029270_cont_9to1c4b_613_31_alg».proof.Proof.Ctx

noncomputable section

namespace Cert.KernelIdeal.Hand

open Cert.KernelIdeal Cert.KernelIdeal.Gen

open Idealize.ShloMosaic Idealize.SL.Sem

variable {F : FTy → Type} [FloatOps F]

-- the re-layouts of the two arguments: the table transposed, cut in blocks and flattened; the table transposed; the labels as a matrix
abbrev opsA : List (HloOp τ sig (Elt F)) :=
  [ StableHlo.unary main_arg0 main_v0 ((transpose S64x262144 [1, 0] · transposes_S262144x64_S64x262144_1_0) : (⟨S262144x64, .f32⟩ : BufTy).Contents (Elt F) → (⟨S64x262144, .f32⟩ : BufTy).Contents (Elt F)),
    StableHlo.reshape main_v0 main_v1 rfl shapeCasts_S64x262144_S8x8x2048x128,
    StableHlo.unary main_v1 main_v2 ((transpose S8x2048x8x128 [0, 2, 1, 3] · transposes_S8x8x2048x128_S8x2048x8x128_0_2_1_3) : (⟨S8x8x2048x128, .f32⟩ : BufTy).Contents (Elt F) → (⟨S8x2048x8x128, .f32⟩ : BufTy).Contents (Elt F)),
    StableHlo.reshape main_v2 main_v3 rfl shapeCasts_S8x2048x8x128_S16777216,
    StableHlo.unary main_arg0 main_v4 ((transpose S64x262144 [1, 0] · transposes_S262144x64_S64x262144_1_0) : (⟨S262144x64, .f32⟩ : BufTy).Contents (Elt F) → (⟨S64x262144, .f32⟩ : BufTy).Contents (Elt F)),
    StableHlo.reshape main_arg1 main_v5 rfl shapeCasts_S262144_S2048x128 ]
abbrev opsB : List (HloOp τ sig (Elt F)) := [ StableHlo.reshape main_v6 main_v8 rfl shapeCasts_S4096_S32x128 ]
abbrev opsC : List (HloOp τ sig (Elt F)) := [ StableHlo.reshape main_v9 main_v10 rfl shapeCasts_S1x1_S_ ]

-- what follows the call: the two regions, each followed by one reshape
def innerTail : Prog (TpuEff nD τ sig (Elt F) (ΛP (F := F)) .tc) PUnit :=
  .op (.customCall (Pipeline.entry 0) ()) fun _ =>
    (StableHlo.seq (opsB (F := F)) >>= fun _ =>
      .op (.customCall (Pipeline.entry 1) ()) fun _ =>
        (StableHlo.seq (opsC (F := F)) >>= fun _ => .ret ⟨⟩))

theorem main_split (d : Dev nD) :
    main (F := F) d = (StableHlo.seq (opsA (F := F)) >>= fun _ => ((sc (F := F)).run d 0 >>= fun _ => SparseCore.liftProg (Q := 1) (innerTail (F := F)))) := by
  rfl

end Cert.KernelIdeal.Hand

end
-- ==== Proof.LaunchElem.lean ====
import proofs.«218716_g83915071029270_cont_9to1c4b_613_31_alg».proof.Proof.Ctx

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

abbrev uP : UP := initOf (Pipeline.cells cfgs cellOf_inj) (Pipeline.launchToks cfgs cellOf_inj)

def u₀ : UU := (initOf (K (F := F)).hsCells (K (F := F)).hsToks, (uP, 1))

abbrev G (d : Dev nD) : sProp 𝕄 := Pipeline.ghostOn (pcfgs (F := F)) adm (EP (F := F)) Finset.univ d

theorem bigSep_emp' {I : Type} (s : Finset I) : (bigSep s fun _ => iprop(emp)) = (iprop(emp) : sProp 𝕄) := bigSep_emp_const s

theorem hu₀ (P : (K (F := F)).Pay (nD := nD) (Val := Elt F) (Name := ℕ) (U := UU)) (hx : ∀ q thr, P.x q thr = iprop(emp)) :
    (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => P.x q thr) := by
  unfold u₀
  have hEP : (BI.own (((Emb.inl : Emb UP (UP × Counters)).trans (embR : Emb (UP × Counters) 𝕄)) uP) : sProp 𝕄) ⊢ BI.own (EP (F := F) uP) := .rfl
  iintro Hu
  ihave H := (ownU_pair (initOf (K (F := F)).hsCells (K (F := F)).hsToks) ((uP, 1) : UP × Counters)) $$ Hu
  icases H with ⟨HH, HR⟩
  ihave H2 := (own_pair_emb (embR : Emb (UP × Counters) 𝕄) uP (1 : Counters)) $$ HR
  icases H2 with ⟨HP, -⟩
  ihave HP' := hEP $$ HP
  imod (Pipeline.fund_ghost (cfgs) (EP (F := F)) cellOf_inj) $$ HP' with ⟨Hc, Ht⟩
  imodintro
  isplitl [HH]; · iexact HH
  isplitl [Hc Ht]
  · rw [show (bigSep Finset.univ fun d : Dev nD => G (F := F) d)
        = iprop((bigSep Finset.univ fun c : Dev nD => bigSep Finset.univ fun p => Pipeline.cellsGhost cfgs (EP (F := F)) p c)
          ∗ (bigSep Finset.univ fun c : Dev nD => bigSep Finset.univ fun p => (Pipeline.toksInit cfgs (EP (F := F)) p c : sProp 𝕄))) from by
      rw [← bigSep_sep']; refine bigSep_congr fun c _ => ?_; rw [← bigSep_sep']; rfl]
    isplitl [Hc] <;> iassumption
  simp only [hx, bigSep_emp']
  iempintro

end Cert.KernelIdeal.Hand

end
-- ==== Proof.TileDefs.lean ====
import proofs.«218716_g83915071029270_cont_9to1c4b_613_31_alg».proof.Proof.Ctx
import proofs.«218716_g83915071029270_cont_9to1c4b_613_31_alg».proof.Proof.Spec
import Idealize.ShloMosaic.Lib.ValueIdx

noncomputable section

namespace Cert.KernelIdeal.Hand

open Cert.KernelIdeal Cert.KernelIdeal.Gen

open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

def pIdx (r a : ℕ) : ℕ := a * 128 + a / 8 * 2096128 + (r / 128 * 1024 + r % 128)

theorem pIdx_lt {r a : ℕ} (hr : r < 262144) (ha : a < 64) : pIdx r a < 16777216 := by
  unfold pIdx; omega

def gIx (r a : ℕ) : Fin 16777216 := ⟨pIdx r a % 16777216, Nat.mod_lt _ (by decide)⟩

theorem gIx_val {r a : ℕ} (hr : r < 262144) (ha : a < 64) : (gIx r a).val = pIdx r a :=
  Nat.mod_eq_of_lt (pIdx_lt hr ha)

def wid (c : Fin 2) (s : Fin 16) : Fin 32 := ⟨s.val * 2 + c.val, by have := c.isLt; have := s.isLt; omega⟩

def wrow (w : Fin 32) (j : Fin 6144) : Fin 262144 := ⟨w.val * 6144 + j.val, by have := w.isLt; have := j.isLt; omega⟩

section Words

variable [FloatOps F]

def zeroF : F .f32 := FloatOps.ofBits .f32 0x00000000#32

def gathered (x : S16777216.Idx → F .f32) (a : S262144.Idx → BitVec 32) (w : Fin 32) (j : Fin 6144) : F .f32 :=
  x (ix1 (gIx (wrow w j).val (a (ix1 (wrow w j))).toNat))

def accAt (x : S16777216.Idx → F .f32) (a : S262144.Idx → BitVec 32) (w : Fin 32) (k : Fin 64) : ℕ → F .f32
  | 0 => zeroF
  | n + 1 =>
    if h : n < 96 then FloatOps.addf (accAt x a w k n) (gathered x a w ⟨64 * n + k.val, by have := k.isLt; omega⟩)
    else accAt x a w k n

theorem accAt_succ (x : S16777216.Idx → F .f32) (a : S262144.Idx → BitVec 32) (w : Fin 32) (k : Fin 64) {n : ℕ} (h : n < 96) :
    accAt x a w k (n + 1)
      = FloatOps.addf (accAt x a w k n) (gathered x a w ⟨64 * n + k.val, by have := k.isLt; omega⟩) := by
  rw [accAt, dif_pos h]

def tileOut (x : S16777216.Idx → F .f32) (a : S262144.Idx → BitVec 32) (w : Fin 32) : S128.Idx → F .f32 :=
  fun i => if h : (i 0).val < 64 then accAt x a w ⟨(i 0).val, h⟩ 96 else zeroF

end Words

abbrev xLoc (d : Dev nD) : Loc nD τ sig := (SparseCore.T d).loc main_v3
abbrev aLoc (d : Dev nD) : Loc nD τ sig := (SparseCore.T d).loc main_arg1
abbrev oLoc (d : Dev nD) : Loc nD τ sig := (SparseCore.T d).loc main_v6

section Out

variable [FloatOps F]

def cs6 (f3 : (d : Dev nD) → Buf (Elt F) (xLoc d)) (fa : (d : Dev nD) → Buf (Elt F) (aLoc d)) (d : Dev nD) : Buf (Elt F) (oLoc d) :=
  fun i : S4096.Idx => tileOut (F := F) (f3 d) (fa d) ⟨(i 0).val / 128, by have : (i 0).val < 4096 := (i 0).isLt; omega⟩
    (ix1 ⟨(i 0).val % 128, Nat.mod_lt _ (by decide)⟩)

end Out

theorem odiv : 32 ∣ S4096.size 0 := ⟨128, rfl⟩

abbrev orow (w : Fin 32) : Rect S4096 := Rect.part (s := S4096) (a₀ := 0) odiv w
abbrev oSet (w : Fin 32) : Finset S4096.Idx := ((Memref.whole main_v6_scv : Memref sig .scVector .hbm S4096 .f32).view.slice (orow w)).set

def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

abbrev rsh (w : Fin 32) : PosShare TreeShare := leaf 5 fullShare w

section Pay

variable [FloatOps F]
variable (f3 : (d : Dev nD) → Buf (Elt F) (xLoc d)) (fa : (d : Dev nD) → Buf (Elt F) (aLoc d)) (f6 : (d : Dev nD) → Buf (Elt F) (oLoc d))

abbrev goW (d : Dev nD) (w : Fin 32) : sProp 𝕄 :=
  iprop((xLoc d ↦{rsh w} f3 d) ∗ (aLoc d ↦{rsh w} fa d) ∗ (oLoc d ↦[oSet w]{fullShare} f6 d))

abbrev tdW (d : Dev nD) (w : Fin 32) : sProp 𝕄 :=
  iprop((xLoc d ↦{rsh w} f3 d) ∗ (aLoc d ↦{rsh w} fa d) ∗ (oLoc d ↦[oSet w]{fullShare} cs6 f3 fa d))

def P : (K (F := F)).Pay (nD := nD) (Val := Elt F) (Name := ℕ) (U := UU) where
  st := fun q d c => match q with
    | 0 => bigSep Finset.univ fun i : Fin 16 => goW f3 fa f6 d (wid (Fin.cast nCore_zero c) i)
  dn := fun q d c => match q with
    | 0 => bigSep Finset.univ fun i : Fin 16 => tdW f3 fa d (wid (Fin.cast nCore_zero c) i)
  go := fun q d c i => match q with
    | 0 => goW f3 fa f6 d (wid (Fin.cast nCore_zero c) (Fin.cast nSub_zero i))
  td := fun q d c i => match q with
    | 0 => tdW f3 fa d (wid (Fin.cast nCore_zero c) (Fin.cast nSub_zero i))
  x := fun _ _ => iprop(emp)

instance P_storable : (P (F := F) f3 fa f6).IsStorable := by
  constructor <;> intro q <;> match q with | 0 => intros; unfold P; infer_instance

end Pay

end Cert.KernelIdeal.Hand

end
-- ==== Proof.TileArith.lean ====
import proofs.«218716_g83915071029270_cont_9to1c4b_613_31_alg».proof.Proof.TileDefs

namespace Cert.KernelIdeal.Hand

open Idealize.ShloMosaic

def baseTerm (s : BitVec 32) : BitVec 32 := Scalar.addi (Scalar.muli (Scalar.shrsi s 7#32) 1024#32) (Scalar.andi s 127#32)

def pw (a s ℓ : BitVec 32) : BitVec 32 :=
  IntOp.addi (IntOp.addi (IntOp.shli .vector a 7#32) (IntOp.muli (IntOp.shrsi .vector a 3#32) 2096128#32)) (IntOp.addi (baseTerm s) ℓ)

theorem tile_shli7_toNat (a : BitVec 32) (ha : a.toNat < 64) : (IntOp.shli .vector a 7#32).toNat = a.toNat * 128 := by
  unfold IntOp.shli
  rw [if_pos (by decide)]
  rw [BitVec.shiftLeft_eq', BitVec.toNat_shiftLeft, Nat.shiftLeft_eq]
  show a.toNat * 2 ^ 7 % 2 ^ 32 = _
  omega

theorem tile_shrsi_toNat (u : ArithUnit) (x : BitVec 32) (n : ℕ) (hn : n < 32) (hx : x.toNat < 2 ^ 31) :
    (IntOp.shrsi u x (BitVec.ofNat 32 n)).toNat = x.toNat / 2 ^ n := by
  unfold IntOp.shrsi
  have hn' : (BitVec.ofNat 32 n).toNat = n := by simp [BitVec.toNat_ofNat]; omega
  rw [if_pos (by rw [hn']; exact hn)]
  have hm : x.msb = false := (BitVec.msb_eq_false_iff_two_mul_lt).2 (by omega)
  show (x.sshiftRight (BitVec.ofNat 32 n).toNat).toNat = _
  rw [hn', BitVec.sshiftRight_eq_of_msb_false hm, BitVec.toNat_ushiftRight, Nat.shiftRight_eq_div_pow]

theorem tile_andi127_toNat (s : BitVec 32) : (Scalar.andi s 127#32).toNat = s.toNat % 128 := by
  show (s &&& 127#32).toNat = _
  rw [BitVec.toNat_and]
  exact Nat.and_two_pow_sub_one_eq_mod s.toNat 7

theorem baseTerm_toNat (r : ℕ) (hr : r < 262144) : (baseTerm (BitVec.ofNat 32 r)).toNat = r / 128 * 1024 + r % 128 := by
  have hs : (BitVec.ofNat 32 r).toNat = r := by simp [BitVec.toNat_ofNat]; omega
  unfold baseTerm
  show (IntOp.shrsi .scalar (BitVec.ofNat 32 r) (BitVec.ofNat 32 7) * 1024#32 + Scalar.andi (BitVec.ofNat 32 r) 127#32).toNat = _
  rw [BitVec.toNat_add, BitVec.toNat_mul, tile_shrsi_toNat _ _ 7 (by decide) (by rw [hs]; omega), tile_andi127_toNat, hs]
  simp only [BitVec.toNat_ofNat]
  omega

theorem pw_toNat (r : ℕ) (hr16 : r % 16 = 0) (hr : r + 16 ≤ 262144) (ℓ : ℕ) (hℓ : ℓ < 16) (a : BitVec 32) (ha : a.toNat < 64) :
    (pw a (BitVec.ofNat 32 r) (BitVec.ofNat 32 ℓ)).toNat = pIdx (r + ℓ) a.toNat := by
  unfold pw pIdx
  show (IntOp.shli .vector a 7#32 + IntOp.shrsi .vector a (BitVec.ofNat 32 3) * 2096128#32 + (baseTerm (BitVec.ofNat 32 r) + BitVec.ofNat 32 ℓ)).toNat = _
  rw [BitVec.toNat_add, BitVec.toNat_add, BitVec.toNat_add, BitVec.toNat_mul, tile_shli7_toNat a ha,
    tile_shrsi_toNat _ a 3 (by decide) (by omega), baseTerm_toNat r (by omega)]
  simp only [BitVec.toNat_ofNat]
  omega

theorem rowWord_eq (c0 c1 lb t : ℕ) :
    Scalar.addi (Scalar.muli (Scalar.addi (Scalar.muli (BitVec.ofNat 32 c1) 2#32) (BitVec.ofNat 32 c0)) 6144#32)
        (Scalar.muli (Scalar.muli (Scf.iv (BitVec.ofNat 32 lb) 1#32 t) 2#32) 16#32)
      = BitVec.ofNat 32 ((c1 * 2 + c0) * 6144 + 32 * (lb + t)) := by
  apply BitVec.eq_of_toNat_eq
  show ((BitVec.ofNat 32 c1 * 2#32 + BitVec.ofNat 32 c0) * 6144#32 + (BitVec.ofNat 32 lb + BitVec.ofNat 32 t * 1#32) * 2#32 * 16#32).toNat = _
  simp only [BitVec.toNat_add, BitVec.toNat_mul, BitVec.toNat_ofNat]
  omega

end Cert.KernelIdeal.Hand
-- ==== Proof.TileRW.lean ====
import proofs.«218716_g83915071029270_cont_9to1c4b_613_31_alg».proof.Proof.TileDefs
import Idealize.ShloMosaic.Lib.Writes
import Idealize.ShloMosaic.Lib.WritesUnit

namespace Cert.KernelIdeal.Hand

open Cert.KernelIdeal
open Idealize.ShloMosaic Idealize.ShloMosaic.ValueIdx

variable {F : FTy → Type}

-- Element `x` of the consecutive elements from `o` on is element `o + x` of the array.
theorem unit_idx (o sz : Fin 1 → ℕ) (inb : ∀ a, o a + sz a ≤ S6144.size a) (x : (Rect.unit (s := S6144) o sz inb).shape.Idx) (j : Fin 6144)
    (h : j.val = o 0 + (x 0).val) : (Rect.unit (s := S6144) o sz inb).idx x = ix1 j := by
  funext a
  match a with
  | ⟨0, _⟩ => exact Fin.ext (by simp [h])

theorem val_readAt (o : Fin 1 → ℕ) (inb : ∀ a, o a + S16.size a ≤ S6144.size a) (A : S6144.Idx → Elt F .f32) (x : S16.Idx) :
    View.readAt (Elt F) (Memref.whole cc0_scratch2 : Memref sig .scVector .vmem S6144 .f32).view (Rect.unit (s := S6144) o S16.size inb).toLoadRect A x
      = A (ix1 (n := 6144) ⟨o 0 + (x 0).val, by have := inb 0; have : (x 0).val < 16 := (x 0).isLt; simp at *; omega⟩) :=
  congrArg A (unit_idx o _ inb x _ rfl)

-- The newest write wins on its interval; an element off it is read from what was there before.
theorem idx_write_apply (o : Fin 1 → ℕ) (inb : ∀ a, o a + S16.size a ≤ S6144.size a) (f : S6144.Idx → Elt F .i32) (p : S16.Idx → Elt F .i32)
    (j : Fin 6144) :
    View.write (Elt F) ((Memref.whole cc0_scratch1 : Memref sig .scVector .vmem S6144 .i32).access (Rect.unit (s := S6144) o S16.size inb)) f p Finset.univ (ix1 j)
      = if h : o 0 ≤ j.val ∧ j.val < o 0 + 16 then p (ix1 (n := 16) ⟨j.val - o 0, by omega⟩) else f (ix1 j) := by
  split
  · next h =>
    exact View.read_writes_cons_unit_of_mem (Memref.whole cc0_scratch1 : Memref sig .scVector .vmem S6144 .i32).view f inb p [] (ix1 j)
      (ix1 (n := 16) ⟨j.val - o 0, by omega⟩) rfl fun a => by
        match a with
        | ⟨0, _⟩ => show j.val = o 0 + (j.val - o 0); omega
  · next h =>
    exact View.read_writes_cons_unit_of_not_mem (Memref.whole cc0_scratch1 : Memref sig .scVector .vmem S6144 .i32).view f inb p [] (ix1 j) rfl 0
      (by show j.val < o 0 ∨ o 0 + 16 ≤ j.val; omega)

end Cert.KernelIdeal.Hand
-- ==== Proof.TileTrips.lean ====
import proofs.«218716_g83915071029270_cont_9to1c4b_613_31_alg».proof.Proof.TileDefs
import proofs.«218716_g83915071029270_cont_9to1c4b_613_31_alg».proof.Proof.Gen.KernelIdeal.Skeleton
import proofs.«218716_g83915071029270_cont_9to1c4b_613_31_alg».proof.Proof.TileArith
import proofs.«218716_g83915071029270_cont_9to1c4b_613_31_alg».proof.Proof.TileRW
import Idealize.ShloMosaic.Lib.Pipeline.Value

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v3_scv : Memref Cert.KernelIdeal.sig Kind.scVector Space.hbm Cert.KernelIdeal.S16777216 EltTy.f32)
local notation "aV" => (Memref.whole Cert.KernelIdeal.main_arg1_scv : Memref Cert.KernelIdeal.sig Kind.scVector Space.hbm Cert.KernelIdeal.S262144 EltTy.i32)
local notation "oV" => (Memref.whole Cert.KernelIdeal.main_v6_scv : Memref Cert.KernelIdeal.sig Kind.scVector Space.hbm Cert.KernelIdeal.S4096 EltTy.f32)
local notation "lV" => (Memref.whole Cert.KernelIdeal.cc0_scratch0 : Memref Cert.KernelIdeal.sig Kind.scVector Space.vmem Cert.KernelIdeal.S6144 EltTy.i32)
local notation "iV" => (Memref.whole Cert.KernelIdeal.cc0_scratch1 : Memref Cert.KernelIdeal.sig Kind.scVector Space.vmem Cert.KernelIdeal.S6144 EltTy.i32)
local notation "vV" => (Memref.whole Cert.KernelIdeal.cc0_scratch2 : Memref Cert.KernelIdeal.sig Kind.scVector Space.vmem Cert.KernelIdeal.S6144 EltTy.f32)
local notation "cV'" => (Memref.whole Cert.KernelIdeal.cc0_scratch3 : Memref Cert.KernelIdeal.sig Kind.scVector Space.vmem Cert.KernelIdeal.S128 EltTy.f32)

abbrev cV (L : grid0.Coords) : Fin τ.nSC := (L 0).castLE hcore0
abbrev jV (L : grid0.Coords) : Fin τ.nSub := (L 1).castLE hsub0
def wL (L : grid0.Coords) : Fin 32 :=
  ⟨(L 1).val * 2 + (L 0).val, by have h0 : (L 0).val < 2 := (L 0).isLt; have h1 : (L 1).val < 16 := (L 1).isLt; omega⟩
theorem wL_val (L : grid0.Coords) : (wL L).val = (L 1).val * 2 + (L 0).val := rfl

def semEmb (thr : Thread nD τ) : DmaSem sig ↪ GSem nD τ sig :=
  ⟨fun s => (thr, SemLoc.dma s), fun _ _ h => SemLoc.dma.inj (Prod.mk.inj h).2⟩

def used7 : Finset (DmaSem sig) :=
  {cc0_scratch4.sem, cc0_scratch5.sem, cc0_scratch6.sem, cc0_scratch7.sem, cc0_scratch12.sem, cc0_scratch13.sem, cc0_scoped0.sem}

theorem used7_scoped : ∀ s ∈ used7, (SemLoc.dma s : SemLoc sig).isScoped .scVector = true := by decide

theorem used7_sub (d : Dev nD) (c : Fin τ.nSC) (i : Fin τ.nSub) : used7.map (semEmb (V d c i)) ⊆ ownCells (V d c i) := by
  intro g hg
  obtain ⟨s, hs, rfl⟩ := Finset.mem_map.1 hg
  exact mem_ownCells.2 ⟨rfl, used7_scoped s hs⟩

theorem ownSems0_V (d : Dev nD) (c : Fin τ.nSC) (i : Fin τ.nSub) :
    (ownSems0 (V d c i) : sProp 𝕄)
      = iprop((semVal (V d c i, SemLoc.dma cc0_scratch4.sem) 0 ∗ semVal (V d c i, SemLoc.dma cc0_scratch5.sem) 0
          ∗ semVal (V d c i, SemLoc.dma cc0_scratch6.sem) 0 ∗ semVal (V d c i, SemLoc.dma cc0_scratch7.sem) 0
          ∗ semVal (V d c i, SemLoc.dma cc0_scratch12.sem) 0 ∗ semVal (V d c i, SemLoc.dma cc0_scratch13.sem) 0
          ∗ semVal (V d c i, SemLoc.dma cc0_scoped0.sem) 0)
          ∗ bigSep (ownCells (V d c i) \ used7.map (semEmb (V d c i))) fun g => semVal g 0) := by
  unfold SparseCore.Cfg.ownSems0
  rw [SparseCore.bigSep_sdiff_split' (used7_sub d c i), bigSep_map]
  unfold used7
  iterate 6 rw [SparseCore.bigSep_insert' (by decide)]
  rw [bigSep_singleton]
  rfl

theorem ownBufs_V (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch3 ↦{fullShare} f)
          ∗ bigSep ((((ownRefs (τ := τ) (.scVector c i)).erase ((Proc.scVector c i).devRef cc0_scratch0)).erase
              ((Proc.scVector c i).devRef cc0_scratch1)).erase ((Proc.scVector c i).devRef cc0_scratch2) |>.erase ((Proc.scVector c i).devRef cc0_scratch3))
              fun b => iprop(∃ f, ((d, b) : Loc nD τ sig) ↦{fullShare} f)) := by
  unfold SparseCore.Cfg.ownBufs
  have m (r : Ref sig .scVector) (h : ((Proc.scVector c i).devRef r).owner = Owner.proc (Proc.scVector c i)) :
      (Proc.scVector c i).devRef r ∈ ownRefs (τ := τ) (sig := sig) (.scVector c i) := SparseCore.Cfg.mem_ownRefs_of_owner h
  have e {a b : Ref sig .scVector} {s : Finset (DevRef τ sig)} (h : a ≠ b) (hs : (Proc.scVector c i).devRef a ∈ s) :
      (Proc.scVector c i).devRef a ∈ s.erase ((Proc.scVector c i).devRef b) := Finset.mem_erase.mpr ⟨fun q => h (Proc.devRef_injective _ q), hs⟩
  refine (SparseCore.bigSep_erase' (m cc0_scratch0 rfl)).trans ?_
  rw [SparseCore.bigSep_erase' (e (b := cc0_scratch0) (by decide) (m cc0_scratch1 rfl)),
    SparseCore.bigSep_erase' (e (b := cc0_scratch1) (by decide) (e (b := cc0_scratch0) (by decide) (m cc0_scratch2 rfl))),
    SparseCore.bigSep_erase' (e (b := cc0_scratch2) (by decide) (e (b := cc0_scratch1) (by decide) (e (b := cc0_scratch0) (by decide) (m cc0_scratch3 rfl))))]

section Pts

variable (d : Dev nD) (L : grid0.Coords)

abbrev orowK (L : grid0.Coords) : Rect S4096 := Rect.unit (s := S4096) (k0_off19 L) S128.size (k0_off19_inb L)
abbrev oRowK (L : grid0.Coords) : Memref sig .scVector .hbm S128 .f32 := (oV).slice (orowK L) (fun _ => rfl)

theorem orowK_eq : orowK L = orow (wL L) := by
  unfold orowK orow Rect.part Rect.block
  congr 1 <;> funext a
  · rw [k0_off19_eq]
    match a with
    | 0 => simp [Shape.partIx, Shape.partSize, wL_val]; omega
  · match a with
    | 0 => simp [Shape.partSize]

theorem set_oRowK : (oRowK L).view.set = oSet (wL L) := by
  show ((oV).view.slice (orowK L)).set = ((oV).view.slice (orow (wL L))).set
  rw [orowK_eq]

theorem pts_oRowK (f : Buf (Elt F) (oLoc d)) :
    ((oRowK L).view.loc (V d (cV L) (jV L)) ↦[(oRowK L).view.set]{fullShare} f : sProp 𝕄) = oLoc d ↦[oSet (wL L)]{fullShare} f := by
  rw [set_oRowK]
theorem pts_xV (q : PosShare TreeShare) (f : Buf (Elt F) (xLoc d)) :
    ((xV).view.loc (V d (cV L) (jV L)) ↦{q} f : sProp 𝕄) = xLoc d ↦{q} f := rfl
theorem pts_aV (q : PosShare TreeShare) (f : Buf (Elt F) (aLoc d)) :
    ((aV).view.loc (V d (cV L) (jV L)) ↦{q} f : sProp 𝕄) = aLoc d ↦{q} f := rfl
theorem pts_lV (f : Buf (Elt F) ((V d (cV L) (jV L)).loc cc0_scratch0)) :
    ((lV).view.loc (V d (cV L) (jV L)) ↦{fullShare} f : sProp 𝕄) = (V d (cV L) (jV L)).loc cc0_scratch0 ↦{fullShare} f := rfl
theorem pts_iV (f : Buf (Elt F) ((V d (cV L) (jV L)).loc cc0_scratch1)) :
    ((iV).view.loc (V d (cV L) (jV L)) ↦{fullShare} f : sProp 𝕄) = (V d (cV L) (jV L)).loc cc0_scratch1 ↦{fullShare} f := rfl
theorem pts_vV (f : Buf (Elt F) ((V d (cV L) (jV L)).loc cc0_scratch2)) :
    ((vV).view.loc (V d (cV L) (jV L)) ↦{fullShare} f : sProp 𝕄) = (V d (cV L) (jV L)).loc cc0_scratch2 ↦{fullShare} f := rfl
theorem pts_cV (f : Buf (Elt F) ((V d (cV L) (jV L)).loc cc0_scratch3)) :
    ((cV').view.loc (V d (cV L) (jV L)) ↦{fullShare} f : sProp 𝕄) = (V d (cV L) (jV L)).loc cc0_scratch3 ↦{fullShare} f := rfl

end Pts

abbrev RL1 : Rect S6144 := Rect.unit (s := S6144) ![0] S2048.size inb_S6144_S2048_0
abbrev RL2 : Rect S6144 := Rect.unit (s := S6144) ![2048] S4096.size inb_S6144_S4096_2048
abbrev RG0 : Rect S6144 := Rect.unit (s := S6144) ![0] S512.size inb_S6144_S512_0
abbrev RG1 : Rect S6144 := Rect.unit (s := S6144) ![512] S1536.size inb_S6144_S1536_512
abbrev RG2 : Rect S6144 := Rect.unit (s := S6144) ![2048] S2048.size inb_S6144_S2048_2048
abbrev RG3 : Rect S6144 := Rect.unit (s := S6144) ![4096] S2048.size inb_S6144_S2048_4096

abbrev l1M : Memref sig .scVector .vmem S2048 .i32 := (lV).slice RL1 (fun _ => rfl)
abbrev l2M : Memref sig .scVector .vmem S4096 .i32 := (lV).slice RL2 (fun _ => rfl)
abbrev i0M : Memref sig .scVector .vmem S512 .i32 := (iV).slice RG0 (fun _ => rfl)
abbrev i1M : Memref sig .scVector .vmem S1536 .i32 := (iV).slice RG1 (fun _ => rfl)
abbrev i2M : Memref sig .scVector .vmem S2048 .i32 := (iV).slice RG2 (fun _ => rfl)
abbrev i3M : Memref sig .scVector .vmem S2048 .i32 := (iV).slice RG3 (fun _ => rfl)
abbrev v0M : Memref sig .scVector .vmem S512 .f32 := (vV).slice RG0 (fun _ => rfl)
abbrev v1M : Memref sig .scVector .vmem S1536 .f32 := (vV).slice RG1 (fun _ => rfl)
abbrev v2M : Memref sig .scVector .vmem S2048 .f32 := (vV).slice RG2 (fun _ => rfl)
abbrev v3M : Memref sig .scVector .vmem S2048 .f32 := (vV).slice RG3 (fun _ => rfl)

-- A slice of a whole buffer holds exactly its rectangle's elements, and intervals that one bound separates are disjoint.
theorem disj_slices {b : Ref sig .scVector} {o sz o' sz' : Fin b.ty.shape.rank → ℕ} {inb inb'} (a : Fin b.ty.shape.rank) (h : o' a + sz' a ≤ o a) :
    Disjoint ((View.whole b).slice (Rect.unit o sz inb)).set ((View.whole b).slice (Rect.unit o' sz' inb')).set := by
  rw [View.set_slice_whole, View.set_slice_whole]; exact Rect.unit_disjoint a (Or.inr h)

theorem disj_L : Disjoint (l2M).view.set (l1M).view.set := disj_slices 0 (by decide)

theorem disj_i10 : Disjoint (i1M).view.set (i0M).view.set := disj_slices 0 (by decide)
theorem disj_v10 : Disjoint (v1M).view.set (v0M).view.set := disj_slices 0 (by decide)

theorem disj_i20 : Disjoint (i2M).view.set (i0M).view.set := disj_slices 0 (by decide)
theorem disj_v20 : Disjoint (v2M).view.set (v0M).view.set := disj_slices 0 (by decide)

theorem disj_i21 : Disjoint (i2M).view.set (i1M).view.set := disj_slices 0 (by decide)
theorem disj_v21 : Disjoint (v2M).view.set (v1M).view.set := disj_slices 0 (by decide)

theorem disj_i30 : Disjoint (i3M).view.set (i0M).view.set := disj_slices 0 (by decide)
theorem disj_v30 : Disjoint (v3M).view.set (v0M).view.set := disj_slices 0 (by decide)

theorem disj_i31 : Disjoint (i3M).view.set (i1M).view.set := disj_slices 0 (by decide)
theorem disj_v31 : Disjoint (v3M).view.set (v1M).view.set := disj_slices 0 (by decide)

theorem disj_i32 : Disjoint (i3M).view.set (i2M).view.set := disj_slices 0 (by decide)
theorem disj_v32 : Disjoint (v3M).view.set (v2M).view.set := disj_slices 0 (by decide)

theorem i0M_read (f : S6144.Idx → Elt F .i32) (x : S512.Idx) :
    (i0M).view.read (Elt F) f x = f (ix1 (n := 6144) ⟨0 + (x 0).val, by have : (x 0).val < 512 := (x 0).isLt; omega⟩) :=
  congrArg f (show RG0.idx x = _ from unit_idx _ _ _ x _ rfl)
theorem i1M_read (f : S6144.Idx → Elt F .i32) (x : S1536.Idx) :
    (i1M).view.read (Elt F) f x = f (ix1 (n := 6144) ⟨512 + (x 0).val, by have : (x 0).val < 1536 := (x 0).isLt; omega⟩) :=
  congrArg f (show RG1.idx x = _ from unit_idx _ _ _ x _ rfl)
theorem i2M_read (f : S6144.Idx → Elt F .i32) (x : S2048.Idx) :
    (i2M).view.read (Elt F) f x = f (ix1 (n := 6144) ⟨2048 + (x 0).val, by have : (x 0).val < 2048 := (x 0).isLt; omega⟩) :=
  congrArg f (show RG2.idx x = _ from unit_idx _ _ _ x _ rfl)
theorem i3M_read (f : S6144.Idx → Elt F .i32) (x : S2048.Idx) :
    (i3M).view.read (Elt F) f x = f (ix1 (n := 6144) ⟨4096 + (x 0).val, by have : (x 0).val < 2048 := (x 0).isLt; omega⟩) :=
  congrArg f (show RG3.idx x = _ from unit_idx _ _ _ x _ rfl)
theorem l1M_emb (x : S2048.Idx) : (l1M).view.emb x = ix1 (n := 6144) ⟨0 + (x 0).val, by have : (x 0).val < 2048 := (x 0).isLt; omega⟩ :=
  show RL1.idx x = _ from unit_idx _ _ _ x _ rfl
theorem l2M_emb (x : S4096.Idx) : (l2M).view.emb x = ix1 (n := 6144) ⟨2048 + (x 0).val, by have : (x 0).val < 4096 := (x 0).isLt; omega⟩ :=
  show RL2.idx x = _ from unit_idx _ _ _ x _ rfl

abbrev v2w (L : grid0.Coords) : BitVec 32 :=
  Scalar.muli (Scalar.addi (Scalar.muli (BitVec.ofNat 32 (L 1).val) 2#32) (BitVec.ofNat 32 (L 0).val)) 6144#32
abbrev v12w : IVec S16 32 := iota .scVector S16 32 [0] iota_S16_d0_w32_scVector

def LabOK (a : S262144.Idx → BitVec 32) (w : Fin 32) (A : S6144.Idx → BitVec 32) (lo hi : ℕ) : Prop :=
  ∀ j : Fin 6144, lo ≤ j.val → j.val < hi → A (ix1 j) = a (ix1 (wrow w j))
def IdxOK (a : S262144.Idx → BitVec 32) (w : Fin 32) (fI : S6144.Idx → BitVec 32) (lo hi : ℕ) : Prop :=
  ∀ j : Fin 6144, lo ≤ j.val → j.val < hi → (fI (ix1 j)).toNat = pIdx (wrow w j).val (a (ix1 (wrow w j))).toNat

def rowW (v2 lb st : BitVec 32) (k : ℕ) : BitVec 32 := Scalar.addi v2 (Scalar.muli (Scalar.muli (Scf.iv lb st k) 2#32) 16#32)

theorem v12w_apply (i : S16.Idx) : v12w i = BitVec.ofNat 32 (i 0).val := by
  simp [v12w, iota]

theorem rowW_v2w (L : grid0.Coords) (lb k : ℕ) :
    rowW (v2w L) (BitVec.ofNat 32 lb) 1#32 k = BitVec.ofNat 32 ((wL L).val * 6144 + 32 * (lb + k)) :=
  rowWord_eq (L 0).val (L 1).val lb k

theorem addi16 (r : ℕ) : Scalar.addi (BitVec.ofNat 32 r) 16#32 = BitVec.ofNat 32 (r + 16) := by
  show BitVec.ofNat 32 r + BitVec.ofNat 32 16 = _
  rw [← BitVec.ofNat_add]

theorem lane_toNat {a : S262144.Idx → BitVec 32} (hin : Cert.Spec.InRange a) (w : Fin 32) (B : ℕ) (hB16 : B % 16 = 0) (i : Fin 16) (j : Fin 6144)
    (hj : j.val = B + i.val) {lab s ℓ : BitVec 32} (hlab : lab = a (ix1 (wrow w j))) {r : ℕ} (hs : s = BitVec.ofNat 32 r) (hr : r = w.val * 6144 + B)
    (hℓ : ℓ = BitVec.ofNat 32 i.val) :
    (pw lab s ℓ).toNat = pIdx (wrow w j).val (a (ix1 (wrow w j))).toNat := by
  subst hlab hr hs hℓ
  have hw := w.isLt; have hi := i.isLt; have hjl := j.isLt
  rw [pw_toNat (w.val * 6144 + B) (by omega) (by omega) i.val i.isLt _ (hin _)]
  congr 1
  show w.val * 6144 + B + i.val = w.val * 6144 + j.val
  omega

-- The step the four index-building loops share: two stores of sixteen indices each extend the rows done by thirty-two.
theorem trip_tail {a : S262144.Idx → BitVec 32} (hin : Cert.Spec.InRange a) (L : grid0.Coords) (lb k c : ℕ) {lo hi off : ℕ}
    {A fI : S6144.Idx → Elt F .i32} (hA : LabOK a (wL L) A lo hi) (hI : IdxOK a (wL L) fI off (32 * (lb + k)))
    (hc : c = 32 * lb) (hlo : lo ≤ 32 * (lb + k)) (hhi : 32 * (lb + k) + 32 ≤ hi)
    {o3 o4 : Fin 1 → ℕ} (inb3 : ∀ a, o3 a + S16.size a ≤ S6144.size a) (inb4 : ∀ a, o4 a + S16.size a ≤ S6144.size a)
    (h3 : o3 = ![32 * k + c]) (h4 : o4 = ![32 * k + (c + 16)]) {p3 p4 : S16.Idx → Elt F .i32}
    (hp3 : p3 = shapeCast S16 (fun i => pw (shapeCast (s := S16) S16 (View.readAt (Elt F) (lV).view (Rect.unit (s := S6144) o3 S16.size inb3).toLoadRect A) shapeCasts_S16_S16 i)
      (rowW (v2w L) (BitVec.ofNat 32 lb) 1#32 k) (v12w i)) shapeCasts_S16_S16)
    (hp4 : p4 = shapeCast S16 (fun i => pw (shapeCast (s := S16) S16 (View.readAt (Elt F) (lV).view (Rect.unit (s := S6144) o4 S16.size inb4).toLoadRect A) shapeCasts_S16_S16 i)
      (Scalar.addi (rowW (v2w L) (BitVec.ofNat 32 lb) 1#32 k) 16#32) (v12w i)) shapeCasts_S16_S16) :
    IdxOK a (wL L) (View.write (Elt F) ((iV).access (Rect.unit (s := S6144) o4 S16.size inb4))
      (View.write (Elt F) ((iV).access (Rect.unit (s := S6144) o3 S16.size inb3)) fI p3 Finset.univ) p4 Finset.univ) off (32 * (lb + (k + 1))) := by
  subst hc
  have e3 : o3 0 = 32 * (lb + k) := by rw [h3]; show 32 * k + 32 * lb = _; omega
  have e4 : o4 0 = 32 * (lb + k) + 16 := by rw [h4]; show 32 * k + (32 * lb + 16) = _; omega
  intro j hlo' hhi'
  rw [idx_write_apply]
  split
  · simp only [hp4, shapeCast_self]
    exact lane_toNat hin (wL L) (32 * (lb + k) + 16) (by omega) ⟨j.val - o4 0, by omega⟩ j (by show j.val = _ + (j.val - o4 0); omega)
      ((congrArg A (unit_idx _ _ inb4 _ j (by show j.val = o4 0 + (j.val - o4 0); omega))).trans (hA j (by omega) (by omega)))
      ((congrArg (Scalar.addi · 16#32) (rowW_v2w L lb k)).trans (addi16 _)) (by omega) (v12w_apply _)
  · rw [idx_write_apply]
    split
    · simp only [hp3, shapeCast_self]
      exact lane_toNat hin (wL L) (32 * (lb + k)) (by omega) ⟨j.val - o3 0, by omega⟩ j (by show j.val = _ + (j.val - o3 0); omega)
        ((congrArg A (unit_idx _ _ inb3 _ j (by show j.val = o3 0 + (j.val - o3 0); omega))).trans (hA j (by omega) (by omega)))
        (rowW_v2w L lb k) rfl (v12w_apply _)
    · exact hI j hlo' (by omega)

section Trips
variable [FloatOps F]
variable (fa : (d : Dev nD) → Buf (Elt F) (aLoc d)) (d : Dev nD) (L : grid0.Coords)

-- A loop body applied to the call's own arguments.
abbrev atArgs {β : grid0.Coords → Sort _} (f : (i : grid0.Coords) → (a2 : Memref sig .scVector .hbm S16777216 .f32) → a2.IsWhole → (a3 : Memref sig .scVector .hbm S262144 .i32) → a3.IsWhole
    → (a4 : Memref sig .scVector .hbm S4096 .f32) → a4.IsWhole → (a5 : Memref sig .scVector .vmem S6144 .i32) → a5.IsWhole → (a6 : Memref sig .scVector .vmem S6144 .i32) → a6.IsWhole
    → (a7 : Memref sig .scVector .vmem S6144 .f32) → a7.IsWhole → (a8 : Memref sig .scVector .vmem S128 .f32) → a8.IsWhole
    → DmaSems sig S_ → DmaSems sig S_ → DmaSems sig S_ → DmaSems sig S_ → DmaSems sig S_ → DmaSems sig S_ → DmaSems sig S_ → DmaSems sig S_ → DmaSems sig S_
    → DmaSems sig S_ → DmaSems sig S_ → BitVec 32 → IVec S16 32 → β i) : β L :=
  f L xV (Memref.isWhole_whole _) aV (Memref.isWhole_whole _) oV (Memref.isWhole_whole _) lV (Memref.isWhole_whole _) iV (Memref.isWhole_whole _) vV (Memref.isWhole_whole _)
    cV' (Memref.isWhole_whole _) cc0_scratch4 cc0_scratch5 cc0_scratch6 cc0_scratch7 cc0_scratch8 cc0_scratch9 cc0_scratch10 cc0_scratch11 cc0_scratch12 cc0_scratch13 cc0_scoped0
    (v2w L) v12w

-- What a trip of an index-building loop keeps: the labels' stretch as it is, and the indices' stretch holding the indices of the rows done.
abbrev idxInv (RL RI : Rect S6144) (A : S6144.Idx → Elt F .i32) (off n : ℕ) (hL : ∀ a, RL.stride a = 1 := by exact fun _ => rfl)
    (hI : ∀ a, RI.stride a = 1 := by exact fun _ => rfl) : sProp 𝕄 :=
  iprop((((lV).slice RL hL).view.loc (V d (cV L) (jV L)) ↦[((lV).slice RL hL).view.set]{fullShare} A)
    ∗ ∃ fI, (((iV).slice RI hI).view.loc (V d (cV L) (jV L)) ↦[((iV).slice RI hI).view.set]{fullShare} fI) ∗ ⌜IdxOK (fa d) (wL L) fI off n⌝)

theorem trip_1 (hin : Cert.Spec.InRange (fa d)) (k : Fin k0_t1_loop.trips) (A : Buf (Elt F) ((l1M).view.loc (V d (cV L) (jV L))))
    (hA : LabOK (fa d) (wL L) A 0 2048) :
    (idxInv fa d L RL1 RG0 A 0 (32 * (0 + k.val)) : sProp 𝕄)
      ⊢ wp frame (wpE (defs₀ (F := F)) 𝒱₀ (V d (cV L) (jV L)) none) Set.univ
          (atArgs L k0_t1_body k ⟨⟩)
          fun _ => idxInv fa d L RL1 RG0 A 0 (32 * (0 + (k.val + 1))) := by
  unfold idxInv atArgs
  have hk : k.val < 16 := Nat.lt_of_lt_of_le k.isLt k0_t1_abs.2.1
  unfold k0_t1_body
  rw [k0_part1_eq_skeleton]; unfold k0_part1_skel
  iintro ⟨Hl, %fI, Hi, %hI⟩
  sl_exec
  sl_step
  isplitl [Hl]; · iexact Hl
  iexists _; isplitl [Hi]; · iexact Hi
  ipureintro
  exact trip_tail hin L 0 k.val 0 hA hI rfl (by omega) (by omega) _ _ (k0_off3_eq k) (k0_off4_eq k) rfl rfl

theorem trip_2 (hin : Cert.Spec.InRange (fa d)) (k : Fin k0_t2_loop.trips) (A : Buf (Elt F) ((l1M).view.loc (V d (cV L) (jV L))))
    (hA : LabOK (fa d) (wL L) A 0 2048) :
    (idxInv fa d L RL1 RG1 A 512 (32 * (16 + k.val)) : sProp 𝕄)
      ⊢ wp frame (wpE (defs₀ (F := F)) 𝒱₀ (V d (cV L) (jV L)) none) Set.univ
          (atArgs L k0_t2_body k ⟨⟩)
          fun _ => idxInv fa d L RL1 RG1 A 512 (32 * (16 + (k.val + 1))) := by
  unfold idxInv atArgs
  have hk : k.val < 48 := Nat.lt_of_lt_of_le k.isLt k0_t2_abs.2.1
  unfold k0_t2_body
  rw [k0_part2_eq_skeleton]; unfold k0_part2_skel
  iintro ⟨Hl, %fI, Hi, %hI⟩
  sl_exec
  sl_step
  isplitl [Hl]; · iexact Hl
  iexists _; isplitl [Hi]; · iexact Hi
  ipureintro
  exact trip_tail hin L 16 k.val 512 hA hI rfl (by omega) (by omega) _ _ (k0_off5_eq k) (k0_off6_eq k) rfl rfl

theorem trip_3 (hin : Cert.Spec.InRange (fa d)) (k : Fin k0_t3_loop.trips) (A : Buf (Elt F) ((l2M).view.loc (V d (cV L) (jV L))))
    (hA : LabOK (fa d) (wL L) A 2048 6144) :
    (idxInv fa d L RL2 RG2 A 2048 (32 * (64 + k.val)) : sProp 𝕄)
      ⊢ wp frame (wpE (defs₀ (F := F)) 𝒱₀ (V d (cV L) (jV L)) none) Set.univ
          (atArgs L k0_t3_body k ⟨⟩)
          fun _ => idxInv fa d L RL2 RG2 A 2048 (32 * (64 + (k.val + 1))) := by
  unfold idxInv atArgs
  have hk : k.val < 64 := Nat.lt_of_lt_of_le k.isLt k0_t3_abs.2.1
  unfold k0_t3_body
  rw [k0_part3_eq_skeleton]; unfold k0_part3_skel
  iintro ⟨Hl, %fI, Hi, %hI⟩
  sl_exec
  sl_step
  isplitl [Hl]; · iexact Hl
  iexists _; isplitl [Hi]; · iexact Hi
  ipureintro
  exact trip_tail hin L 64 k.val 2048 hA hI rfl (by omega) (by omega) _ _ (k0_off7_eq k) (k0_off8_eq k) rfl rfl

theorem trip_4 (hin : Cert.Spec.InRange (fa d)) (k : Fin k0_t4_loop.trips) (A : Buf (Elt F) ((l2M).view.loc (V d (cV L) (jV L))))
    (hA : LabOK (fa d) (wL L) A 2048 6144) :
    (idxInv fa d L RL2 RG3 A 4096 (32 * (128 + k.val)) : sProp 𝕄)
      ⊢ wp frame (wpE (defs₀ (F := F)) 𝒱₀ (V d (cV L) (jV L)) none) Set.univ
          (atArgs L k0_t4_body k ⟨⟩)
          fun _ => idxInv fa d L RL2 RG3 A 4096 (32 * (128 + (k.val + 1))) := by
  unfold idxInv atArgs
  have hk : k.val < 64 := Nat.lt_of_lt_of_le k.isLt k0_t4_abs.2.1
  unfold k0_t4_body
  rw [k0_part4_eq_skeleton]; unfold k0_part4_skel
  iintro ⟨Hl, %fI, Hi, %hI⟩
  sl_exec
  sl_step
  isplitl [Hl]; · iexact Hl
  iexists _; isplitl [Hi]; · iexact Hi
  ipureintro
  exact trip_tail hin L 128 k.val 4096 hA hI rfl (by omega) (by omega) _ _ (k0_off9_eq k) (k0_off10_eq k) rfl rfl

end Trips

end Cert.KernelIdeal.Hand

end
-- ==== Proof.TileAccDefs.lean ====
import proofs.«218716_g83915071029270_cont_9to1c4b_613_31_alg».proof.Proof.TileDefs

noncomputable section

namespace Cert.KernelIdeal.Hand

open Cert.KernelIdeal
open Idealize.ShloMosaic Idealize.ShloMosaic.ValueIdx

variable {F : FTy → Type}

def ValOK [FloatOps F] (x : S16777216.Idx → F .f32) (a : S262144.Idx → BitVec 32) (w : Fin 32) (fV : S6144.Idx → F .f32) (lo hi : ℕ) : Prop :=
  ∀ j : Fin 6144, lo ≤ j.val → j.val < hi → fV (ix1 j) = gathered x a w j

def AccOK [FloatOps F] (x : S16777216.Idx → F .f32) (a : S262144.Idx → BitVec 32) (w : Fin 32) (c0 c1 c2 c3 : FVec F S16 .f32) (n : ℕ) : Prop :=
  ∀ i : Fin 16, c0 (ix1 i) = accAt x a w ⟨i.val, by omega⟩ n ∧ c1 (ix1 i) = accAt x a w ⟨16 + i.val, by omega⟩ n
    ∧ c2 (ix1 i) = accAt x a w ⟨32 + i.val, by omega⟩ n ∧ c3 (ix1 i) = accAt x a w ⟨48 + i.val, by omega⟩ n

-- Adding row `64 n + kq`'s gathered word extends column `kq`'s left fold by one group.
theorem acc_lane [FloatOps F] (x : S16777216.Idx → F .f32) (a : S262144.Idx → BitVec 32) (w : Fin 32) {n : ℕ} (hn : n < 96) (kq : Fin 64)
    {c v : F .f32} (hc : c = accAt x a w kq n) (j : Fin 6144) (hj : j.val = 64 * n + kq.val) (hv : v = gathered x a w j) :
    FloatOps.addf c v = accAt x a w kq (n + 1) := by
  subst hc hv
  rw [accAt_succ x a w kq hn]
  congr 2
  exact Fin.ext hj

end Cert.KernelIdeal.Hand

end
-- ==== Proof.TileAccTrips.lean ====
import proofs.«218716_g83915071029270_cont_9to1c4b_613_31_alg».proof.Proof.TileDefs
import proofs.«218716_g83915071029270_cont_9to1c4b_613_31_alg».proof.Proof.Gen.KernelIdeal.Skeleton
import proofs.«218716_g83915071029270_cont_9to1c4b_613_31_alg».proof.Proof.TileTrips
import proofs.«218716_g83915071029270_cont_9to1c4b_613_31_alg».proof.Proof.TileAccDefs

noncomputable section

namespace Cert.KernelIdeal.Hand

open Cert.KernelIdeal Cert.KernelIdeal.Gen

open Idealize.ShloMosaic Idealize.ShloMosaic.ValueIdx
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

local notation "xV" => (Memref.whole main_v3_scv : Memref sig Kind.scVector Space.hbm S16777216 EltTy.f32)
local notation "aV" => (Memref.whole main_arg1_scv : Memref sig Kind.scVector Space.hbm S262144 EltTy.i32)
local notation "oV" => (Memref.whole main_v6_scv : Memref sig Kind.scVector Space.hbm S4096 EltTy.f32)
local notation "lV" => (Memref.whole cc0_scratch0 : Memref sig Kind.scVector Space.vmem S6144 EltTy.i32)
local notation "iV" => (Memref.whole cc0_scratch1 : Memref sig Kind.scVector Space.vmem S6144 EltTy.i32)
local notation "vV" => (Memref.whole cc0_scratch2 : Memref sig Kind.scVector Space.vmem S6144 EltTy.f32)
local notation "cV'" => (Memref.whole cc0_scratch3 : Memref sig Kind.scVector Space.vmem S128 EltTy.f32)

theorem payA [FloatOps F] (c : FVec F S16 .f32) (v : Vec F S16 .f32) (i : S16.Idx) : k0_pay32 c v i = FloatOps.addf (c i) (v i) := by
  unfold k0_pay32
  simp only [shapeCast_self]
  rfl

-- One trip adds group `g + k`'s sixty-four gathered words to the four accumulators, sixteen lanes each.
theorem accOK_step [FloatOps F] (g T : ℕ) {k : ℕ} {x a w fV}
    (hV : ValOK x a w fV (64 * g) (64 * (g + T))) (hk : k < T) (hT : g + T ≤ 96) {c0 c1 c2 c3} (hc : AccOK x a w c0 c1 c2 c3 (g + k))
    {o : Fin 1 → ℕ} {o' : BitVec 32 → Fin 1 → ℕ} (i0 i1 i2 i3) (e : o = ![64 * k + 64 * g])
    (e' : ∀ r : Fin 3, o' (BitVec.ofNat 32 (16 + 16 * r.val)) = ![64 * k + 16 * r.val + (64 * g + 16)]) :
    AccOK x a w (k0_pay32 c0 (View.readAt (Elt F) (vV).view (Rect.unit (s := S6144) o S16.size i0).toLoadRect fV))
      (k0_pay32 c1 (View.readAt (Elt F) (vV).view (Rect.unit (s := S6144) (o' 16#32) S16.size i1).toLoadRect fV))
      (k0_pay32 c2 (View.readAt (Elt F) (vV).view (Rect.unit (s := S6144) (o' 32#32) S16.size i2).toLoadRect fV))
      (k0_pay32 c3 (View.readAt (Elt F) (vV).view (Rect.unit (s := S6144) (o' 48#32) S16.size i3).toLoadRect fV)) (g + (k + 1)) := by
  rw [← Nat.add_assoc g k 1]
  intro i
  have q0 : o 0 = 64 * k + 64 * g := congrFun e 0
  have q1 : o' 16#32 0 = 64 * k + 16 * 0 + (64 * g + 16) := congrFun (e' ⟨0, by decide⟩) 0
  have q2 : o' 32#32 0 = 64 * k + 16 * 1 + (64 * g + 16) := congrFun (e' ⟨1, by decide⟩) 0
  have q3 : o' 48#32 0 = 64 * k + 16 * 2 + (64 * g + 16) := congrFun (e' ⟨2, by decide⟩) 0
  obtain ⟨h0, h1, h2, h3⟩ := hc i
  have hi := i.isLt
  have key : ∀ (kq : Fin 64) {c : FVec F S16 .f32} (p : Fin 1 → ℕ) (ip), c (ix1 i) = accAt x a w kq (g + k) → p 0 + i.val = 64 * (g + k) + kq.val →
      k0_pay32 c (View.readAt (Elt F) (vV).view (Rect.unit (s := S6144) p S16.size ip).toLoadRect fV) (ix1 i) = accAt x a w kq (g + k + 1) := fun kq c p ip h hp => by
    rw [payA, val_readAt]
    exact acc_lane x a w (by omega) kq h _ hp (hV _ (by show _ ≤ p 0 + i.val; omega) (by show p 0 + i.val < _; omega))
  exact ⟨key _ _ _ h0 (by show _ = 64 * (g + k) + i.val; omega), key _ _ _ h1 (by show _ = 64 * (g + k) + (16 + i.val); omega),
    key _ _ _ h2 (by show _ = 64 * (g + k) + (32 + i.val); omega), key _ _ _ h3 (by show _ = 64 * (g + k) + (48 + i.val); omega)⟩

section AccTrips
variable [FloatOps F]
variable (d : Dev nD) (L : grid0.Coords)

theorem tripA_5 (x : S16777216.Idx → F .f32) (a : S262144.Idx → BitVec 32) (k : Fin k0_t5_loop.trips)
    (fV : Buf (Elt F) ((v0M).view.loc (V d (cV L) (jV L)))) (hV : ValOK x a (wL L) fV 0 512)
    (c0 c1 c2 c3 : FVec F S16 .f32) (hc : AccOK x a (wL L) c0 c1 c2 c3 (0 + k.val)) (v2 : BitVec 32) (v12 : IVec S16 32) :
    (((v0M).view.loc (V d (cV L) (jV L)) ↦[(v0M).view.set]{fullShare} fV) : sProp 𝕄)
      ⊢ wp frame (wpE (defs₀ (F := F)) 𝒱₀ (V d (cV L) (jV L)) none) Set.univ
          (k0_t5_body L xV (Memref.isWhole_whole _) aV (Memref.isWhole_whole _) oV (Memref.isWhole_whole _)
            lV (Memref.isWhole_whole _) iV (Memref.isWhole_whole _) vV (Memref.isWhole_whole _) cV' (Memref.isWhole_whole _)
            cc0_scratch4 cc0_scratch5 cc0_scratch6 cc0_scratch7 cc0_scratch8 cc0_scratch9 cc0_scratch10 cc0_scratch11 cc0_scratch12 cc0_scratch13 cc0_scoped0 v2 v12 k (c0, c1, c2, c3))
          fun r => iprop(((v0M).view.loc (V d (cV L) (jV L)) ↦[(v0M).view.set]{fullShare} fV)
            ∗ ⌜AccOK x a (wL L) r.1 r.2.1 r.2.2.1 r.2.2.2 (0 + (k.val + 1))⌝) := by
  have hk : k.val < 8 := k.isLt.trans_le k0_t5_abs.2.1
  unfold k0_t5_body
  iintro Hv
  sl_exec
  sl_step
  isplitl [Hv]; · iexact Hv
  ipureintro
  exact accOK_step 0 8 hV hk (by decide) hc _ _ _ _ (k0_off11_eq k) (k0_off12_eq k)

theorem tripA_6 (x : S16777216.Idx → F .f32) (a : S262144.Idx → BitVec 32) (k : Fin k0_t6_loop.trips)
    (fV : Buf (Elt F) ((v1M).view.loc (V d (cV L) (jV L)))) (hV : ValOK x a (wL L) fV 512 2048)
    (c0 c1 c2 c3 : FVec F S16 .f32) (hc : AccOK x a (wL L) c0 c1 c2 c3 (8 + k.val)) (v37 v42_0 v42_1 v42_2 v42_3 : FVec F S16 .f32) (c8 c1' : BitVec 32) :
    (((v1M).view.loc (V d (cV L) (jV L)) ↦[(v1M).view.set]{fullShare} fV) : sProp 𝕄)
      ⊢ wp frame (wpE (defs₀ (F := F)) 𝒱₀ (V d (cV L) (jV L)) none) Set.univ
          (k0_t6_body L xV (Memref.isWhole_whole _) aV (Memref.isWhole_whole _) oV (Memref.isWhole_whole _)
            lV (Memref.isWhole_whole _) iV (Memref.isWhole_whole _) vV (Memref.isWhole_whole _) cV' (Memref.isWhole_whole _)
            cc0_scratch4 cc0_scratch5 cc0_scratch6 cc0_scratch7 cc0_scratch8 cc0_scratch9 cc0_scratch10 cc0_scratch11 cc0_scratch12 cc0_scratch13 cc0_scoped0 v37 v42_0 v42_1 v42_2 v42_3 c8 c1' k (c0, c1, c2, c3))
          fun r => iprop(((v1M).view.loc (V d (cV L) (jV L)) ↦[(v1M).view.set]{fullShare} fV)
            ∗ ⌜AccOK x a (wL L) r.1 r.2.1 r.2.2.1 r.2.2.2 (8 + (k.val + 1))⌝) := by
  have hk : k.val < 24 := k.isLt.trans_le k0_t6_abs.2.1
  unfold k0_t6_body
  iintro Hv
  sl_exec
  sl_step
  isplitl [Hv]; · iexact Hv
  ipureintro
  exact accOK_step 8 24 hV hk (by decide) hc _ _ _ _ (k0_off13_eq k) (k0_off14_eq k)

theorem tripA_7 (x : S16777216.Idx → F .f32) (a : S262144.Idx → BitVec 32) (k : Fin k0_t7_loop.trips)
    (fV : Buf (Elt F) ((v2M).view.loc (V d (cV L) (jV L)))) (hV : ValOK x a (wL L) fV 2048 4096)
    (c0 c1 c2 c3 : FVec F S16 .f32) (hc : AccOK x a (wL L) c0 c1 c2 c3 (32 + k.val)) (v37 v42_0 v42_1 v42_2 v42_3 : FVec F S16 .f32) (c8 c1' : BitVec 32) :
    (((v2M).view.loc (V d (cV L) (jV L)) ↦[(v2M).view.set]{fullShare} fV) : sProp 𝕄)
      ⊢ wp frame (wpE (defs₀ (F := F)) 𝒱₀ (V d (cV L) (jV L)) none) Set.univ
          (k0_t7_body L xV (Memref.isWhole_whole _) aV (Memref.isWhole_whole _) oV (Memref.isWhole_whole _)
            lV (Memref.isWhole_whole _) iV (Memref.isWhole_whole _) vV (Memref.isWhole_whole _) cV' (Memref.isWhole_whole _)
            cc0_scratch4 cc0_scratch5 cc0_scratch6 cc0_scratch7 cc0_scratch8 cc0_scratch9 cc0_scratch10 cc0_scratch11 cc0_scratch12 cc0_scratch13 cc0_scoped0 v37 v42_0 v42_1 v42_2 v42_3 c8 c1' k (c0, c1, c2, c3))
          fun r => iprop(((v2M).view.loc (V d (cV L) (jV L)) ↦[(v2M).view.set]{fullShare} fV)
            ∗ ⌜AccOK x a (wL L) r.1 r.2.1 r.2.2.1 r.2.2.2 (32 + (k.val + 1))⌝) := by
  have hk : k.val < 32 := k.isLt.trans_le k0_t7_abs.2.1
  unfold k0_t7_body
  iintro Hv
  sl_exec
  sl_step
  isplitl [Hv]; · iexact Hv
  ipureintro
  exact accOK_step 32 32 hV hk (by decide) hc _ _ _ _ (k0_off15_eq k) (k0_off16_eq k)

theorem tripA_8 (x : S16777216.Idx → F .f32) (a : S262144.Idx → BitVec 32) (k : Fin k0_t8_loop.trips)
    (fV : Buf (Elt F) ((v3M).view.loc (V d (cV L) (jV L)))) (hV : ValOK x a (wL L) fV 4096 6144)
    (c0 c1 c2 c3 : FVec F S16 .f32) (hc : AccOK x a (wL L) c0 c1 c2 c3 (64 + k.val)) (v37 v42_0 v42_1 v42_2 v42_3 : FVec F S16 .f32) (c8 c1' : BitVec 32) :
    (((v3M).view.loc (V d (cV L) (jV L)) ↦[(v3M).view.set]{fullShare} fV) : sProp 𝕄)
      ⊢ wp frame (wpE (defs₀ (F := F)) 𝒱₀ (V d (cV L) (jV L)) none) Set.univ
          (k0_t8_body L xV (Memref.isWhole_whole _) aV (Memref.isWhole_whole _) oV (Memref.isWhole_whole _)
            lV (Memref.isWhole_whole _) iV (Memref.isWhole_whole _) vV (Memref.isWhole_whole _) cV' (Memref.isWhole_whole _)
            cc0_scratch4 cc0_scratch5 cc0_scratch6 cc0_scratch7 cc0_scratch8 cc0_scratch9 cc0_scratch10 cc0_scratch11 cc0_scratch12 cc0_scratch13 cc0_scoped0 v37 v42_0 v42_1 v42_2 v42_3 c8 c1' k (c0, c1, c2, c3))
          fun r => iprop(((v3M).view.loc (V d (cV L) (jV L)) ↦[(v3M).view.set]{fullShare} fV)
            ∗ ⌜AccOK x a (wL L) r.1 r.2.1 r.2.2.1 r.2.2.2 (64 + (k.val + 1))⌝) := by
  have hk : k.val < 32 := k.isLt.trans_le k0_t8_abs.2.1
  unfold k0_t8_body
  iintro Hv
  sl_exec
  sl_step
  isplitl [Hv]; · iexact Hv
  ipureintro
  exact accOK_step 64 32 hV hk (by decide) hc _ _ _ _ (k0_off17_eq k) (k0_off18_eq k)

end AccTrips

end Cert.KernelIdeal.Hand

end
-- ==== Proof.TileFinal.lean ====
import proofs.«218716_g83915071029270_cont_9to1c4b_613_31_alg».proof.Proof.TileAccDefs
import Idealize.ShloMosaic.Lib.Writes
import Idealize.ShloMosaic.Lib.WritesUnit
import Idealize.ShloMosaic.Lib.Pipeline.Value

noncomputable section

namespace Cert.KernelIdeal.Hand

open Cert.KernelIdeal Cert.KernelIdeal.Gen
open Idealize.ShloMosaic Idealize.ShloMosaic.ValueIdx

variable {F : FTy → Type}

theorem acc_write_apply (o : ℕ) (inb : ∀ a, (![o] : Fin 1 → ℕ) a + S16.size a ≤ S128.size a) (f : S128.Idx → Elt F .f32)
    (p : S16.Idx → Elt F .f32) (j : Fin 128) :
    View.write (Elt F) ((Memref.whole cc0_scratch3 : Memref sig .scVector .vmem S128 .f32).access (Rect.unit (s := S128) ![o] S16.size inb)) f p Finset.univ (ix1 j)
      = if h : o ≤ j.val ∧ j.val < o + 16 then p (ix1 (n := 16) ⟨j.val - o, by omega⟩) else f (ix1 j) := by
  by_cases h : o ≤ j.val ∧ j.val < o + 16
  · rw [dif_pos h]
    exact View.read_writes_cons_unit_of_mem (Val := Elt F) (Memref.whole cc0_scratch3 : Memref sig .scVector .vmem S128 .f32).view f inb p [] (ix1 j)
      (ix1 (n := 16) ⟨j.val - o, by omega⟩) rfl fun a => match a with | ⟨0, _⟩ => by show j.val = o + (j.val - o); omega
  · rw [dif_neg h]
    exact View.read_writes_cons_unit_of_not_mem (Val := Elt F) (Memref.whole cc0_scratch3 : Memref sig .scVector .vmem S128 .f32).view f inb p [] (ix1 j) rfl 0
      (by show j.val < o ∨ o + 16 ≤ j.val; omega)

abbrev accWrites [FloatOps F] (fc : S128.Idx → F .f32) (c0 c1 c2 c3 z : S16.Idx → F .f32) : S128.Idx → F .f32 :=
  (Memref.whole cc0_scratch3 : Memref sig .scVector .vmem S128 .f32).view.writes (Elt F) fc
    [⟨Rect.unit (s := S128) ![112] S16.size inb_S128_S16_112, z⟩, ⟨Rect.unit (s := S128) ![48] S16.size inb_S128_S16_48, c3⟩,
     ⟨Rect.unit (s := S128) ![96] S16.size inb_S128_S16_96, z⟩, ⟨Rect.unit (s := S128) ![32] S16.size inb_S128_S16_32, c2⟩,
     ⟨Rect.unit (s := S128) ![80] S16.size inb_S128_S16_80, z⟩, ⟨Rect.unit (s := S128) ![16] S16.size inb_S128_S16_16, c1⟩,
     ⟨Rect.unit (s := S128) ![64] S16.size inb_S128_S16_64, z⟩, ⟨Rect.unit (s := S128) ![0] S16.size inb_S128_S16_0, c0⟩]

-- Each word lies in exactly one store's box: the lower four hold the accumulators, which are the column sums; the upper four hold zeros.
theorem accOut [FloatOps F] (x : S16777216.Idx → F .f32) (a : S262144.Idx → BitVec 32) (w : Fin 32) (fc : S128.Idx → F .f32)
    (c0 c1 c2 c3 z : S16.Idx → F .f32) (hc : AccOK x a w c0 c1 c2 c3 96) (hz : ∀ i, z i = zeroF) (m : Fin 128) :
    accWrites fc c0 c1 c2 c3 z (ix1 m) = tileOut x a w (ix1 m) := by
  have hm := m.isLt
  have lo : ∀ k : Fin 64, m.val = k.val → accAt x a w k 96 = tileOut x a w (ix1 m) := fun k hk => by
    unfold tileOut
    rw [dif_pos (show ((ix1 m : S128.Idx) 0).val < 64 from hk ▸ k.isLt)]
    exact congrArg (accAt x a w · 96) (Fin.ext hk.symm)
  have hi : 64 ≤ m.val → zeroF = tileOut x a w (ix1 m) := fun h => by
    unfold tileOut
    rw [dif_neg (show ¬ ((ix1 m : S128.Idx) 0).val < 64 from Nat.not_lt.2 h)]
  unfold accWrites
  simp only [View.writes_cons, View.writes_nil]
  rw [acc_write_apply (F := F) 112, acc_write_apply (F := F) 48, acc_write_apply (F := F) 96, acc_write_apply (F := F) 32,
    acc_write_apply (F := F) 80, acc_write_apply (F := F) 16, acc_write_apply (F := F) 64, acc_write_apply (F := F) 0]
  split_ifs
  · rw [hz]; exact hi (by omega)
  · rw [(hc _).2.2.2]; exact lo _ (by show m.val = 48 + (m.val - 48); omega)
  · rw [hz]; exact hi (by omega)
  · rw [(hc _).2.2.1]; exact lo _ (by show m.val = 32 + (m.val - 32); omega)
  · rw [hz]; exact hi (by omega)
  · rw [(hc _).2.1]; exact lo _ (by show m.val = 16 + (m.val - 16); omega)
  · rw [hz]; exact hi (by omega)
  · rw [(hc _).1]; exact lo _ (by show m.val = m.val - 0; omega)
  · omega

end Cert.KernelIdeal.Hand

end
-- ==== Proof.TileOut.lean ====
import proofs.«218716_g83915071029270_cont_9to1c4b_613_31_alg».proof.Proof.TileTrips
import proofs.«218716_g83915071029270_cont_9to1c4b_613_31_alg».proof.Proof.TileFinal
import Idealize.ShloMosaic.Lib.Writes

noncomputable section

namespace Cert.KernelIdeal.Hand

open Cert.KernelIdeal Cert.KernelIdeal.Gen
open Idealize.ShloMosaic Idealize.ShloMosaic.ValueIdx

variable {F : FTy → Type}

theorem oRowK_emb (L : grid0.Coords) (y : S128.Idx) :
    (oRowK L).view.emb y
      = ix1 (n := 4096) ⟨(wL L).val * 128 + (y 0).val, by
          have := (wL L).isLt; have : (y 0).val < 128 := (y 0).isLt; omega⟩ := by
  show (orowK L).idx y = _
  funext a
  match a with
  | ⟨0, _⟩ =>
    apply Fin.ext
    have e := congrFun (k0_off19_eq L) 0
    simp [wL_val, e]
    omega

theorem cs6_at [FloatOps F] (f3 : (d : Dev nD) → Buf (Elt F) (xLoc d)) (fa : (d : Dev nD) → Buf (Elt F) (aLoc d)) (d : Dev nD)
    (w : Fin 32) (m : Fin 128) (h : w.val * 128 + m.val < 4096) :
    cs6 f3 fa d (ix1 (n := 4096) ⟨w.val * 128 + m.val, h⟩) = tileOut (f3 d) (fa d) w (ix1 m) := by
  have hm := m.isLt
  unfold cs6
  congr 1
  · exact Fin.ext (by show (w.val * 128 + m.val) / 128 = w.val; omega)
  · exact congrArg ix1 (Fin.ext (by show (w.val * 128 + m.val) % 128 = m.val; omega))

theorem out_congr [FloatOps F] (f3 : (d : Dev nD) → Buf (Elt F) (xLoc d)) (fa : (d : Dev nD) → Buf (Elt F) (aLoc d)) (d : Dev nD)
    (L : grid0.Coords) (g6 : S4096.Idx → F .f32) (P : S128.Idx → F .f32)
    (hP : ∀ m : Fin 128, P (ix1 m) = tileOut (f3 d) (fa d) (wL L) (ix1 m)) :
    ∀ i ∈ (oRowK L).view.set, ((oRowK L).view.writes (Elt F) g6 [⟨Rect.whole S128, P⟩]) i = cs6 f3 fa d i := by
  intro i hi
  obtain ⟨y, -, rfl⟩ := Finset.mem_map.1 hi
  obtain ⟨k, rfl⟩ : ∃ k : Fin 128, y = ix1 k := ⟨y 0, eq_ix1 y⟩
  refine (congrFun (View.read_writes_whole (Val := Elt F) (oRowK L).view g6 P) (ix1 k)).trans ((hP k).trans ?_)
  rw [oRowK_emb]
  exact (cs6_at f3 fa d (wL L) k _).symm

theorem accPay_eq [FloatOps F] (v : S16.Idx → F .f32) (h : S16.ShapeCasts S16) : shapeCast S16 v h = v := shapeCast_self v h

end Cert.KernelIdeal.Hand

end
-- ==== Proof.TilePure.lean ====
import proofs.«218716_g83915071029270_cont_9to1c4b_613_31_alg».proof.Proof.TileTrips
import proofs.«218716_g83915071029270_cont_9to1c4b_613_31_alg».proof.Proof.TileAccDefs
import Idealize.ShloMosaic.Lib.SparseCore.Stream
import Idealize.ShloMosaic.Lib.Writes

noncomputable section

namespace Cert.KernelIdeal.Hand

open Cert.KernelIdeal Cert.KernelIdeal.Gen
open Idealize.ShloMosaic Idealize.ShloMosaic.ValueIdx

variable {F : FTy → Type}

theorem rowMajor_symm_rank1 (n : ℕ) (k : Fin (⟨1, ![n]⟩ : Shape).numel) :
    (⟨1, ![n]⟩ : Shape).rowMajor.symm k = ix1 (n := n) ⟨k.val, lt_of_lt_of_eq k.isLt (Shape.numel_rank1 _)⟩ := by
  rw [Equiv.symm_apply_eq]
  apply Fin.ext
  rw [Shape.rowMajor_val_one]
  rfl

-- A whole-stretch write through a slice of a buffer, read back at the slice's own elements, is the payload.
theorem writes_whole_emb {κ : Kind} (b : Ref sig κ) (r : Rect b.ty.shape) (f : ((View.whole b).slice r).ty.Contents (Elt F)) (P : r.shape.Idx → Elt F b.ty.elt)
    (y : r.shape.Idx) : ((View.whole b).slice r).writes (Elt F) f [⟨Rect.whole r.shape, P⟩] (((View.whole b).slice r).emb y) = P y :=
  congrFun (View.read_writes_whole _ f P) y

-- A label copy into rows `[lo, lo + n)` from the worker's own stretch of the label array leaves the worker's labels on those rows.
theorem labOK_copy (n lo : ℕ) (inb : ∀ a, (![lo] : Fin 1 → ℕ) a + (![n] : Fin 1 → ℕ) a ≤ S6144.size a) (fa : S262144.Idx → Elt F .i32) (L : grid0.Coords)
    (fl : S6144.Idx → Elt F .i32) {o : Fin 1 → ℕ} (io : ∀ a, o a + (![n] : Fin 1 → ℕ) a ≤ S262144.size a)
    (eo : o = ![12288 * (L 1).val + 6144 * (L 0).val + lo]) :
    LabOK fa (wL L) (((Memref.whole cc0_scratch0 : Memref sig .scVector .vmem S6144 .i32).slice (Rect.unit (s := S6144) ![lo] ![n] inb) (fun _ => rfl)).view.writes (Elt F) fl [⟨Rect.whole _,
      ReadAs.same.apply (View.read (Elt F) ((Memref.whole main_arg1_scv : Memref sig .scVector .hbm S262144 .i32).slice (Rect.unit (s := S262144) o ![n] io) (fun _ => rfl)).view fa)⟩]) lo (lo + n) := by
  subst eo
  intro j hlo hhi
  have hj := j.isLt
  have e : (ix1 j : S6144.Idx) = (Rect.unit (s := S6144) ![lo] ![n] inb).idx (ix1 (n := n) ⟨j.val - lo, by omega⟩) := by
    funext b
    match b with
    | ⟨0, _⟩ => exact Fin.ext (by show j.val = lo + 1 * (j.val - lo); omega)
  rw [e]
  refine (writes_whole_emb cc0_scratch0 (Rect.unit (s := S6144) ![lo] ![n] inb) fl _ _).trans ?_
  rw [ReadAs.apply_same, View.read_apply]
  show fa (LoadRect.idx _ _) = _
  refine congrArg fa (funext fun b => ?_)
  match b with
  | ⟨0, _⟩ => exact Fin.ext (by show 12288 * (L 1).val + 6144 * (L 0).val + lo + 1 * (j.val - lo) = ((L 1).val * 2 + (L 0).val) * 6144 + j.val; omega)

-- The gather through rows `[lo, lo + n)` of the index scratch leaves there the words gathered for those rows: row `j`'s index word is the position its label selects.
theorem valOK_gen [FloatOps F] (n lo : ℕ) (inb : ∀ a, (![lo] : Fin 1 → ℕ) a + (![n] : Fin 1 → ℕ) a ≤ S6144.size a) (G : S16777216.Gathers 0 ⟨1, ![n]⟩)
    (x : S16777216.Idx → F .f32) (a : S262144.Idx → BitVec 32) (w : Fin 32) (hin : Cert.Spec.InRange a) (fv : S6144.Idx → F .f32)
    (fI : S6144.Idx → Elt F .i32) (hI : IdxOK a w fI lo (lo + n)) (hn : (⟨1, ![n]⟩ : Shape).numel = (⟨1, ![n]⟩ : Shape).size G.axis')
    (hg : ∀ y, (((Memref.whole cc0_scratch1 : Memref sig .scVector .vmem S6144 .i32).slice (Rect.unit (s := S6144) ![lo] ![n] inb) (fun _ => rfl)).view.read (Elt F) fI y).toNat < S16777216.size G.axis) :
    ValOK x a w (((Memref.whole cc0_scratch2 : Memref sig .scVector .vmem S6144 .f32).slice (Rect.unit (s := S6144) ![lo] ![n] inb) (fun _ => rfl)).view.writes (Elt F) fv [⟨Rect.whole _,
      SparseCore.gatherPayload G
        (View.read (Elt F) ((Memref.whole main_v3_scv : Memref sig .scVector .hbm S16777216 .f32).slice
          (Rect.unit (s := S16777216) ![0] S16777216.size inb_S16777216_S16777216_0) (fun _ => rfl)).view x)
        (SparseCore.rows (View.read (Elt F) ((Memref.whole cc0_scratch1 : Memref sig .scVector .vmem S6144 .i32).slice (Rect.unit (s := S6144) ![lo] ![n] inb) (fun _ => rfl)).view fI) hn hg)⟩]) lo (lo + n) := by
  intro j hlo hhi
  have e : (ix1 j : S6144.Idx) = (Rect.unit (s := S6144) ![lo] ![n] inb).idx (ix1 (n := n) ⟨j.val - lo, by omega⟩) := by
    funext b
    match b with
    | ⟨0, _⟩ => exact Fin.ext (by show j.val = lo + 1 * (j.val - lo); omega)
  rw [e]
  refine (writes_whole_emb cc0_scratch2 (Rect.unit (s := S6144) ![lo] ![n] inb) fv _ _).trans ?_
  unfold SparseCore.gatherPayload gathered
  rw [View.read_apply]
  show x (LoadRect.idx _ _) = _
  refine congrArg x (funext fun b => ?_)
  match b with
  | ⟨0, _⟩ =>
    apply Fin.ext
    rw [show ((ix1 (gIx (wrow w j).val (a (ix1 (wrow w j))).toNat) : S16777216.Idx) ⟨0, by decide⟩).val
        = pIdx (wrow w j).val (a (ix1 (wrow w j))).toNat from gIx_val (wrow w j).isLt (hin (wrow w j)), ← hI j hlo hhi]
    show 0 + 1 * (G.idx _ _ G.axis).val = _
    rw [Shape.Gathers.idx_axis, Nat.zero_add, Nat.one_mul]
    show BitVec.toNat (View.read (e := .i32) (Elt F) _ _ ((⟨1, ![n]⟩ : Shape).rowMajor.symm _)) = _
    rw [rowMajor_symm_rank1, e]
    rfl

end Cert.KernelIdeal.Hand

end
-- ==== Proof.TileBody.lean ====
import proofs.«218716_g83915071029270_cont_9to1c4b_613_31_alg».proof.Proof.TileDefs
import proofs.«218716_g83915071029270_cont_9to1c4b_613_31_alg».proof.Proof.Gen.KernelIdeal.Skeleton
import proofs.«218716_g83915071029270_cont_9to1c4b_613_31_alg».proof.Proof.TileAccTrips
import proofs.«218716_g83915071029270_cont_9to1c4b_613_31_alg».proof.Proof.TileFinal
import proofs.«218716_g83915071029270_cont_9to1c4b_613_31_alg».proof.Proof.TileOut
import proofs.«218716_g83915071029270_cont_9to1c4b_613_31_alg».proof.Proof.TilePure

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v3_scv : Memref Cert.KernelIdeal.sig Kind.scVector Space.hbm Cert.KernelIdeal.S16777216 EltTy.f32)
local notation "aV" => (Memref.whole Cert.KernelIdeal.main_arg1_scv : Memref Cert.KernelIdeal.sig Kind.scVector Space.hbm Cert.KernelIdeal.S262144 EltTy.i32)
local notation "oV" => (Memref.whole Cert.KernelIdeal.main_v6_scv : Memref Cert.KernelIdeal.sig Kind.scVector Space.hbm Cert.KernelIdeal.S4096 EltTy.f32)
local notation "lV" => (Memref.whole Cert.KernelIdeal.cc0_scratch0 : Memref Cert.KernelIdeal.sig Kind.scVector Space.vmem Cert.KernelIdeal.S6144 EltTy.i32)
local notation "iV" => (Memref.whole Cert.KernelIdeal.cc0_scratch1 : Memref Cert.KernelIdeal.sig Kind.scVector Space.vmem Cert.KernelIdeal.S6144 EltTy.i32)
local notation "vV" => (Memref.whole Cert.KernelIdeal.cc0_scratch2 : Memref Cert.KernelIdeal.sig Kind.scVector Space.vmem Cert.KernelIdeal.S6144 EltTy.f32)
local notation "cV'" => (Memref.whole Cert.KernelIdeal.cc0_scratch3 : Memref Cert.KernelIdeal.sig Kind.scVector Space.vmem Cert.KernelIdeal.S128 EltTy.f32)

section Body

variable [FloatOps F]
variable (f3 : (d : Dev nD) → Buf (Elt F) (xLoc d)) (fa : (d : Dev nD) → Buf (Elt F) (aLoc d)) (f6 : (d : Dev nD) → Buf (Elt F) (oLoc d))
variable (d : Dev nD) (L : grid0.Coords)

theorem gin {a : S262144.Idx → BitVec 32} {w : Fin 32} (hin : Cert.Spec.InRange a) {fI : S6144.Idx → BitVec 32} {lo n : ℕ} (hI : IdxOK a w fI lo (lo + n))
    {v : BitVec 32} {i : ℕ} {h : lo + i < 6144} (e : v = fI (ix1 ⟨lo + i, h⟩)) (hi : i < n) : v.toNat < 16777216 := by
  rw [e, hI _ (Nat.le_add_right lo i) (Nat.add_lt_add_left hi lo)]
  exact pIdx_lt (wrow _ _).isLt (hin _)

theorem join_rest {ℓ : Loc nD τ sig} {I S : Finset (Idx ℓ)} (h : I ⊆ S) :
    (iprop((∃ g, ℓ ↦[I]{fullShare} g) ∗ (∃ f, ℓ ↦[S \ I]{fullShare} f)) : sProp 𝕄) ⊢ iprop(∃ h', ℓ ↦[S]{fullShare} h') := by
  iintro ⟨⟨%g, Hg⟩, %f, Hf⟩
  iexists (I.piecewise g f)
  iapply (pointsTo_join_subset h)
  isplitl [Hg] <;> iassumption

-- What a trip of a summing loop keeps: the gathered stretch as it is, and the four running sums of the groups done.
abbrev accInv {s : Shape} (vM : Memref sig .scVector .vmem s .f32) (W : Buf (Elt F) (vM.view.loc (V d (cV L) (jV L)))) (lb k : ℕ)
    (acc : FVec F S16 .f32 × FVec F S16 .f32 × FVec F S16 .f32 × FVec F S16 .f32) : sProp 𝕄 :=
  iprop((vM.view.loc (V d (cV L) (jV L)) ↦[vM.view.set]{fullShare} W) ∗ ⌜AccOK (f3 d) (fa d) (wL L) acc.1 acc.2.1 acc.2.2.1 acc.2.2.2 (lb + k)⌝)

set_option maxHeartbeats 8000000 in
theorem tile_body (hF : (K (F := F)).Facts) (hin : Cert.Spec.InRange (fa d)) (O : CellTallies nD τ sig (HIx 1)) (W : Waits sig (HIx 1)) (hO : ∀ g, O g none = 0) :
    iprop(levAts (K (F := F)).L (K (F := F)).lev ∗ emp
        ∗ goW f3 fa f6 d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_kernel L xV (Memref.isWhole_whole _) aV (Memref.isWhole_whole _) oV (Memref.isWhole_whole _)
            lV (Memref.isWhole_whole _) iV (Memref.isWhole_whole _) vV (Memref.isWhole_whole _) cV' (Memref.isWhole_whole _)
            cc0_scratch4 cc0_scratch5 cc0_scratch6 cc0_scratch7 cc0_scratch8 cc0_scratch9 cc0_scratch10 cc0_scratch11 cc0_scratch12 cc0_scratch13 cc0_scoped0)
          fun _ => iprop(tdW f3 fa d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_kernel_eq_skeleton]; unfold cc0_sc_kernel_skel
  rw [(K (F := F)).scopedBufs_V hF d (cV L) (jV L), SparseCore.Cfg.scopedSems0_V (Val := Elt F) d (cV L) (jV L), ownSems0_V, ownBufs_V]
  iintro ⟨#Hlv, -, ⟨Hx, Ha, Ho⟩, ⟨⟨%fl, Hl⟩, ⟨%fi, Hi⟩, ⟨%fv, Hv⟩, ⟨%fc, Hc⟩, Hbufs⟩, ⟨⟨Hs0, Hs1, Hs2, Hs3, Hs8, Hs9, Hs10⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_oRowK (F := F) d L _).symm) $$ Ho
  ihave Hx' := (Entails.of_eq (pts_xV (F := F) d L _ _).symm) $$ Hx
  ihave Ha' := (Entails.of_eq (pts_aV (F := F) d L _ _).symm) $$ Ha
  ihave Hl' := (Entails.of_eq (pts_lV (F := F) d L _).symm) $$ Hl
  ihave Hi' := (Entails.of_eq (pts_iV (F := F) d L _).symm) $$ Hi
  ihave Hv' := (Entails.of_eq (pts_vV (F := F) d L _).symm) $$ Hv
  ihave Hc' := (Entails.of_eq (pts_cV (F := F) d L _).symm) $$ Hc
  rw [k0_part5_eq_skeleton]; unfold k0_part5_skel
  rw [k0_part6_eq_skeleton]; unfold k0_part6_skel
  rw [k0_part7_eq_skeleton]; unfold k0_part7_skel
  ihave T_ := (pointsTo_share (PosShare.mem_left_op_right (rsh (wL L)))).1 $$ Ha'
  icases T_ with ⟨HaL, HaR⟩
  ihave T_ := (pointsTo_share (PosShare.mem_left_op_right (rsh (wL L)))).1 $$ Hx'
  icases T_ with ⟨HxL, HxR⟩
  ihave T_ := (pointsTo_share (PosShare.mem_left_op_right (rsh (wL L)).left)).1 $$ HxL
  icases T_ with ⟨Hx0, Hx1⟩
  ihave T_ := (pointsTo_share (PosShare.mem_left_op_right (rsh (wL L)).right)).1 $$ HxR
  icases T_ with ⟨Hx2, Hx3⟩
  ihave T_ := (pointsTo_split_subset (S := Finset.univ) (I := (l1M).view.set) (Finset.subset_univ (l1M).view.set)).1 $$ Hl'
  icases T_ with ⟨Hl0_, Hlr⟩
  ihave Hl0 := (Entails.of_eq (show ((lV).view.loc (V d (cV L) (jV L)) ↦[(l1M).view.set]{fullShare} fl : sProp 𝕄)
      = (l1M).view.loc (V d (cV L) (jV L)) ↦[(l1M).view.set]{fullShare} fl from rfl)) $$ Hl0_
  ihave T_ := (pointsTo_split_subset (S := Finset.univ \ (l1M).view.set) (I := (l2M).view.set) (Finset.subset_sdiff.2 ⟨Finset.subset_univ _, disj_L⟩)).1 $$ Hlr
  icases T_ with ⟨Hl1_, Hlr⟩
  ihave Hl1 := (Entails.of_eq (show ((lV).view.loc (V d (cV L) (jV L)) ↦[(l2M).view.set]{fullShare} fl : sProp 𝕄)
      = (l2M).view.loc (V d (cV L) (jV L)) ↦[(l2M).view.set]{fullShare} fl from rfl)) $$ Hl1_
  ihave T_ := (pointsTo_split_subset (S := Finset.univ) (I := (i0M).view.set) (Finset.subset_univ (i0M).view.set)).1 $$ Hi'
  icases T_ with ⟨Hi0_, Hir⟩
  ihave Hi0 := (Entails.of_eq (show ((iV).view.loc (V d (cV L) (jV L)) ↦[(i0M).view.set]{fullShare} fi : sProp 𝕄)
      = (i0M).view.loc (V d (cV L) (jV L)) ↦[(i0M).view.set]{fullShare} fi from rfl)) $$ Hi0_
  ihave T_ := (pointsTo_split_subset (S := Finset.univ \ (i0M).view.set) (I := (i1M).view.set) (Finset.subset_sdiff.2 ⟨Finset.subset_univ _, disj_i10⟩)).1 $$ Hir
  icases T_ with ⟨Hi1_, Hir⟩
  ihave Hi1 := (Entails.of_eq (show ((iV).view.loc (V d (cV L) (jV L)) ↦[(i1M).view.set]{fullShare} fi : sProp 𝕄)
      = (i1M).view.loc (V d (cV L) (jV L)) ↦[(i1M).view.set]{fullShare} fi from rfl)) $$ Hi1_
  ihave T_ := (pointsTo_split_subset (S := (Finset.univ \ (i0M).view.set) \ (i1M).view.set) (I := (i2M).view.set) (Finset.subset_sdiff.2 ⟨Finset.subset_sdiff.2 ⟨Finset.subset_univ _, disj_i20⟩, disj_i21⟩)).1 $$ Hir
  icases T_ with ⟨Hi2_, Hir⟩
  ihave Hi2 := (Entails.of_eq (show ((iV).view.loc (V d (cV L) (jV L)) ↦[(i2M).view.set]{fullShare} fi : sProp 𝕄)
      = (i2M).view.loc (V d (cV L) (jV L)) ↦[(i2M).view.set]{fullShare} fi from rfl)) $$ Hi2_
  ihave T_ := (pointsTo_split_subset (S := ((Finset.univ \ (i0M).view.set) \ (i1M).view.set) \ (i2M).view.set) (I := (i3M).view.set) (Finset.subset_sdiff.2 ⟨Finset.subset_sdiff.2 ⟨Finset.subset_sdiff.2 ⟨Finset.subset_univ _, disj_i30⟩, disj_i31⟩, disj_i32⟩)).1 $$ Hir
  icases T_ with ⟨Hi3_, Hir⟩
  ihave Hi3 := (Entails.of_eq (show ((iV).view.loc (V d (cV L) (jV L)) ↦[(i3M).view.set]{fullShare} fi : sProp 𝕄)
      = (i3M).view.loc (V d (cV L) (jV L)) ↦[(i3M).view.set]{fullShare} fi from rfl)) $$ Hi3_
  ihave T_ := (pointsTo_split_subset (S := Finset.univ) (I := (v0M).view.set) (Finset.subset_univ (v0M).view.set)).1 $$ Hv'
  icases T_ with ⟨Hv0_, Hvr⟩
  ihave Hv0 := (Entails.of_eq (show ((vV).view.loc (V d (cV L) (jV L)) ↦[(v0M).view.set]{fullShare} fv : sProp 𝕄)
      = (v0M).view.loc (V d (cV L) (jV L)) ↦[(v0M).view.set]{fullShare} fv from rfl)) $$ Hv0_
  ihave T_ := (pointsTo_split_subset (S := Finset.univ \ (v0M).view.set) (I := (v1M).view.set) (Finset.subset_sdiff.2 ⟨Finset.subset_univ _, disj_v10⟩)).1 $$ Hvr
  icases T_ with ⟨Hv1_, Hvr⟩
  ihave Hv1 := (Entails.of_eq (show ((vV).view.loc (V d (cV L) (jV L)) ↦[(v1M).view.set]{fullShare} fv : sProp 𝕄)
      = (v1M).view.loc (V d (cV L) (jV L)) ↦[(v1M).view.set]{fullShare} fv from rfl)) $$ Hv1_
  ihave T_ := (pointsTo_split_subset (S := (Finset.univ \ (v0M).view.set) \ (v1M).view.set) (I := (v2M).view.set) (Finset.subset_sdiff.2 ⟨Finset.subset_sdiff.2 ⟨Finset.subset_univ _, disj_v20⟩, disj_v21⟩)).1 $$ Hvr
  icases T_ with ⟨Hv2_, Hvr⟩
  ihave Hv2 := (Entails.of_eq (show ((vV).view.loc (V d (cV L) (jV L)) ↦[(v2M).view.set]{fullShare} fv : sProp 𝕄)
      = (v2M).view.loc (V d (cV L) (jV L)) ↦[(v2M).view.set]{fullShare} fv from rfl)) $$ Hv2_
  ihave T_ := (pointsTo_split_subset (S := ((Finset.univ \ (v0M).view.set) \ (v1M).view.set) \ (v2M).view.set) (I := (v3M).view.set) (Finset.subset_sdiff.2 ⟨Finset.subset_sdiff.2 ⟨Finset.subset_sdiff.2 ⟨Finset.subset_univ _, disj_v30⟩, disj_v31⟩, disj_v32⟩)).1 $$ Hvr
  icases T_ with ⟨Hv3_, Hvr⟩
  ihave Hv3 := (Entails.of_eq (show ((vV).view.loc (V d (cV L) (jV L)) ↦[(v3M).view.set]{fullShare} fv : sProp 𝕄)
      = (v3M).view.loc (V d (cV L) (jV L)) ↦[(v3M).view.set]{fullShare} fv from rfl)) $$ Hv3_
  sl_exec
  have hA1 : LabOK (fa d) (wL L) ((l1M).view.writes (Elt F) fl [⟨Rect.whole S2048, tile_body.sl.dma0 fa d L⟩]) 0 2048 := labOK_copy 2048 0 _ (fa d) L fl _ (k0_off1_eq L)
  rw [Prog.bind_assoc]
  sl_for (fun (k : ℕ) (_ : PUnit) => idxInv fa d L RL1 RG0 ((l1M).view.writes (Elt F) fl [⟨Rect.whole S2048, tile_body.sl.dma0 fa d L⟩]) 0 (32 * (0 + k))) $$ [Hl0 Hi0]
  case region =>
    intro k _
    exact trip_1 fa d L hin k _ hA1
  · unfold idxInv
    isplitl [Hl0]; · iexact Hl0
    iexists _; isplitl [Hi0]; · iexact Hi0
    ipureintro; intro j h1 h2; omega
  iintro %_ ⟨Hl0, %fI0, Hi0, %hI1⟩
  have hI1' : IdxOK (fa d) (wL L) fI0 0 512 := hI1
  have hg0 := fun x : S512.Idx => gin (n := 512) hin hI1' (i0M_read (F := F) fI0 x) (x 0).isLt
  sl_exec
  rw [Prog.bind_assoc]
  sl_for (fun (k : ℕ) (_ : PUnit) => idxInv fa d L RL1 RG1 ((l1M).view.writes (Elt F) fl [⟨Rect.whole S2048, tile_body.sl.dma0 fa d L⟩]) 512 (32 * (16 + k))) $$ [Hl0 Hi1]
  case region =>
    intro k _
    exact trip_2 fa d L hin k _ hA1
  · unfold idxInv
    isplitl [Hl0]; · iexact Hl0
    iexists _; isplitl [Hi1]; · iexact Hi1
    ipureintro; intro j h1 h2; omega
  iintro %_ ⟨Hl0, %fI1, Hi1, %hI2⟩
  have hI2' : IdxOK (fa d) (wL L) fI1 512 2048 := hI2
  have hg1 := fun x : S1536.Idx => gin (n := 1536) hin hI2' (i1M_read (F := F) fI1 x) (x 0).isLt
  sl_exec
  have hA2 : LabOK (fa d) (wL L) ((l2M).view.writes (Elt F) fl [⟨Rect.whole S4096, tile_body.sl.dma0_1 fa d L⟩]) 2048 6144 := labOK_copy 4096 2048 _ (fa d) L fl _ (k0_off2_eq L)
  rw [Prog.bind_assoc]
  sl_for (fun (k : ℕ) (_ : PUnit) => idxInv fa d L RL2 RG2 ((l2M).view.writes (Elt F) fl [⟨Rect.whole S4096, tile_body.sl.dma0_1 fa d L⟩]) 2048 (32 * (64 + k))) $$ [Hl1 Hi2]
  case region =>
    intro k _
    exact trip_3 fa d L hin k _ hA2
  · unfold idxInv
    isplitl [Hl1]; · iexact Hl1
    iexists _; isplitl [Hi2]; · iexact Hi2
    ipureintro; intro j h1 h2; omega
  iintro %_ ⟨Hl1, %fI2, Hi2, %hI3⟩
  have hI3' : IdxOK (fa d) (wL L) fI2 2048 4096 := hI3
  have hg2 := fun x : S2048.Idx => gin (n := 2048) hin hI3' (i2M_read (F := F) fI2 x) (x 0).isLt
  sl_exec
  rw [Prog.bind_assoc]
  sl_for (fun (k : ℕ) (_ : PUnit) => idxInv fa d L RL2 RG3 ((l2M).view.writes (Elt F) fl [⟨Rect.whole S4096, tile_body.sl.dma0_1 fa d L⟩]) 4096 (32 * (128 + k))) $$ [Hl1 Hi3]
  case region =>
    intro k _
    exact trip_4 fa d L hin k _ hA2
  · unfold idxInv
    isplitl [Hl1]; · iexact Hl1
    iexists _; isplitl [Hi3]; · iexact Hi3
    ipureintro; intro j h1 h2; omega
  iintro %_ ⟨Hl1, %fI3, Hi3, %hI4⟩
  have hI4' : IdxOK (fa d) (wL L) fI3 4096 6144 := hI4
  have hg3 := fun x : S2048.Idx => gin (n := 2048) hin hI4' (i3M_read (F := F) fI3 x) (x 0).isLt
  sl_exec
  have hV0 : ValOK (f3 d) (fa d) (wL L) ((v0M).view.writes (Elt F) fv [⟨Rect.whole S512, tile_body.sl.gather0 f3 d L fI0 hg0⟩]) 0 512 := valOK_gen 512 0 _ gathers_S16777216_S512 (f3 d) (fa d) (wL L) hin fv fI0 hI1' _ hg0
  rw [Prog.bind_assoc]
  sl_for (accInv f3 fa d L v0M ((v0M).view.writes (Elt F) fv [⟨Rect.whole S512, tile_body.sl.gather0 f3 d L fI0 hg0⟩]) 0) $$ [Hv0]
  case region =>
    intro k acc
    obtain ⟨c0, c1, c2, c3⟩ := acc
    iintro ⟨Hv, %hc⟩
    iapply (tripA_5 d L (f3 d) (fa d) k _ hV0 c0 c1 c2 c3 hc)
    iexact Hv
  · unfold accInv
    isplitl [Hv0]; · iexact Hv0
    ipureintro
    intro i; exact ⟨rfl, rfl, rfl, rfl⟩
  iintro %acc5 ⟨Hv0, %hc5⟩
  obtain ⟨a50, a51, a52, a53⟩ := acc5
  sl_exec
  have hV1 : ValOK (f3 d) (fa d) (wL L) ((v1M).view.writes (Elt F) fv [⟨Rect.whole S1536, tile_body.sl.gather0_1 f3 d L fI1 hg1⟩]) 512 2048 := valOK_gen 1536 512 _ gathers_S16777216_S1536 (f3 d) (fa d) (wL L) hin fv fI1 hI2' _ hg1
  rw [Prog.bind_assoc]
  sl_for (accInv f3 fa d L v1M ((v1M).view.writes (Elt F) fv [⟨Rect.whole S1536, tile_body.sl.gather0_1 f3 d L fI1 hg1⟩]) 8) $$ [Hv1]
  case region =>
    intro k acc
    obtain ⟨c0, c1, c2, c3⟩ := acc
    iintro ⟨Hv, %hc⟩
    iapply (tripA_6 d L (f3 d) (fa d) k _ hV1 c0 c1 c2 c3 hc)
    iexact Hv
  · unfold accInv
    isplitl [Hv1]; · iexact Hv1
    ipureintro; exact hc5
  iintro %acc6 ⟨Hv1, %hc6⟩
  obtain ⟨a60, a61, a62, a63⟩ := acc6
  sl_exec
  have hV2 : ValOK (f3 d) (fa d) (wL L) ((v2M).view.writes (Elt F) fv [⟨Rect.whole S2048, tile_body.sl.gather0_2 f3 d L fI2 hg2⟩]) 2048 4096 := valOK_gen 2048 2048 _ gathers_S16777216_S2048 (f3 d) (fa d) (wL L) hin fv fI2 hI3' _ hg2
  rw [Prog.bind_assoc]
  sl_for (accInv f3 fa d L v2M ((v2M).view.writes (Elt F) fv [⟨Rect.whole S2048, tile_body.sl.gather0_2 f3 d L fI2 hg2⟩]) 32) $$ [Hv2]
  case region =>
    intro k acc
    obtain ⟨c0, c1, c2, c3⟩ := acc
    iintro ⟨Hv, %hc⟩
    iapply (tripA_7 d L (f3 d) (fa d) k _ hV2 c0 c1 c2 c3 hc)
    iexact Hv
  · unfold accInv
    isplitl [Hv2]; · iexact Hv2
    ipureintro; exact hc6
  iintro %acc7 ⟨Hv2, %hc7⟩
  obtain ⟨a70, a71, a72, a73⟩ := acc7
  sl_exec
  have hV3 : ValOK (f3 d) (fa d) (wL L) ((v3M).view.writes (Elt F) fv [⟨Rect.whole S2048, tile_body.sl.gather0_3 f3 d L fI3 hg3⟩]) 4096 6144 := valOK_gen 2048 4096 _ gathers_S16777216_S2048 (f3 d) (fa d) (wL L) hin fv fI3 hI4' _ hg3
  rw [Prog.bind_assoc]
  sl_for (accInv f3 fa d L v3M ((v3M).view.writes (Elt F) fv [⟨Rect.whole S2048, tile_body.sl.gather0_3 f3 d L fI3 hg3⟩]) 64) $$ [Hv3]
  case region =>
    intro k acc
    obtain ⟨c0, c1, c2, c3⟩ := acc
    iintro ⟨Hv, %hc⟩
    iapply (tripA_8 d L (f3 d) (fa d) k _ hV3 c0 c1 c2 c3 hc)
    iexact Hv
  · unfold accInv
    isplitl [Hv3]; · iexact Hv3
    ipureintro; exact hc7
  iintro %acc8 ⟨Hv3, %hc8⟩
  obtain ⟨a80, a81, a82, a83⟩ := acc8
  sl_exec
  sl_step
  have hcs : ∀ i ∈ (oRowK L).view.set, ((oRowK L).view.writes (Elt F) (f6 d) [⟨Rect.whole S128, tile_body.sl.dma16 d L fc a80 a81 a82 a83⟩]) i = cs6 f3 fa d i := by
    have e48 : k0_pay48 a80 = a80 := accPay_eq _ _
    have e50 : k0_pay50 a81 = a81 := accPay_eq _ _
    have e52 : k0_pay52 a82 = a82 := accPay_eq _ _
    have e1 : k0_pay1 a83 = a83 := accPay_eq _ _
    have hc96 : AccOK (f3 d) (fa d) (wL L) (k0_pay48 a80) (k0_pay50 a81) (k0_pay52 a82) (k0_pay1 a83) 96 := by
      rw [e48, e50, e52, e1]; exact hc8
    have hz : ∀ i, k0_pay2 (k0_pay31 (F := F)) i = zeroF := fun i => by
      rw [show k0_pay2 (k0_pay31 (F := F)) = k0_pay31 from accPay_eq _ _]; rfl
    refine out_congr f3 fa d L (f6 d) _ fun m => ?_
    show accWrites fc (k0_pay48 a80) (k0_pay50 a81) (k0_pay52 a82) (k0_pay1 a83) (k0_pay2 k0_pay31) (ix1 m) = _
    exact accOut (f3 d) (fa d) (wL L) fc _ _ _ _ _ hc96 hz m
  ihave JHl1 := (join_rest (F := F) (ℓ := (lV).view.loc (V d (cV L) (jV L))) (I := (l2M).view.set) (S := Finset.univ \ (l1M).view.set) (Finset.subset_sdiff.2 ⟨Finset.subset_univ _, disj_L⟩)) $$ [Hl1 Hlr]
  · isplitl [Hl1]
    · iexists _; iexact Hl1
    · iexists _; iexact Hlr
  ihave JHl0 := (join_rest (F := F) (ℓ := (lV).view.loc (V d (cV L) (jV L))) (I := (l1M).view.set) (S := Finset.univ) (Finset.subset_univ (l1M).view.set)) $$ [Hl0 JHl1]
  · isplitl [Hl0]
    · iexists _; iexact Hl0
    · iexact JHl1
  ihave JHi3 := (join_rest (F := F) (ℓ := (iV).view.loc (V d (cV L) (jV L))) (I := (i3M).view.set) (S := ((Finset.univ \ (i0M).view.set) \ (i1M).view.set) \ (i2M).view.set) (Finset.subset_sdiff.2 ⟨Finset.subset_sdiff.2 ⟨Finset.subset_sdiff.2 ⟨Finset.subset_univ _, disj_i30⟩, disj_i31⟩, disj_i32⟩)) $$ [Hi3 Hir]
  · isplitl [Hi3]
    · iexists _; iexact Hi3
    · iexists _; iexact Hir
  ihave JHi2 := (join_rest (F := F) (ℓ := (iV).view.loc (V d (cV L) (jV L))) (I := (i2M).view.set) (S := (Finset.univ \ (i0M).view.set) \ (i1M).view.set) (Finset.subset_sdiff.2 ⟨Finset.subset_sdiff.2 ⟨Finset.subset_univ _, disj_i20⟩, disj_i21⟩)) $$ [Hi2 JHi3]
  · isplitl [Hi2]
    · iexists _; iexact Hi2
    · iexact JHi3
  ihave JHi1 := (join_rest (F := F) (ℓ := (iV).view.loc (V d (cV L) (jV L))) (I := (i1M).view.set) (S := Finset.univ \ (i0M).view.set) (Finset.subset_sdiff.2 ⟨Finset.subset_univ _, disj_i10⟩)) $$ [Hi1 JHi2]
  · isplitl [Hi1]
    · iexists _; iexact Hi1
    · iexact JHi2
  ihave JHi0 := (join_rest (F := F) (ℓ := (iV).view.loc (V d (cV L) (jV L))) (I := (i0M).view.set) (S := Finset.univ) (Finset.subset_univ (i0M).view.set)) $$ [Hi0 JHi1]
  · isplitl [Hi0]
    · iexists _; iexact Hi0
    · iexact JHi1
  ihave JHv3 := (join_rest (F := F) (ℓ := (vV).view.loc (V d (cV L) (jV L))) (I := (v3M).view.set) (S := ((Finset.univ \ (v0M).view.set) \ (v1M).view.set) \ (v2M).view.set) (Finset.subset_sdiff.2 ⟨Finset.subset_sdiff.2 ⟨Finset.subset_sdiff.2 ⟨Finset.subset_univ _, disj_v30⟩, disj_v31⟩, disj_v32⟩)) $$ [Hv3 Hvr]
  · isplitl [Hv3]
    · iexists _; iexact Hv3
    · iexists _; iexact Hvr
  ihave JHv2 := (join_rest (F := F) (ℓ := (vV).view.loc (V d (cV L) (jV L))) (I := (v2M).view.set) (S := (Finset.univ \ (v0M).view.set) \ (v1M).view.set) (Finset.subset_sdiff.2 ⟨Finset.subset_sdiff.2 ⟨Finset.subset_univ _, disj_v20⟩, disj_v21⟩)) $$ [Hv2 JHv3]
  · isplitl [Hv2]
    · iexists _; iexact Hv2
    · iexact JHv3
  ihave JHv1 := (join_rest (F := F) (ℓ := (vV).view.loc (V d (cV L) (jV L))) (I := (v1M).view.set) (S := Finset.univ \ (v0M).view.set) (Finset.subset_sdiff.2 ⟨Finset.subset_univ _, disj_v10⟩)) $$ [Hv1 JHv2]
  · isplitl [Hv1]
    · iexists _; iexact Hv1
    · iexact JHv2
  ihave JHv0 := (join_rest (F := F) (ℓ := (vV).view.loc (V d (cV L) (jV L))) (I := (v0M).view.set) (S := Finset.univ) (Finset.subset_univ (v0M).view.set)) $$ [Hv0 JHv1]
  · isplitl [Hv0]
    · iexists _; iexact Hv0
    · iexact JHv1
  isplitl [Hx0 Hx1 Hx2 Hx3 HaL HaR Ho']
  · isplitl [Hx0 Hx1 Hx2 Hx3]
    · iapply (Entails.of_eq (pts_xV (F := F) d L _ _))
      iapply (pointsTo_share (PosShare.mem_left_op_right (rsh (wL L)))).2
      isplitl [Hx0 Hx1]
      · iapply (pointsTo_share (PosShare.mem_left_op_right (rsh (wL L)).left)).2
        isplitl [Hx0] <;> iassumption
      · iapply (pointsTo_share (PosShare.mem_left_op_right (rsh (wL L)).right)).2
        isplitl [Hx2] <;> iassumption
    isplitl [HaL HaR]
    · iapply (Entails.of_eq (pts_aV (F := F) d L _ _))
      iapply (pointsTo_share (PosShare.mem_left_op_right (rsh (wL L)))).2
      isplitl [HaL] <;> iassumption
    · iapply (Entails.of_eq (pts_oRowK (F := F) d L _))
      iapply (Entails.of_eq (pointsTo_congr hcs))
      iexact Ho'
  isplitl [JHl0 JHi0 JHv0 Hc' Hbufs]
  · iframe JHl0 JHi0 JHv0 Hbufs
    iexists _; iexact Hc'
  isplitl [Hs0 Hs1 Hs2 Hs3 Hs8 Hs9 Hs10 Hsems]
  · isplitl [Hs0 Hs1 Hs2 Hs3 Hs8 Hs9 Hs10]
    · isplitl [Hs0]; · iexact Hs0
      isplitl [Hs1]; · iexact Hs1
      isplitl [Hs2]; · iexact Hs2
      isplitl [Hs3]; · iexact Hs3
      isplitl [Hs8]; · iexact Hs8
      isplitl [Hs9]; · iexact Hs9
      iexact Hs10
    · iexact Hsems
  iexists _; isplitr
  swap; · iexact HO
  ipureintro; intro p hp
  repeat (rcases Finset.mem_insert.mp hp with h | hp; · exact .inr (h ▸ rfl))
  exact .inl hp

end Body

end Cert.KernelIdeal.Hand

end
-- ==== Proof.TileIface.lean ====
import proofs.«218716_g83915071029270_cont_9to1c4b_613_31_alg».proof.Proof.TileDefs
import proofs.«218716_g83915071029270_cont_9to1c4b_613_31_alg».proof.Proof.Gen.KernelIdeal.Skeleton
import proofs.«218716_g83915071029270_cont_9to1c4b_613_31_alg».proof.Proof.TileBody

noncomputable section

namespace Cert.KernelIdeal.Hand

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

def halves (n : ℕ) : Fin (2 ^ n) ⊕ Fin (2 ^ n) ≃ Fin (2 ^ (n + 1)) := finSumFinEquiv.trans (finCongr (by omega))

theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (halves n) (fun i : Fin (2 ^ (n + 1)) => (ℓ ↦[I]{leaf (n + 1) q i} f : sProp 𝕄)), bigSep_univ_sum]
    congr 1 <;> refine bigSep_congr fun i _ => ?_ <;> simp [leaf, halves]

def widE : Fin 2 × Fin 16 ≃ Fin 32 where
  toFun p := wid p.1 p.2
  invFun w := (⟨w.val % 2, Nat.mod_lt _ (by decide)⟩, ⟨w.val / 2, by have := w.isLt; omega⟩)
  left_inv p := by revert p; decide
  right_inv w := by revert w; decide

theorem bigSep_workers (Φ : Fin 32 → sProp 𝕄) :
    (bigSep Finset.univ fun c : Fin 2 => bigSep Finset.univ fun i : Fin 16 => Φ (wid c i)) = bigSep Finset.univ Φ := by
  rw [bigSep_univ_equiv widE Φ, bigSep_univ_prod]; rfl

theorem oSet_eq (w : Fin 32) : oSet w = (orow w).set := by
  show ((View.whole (main_v6_scv : Ref sig .scVector)).slice (orow w)).set = _
  rw [View.set_slice]; exact Finset.map_refl
theorem oSet_cover : (Finset.univ : Finset (Fin 32)).biUnion oSet = Finset.univ :=
  (Finset.biUnion_congr rfl fun i _ => oSet_eq i).trans (Rect.biUnion_part odiv)

theorem oPts_blocks (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet (fun i _ j _ h => by rw [oSet_eq, oSet_eq]; exact Rect.part_disjoint odiv h), oSet_cover]; try rfl
theorem pts_shares {ℓ : Loc nD τ sig} (f : Buf (Elt F) ℓ) :
    (ℓ ↦{fullShare} f : sProp 𝕄) = bigSep Finset.univ fun w : Fin 32 => ℓ ↦{rsh w} f :=
  pointsTo_leaves Finset.univ f 5 fullShare

section Split

variable [FloatOps F]
variable (f3 : (d : Dev nD) → Buf (Elt F) (xLoc d)) (fa : (d : Dev nD) → Buf (Elt F) (aLoc d)) (f6 : (d : Dev nD) → Buf (Elt F) (oLoc d))

theorem whole_eq (d : Dev nD) :
    (bigSep Finset.univ fun c : Fin 2 => bigSep Finset.univ fun i : Fin 16 => goW f3 fa f6 d (wid c i))
      = (iprop((xLoc d ↦{fullShare} f3 d) ∗ (aLoc d ↦{fullShare} fa d) ∗ (oLoc d ↦{fullShare} f6 d)) : sProp 𝕄) := by
  rw [bigSep_workers (F := F) (fun w => goW f3 fa f6 d w), bigSep_sep', bigSep_sep', ← pts_shares, ← pts_shares, ← oPts_blocks]

theorem st_of_whole (d : Dev nD) :
    (iprop((xLoc d ↦{fullShare} f3 d) ∗ (aLoc d ↦{fullShare} fa d) ∗ (oLoc d ↦{fullShare} f6 d)) : sProp 𝕄)
      ⊢ bigSep Finset.univ fun c : Fin ((K (F := F)).nCore 0) => (P f3 fa f6).st 0 d c :=
  Entails.of_eq (whole_eq f3 fa f6 d).symm

theorem whole_of_dn (d : Dev nD) :
    (bigSep Finset.univ fun c : Fin ((K (F := F)).nCore 0) => (P f3 fa f6).dn 0 d c)
      ⊢ (iprop((xLoc d ↦{fullShare} f3 d) ∗ (aLoc d ↦{fullShare} fa d) ∗ (oLoc d ↦{fullShare} cs6 f3 fa d)) : sProp 𝕄) :=
  Entails.of_eq (whole_eq f3 fa (cs6 f3 fa) d)

theorem keep {A B : sProp 𝕄} : A ⊢ |={Set.univ}=> iprop(A ∗ (B -∗ B)) := by
  iintro H; imodintro
  isplitl [H]; · iexact H
  iintro H; iexact H

theorem vecSplit : (K (F := F)).VecSplit' (P f3 fa f6) 0 := fun _ _ => keep

end Split

section Obl

variable [FloatOps F]
variable (f3 : (d : Dev nD) → Buf (Elt F) (xLoc d)) (fa : (d : Dev nD) → Buf (Elt F) (aLoc d)) (f6 : (d : Dev nD) → Buf (Elt F) (oLoc d))

def tileCoords (c : Fin (grid0.bound 0)) (s : Fin (grid0.bound 1)) : grid0.Coords :=
  fun | 0 => c | 1 => s | ⟨_ + 2, h⟩ => absurd h (Nat.not_lt.2 (Nat.le_add_left _ _))

theorem tile_obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

set_option maxRecDepth 16384 in
theorem tileObl (hF : (K (F := F)).Facts) (hin : ∀ d, Cert.Spec.InRange (fa d)) :
    (K (F := F)).TileObl (D (F := F)) 𝒱 (P f3 fa f6) v₀ 0 := by
  intro d c i O W hO _ _
  simp only [show (P f3 fa f6).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [show defs₀ (F := F) (.scVector _ _) 0 () = _ from dif_pos hci]
  exact (tile_body f3 fa f6 d (tileCoords ⟨_, hci.1⟩ ⟨_, hci.2⟩) hF (hin d) O W hO).trans (wp_mono frame _ _ fun _ => tile_obl_post)

end Obl

end Cert.KernelIdeal.Hand

end
-- ==== Proof.Main2.lean ====
import proofs.«218716_g83915071029270_cont_9to1c4b_613_31_alg».proof.Proof.Main1
import proofs.«218716_g83915071029270_cont_9to1c4b_613_31_alg».proof.Proof.LaunchElem
import proofs.«218716_g83915071029270_cont_9to1c4b_613_31_alg».proof.Proof.TileIface
import Idealize.ShloMosaic.Lib.Pipeline.Frame

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ)

abbrev W0 (d : Dev nD) : Valuation τ sig (Elt F) := fun b => m (d, b)
abbrev W1 (d : Dev nD) : Valuation τ sig (Elt F) := StableHlo.after (opsA (F := F)) (W0 m d)

abbrev x' : DevRef τ sig := Proc.devRef .tc (main_v3 : Ref sig .tc)
abbrev a' : DevRef τ sig := Proc.devRef .tc (main_arg1 : Ref sig .tc)
abbrev o' : DevRef τ sig := Proc.devRef .tc (main_v6 : Ref sig .tc)

def f3 (d : Dev nD) : Buf (Elt F) (xLoc d) := W1 m d x'
def fa (d : Dev nD) : Buf (Elt F) (aLoc d) := W1 m d a'
def f6 (d : Dev nD) : Buf (Elt F) (oLoc d) := W1 m d o'

-- the call changes one array only: the output array, to the tiles' partial column sums
def W2 (d : Dev nD) : Valuation τ sig (Elt F) := Function.update (W1 m d) o' (cs6 (f3 m) (fa m) d)

abbrev S3 : Finset (DevRef τ sig) := {x', a', o'}

theorem S3_sub : (S3 : Finset (DevRef τ sig)) ⊆ Pipeline.ucRefs τ sig := by decide

theorem held_S3 (d : Dev nD) (W : Valuation τ sig (Elt F)) :
    (held (T d) S3 W : sProp 𝕄) = iprop((xLoc d ↦{fullShare} W x') ∗ (aLoc d ↦{fullShare} W a') ∗ oLoc d ↦{fullShare} W o') := by
  unfold held S3
  rw [SparseCore.bigSep_insert' (by decide), SparseCore.bigSep_insert' (by decide), bigSep_singleton]

theorem opsA_sub : ∀ op ∈ (opsA : List (HloOp τ sig (Elt F))), op.bufs ⊆ Pipeline.ucRefs τ sig := by
  have h : (opsA : List (HloOp τ sig (Elt F))).Forall fun op => op.bufs ⊆ StableHlo.tcRefs τ sig :=
    ⟨StableHlo.unary_bufs_sub .., StableHlo.reshape_bufs_sub .., StableHlo.unary_bufs_sub .., StableHlo.reshape_bufs_sub ..,
      StableHlo.unary_bufs_sub .., StableHlo.reshape_bufs_sub ..⟩
  exact fun op hop => Pipeline.sub_ucRefs op ((List.forall_iff_forall_mem.mp h) op hop)

theorem opsA_fresh : ∀ op ∈ (opsA : List (HloOp τ sig (Elt F))), op.fresh = ∅ := by
  have h : (opsA : List (HloOp τ sig (Elt F))).Forall fun op => op.fresh = ∅ := by
    simp only [List.Forall]; repeat' constructor
  exact fun op hop => (List.forall_iff_forall_mem.mp h) op hop

theorem held_split3 (d : Dev nD) (W : Valuation τ sig (Elt F)) :
    (held (T d) (Pipeline.ucRefs τ sig) W : sProp 𝕄)
      = iprop(((xLoc d ↦{fullShare} W x') ∗ (aLoc d ↦{fullShare} W a') ∗ oLoc d ↦{fullShare} W o') ∗ held (T d) (Pipeline.ucRefs τ sig \ S3) W) := by
  rw [StableHlo.held_sub_split (T d) S3_sub W, held_S3]

theorem held_W2 (d : Dev nD) :
    iprop(((xLoc d ↦{fullShare} f3 m d) ∗ (aLoc d ↦{fullShare} fa m d) ∗ oLoc d ↦{fullShare} cs6 (f3 m) (fa m) d) ∗ held (T d) (Pipeline.ucRefs τ sig \ S3) (W1 m d))
      ⊢ (held (T d) (Pipeline.ucRefs τ sig) (W2 m d) : sProp 𝕄) := by
  rw [held_split3 d (W2 m d),
    StableHlo.held_congr (T d) (V := W2 m d) (V' := W1 m d) (S := Pipeline.ucRefs τ sig \ S3) (fun b hb => by
      unfold W2; exact Function.update_of_ne (fun e : b = o' => (Finset.mem_sdiff.mp hb).2 (e ▸ (by decide : o' ∈ (S3 : Finset (DevRef τ sig))))) _ _),
    show W2 m d x' = W1 m d x' from Function.update_of_ne (by decide) _ _,
    show W2 m d a' = W1 m d a' from Function.update_of_ne (by decide) _ _,
    show W2 m d o' = cs6 (f3 m) (fa m) d from Function.update_self _ _ _]
  exact .rfl

theorem unscoped_held (d : Dev nD) :
    (unscopedBufs d (fun b => m ((SparseCore.T d).loc b)) : sProp 𝕄) = held (T d) (Pipeline.ucRefs τ sig) (W0 m d) :=
  Pipeline.unscopedBufs_held d (W0 m d)

abbrev PP : (K (F := F)).Pay (nD := nD) (Val := Elt F) (Name := ℕ) (U := UU) := P (f3 m) (fa m) (f6 m)

end Cert.KernelIdeal.Hand

end
-- ==== Proof.Region2.lean ====
import proofs.«218716_g83915071029270_cont_9to1c4b_613_31_alg».proof.Proof.Ctx
import proofs.«218716_g83915071029270_cont_9to1c4b_613_31_alg».proof.Proof.Gen.KernelIdeal.Skeleton
import proofs.«218716_g83915071029270_cont_9to1c4b_613_31_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI Idealize.SL.BI.BIBase Idealize.SL.Sem
open Idealize.ShloMosaic.Pipeline (Dat BodyObligation)

variable {F : FTy → Type} [FloatOps F]

local notation "𝕄" => MT nD τ sig (HIx 1) (Elt F) ℕ UU ℕ

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_3 (x0 : Vec F S32x128 .f32) (x1 : Vec F S1x64 .f32) (x2 : Vec F S64x128 .i32) : Vec F S1x1 .f32 :=
  View.canon [⟨Rect.unit (s := S1x1) ![0, 0] S1x1.size inb_S1x1_S1x1_0_0, k2_pay1 (View.ld x0 (Rect.unit (s := S32x128) ![0, 0] S32x128.size inb_S32x128_S32x128_0_0))
    (View.ld x1 (Rect.unit (s := S1x64) ![0, 0] S1x64.size inb_S1x64_S1x64_0_0)) (View.ld x2 (Rect.unit (s := S64x128) ![0, 0] S64x128.size inb_S64x128_S64x128_0_0))⟩]

private theorem zero2 : (![0, 0] : Fin 2 → Nat) = fun _ => 0 := by
  funext a; match a with | ⟨0, _⟩ => rfl | ⟨1, _⟩ => rfl

-- Every access is the whole of its buffer, so the stored block is the payload of the three blocks themselves.
theorem out2_3_eq (x0 : Vec F S32x128 .f32) (x1 : Vec F S1x64 .f32) (x2 : Vec F S64x128 .i32) :
    out2_3 x0 x1 x2 = k2_pay1 x0 x1 x2 := by
  unfold out2_3
  rw [View.canon_unit_zero (S := S1x1) zero2, View.ld_unit_zero (S := S32x128) zero2, View.ld_unit_zero (S := S1x64) zero2,
    View.ld_unit_zero (S := S64x128) zero2]

theorem sound_kernel2 (c : Dev nD) (E : Set ℕ) (arg0 : Memref sig .tc .vmem S32x128 .f32) (harg0 : arg0.IsWhole)
    (arg1 : Memref sig .tc .vmem S1x64 .f32) (harg1 : arg1.IsWhole) (arg2 : Memref sig .tc .vmem S64x128 .i32) (harg2 : arg2.IsWhole)
    (arg3 : Memref sig .tc .vmem S1x1 .f32) (harg3 : arg3.IsWhole)
    (x0 : Vec F S32x128 .f32) (x1 : Vec F S1x64 .f32) (x2 : Vec F S64x128 .i32) (K : PUnit → sProp 𝕄) :
    iprop(owns c arg0 fullShare x0 ∗ owns c arg1 fullShare x1 ∗ owns c arg2 fullShare x2
        ∗ (∃ d, owns c arg3 fullShare d)
        ∗ (iprop(owns c arg0 fullShare x0 ∗ owns c arg1 fullShare x1 ∗ owns c arg2 fullShare x2
            ∗ owns c arg3 fullShare (out2_3 x0 x1 x2)) -∗ K ⟨⟩))
      ⊢ wp frame (wpE (defs₀ (F := F)) Variants.none c none) E (cc2__combine_body arg0 harg0 arg1 harg1 arg2 harg2 arg3 harg3) K := by
  simp only [cc2__combine_body_eq_skeleton]; unfold cc2__combine_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1x1.size (by rfl))

def Φ2 (c : Dev nD) : sProp 𝕄 :=
  iprop(Pipeline.scopedRest (Ix := HIx 1) (Name := ℕ) (U := UU) (Lvl := ℕ) (Val := Elt F) spec2 c ∗ ∃ r, prngReg c r)

def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Φ2 c
  q _ := fullShare
  owed _ := 0

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

theorem sound_body2 (c : Dev nD) (t : Fin cfg2.N) :
    iprop((dat2 V c).Φ t.castSucc ∗ (dat2 V c).owesAt (none : HIx 1) t.castSucc
        ∗ (∃ d, owns c (st2_0 t) fullShare ((dat2 V c).before 0 t d))
        ∗ (∃ d, owns c (st2_1 t) fullShare ((dat2 V c).before 1 t d))
        ∗ (∃ d, owns c (st2_2 t) fullShare ((dat2 V c).before 2 t d))
        ∗ (∃ d, owns c (st2_3 t) fullShare ((dat2 V c).before 3 t d)))
      ⊢ wp frame (wpE (defs₀ (F := F)) Variants.none c none) Set.univ (bodyAt2 t) (fun _ =>
        iprop((dat2 V c).Φ t.castSucc ∗ (dat2 V c).owesAt (none : HIx 1) t.castSucc
          ∗ owns c (st2_0 t) fullShare (iblk2 V c 0 t)
          ∗ owns c (st2_1 t) fullShare (iblk2 V c 1 t)
          ∗ owns c (st2_2 t) fullShare (iblk2 V c 2 t)
          ∗ owns c (st2_3 t) fullShare (out2_3 (iblk2 V c 0 t) (iblk2 V c 1 t) (iblk2 V c 2 t)))) := by
  unfold bodyAt2
  simp only [before2_0, before2_1, before2_2]
  iintro ⟨HΦ, Ho, ⟨%d0, H0⟩, ⟨%d1, H1⟩, ⟨%d2, H2⟩, ⟨%d3, H3⟩⟩
  iapply (sound_kernel2 c Set.univ _ _ _ _ _ _ _ _ (iblk2 V c 0 t) (iblk2 V c 1 t) (iblk2 V c 2 t) _)
  iframe H0 H1 H2
  isplitl [H3]; · iexists _; iexact H3
  iintro ⟨H0, H1, H2, H3⟩
  iframe HΦ Ho H0 H1 H2
  iexact H3

theorem body_obligation2 (c : Dev nD) :
    BodyObligation (dat2 (F := F) V c) (defs₀ (F := F)) Variants.none (none : HIx 1) Set.univ := fun t => by
  rw [bigSep_W2, bigSep_W2]
  exact sound_body2 V c t

-- A function read at an index whose every coordinate is the zero offset plus the coordinate itself is read at that index.
private theorem rd_id {S : Shape} {β : Type} (f : S.Idx → β) (y j : S.Idx) (h : ∀ a, (y a).val = 0 * S.size a + 1 * (j a).val) : f y = f j :=
  congrArg f (funext fun a => Fin.ext ((h a).trans (by omega)))
private theorem c01 (n x : ℕ) (h : x < n) : 0 * n ≤ x ∧ x < 0 * n + n := by omega

theorem iblk2_0 (c : Dev nD) (t : Fin cfg2.N) : iblk2 V c 0 t = (V c main_v8 : S32x128.Idx → Elt F .f32) :=
  funext fun j => rd_id (S := S32x128) (V c main_v8) _ j fun | ⟨0, _⟩ => rfl | ⟨1, _⟩ => rfl
theorem iblk2_1 (c : Dev nD) (t : Fin cfg2.N) : iblk2 V c 1 t = (V c main_v7_1 : S1x64.Idx → Elt F .f32) :=
  funext fun j => rd_id (S := S1x64) (V c main_v7_1) _ j fun | ⟨0, _⟩ => rfl | ⟨1, _⟩ => rfl
theorem iblk2_2 (c : Dev nD) (t : Fin cfg2.N) : iblk2 V c 2 t = (V c main_v7_0 : S64x128.Idx → Elt F .i32) :=
  funext fun j => rd_id (S := S64x128) (V c main_v7_0) _ j fun | ⟨0, _⟩ => rfl | ⟨1, _⟩ => rfl

def res2 (c : Dev nD) : Vec F S1x1 .f32 := k2_pay1 (V c main_v8) (V c main_v7_1) (V c main_v7_0)

-- The one point's block covers the array, and reading the result through it is the identity on indices.
theorem arrAt2_3 (c : Dev nD) : (dat2 V c).arrAt 3 cfg2.N = res2 V c := by
  refine (dat2 V c).arrAt_eq_of_cover 3 (res2 V c) (fun t _ => ?_) fun (i : S1x1.Idx) => ⟨t2_0, flush2_3 t2_0, ?_⟩
  · show (cfg2.win 3).cut (cfg2.grid.coords t) (out2_3 (iblk2 V c 0 t) (iblk2 V c 1 t) (iblk2 V c 2 t)) = _
    rw [out2_3_eq, iblk2_0, iblk2_1, iblk2_2]
    exact funext fun j => (rd_id (S := S1x1) (res2 V c) _ j fun | ⟨0, _⟩ => rfl | ⟨1, _⟩ => rfl).symm
  · show i ∈ ((View.whole main_v9).slice (win2_3.rect t2_0)).set
    rw [View.set_slice_whole, Rect.mem_set_unit]
    intro a
    match a with
    | ⟨0, _⟩ => exact c01 _ _ (i 0).isLt
    | ⟨1, _⟩ => exact c01 _ _ (i 1).isLt

end Region2

end Cert.KernelIdeal.Hand

end
-- ==== Proof.Main3.lean ====
import proofs.«218716_g83915071029270_cont_9to1c4b_613_31_alg».proof.Proof.Main2
import proofs.«218716_g83915071029270_cont_9to1c4b_613_31_alg».proof.Proof.Region2
import Idealize.ShloMosaic.Lib.Pipeline.RegionsLoop
import Idealize.ShloMosaic.Lib.Pipeline.FrameSuffix

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)
variable (dA : (c : Dev nD) → Dat τ (Elt F) (HIx 1) ℕ UU ℕ cfg1 c)

abbrev V2 : (c : Dev nD) → (b : Ref sig .tc) → Buf (Elt F) ((c : Thread nD τ).loc b) := fun c b => W2 m c b

abbrev c0' : DevRef τ sig := Proc.devRef .tc (main_v7_0 : Ref sig .tc)
abbrev c1' : DevRef τ sig := Proc.devRef .tc (main_v7_1 : Ref sig .tc)

-- the counting region writes its two results and nothing else
def W3 (c : Dev nD) : Valuation τ sig (Elt F) :=
  Function.update (Function.update (W2 m c) c0' ((dA c).arrAt 3 cfg1.N)) c1' ((dA c).arrAt 4 cfg1.N)

abbrev W4 (c : Dev nD) : Valuation τ sig (Elt F) := StableHlo.after (opsB (F := F)) (W3 m dA c)
abbrev V4 : (c : Dev nD) → (b : Ref sig .tc) → Buf (Elt F) ((c : Thread nD τ).loc b) := fun c b => W4 m dA c b

def W5 (c : Dev nD) : Valuation τ sig (Elt F) :=
  Pipeline.withArrays spec2 c (W4 m dA c) fun w => (dat2 (V4 m dA) c).arrAt w cfg2.N
theorem W5_arr (c : Dev nD) (w : Fin cfg2.W) :
    W5 m dA c (Proc.devRef .tc (Pipeline.arrRef spec2 w)) = (dat2 (V4 m dA) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m dA c (Proc.devRef .tc b) = W4 m dA c (Proc.devRef .tc b) := by
  unfold W5; exact Pipeline.withArrays_of_ne spec2 c _ _ b hb

abbrev W6 (c : Dev nD) : Valuation τ sig (Elt F) := StableHlo.after (opsC (F := F)) (W5 m dA c)

-- each region's proof data, at the contents the region is entered with
def pdats : (p : Fin 2) → (c : Dev nD) → Dat τ (Elt F) (HIx 1) ℕ UU ℕ (Pipeline.pin (pcfgs (F := F)) adm p) c
  | ⟨0, _⟩ => fun c => dA c
  | ⟨1, _⟩ => fun c => dat2 (V4 m dA) c

abbrev LL : GSem nD τ sig → Finset (HIx 1) := (K (F := F)).L
abbrev lvv : GSem nD τ sig → HIx 1 → ℕ := (K (F := F)).lev

abbrev R (c : Dev nD) : sProp 𝕄 := iprop((∃ r, prngReg c r) ∗ ∃ W, owes (c : Thread nD τ) (0 : CellTallies nD τ sig (HIx 1)) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ (LL (F := F)) (lvv (F := F)) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
def reg2 (howedA : ∀ c t, (dA c).owed t = 0) :
    Pipeline.RegionSeg (pcfgs (F := F)) adm (pdats m dA) (none : HIx 1) defs₀ 𝒱₀ (LL (F := F)) (lvv (F := F)) 1 where
  win := launch2.win.to₀
  block_pos := launch2.block_pos
  stage_whole := launch2.stage_whole
  K := PEmpty
  osem k := k.elim
  ho := Pipeline.OwnSemFacts.none _
  hbody c := (body_obligation2 (V4 m dA) c).loose
  hwaits := Pipeline.hwaits_of_owed_zero _ _ _ _ (LL (F := F)) (lvv (F := F)) 1 fun _ _ => rfl
  pre c := iprop(StableHlo.held (c : Thread nD τ) (Pipeline.ucRefs τ sig) (W4 m dA c) ∗ R c)
  post c := iprop(StableHlo.held (c : Thread nD τ) (Pipeline.ucRefs τ sig) (W5 m dA c) ∗ R c)
  X c := iprop(∃ r, prngReg c r)
  Y c := iprop(∃ r, prngReg c r)
  Z c := Pipeline.unscopedRest spec2 c (V4 m dA c)
  hentry c := by
    rw [Pipeline.ownSems0_none]
    have hsplit := Pipeline.arrays_of_unscopedBufs (p := 1) (pcfgs (F := F)) adm (pdats m dA) launch2.win launch2.arr_whole c
      ((pdats m dA 1 c).share_full fun _ => rfl) (V4 m dA c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m dA 1 c).Φ 0 = Φ2 (F := F) c from rfl]; unfold Φ2
    iintro ⟨Hp, -, Hr⟩
    isplitl [Hr]; · iexact Hr
    iexact Hp
  hout c := by
    rw [Pipeline.ownSems0_none, show (pdats m dA 1 c).Φ (Fin.last _) = Φ2 (F := F) c from rfl]; unfold Φ2
    iintro ⟨Hr, Hp⟩
    isplitl [Hp]; · iexact Hp
    isplitr; · iempintro
    iexact Hr
  hexit c := by
    have hjoin := Pipeline.unscopedBufs_of_arrays (p := 1) (pcfgs (F := F)) adm
      launch2.win launch2.arr_whole c (pdats m dA) ((pdats m dA 1 c).share_full fun _ => rfl)
      (V4 m dA c) (fun b => W5 m dA c b) ((pdats m dA 1 c).arrAt · cfg2.N) (fun w => (W5_arr m dA c w).symm)
      fun b hb => W5_of_ne m dA c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Main3b.lean ====
import proofs.«218716_g83915071029270_cont_9to1c4b_613_31_alg».proof.Proof.Main3

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)
variable (dA : (c : Dev nD) → Dat τ (Elt F) (HIx 1) ℕ UU ℕ cfg1 c)

theorem arrImage1 : (Finset.univ.image (Pipeline.arrRef spec1) : Finset (Ref sig .tc)) = {main_v5, main_v4, main_v7_0, main_v7_1} := by decide

theorem pointsTo_halves {ℓ : Loc nD τ sig} (f : Buf (Elt F) ℓ) :
    (ℓ ↦{fullShare} f : sProp 𝕄) = iprop((ℓ ↦{(fullShare : PosShare TreeShare).left} f) ∗ (ℓ ↦{(fullShare : PosShare TreeShare).right} f)) :=
  BI.Entails.antisymm (pointsTo_share (PosShare.mem_left_op_right fullShare)).1 (pointsTo_share (PosShare.mem_left_op_right fullShare)).2

-- what the segment asks of the counting region's proof data
structure DAFacts : Prop where
  owed : ∀ c t, (dA c).owed t = 0
  recd : ∀ c t, (dA c).recorded t = Set.univ
  s0 : ∀ c, (dA c).share 0 = (fullShare : PosShare TreeShare).left
  s1 : ∀ c, (dA c).share 1 = (fullShare : PosShare TreeShare).right
  s2 : ∀ c, (dA c).share 2 = fullShare
  s3 : ∀ c, (dA c).share 3 = fullShare
  s4 : ∀ c, (dA c).share 4 = fullShare
  at0 : ∀ c w, (dA c).arrAt w 0 = V2 m c (Pipeline.arrRef spec1 w)
  atN : ∀ c w, (cfg1.win w).isOut = false → (dA c).arrAt w cfg1.N = V2 m c (Pipeline.arrRef spec1 w)
  hin : ∀ c, iprop((∃ r, prngReg c r) ∗ Pipeline.prefHeld (pcfgs (F := F) 0).pre c (fun _ => fullShare) (adm (F := F) 0).1
      ∗ Pipeline.scopedRest (Ix := HIx 1) (Name := ℕ) (U := UU) (Lvl := ℕ) (Val := Elt F) spec1 c) ⊢ ((dA c).Φ 0 : sProp 𝕄)
  hout : ∀ c, ((dA c).Φ (Fin.last cfg1.N) : sProp 𝕄)
    ⊢ iprop((∃ r, prngReg c r) ∗ Pipeline.scopedRest (Ix := HIx 1) (Name := ℕ) (U := UU) (Lvl := ℕ) (Val := Elt F) spec1 c)
  hbody : ∀ c, BodyObligation (dA c) (defs₀ (F := F)) Variants.none (none : HIx 1) Set.univ

-- a full share is its two halves together, so the one array that two windows name is held once
theorem arrays_eq1 (h : DAFacts m dA) (c : Dev nD) (Vv : (b : Ref sig .tc) → Buf (Elt F) ((c : Thread nD τ).loc b))
    (Fv : (w : Fin cfg1.W) → Buf (Elt F) ((cfg1.win w).arr.view.loc (c.tc : Thread nD τ)))
    (hF : ∀ w, Fv w = Vv (Pipeline.arrRef spec1 w)) :
    (Pipeline.arrBufs spec1 c Vv : sProp 𝕄) = (dA c).arrays Fv := by
  unfold Pipeline.arrBufs Pipeline.Dat.arrays
  rw [arrImage1, bigSep_W1, h.s0, h.s1, h.s2, h.s3, h.s4, hF 0, hF 1, hF 2, hF 3, hF 4,
    (arr_whole1 0).set_eq_univ, (arr_whole1 2).set_eq_univ, (arr_whole1 3).set_eq_univ, (arr_whole1 4).set_eq_univ,
    SparseCore.bigSep_insert' (by decide), SparseCore.bigSep_insert' (by decide), SparseCore.bigSep_insert' (by decide), bigSep_singleton,
    pointsTo_halves (Vv main_v5)]
  refine (BI.equiv_iff).mp ⟨?_, ?_⟩
  · show (_ : sProp 𝕄) ⊢ _
    iintro ⟨⟨H0, H1⟩, H2, H3, H4⟩
    iframe
  · show (_ : sProp 𝕄) ⊢ _
    iintro ⟨H0, H1, H2, H3, H4⟩
    iframe

theorem owesAt_eq (h : DAFacts m dA) (c : Dev nD) (t : Fin (cfg1.N + 1)) :
    ((dA c).owesAt (none : HIx 1) t : sProp 𝕄) = iprop(∃ W, owes (c : Thread nD τ) (0 : CellTallies nD τ sig (HIx 1)) W) := by
  unfold Pipeline.Dat.owesAt Pipeline.owesWithin
  rw [h.owed c t]
  refine BI.Entails.antisymm ?_ ?_
  · show (_ : sProp 𝕄) ⊢ _
    iintro ⟨%W, -, HO⟩
    iexists W; iexact HO
  · show (_ : sProp 𝕄) ⊢ _
    iintro ⟨%W, HO⟩
    iexists W
    isplitr
    · ipureintro; unfold Pipeline.Dat.bound; rw [h.recd c t]; exact fun _ _ => Or.inl trivial
    iexact HO

abbrev V3 : (c : Dev nD) → (b : Ref sig .tc) → Buf (Elt F) ((c : Thread nD τ).loc b) := fun c b => W3 m dA c b

theorem V3_c0 (c : Dev nD) : V3 m dA c main_v7_0 = (dA c).arrAt 3 cfg1.N := by
  show W3 m dA c c0' = _
  unfold W3; rw [Function.update_of_ne (show c0' ≠ c1' by decide)]; exact Function.update_self _ _ _
theorem V3_c1 (c : Dev nD) : V3 m dA c main_v7_1 = (dA c).arrAt 4 cfg1.N := by
  show W3 m dA c c1' = _
  unfold W3; exact Function.update_self _ _ _
theorem V3_of_ne (c : Dev nD) (b : Ref sig .tc) (h0 : b ≠ main_v7_0) (h1 : b ≠ main_v7_1) : V3 m dA c b = V2 m c b := by
  show W3 m dA c (Proc.devRef .tc b) = W2 m c (Proc.devRef .tc b)
  unfold W3
  rw [Function.update_of_ne (StableHlo.devRef_ne_of_ne h1), Function.update_of_ne (StableHlo.devRef_ne_of_ne h0)]

theorem unscopedRest_V3 (c : Dev nD) :
    (Pipeline.unscopedRest spec1 c (V3 m dA c) : sProp 𝕄)
      = Pipeline.unscopedRest spec1 c (V2 m c) := by
  unfold Pipeline.unscopedRest
  refine bigSep_congr fun b hb => ?_
  have hb' := (Finset.mem_sdiff.mp hb).2
  rw [arrImage1] at hb'
  rw [V3_of_ne m dA c b (fun e => hb' (by rw [e]; decide)) (fun e => hb' (by rw [e]; decide))]

theorem held_split1 (c : Dev nD) (W : Valuation τ sig (Elt F)) :
    (StableHlo.held (c : Thread nD τ) (Pipeline.ucRefs τ sig) W : sProp 𝕄)
      = iprop(Pipeline.arrBufs spec1 c (fun b => W b)
          ∗ Pipeline.unscopedRest spec1 c (fun b => W b)) := by
  rw [← Pipeline.unscopedBufs_held c W]
  exact Pipeline.unscopedBufs_split₀ cfgs (0 : Fin 2) winFacts₀1.arr_unscoped c (fun b => W b)

set_option backward.isDefEq.respectTransparency.types false in
def reg1 (h : DAFacts m dA) :
    Pipeline.RegionSeg (pcfgs (F := F)) adm (pdats m dA) (none : HIx 1) defs₀ 𝒱₀ (LL (F := F)) (lvv (F := F)) 0 where
  win := winFacts₀1
  block_pos := block_pos1
  stage_whole := stage_whole1
  K := PEmpty
  osem k := k.elim
  ho := Pipeline.OwnSemFacts.none _
  hbody c := (h.hbody c).loose
  hwaits := Pipeline.hwaits_of_owed_zero _ _ _ _ (LL (F := F)) (lvv (F := F)) 0 fun c t => h.owed c t
  pre c := iprop(StableHlo.held (c : Thread nD τ) (Pipeline.ucRefs τ sig) (W2 m c) ∗ R c)
  post c := iprop(StableHlo.held (c : Thread nD τ) (Pipeline.ucRefs τ sig) (W3 m dA c) ∗ R c)
  X c := iprop(∃ r, prngReg c r)
  Y c := iprop(∃ r, prngReg c r)
  Z c := Pipeline.unscopedRest spec1 c (V2 m c)
  hentry c := by
    rw [Pipeline.ownSems0_none]
    have hsplit : (StableHlo.held (c : Thread nD τ) (Pipeline.ucRefs τ sig) (W2 m c) : sProp 𝕄)
        = iprop((pdats m dA 0 c).arrays ((pdats m dA 0 c).arrAt · 0)
            ∗ Pipeline.unscopedRest spec1 c (V2 m c)) := by
      rw [held_split1 c (W2 m c), arrays_eq1 m dA h c (V2 m c) ((dA c).arrAt · 0) (h.at0 c)]
      rfl
    iintro ⟨⟨Hub, Hp, HO⟩, -, -⟩
    ihave H := (Entails.of_eq hsplit) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Entails.of_eq (owesAt_eq m dA h c 0).symm); iexact HO
    isplitl [Hp]; · iexact Hp
    iexact Hrest
  hin c := h.hin c
  hout c := by
    rw [Pipeline.ownSems0_none]
    exact (h.hout c).trans (sep_mono_r emp_sep_intro)
  hexit c := by
    have hjoin : iprop((pdats m dA 0 c).arrays ((pdats m dA 0 c).arrAt · cfg1.N)
          ∗ Pipeline.unscopedRest spec1 c (V2 m c))
        = (StableHlo.held (c : Thread nD τ) (Pipeline.ucRefs τ sig) (W3 m dA c) : sProp 𝕄) := by
      rw [held_split1 c (W3 m dA c), ← unscopedRest_V3 m dA c,
        arrays_eq1 m dA h c (V3 m dA c) ((dA c).arrAt · cfg1.N) (fun w => by
          match w with
          | ⟨0, _⟩ | ⟨1, _⟩ => exact (h.atN c _ rfl).trans (V3_of_ne m dA c main_v5 (by decide) (by decide)).symm
          | ⟨2, _⟩ => exact (h.atN c _ rfl).trans (V3_of_ne m dA c main_v4 (by decide) (by decide)).symm
          | ⟨3, _⟩ => exact (V3_c0 m dA c).symm
          | ⟨4, _⟩ => exact (V3_c1 m dA c).symm)]
      rfl
    iintro ⟨Ha, HO, HY, Hrest⟩
    imodintro
    isplitl [Ha Hrest]
    · iapply (Entails.of_eq hjoin); isplitl [Ha] <;> iassumption
    isplitl [HY]; · iexact HY
    iapply (Entails.of_eq (owesAt_eq m dA h c (Fin.last cfg1.N))); iexact HO

end Cert.KernelIdeal.Hand

end
-- ==== Proof.Main4.lean ====
import proofs.«218716_g83915071029270_cont_9to1c4b_613_31_alg».proof.Proof.Main3b

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)
variable (dA : (c : Dev nD) → Dat τ (Elt F) (HIx 1) ℕ UU ℕ cfg1 c)

abbrev segs (h : DAFacts m dA) : List (Pipeline.Seg (pcfgs (F := F)) adm (pdats m dA) (none : HIx 1) defs₀ 𝒱₀ (LL (F := F)) (lvv (F := F))) :=
  [ .region (reg1 m dA h),
    .host (hseg opsB (StableHlo.reshape_bufs_sub ..) rfl (W3 m dA)),
    .region (reg2 m dA h.owed),
    .host (hseg opsC (StableHlo.reshape_bufs_sub ..) rfl (W5 m dA)) ]

theorem tail_run (h : DAFacts m dA) : innerTail (F := F) = Pipeline.Seg.run (segs m dA h) := rfl

-- with one call only, every recorded level is at most 8
theorem wbelow_any (d : Dev nD) (W : Waits sig (HIx 1)) : (K (F := F)).WBelow (T d) W (8 * 1) := by
  intro p _
  rcases p with ⟨sm, ι⟩
  cases ι with
  | none => simp
  | some q =>
    have := (K (F := F)).lev_some_le (T d, sm) q
    have hq : q.val = 0 := by omega
    show (K (F := F)).lev (T d, sm) (some q) ≤ 8 * 1
    omega

theorem tcSt_swap (d : Dev nD) :
    ((K (F := F)).tcSt EH d 1 : sProp 𝕄) ⊢ iprop((∃ W, owes (T d) (0 : CellTallies nD τ sig (HIx 1)) W)
      ∗ ((∃ W, owes (T d) (0 : CellTallies nD τ sig (HIx 1)) W) -∗ (K (F := F)).tcSt EH d 1)) := by
  unfold SparseCore.Cfg.tcSt
  rw [(K (F := F)).Otc_end d (n := 1) le_rfl]
  iintro ⟨⟨%W, -, HO⟩, Hrest⟩
  isplitl [HO]; · iexists W; iexact HO
  iintro ⟨%W', HO⟩
  isplitl [HO]
  · iexists W'; isplitr; · ipureintro; exact wbelow_any d W'
    iexact HO
  iexact Hrest

abbrev FIN (d : Dev nD) : sProp 𝕄 := held (T d) (Pipeline.ucRefs τ sig) (W6 m dA d)

set_option backward.isDefEq.respectTransparency.types false in
theorem hmain (h : DAFacts m dA) (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m dA d) := by
  unfold SparseCore.Cfg.tcRes
  rw [main_split, unscoped_held]
  iintro ⟨#Hctx, Hst, ⟨Hb, Hheld, -, Hprng⟩, HG⟩
  iapply (StableHlo.wp_seq (defs := (K (F := F)).defs (D (F := F))) 𝒱 none Set.univ d (Pipeline.ucRefs τ sig) _ (opsA (F := F)) opsA_sub opsA_fresh (W0 m d)) $$ [Hb Hheld]
  · isplitl [Hb] <;> iassumption
  iintro ⟨Hb, Hheld⟩
  ihave H3 := (Entails.of_eq (held_split3 (F := F) d (W1 m d))) $$ Hheld
  icases H3 with ⟨⟨Hx, Ha, Ho⟩, Hrest⟩
  rw [wp_bind]
  iapply ((K (F := F)).wp_run (D (F := F)) 𝒱 (EH := EH) (P := PP m) κ d 0) $$ [Hst Hx Ha Ho Hb Hrest Hprng HG]
  isplitr; · iexact Hctx
  isplitl [Hst]; · iexact Hst
  isplitl [Hx Ha Ho]
  · iapply (st_of_whole (f3 m) (fa m) (f6 m) d)
    isplitl [Hx]; · iexact Hx
    isplitl [Ha]; · iexact Ha
    iexact Ho
  iintro ⟨Hst, Hdn⟩
  ihave H := (whole_of_dn (f3 m) (fa m) (f6 m) d) $$ Hdn
  icases H with ⟨Hx, Ha, Ho⟩
  ihave Hheld := (held_W2 m d) $$ [Hx Ha Ho Hrest]
  · iframe
  iapply ((K (F := F)).wp_liftProg (D (F := F)) 𝒱 (SparseCore.T d) Set.univ none (innerTail (F := F)) _)
  rw [tail_run m dA h]
  ihave H := (tcSt_swap (F := F) d) $$ [Hst]
  · iexact Hst
  icases H with ⟨HO, Hclose⟩
  ihave Hlev := ((K (F := F)).ctx_levAts (EH := EH) (P := PP m) κ) $$ Hctx
  iapply (Pipeline.wp_segs (pcfgs (F := F)) adm (pdats m dA) (none : HIx 1) cellOf_inj (EP (F := F)) defs₀ 𝒱₀ (LL (F := F)) (lvv (F := F)) d
      (segs m dA h) Finset.univ
      (fun c => iprop(StableHlo.held (c : Thread nD τ) (Pipeline.ucRefs τ sig) (W2 m c) ∗ R c))
      (fun c => iprop(StableHlo.held (c : Thread nD τ) (Pipeline.ucRefs τ sig) (W6 m dA c) ∗ R c))
      (by simp only [segs, Pipeline.Seg.pipes_host, Pipeline.Seg.pipes_region, Pipeline.Seg.pipes_nil]; decide)
      (fun p _ => Finset.mem_univ p)
      ⟨fun _ => .rfl, fun _ => .rfl, fun _ => .rfl, fun _ => .rfl, fun _ => .rfl⟩) $$ [Hclose Hb Hheld Hprng HO Hlev HG]
  isplitl [Hclose]
  · iintro ⟨-, ⟨Hh, -, HO⟩⟩
    isplitl [HO Hclose]
    · iapply Hclose; iexact HO
    iexact Hh
  isplitl [Hb]; · iexact Hb
  isplitl [Hheld Hprng HO]
  · isplitl [Hheld]; · iexact Hheld
    isplitl [Hprng]; · iexists _; iexact Hprng
    iexact HO
  isplitl [Hlev]; · iexact Hlev
  iexact HG

def fq (d : Dev nD) (s' : Phys nD τ sig (Elt F)) : Prop := ∀ b ∈ Pipeline.ucRefs τ sig, s'.mem.mem (d, b) = W6 m dA d b

theorem hfin (d : Dev nD) (s' : Phys nD τ sig (Elt F)) : iprop(FIN m dA d ∗ SI s') ⊢ (⌜fq m dA d s'⌝ : sProp 𝕄) := by
  unfold FIN StableHlo.held
  iintro ⟨Hh, HSI⟩
  ihave H := (pointsTo_read_all (Pipeline.ucRefs τ sig) (fun b => ((d, b) : Loc nD τ sig)) (W6 m dA d) s') $$ [Hh HSI]
  · isplitl [Hh] <;> iassumption
  icases H with ⟨%hh, -⟩
  ipureintro; exact hh

def QC : PUnit × MemSt nD τ sig (Elt F) → Prop := fun r => ∀ c : Dev nD, ∀ b ∈ Pipeline.ucRefs τ sig, r.2.mem (c, b) = W6 m dA c b

-- the run ends with every buffer that is never scoped at the last boundary's contents
theorem run_main [∀ e, Nonempty (Elt F e)] (h : DAFacts m dA) (hin : ∀ d, Cert.Spec.InRange (fa m d)) :
    θ_run (Cert.KernelIdeal.defs (F := F)) (Cert.KernelIdeal.threads (F := F)) ⟨m, fun _ => 0, ρ⟩ (QC m dA) :=
  SparseCore.Cfg.θ_run_sc (K := K (F := F)) (D := D (F := F)) (𝒱 := 𝒱) (EH := EH) (P := PP m) facts v₀
    (fun q hq => match q with | 0 => nomatch hq)
    (fun q _ => match q with | 0 => tileObl (f3 m) (fa m) (f6 m) facts hin)
    (fun q _ => match q with | 0 => SparseCore.Cfg.VecSplit.of_plain (vecSplit (f3 m) (fa m) (f6 m)))
    m ρ main (fun d => G (F := F) d) (FIN m dA) (u₀ (F := F)) (sep_elim_left.trans (hu₀ (PP m) (fun _ _ => rfl)))
    (hmain m ρ dA h) (fq m dA) (hfin m dA) (QC m dA) (fun _ hh => hh)

end Cert.KernelIdeal.Hand

end
-- ==== Proof.Region1Spec.lean ====
import proofs.«218716_g83915071029270_cont_9to1c4b_613_31_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic Idealize.SL.Sem

variable {F : FTy → Type} [FloatOps F]

abbrev LabArr (F : FTy → Type) : Type := Vec F S2048x128 .i32

abbrev DistArr (F : FTy → Type) : Type := Vec F S64x262144 .f32

def lab256 (a5 : LabArr F) (t : Fin cfg1.N) : Vec F S256x128 .i32 := ((cfg1.win 0).blk t).view.read (Elt F) a5

def lab64 (a5 : LabArr F) (t : Fin cfg1.N) : Vec F S64x128 .i32 := ((cfg1.win 1).blk t).view.read (Elt F) a5

def dist8192 (d4 : DistArr F) (t : Fin cfg1.N) : Vec F S64x8192 .f32 := ((cfg1.win 2).blk t).view.read (Elt F) d4

abbrev rows16 (lab16 : Vec F S256x128 .i16) (k : Fin k1_t1_loop.trips) : Vec F S16x128 .i16 :=
  View.ld lab16 (Rect.unit (s := S256x128) (k1_off1 k) S16x128.size (k1_off1_inb k))

def accTrip (lab16 : Vec F S256x128 .i16) (k : Fin k1_t1_loop.trips) (acc : Vec F S64x128 .i16) : Vec F S64x128 .i16 :=
  have v9 : IVec S64x128 16 := iota .tc S64x128 16 [0] iota_S64x128_d0_w16
  have v541 : Vec F S16x128 .i16 := rows16 lab16 k
  k1_pay9 v541 (k1_pay4 v9 acc v541) (k1_pay5 v9 v541)

def accLoop (lab16 : Vec F S256x128 .i16) (init : Vec F S64x128 .i16) : ℕ → Vec F S64x128 .i16
  | 0 => init
  | k + 1 => if h : k < k1_t1_loop.trips then accTrip lab16 ⟨k, h⟩ (accLoop lab16 init k) else accLoop lab16 init k

def accStep (lab : Vec F S256x128 .i32) (acc : Vec F S64x128 .i16) : Vec F S64x128 .i16 :=
  k1_pay10 (F := F) (accLoop (k1_pay8 lab) acc k1_t1_loop.trips)

def accAfter (a5 : LabArr F) : ℕ → Vec F S64x128 .i16
  | 0 => k1_pay6
  | n + 1 => if h : n < cfg1.N then accStep (lab256 a5 ⟨n, h⟩) (accAfter a5 n) else accAfter a5 n

def cntOut (a5 : LabArr F) : IVec S64x128 32 := k1_pay2 (F := F) (accAfter a5 8)

abbrev dslice (dblk : Vec F S64x8192 .f32) (off : ℕ) (inb : ∀ a, (![0, off] : Fin 2 → Nat) a + S64x128.size a ≤ S64x8192.size a) :
    Vec F S64x128 .f32 :=
  View.ld dblk (Rect.unit (s := S64x8192) ![0, off] S64x128.size inb)

def accdStep (lab : Vec F S64x128 .i32) (dblk : Vec F S64x8192 .f32) (accd : Vec F S64x128 .f32) : Vec F S64x128 .f32 :=
  have v16 : IVec S64x128 32 := iota .tc S64x128 32 [0] iota_S64x128_d0_w32
  have v21 := dslice dblk 0 inb_S64x8192_S64x128_0_0
  have v29 := dslice dblk 128 inb_S64x8192_S64x128_0_128
  have v37 := dslice dblk 256 inb_S64x8192_S64x128_0_256
  have v45 := dslice dblk 384 inb_S64x8192_S64x128_0_384
  have v53 := dslice dblk 512 inb_S64x8192_S64x128_0_512
  have v61 := dslice dblk 640 inb_S64x8192_S64x128_0_640
  have v69 := dslice dblk 768 inb_S64x8192_S64x128_0_768
  have v77 := dslice dblk 896 inb_S64x8192_S64x128_0_896
  have v85 := dslice dblk 1024 inb_S64x8192_S64x128_0_1024
  have v93 := dslice dblk 1152 inb_S64x8192_S64x128_0_1152
  have v101 := dslice dblk 1280 inb_S64x8192_S64x128_0_1280
  have v109 := dslice dblk 1408 inb_S64x8192_S64x128_0_1408
  have v117 := dslice dblk 1536 inb_S64x8192_S64x128_0_1536
  have v125 := dslice dblk 1664 inb_S64x8192_S64x128_0_1664
  have v133 := dslice dblk 1792 inb_S64x8192_S64x128_0_1792
  have v141 := dslice dblk 1920 inb_S64x8192_S64x128_0_1920
  have v149 := dslice dblk 2048 inb_S64x8192_S64x128_0_2048
  have v157 := dslice dblk 2176 inb_S64x8192_S64x128_0_2176
  have v165 := dslice dblk 2304 inb_S64x8192_S64x128_0_2304
  have v173 := dslice dblk 2432 inb_S64x8192_S64x128_0_2432
  have v181 := dslice dblk 2560 inb_S64x8192_S64x128_0_2560
  have v189 := dslice dblk 2688 inb_S64x8192_S64x128_0_2688
  have v197 := dslice dblk 2816 inb_S64x8192_S64x128_0_2816
  have v205 := dslice dblk 2944 inb_S64x8192_S64x128_0_2944
  have v213 := dslice dblk 3072 inb_S64x8192_S64x128_0_3072
  have v221 := dslice dblk 3200 inb_S64x8192_S64x128_0_3200
  have v229 := dslice dblk 3328 inb_S64x8192_S64x128_0_3328
  have v237 := dslice dblk 3456 inb_S64x8192_S64x128_0_3456
  have v245 := dslice dblk 3584 inb_S64x8192_S64x128_0_3584
  have v253 := dslice dblk 3712 inb_S64x8192_S64x128_0_3712
  have v261 := dslice dblk 3840 inb_S64x8192_S64x128_0_3840
  have v269 := dslice dblk 3968 inb_S64x8192_S64x128_0_3968
  have v277 := dslice dblk 4096 inb_S64x8192_S64x128_0_4096
  have v285 := dslice dblk 4224 inb_S64x8192_S64x128_0_4224
  have v293 := dslice dblk 4352 inb_S64x8192_S64x128_0_4352
  have v301 := dslice dblk 4480 inb_S64x8192_S64x128_0_4480
  have v309 := dslice dblk 4608 inb_S64x8192_S64x128_0_4608
  have v317 := dslice dblk 4736 inb_S64x8192_S64x128_0_4736
  have v325 := dslice dblk 4864 inb_S64x8192_S64x128_0_4864
  have v333 := dslice dblk 4992 inb_S64x8192_S64x128_0_4992
  have v341 := dslice dblk 5120 inb_S64x8192_S64x128_0_5120
  have v349 := dslice dblk 5248 inb_S64x8192_S64x128_0_5248
  have v357 := dslice dblk 5376 inb_S64x8192_S64x128_0_5376
  have v365 := dslice dblk 5504 inb_S64x8192_S64x128_0_5504
  have v373 := dslice dblk 5632 inb_S64x8192_S64x128_0_5632
  have v381 := dslice dblk 5760 inb_S64x8192_S64x128_0_5760
  have v389 := dslice dblk 5888 inb_S64x8192_S64x128_0_5888
  have v397 := dslice dblk 6016 inb_S64x8192_S64x128_0_6016
  have v405 := dslice dblk 6144 inb_S64x8192_S64x128_0_6144
  have v413 := dslice dblk 6272 inb_S64x8192_S64x128_0_6272
  have v421 := dslice dblk 6400 inb_S64x8192_S64x128_0_6400
  have v429 := dslice dblk 6528 inb_S64x8192_S64x128_0_6528
  have v437 := dslice dblk 6656 inb_S64x8192_S64x128_0_6656
  have v445 := dslice dblk 6784 inb_S64x8192_S64x128_0_6784
  have v453 := dslice dblk 6912 inb_S64x8192_S64x128_0_6912
  have v461 := dslice dblk 7040 inb_S64x8192_S64x128_0_7040
  have v469 := dslice dblk 7168 inb_S64x8192_S64x128_0_7168
  have v477 := dslice dblk 7296 inb_S64x8192_S64x128_0_7296
  have v485 := dslice dblk 7424 inb_S64x8192_S64x128_0_7424
  have v493 := dslice dblk 7552 inb_S64x8192_S64x128_0_7552
  have v501 := dslice dblk 7680 inb_S64x8192_S64x128_0_7680
  have v509 := dslice dblk 7808 inb_S64x8192_S64x128_0_7808
  have v517 := dslice dblk 7936 inb_S64x8192_S64x128_0_7936
  have v525 := dslice dblk 8064 inb_S64x8192_S64x128_0_8064
  have v18 := k1_pay11 (F := F) lab
  have v27 := k1_pay12 lab accd v21
  have v30 := k1_pay13 v29
  have v32 := k1_pay14 (F := F) lab
  have v75 := k1_pay15 v16 v18 v27 v30 v32 v37 v45 v53 v61 v69
  have v76 := k1_pay16 v18
  have v115 := k1_pay17 v16 v18 v75 v76 v77 v85 v93 v101 v109
  have v118 := k1_pay18 v117
  have v119 := k1_pay19 v18
  have v163 := k1_pay20 v16 v18 v115 v118 v119 v125 v133 v141 v149 v157
  have v203 := k1_pay21 v16 v18 v163 v165 v173 v181 v189 v197
  have v204 := k1_pay22 v18
  have v206 := k1_pay23 v205
  have v243 := k1_pay24 v16 v18 v203 v204 v206 v213 v221 v229 v237
  have v250 := k1_pay25 v16 v18 v245
  have v291 := k1_pay26 v16 v18 v243 v250 v253 v261 v269 v277 v285
  have v292 := k1_pay27 v18
  have v331 := k1_pay28 v16 v18 v291 v292 v293 v301 v309 v317 v325
  have v334 := k1_pay29 v333
  have v336 := k1_pay30 v16 v18
  have v337 := k1_pay31 (F := F)
  have v379 := k1_pay32 v16 v18 v331 v334 v336 v337 v341 v349 v357 v365 v373
  have v380 := k1_pay33 v18
  have v419 := k1_pay34 v16 v18 v379 v380 v381 v389 v397 v405 v413
  have v422 := k1_pay35 v421
  have v424 := k1_pay36 v16 v18
  have cst_115 : F .f32 := Scalar.ofBits .f32 0x00000000#32
  have v467 := k1_pay37 v16 v18 v419 v422 v424 cst_115 v429 v437 v445 v453 v461
  have v468 := k1_pay38 v18
  have v507 := k1_pay39 v16 v18 v467 v468 v469 v477 v485 v493 v501
  have v510 := k1_pay40 v509
  have v512 := k1_pay41 v16 v18
  k1_pay1 v16 v18 v507 v510 v512 v517 v525

def accdAfter (a5 : LabArr F) (d4 : DistArr F) : ℕ → Vec F S64x128 .f32
  | 0 => k1_pay7 (F := F)
  | n + 1 => if h : n < cfg1.N then accdStep (lab64 a5 ⟨n, h⟩) (dist8192 d4 ⟨n, h⟩) (accdAfter a5 d4 n) else accdAfter a5 d4 n

def tailOut (a5 : LabArr F) (d4 : DistArr F) : FVec F S1x64 .f32 := k1_pay3 (accdAfter a5 d4 8)

theorem accLoop_zero (lab16 : Vec F S256x128 .i16) (init : Vec F S64x128 .i16) : accLoop lab16 init 0 = init := rfl
theorem accLoop_succ (lab16 : Vec F S256x128 .i16) (init : Vec F S64x128 .i16) (k : Fin k1_t1_loop.trips) :
    accLoop lab16 init (k.val + 1) = accTrip lab16 k (accLoop lab16 init k.val) := by
  rw [accLoop]; exact dif_pos k.isLt
theorem accAfter_succ (a5 : LabArr F) (t : Fin cfg1.N) :
    accAfter a5 (t.val + 1) = accStep (lab256 a5 t) (accAfter a5 t.val) := by
  rw [accAfter]; exact dif_pos t.isLt
theorem accdAfter_succ (a5 : LabArr F) (d4 : DistArr F) (t : Fin cfg1.N) :
    accdAfter a5 d4 (t.val + 1) = accdStep (lab64 a5 t) (dist8192 d4 t) (accdAfter a5 d4 t.val) := by
  rw [accdAfter]; exact dif_pos t.isLt

end Cert.KernelIdeal.Hand

end
-- ==== Proof.Region1Loop.lean ====
import proofs.«218716_g83915071029270_cont_9to1c4b_613_31_alg».proof.Proof.Ctx
import proofs.«218716_g83915071029270_cont_9to1c4b_613_31_alg».proof.Proof.Region1Spec
import proofs.«218716_g83915071029270_cont_9to1c4b_613_31_alg».proof.Proof.Gen.KernelIdeal.Loops
import Idealize.ShloMosaic.Lib.Exec
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI Idealize.SL.BI.BIBase Idealize.SL.Sem

variable {F : FTy → Type} [FloatOps F]

local notation "𝕄" => MT nD τ sig (HIx 1) (Elt F) ℕ UU ℕ

abbrev inv1 (c : Dev nD) (arg8 : Memref sig .tc .vmem S256x128 .i16) (X_arg8 : BufTy.Contents (Elt F) arg8.view.ty)
    (init : Vec F S64x128 .i16) (k : ℕ) (acc : Vec F S64x128 .i16) : sProp 𝕄 :=
  iprop((arg8.view.loc (c : Thread nD τ) ↦[arg8.view.set]{fullShare} X_arg8) ∗ ⌜acc = accLoop (arg8.view.read (Elt F) X_arg8) init k⌝)

variable (𝒱 : Variants) (c : Dev nD) (bd : Option 𝒱.V) (E : Set ℕ) (i : grid1.Coords) (arg1 : Memref sig .tc .vmem S256x128 .i32) (harg1 : arg1.IsWhole) (arg2 : Memref sig .tc .vmem S64x128 .i32) (harg2 : arg2.IsWhole) (arg3 : Memref sig .tc .vmem S64x8192 .f32) (harg3 : arg3.IsWhole) (arg4 : Memref sig .tc .vmem S64x128 .i32) (harg4 : arg4.IsWhole) (arg5 : Memref sig .tc .vmem S1x64 .f32) (harg5 : arg5.IsWhole) (arg6 : Memref sig .tc .vmem S64x128 .i16) (harg6 : arg6.IsWhole) (arg7 : Memref sig .tc .vmem S64x128 .f32) (harg7 : arg7.IsWhole) (arg8 : Memref sig .tc .vmem S256x128 .i16) (harg8 : arg8.IsWhole)
  (X_arg8 : BufTy.Contents (Elt F) arg8.view.ty)

-- One trip reads sixteen rows of the narrowed labels and yields the counts with their one-hot compares added.
theorem trip1 (v9 : IVec S64x128 16) (hv9 : v9 = iota .tc S64x128 16 [0] iota_S64x128_d0_w16) (k : Fin k1_t1_loop.trips) (acc : Vec F S64x128 .i16) :
    (iprop(arg8.view.loc (c : Thread nD τ) ↦[arg8.view.set]{fullShare} X_arg8) : sProp 𝕄)
      ⊢ wp frame (wpE (defs₀ (F := F)) 𝒱 (c : Thread nD τ) bd) E (k1_t1_body (F := F) i arg1 harg1 arg2 harg2 arg3 harg3 arg4 harg4 arg5 harg5 arg6 harg6 arg7 harg7 arg8 harg8 v9 k acc)
          (fun yld => iprop(⌜yld = accTrip (arg8.view.read (Elt F) X_arg8) k acc⌝ ∗ (arg8.view.loc (c : Thread nD τ) ↦[arg8.view.set]{fullShare} X_arg8))) := by
  have hk : k.val < 16 := Nat.lt_of_lt_of_le k.isLt k1_t1_abs.2.1
  subst hv9
  unfold k1_t1_body
  iintro HR_arg8
  sl_exec
  sl_step
  sl_close

macro_rules | `(tactic| sl_pure) => `(tactic| with_reducible exact (Cert.KernelIdeal.Hand.accLoop_zero ..).symm)

set_option warn.classDefReducibility false in
-- Before trip `k` the running counts are the loop's start with the first `k` trips applied.
@[sl_loop] def loopInv1 (init : Vec F S64x128 .i16) :
    LoopInvTy_k1_t1 (F := F) (HIx 1) ℕ UU ℕ 𝒱 c bd E i arg1 harg1 arg2 harg2 arg3 harg3 arg4 harg4 arg5 harg5 arg6 harg6 arg7 harg7 arg8 harg8 (iota .tc S64x128 16 [0] iota_S64x128_d0_w16) init where
  inv := inv1 (F := F) c arg8 X_arg8 init
  step k acc := by
    iintro ⟨HR_arg8, %h_acc⟩
    subst h_acc
    iapply (wp_wand_r Idealize.ShloMosaic.frame (wpE (defs₀ (F := F)) 𝒱 (c : Thread nD τ) bd) E)
    isplitl [HR_arg8]
    · iapply (trip1 (F := F) 𝒱 c bd E i arg1 harg1 arg2 harg2 arg3 harg3 arg4 harg4 arg5 harg5 arg6 harg6 arg7 harg7 arg8 harg8 X_arg8 _ rfl k _)
      iexact HR_arg8
    · iintro %yld ⟨%h_res, HR_arg8⟩
      isplitl [HR_arg8]; · iexact HR_arg8
      ipureintro; rw [h_res, accLoop_succ]

end Cert.KernelIdeal.Hand

end
-- ==== Proof.Region1Runs.lean ====
import proofs.«218716_g83915071029270_cont_9to1c4b_613_31_alg».proof.Proof.Region1Loop
import proofs.«218716_g83915071029270_cont_9to1c4b_613_31_alg».proof.Proof.Gen.KernelIdeal.Points
import proofs.«218716_g83915071029270_cont_9to1c4b_613_31_alg».proof.Proof.Gen.KernelIdeal.Launch
import Idealize.ShloMosaic.Lib.Pipeline.FrameBody
import Idealize.ShloMosaic.Lib.Pipeline.Value
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI Idealize.SL.BI.BIBase Idealize.SL.Sem

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

variable {F : FTy → Type} [FloatOps F]

local notation "𝕄" => MT nD τ sig (HIx 1) (Elt F) ℕ UU ℕ

-- The body's triple in a control case `C`: the inputs come back as they were, the two tables at `T0`, `T1` of the inputs and themselves, the two outputs at `O3`, `O4` of themselves and the new tables.
def Run1 (C : grid1.Coords → Prop) (T0 : Vec F S256x128 .i32 → Vec F S64x128 .i16 → Vec F S64x128 .i16)
    (T1 : Vec F S64x128 .i32 → Vec F S64x8192 .f32 → Vec F S64x128 .f32 → Vec F S64x128 .f32)
    (O3 : Vec F S64x128 .i32 → Vec F S64x128 .i16 → Vec F S64x128 .i32) (O4 : Vec F S1x64 .f32 → Vec F S64x128 .f32 → Vec F S1x64 .f32) : Prop :=
  ∀ (c : Dev nD) (i : grid1.Coords) (arg1 : Memref sig .tc .vmem S256x128 .i32) (harg1 : arg1.IsWhole) (arg2 : Memref sig .tc .vmem S64x128 .i32) (harg2 : arg2.IsWhole) (arg3 : Memref sig .tc .vmem S64x8192 .f32) (harg3 : arg3.IsWhole) (arg4 : Memref sig .tc .vmem S64x128 .i32) (harg4 : arg4.IsWhole) (arg5 : Memref sig .tc .vmem S1x64 .f32) (harg5 : arg5.IsWhole) (arg6 : Memref sig .tc .vmem S64x128 .i16) (harg6 : arg6.IsWhole) (arg7 : Memref sig .tc .vmem S64x128 .f32) (harg7 : arg7.IsWhole) (arg8 : Memref sig .tc .vmem S256x128 .i16) (harg8 : arg8.IsWhole), C i →
    ∀ (x0 : Vec F S256x128 .i32) (x1 : Vec F S64x128 .i32) (x2 : Vec F S64x8192 .f32) (x3 : Vec F S64x128 .i32) (x4 : Vec F S1x64 .f32) (x5 : Vec F S64x128 .i16) (x6 : Vec F S64x128 .f32) (E : Set ℕ) (K : PUnit → sProp 𝕄),
    iprop(owns c arg1 fullShare x0 ∗ owns c arg2 fullShare x1 ∗ owns c arg3 fullShare x2 ∗ owns c arg4 fullShare x3 ∗ owns c arg5 fullShare x4
        ∗ owns c arg6 fullShare x5 ∗ owns c arg7 fullShare x6 ∗ (∃ d, owns c arg8 fullShare d)
        ∗ (iprop(owns c arg1 fullShare x0 ∗ owns c arg2 fullShare x1 ∗ owns c arg3 fullShare x2
            ∗ owns c arg4 fullShare (O3 x3 (T0 x0 x5)) ∗ owns c arg5 fullShare (O4 x4 (T1 x1 x2 x6))
            ∗ owns c arg6 fullShare (T0 x0 x5) ∗ owns c arg7 fullShare (T1 x1 x2 x6) ∗ (∃ d, owns c arg8 fullShare d)) -∗ K ⟨⟩))
      ⊢ wp frame (wpE (defs₀ (F := F)) Variants.none c none) E (cc1__bincount_body i arg1 harg1 arg2 harg2 arg3 harg3 arg4 harg4 arg5 harg5 arg6 harg6 arg7 harg7 arg8 harg8) K

abbrev ms1_0 (t : Fin cfg1.N) : Memref sig .tc .vmem S256x128 .i32 := win1_0.stage (cfg1.slots t 0)
abbrev ms1_1 (t : Fin cfg1.N) : Memref sig .tc .vmem S64x128 .i32 := win1_1.stage (cfg1.slots t 1)
abbrev ms1_2 (t : Fin cfg1.N) : Memref sig .tc .vmem S64x8192 .f32 := win1_2.stage (cfg1.slots t 2)
abbrev ms1_3 (t : Fin cfg1.N) : Memref sig .tc .vmem S64x128 .i32 := win1_3.stage (cfg1.slots t 3)
abbrev ms1_4 (t : Fin cfg1.N) : Memref sig .tc .vmem S1x64 .f32 := win1_4.stage (cfg1.slots t 4)
abbrev scM1_0 : Memref sig .tc .vmem S64x128 .i16 := Memref.whole cc1_scratch0
abbrev scM1_1 : Memref sig .tc .vmem S64x128 .f32 := Memref.whole cc1_scratch1
abbrev scM1_2 : Memref sig .tc .vmem S256x128 .i16 := Memref.whole cc1_scratch2

end Cert.KernelIdeal.Hand

end
-- ==== Proof.Region1Lib.lean ====
import Idealize.ShloMosaic.Lib.Pipeline.FrameBody
import Idealize.ShloMosaic.Lib.Pipeline.Value

noncomputable section

namespace Cert.KernelIdeal.Hand

open Idealize.ShloMosaic

variable {Val : EltTy → Type} [∀ e, Nonempty (Val e)] {sig : RefSig} {κ : Kind} {sp : Space} {S : Shape} {e : EltTy}

theorem off00 : (![0, 0] : Fin 2 → ℕ) = fun _ => 0 := by
  funext a; fin_cases a <;> rfl

theorem read_writes_whole (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

theorem readAt_whole (v : View sig κ sp S e) (f : v.ty.Contents Val) {off : Fin S.rank → ℕ} (h : off = fun _ => 0)
    (inb : ∀ a, off a + S.size a ≤ S.size a) :
    v.readAt Val (Rect.unit off S.size inb).toLoadRect f = v.read Val f := by
  rw [View.readAt_eq_ld, View.ld_unit_zero h]

end Cert.KernelIdeal.Hand

end
-- ==== Proof.Region1RunA.lean ====
import proofs.«218716_g83915071029270_cont_9to1c4b_613_31_alg».proof.Proof.Region1Runs
import proofs.«218716_g83915071029270_cont_9to1c4b_613_31_alg».proof.Proof.Region1Lib

noncomputable section

namespace Cert.KernelIdeal.Hand

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI Idealize.SL.BI.BIBase Idealize.SL.Sem

variable {F : FTy → Type} [FloatOps F]

local notation "𝕄" => MT nD τ sig (HIx 1) (Elt F) ℕ UU ℕ

theorem run1_A : Run1 (F := F) (fun i => cond1_0 i ∧ ¬cond1_1 i) (fun x0 _ => accStep x0 k1_pay6) (fun x1 x2 _ => accdStep x1 x2 (k1_pay7 (F := F)))
    (fun x3 _ => x3) (fun x4 _ => x4) := by
  rintro c i arg1 harg1 arg2 harg2 arg3 harg3 arg4 harg4 arg5 harg5 arg6 harg6 arg7 harg7 arg8 harg8 ⟨hc0, hc1⟩ x0 x1 x2 xi3 xi4 xs0 xs1 E K
  simp only [cc1__bincount_body_eq_skeleton]; unfold cc1__bincount_body_skel
  unfold owns
  iintro ⟨⟨%f1, %hf1, H1⟩, ⟨%f2, %hf2, H2⟩, ⟨%f3, %hf3, H3⟩, ⟨%f4, %hf4, H4⟩, ⟨%f5, %hf5, H5⟩, ⟨%f6, -, H6⟩, ⟨%f7, -, H7⟩, ⟨%d8, %f8, -, H8⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [read_writes_whole (S := S64x128) _ _ off00]
    unfold accStep
    rw [read_writes_whole (S := S256x128) _ _ off00, readAt_whole (S := S256x128) _ _ off00, View.readCov_unit_zero (S := S64x128) _ off00, harg1.read_unread]
  isplitl [H7]
  · iexists _; isplitr
    swap; · iexact H7
    ipureintro
    sl_unfold_words
    rw [read_writes_whole (S := S64x128) _ _ off00]
    simp only [View.readCov_unit_zero (S := S64x128) _ off00, View.readAt_eq_ld, harg2.read_unread, harg3.read_unread, View.ld_unit_zero (S := S64x128) off00]
    unfold accdStep
    with_reducible rfl
  iexists _, _; isplitr
  swap; · iexact H8
  ipureintro; rfl

end Cert.KernelIdeal.Hand

end
-- ==== Proof.Region1RunB.lean ====
import proofs.«218716_g83915071029270_cont_9to1c4b_613_31_alg».proof.Proof.Region1Runs
import proofs.«218716_g83915071029270_cont_9to1c4b_613_31_alg».proof.Proof.Region1Lib

noncomputable section

namespace Cert.KernelIdeal.Hand

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI Idealize.SL.BI.BIBase Idealize.SL.Sem

variable {F : FTy → Type} [FloatOps F]

local notation "𝕄" => MT nD τ sig (HIx 1) (Elt F) ℕ UU ℕ

theorem run1_B : Run1 (F := F) (fun i => ¬cond1_0 i ∧ ¬cond1_1 i) accStep accdStep (fun x3 _ => x3) (fun x4 _ => x4) := by
  rintro c i arg1 harg1 arg2 harg2 arg3 harg3 arg4 harg4 arg5 harg5 arg6 harg6 arg7 harg7 arg8 harg8 ⟨hc0, hc1⟩ x0 x1 x2 xi3 xi4 xs0 xs1 E K
  simp only [cc1__bincount_body_eq_skeleton]; unfold cc1__bincount_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  obtain rfl := harg1.eq_unread hf1; obtain rfl := harg2.eq_unread hf2; obtain rfl := harg3.eq_unread hf3
  obtain rfl := harg4.eq_unread hf4; obtain rfl := harg5.eq_unread hf5
  obtain rfl := harg6.eq_unread hf6; obtain rfl := harg7.eq_unread hf7
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [read_writes_whole _ _ off00]
    unfold accStep
    sl_unfold_words
    rw [read_writes_whole _ _ off00, readAt_whole _ _ off00, readAt_whole _ _ off00, harg1.read_unread, harg6.read_unread]
  isplitl [H7]
  · iexists _; isplitr
    swap; · iexact H7
    ipureintro
    rw [read_writes_whole _ _ off00]
    sl_unfold_words
    simp only [View.readAt_eq_ld, harg2.read_unread, harg3.read_unread, harg7.read_unread, View.ld_unit_zero (S := S64x128) off00]
    rfl
  iexists _, _; isplitr
  swap; · iexact H8
  ipureintro; rfl

end Cert.KernelIdeal.Hand

end
-- ==== Proof.Region1RunC.lean ====
import proofs.«218716_g83915071029270_cont_9to1c4b_613_31_alg».proof.Proof.Region1Runs
import proofs.«218716_g83915071029270_cont_9to1c4b_613_31_alg».proof.Proof.Region1Lib

noncomputable section

namespace Cert.KernelIdeal.Hand

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI Idealize.SL.BI.BIBase Idealize.SL.Sem

variable {F : FTy → Type} [FloatOps F]

local notation "𝕄" => MT nD τ sig (HIx 1) (Elt F) ℕ UU ℕ

theorem run1_C : Run1 (F := F) (fun i => ¬cond1_0 i ∧ cond1_1 i) accStep accdStep (fun _ s => k1_pay2 (F := F) s) (fun _ s => k1_pay3 s) := by
  rintro c i arg1 harg1 arg2 harg2 arg3 harg3 arg4 harg4 arg5 harg5 arg6 harg6 arg7 harg7 arg8 harg8 ⟨hc0, hc1⟩ x0 x1 x2 xi3 xi4 xs0 xs1 E K
  simp only [cc1__bincount_body_eq_skeleton]; unfold cc1__bincount_body_skel
  unfold owns
  iintro ⟨⟨%f1, %hf1, H1⟩, ⟨%f2, %hf2, H2⟩, ⟨%f3, %hf3, H3⟩, ⟨%f4, -, H4⟩, ⟨%f5, -, H5⟩, ⟨%f6, %hf6, H6⟩, ⟨%f7, %hf7, H7⟩, ⟨%d8, %f8, -, H8⟩, Hk⟩
  obtain rfl := harg1.eq_unread hf1; obtain rfl := harg2.eq_unread hf2; obtain rfl := harg3.eq_unread hf3
  obtain rfl := harg6.eq_unread hf6; obtain rfl := harg7.eq_unread hf7
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [read_writes_whole (S := S64x128) _ _ off00, View.readCov_unit_zero (S := S64x128) _ off00]
    unfold accStep
    rw [read_writes_whole (S := S256x128) _ _ off00, readAt_whole (S := S256x128) _ _ off00, readAt_whole (S := S64x128) _ _ off00, harg1.read_unread, harg6.read_unread]
  isplitl [H5]
  · iexists _; isplitr
    swap; · iexact H5
    ipureintro
    sl_unfold_words
    rw [read_writes_whole (S := S1x64) _ _ off00]
    simp only [View.readCov_unit_zero (S := S64x128) _ off00, View.readAt_eq_ld, harg2.read_unread, harg3.read_unread, harg7.read_unread, View.ld_unit_zero (S := S64x128) off00]
    unfold accdStep
    with_reducible rfl
  isplitl [H6]
  · iexists _; isplitr
    swap; · iexact H6
    ipureintro
    sl_unfold_words
    rw [read_writes_whole (S := S64x128) _ _ off00]
    unfold accStep
    rw [read_writes_whole (S := S256x128) _ _ off00, readAt_whole (S := S256x128) _ _ off00, readAt_whole (S := S64x128) _ _ off00, harg1.read_unread, harg6.read_unread]
  isplitl [H7]
  · iexists _; isplitr
    swap; · iexact H7
    ipureintro
    sl_unfold_words
    rw [read_writes_whole (S := S64x128) _ _ off00]
    simp only [View.readCov_unit_zero (S := S64x128) _ off00, View.readAt_eq_ld, harg2.read_unread, harg3.read_unread, harg7.read_unread, View.ld_unit_zero (S := S64x128) off00]
    unfold accdStep
    with_reducible rfl
  iexists _, _; isplitr
  swap; · iexact H8
  ipureintro; rfl

end Cert.KernelIdeal.Hand

end
-- ==== Proof.Region1Last.lean ====
import proofs.«218716_g83915071029270_cont_9to1c4b_613_31_alg».proof.Proof.Region1Spec

noncomputable section

namespace Cert.KernelIdeal.Hand

open Cert.KernelIdeal Cert.KernelIdeal.Gen
open Idealize.ShloMosaic

variable {F : FTy → Type} [FloatOps F]

-- There are eight points, so each result is read off its table after the update of the point numbered seven.
theorem cntOut_last (a5 : LabArr F) (t : Fin cfg1.N) (h : t.val = 7) :
    cntOut a5 = k1_pay2 (F := F) (accStep (lab256 a5 t) (accAfter a5 t.val)) := by
  rw [← accAfter_succ, h]; rfl

theorem tailOut_last (a5 : LabArr F) (d4 : DistArr F) (t : Fin cfg1.N) (h : t.val = 7) :
    tailOut a5 d4 = k1_pay3 (accdStep (lab64 a5 t) (dist8192 d4 t) (accdAfter a5 d4 t.val)) := by
  rw [← accdAfter_succ, h]; rfl

end Cert.KernelIdeal.Hand

end
-- ==== Proof.Region1.lean ====
import proofs.«218716_g83915071029270_cont_9to1c4b_613_31_alg».proof.Proof.Region1RunA
import proofs.«218716_g83915071029270_cont_9to1c4b_613_31_alg».proof.Proof.Region1RunB
import proofs.«218716_g83915071029270_cont_9to1c4b_613_31_alg».proof.Proof.Region1RunC
import proofs.«218716_g83915071029270_cont_9to1c4b_613_31_alg».proof.Proof.Region1Last
import Idealize.ShloMosaic.Lib.Pipeline.FrameBody
import Idealize.ShloMosaic.Lib.Pipeline.Value
import Idealize.ShloMosaic.Lib.Pipeline.Kit
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI Idealize.SL.BI.BIBase Idealize.SL.Sem
open Idealize.ShloMosaic.Pipeline (Dat BodyObligation)

variable {F : FTy → Type} [FloatOps F]

local notation "𝕄" => MT nD τ sig (HIx 1) (Elt F) ℕ UU ℕ

theorem idleAt1 : ∀ t : Fin cfg1.N, ¬cond1_1 (grid1.coords t) →
    (cfg1.idle 3 (grid1.coords t) = true ∧ (cfg1.win 3).flush t = false) ∧ cfg1.idle 4 (grid1.coords t) = true ∧ (cfg1.win 4).flush t = false := by
  decide +kernel
theorem liveAt1 : ∀ t : Fin cfg1.N, cond1_1 (grid1.coords t) → cfg1.idle 3 (grid1.coords t) = false ∧ cfg1.idle 4 (grid1.coords t) = false := by
  decide +kernel

section Region1
variable (V : (c : Dev nD) → (b : Ref sig .tc) → Buf (Elt F) ((c : Thread nD τ).loc b))

abbrev labArr (c : Dev nD) : LabArr F := V c main_v5
abbrev distArr (c : Dev nD) : DistArr F := V c main_v4

def rest1 (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f))

-- The invariant's shape: the two running tables as `P0` and `P1` say, everything else it holds at arbitrary contents.
def tabs (c : Dev nD) (P0 P1 : sProp 𝕄) : sProp 𝕄 :=
  iprop((P0 ∗ P1 ∗ (∃ d, owns c scM1_2 fullShare d) ∗ rest1 c) ∗ ∃ r, prngReg c r)

def PhiS (c : Dev nD) : ℕ → sProp 𝕄
  | 0 => iprop(Pipeline.scopedRest (Ix := HIx 1) (Name := ℕ) (U := UU) (Lvl := ℕ) (Val := Elt F) spec1 c ∗ ∃ r, prngReg c r)
  | n + 1 => tabs c (owns c scM1_0 fullShare (accAfter (labArr V c) (n + 1))) (owns c scM1_1 fullShare (accdAfter (labArr V c) (distArr V c) (n + 1)))

theorem PhiS_zero_eq (c : Dev nD) :
    PhiS V c 0 = tabs c iprop(∃ d, owns c scM1_0 fullShare d) iprop(∃ d, owns c scM1_1 fullShare d) := by
  rw [PhiS, scopedRest1_eq]; unfold tabs rest1; simp only [scM1_0, scM1_1, scM1_2, owns_whole]; try rfl

theorem PhiS_pos (c : Dev nD) : ∀ n, n ≠ 0 → PhiS V c n = tabs c (owns c scM1_0 fullShare (accAfter (labArr V c) n)) (owns c scM1_1 fullShare (accdAfter (labArr V c) (distArr V c) n))
  | 0, h => absurd rfl h
  | _ + 1, _ => rfl

-- After any point the named contents of the tables are forgotten.
theorem PhiS_out (c : Dev nD) (n : ℕ) (hz : n ≠ 0) : PhiS V c n ⊢ PhiS V c 0 := by
  rw [PhiS_pos V c n hz, PhiS_zero_eq]; unfold tabs
  iintro ⟨⟨HS0, HS1, HS2, HR⟩, Hg⟩
  iframe HS2 HR Hg
  isplitl [HS0]; · iexists _; iexact HS0
  iexists _; iexact HS1

abbrev q1 : Fin 5 → PosShare TreeShare :=
  fun | 0 => (fullShare : PosShare TreeShare).left | 1 => (fullShare : PosShare TreeShare).right | 2 => fullShare | 3 => fullShare | 4 => fullShare | ⟨_ + 5, h⟩ => absurd h (Nat.not_lt.2 (Nat.le_add_left _ _))

def dat1 (c : Dev nD) : Dat τ (Elt F) (HIx 1) ℕ UU ℕ cfg1 c where
  A w := V c (Pipeline.arrRef spec1 w)
  after w t := match w with
    | ⟨0, _⟩ => lab256 (labArr V c) t
    | ⟨1, _⟩ => lab64 (labArr V c) t
    | ⟨2, _⟩ => dist8192 (distArr V c) t
    | ⟨3, _⟩ => cntOut (F := F) (labArr V c)
    | ⟨4, _⟩ => tailOut (labArr V c) (distArr V c)
  Φ t := PhiS V c t.val
  q := q1
  owed _ := 0

theorem A_eq1 (c : Dev nD) (w : Fin cfg1.W) : (dat1 V c).A w = V c (Pipeline.arrRef spec1 w) := by
  dsimp only [dat1]

theorem owed1 (c : Dev nD) (t : Fin (cfg1.N + 1)) : (dat1 V c).owed t = 0 := rfl

theorem before1_0 (c : Dev nD) (t : Fin cfg1.N) (d) : (dat1 V c).before 0 t d = lab256 (labArr V c) t :=
  (dat1 V c).before_in_eq_fetched 0 rfl (fun _ => rfl) (fun _ _ _ => rfl) (fun _ => rfl) t d
theorem before1_1 (c : Dev nD) (t : Fin cfg1.N) (d) : (dat1 V c).before 1 t d = lab64 (labArr V c) t :=
  (dat1 V c).before_in_eq_fetched 1 rfl (fun _ => rfl) (fun _ _ _ => rfl) (fun _ => rfl) t d
theorem before1_2 (c : Dev nD) (t : Fin cfg1.N) (d) : (dat1 V c).before 2 t d = dist8192 (distArr V c) t :=
  (dat1 V c).before_in_eq_fetched 2 rfl (fun _ => rfl) (fun _ _ _ => rfl) (fun _ => rfl) t d

theorem hin1 (c : Dev nD) :
    iprop((∃ r, prngReg c r) ∗ Pipeline.prefHeld (pcfgs (F := F) 0).pre c (fun _ => fullShare) (adm (F := F) 0).1
        ∗ Pipeline.scopedRest (Ix := HIx 1) (Name := ℕ) (U := UU) (Lvl := ℕ) (Val := Elt F) spec1 c)
      ⊢ (dat1 (F := F) V c).Φ 0 := by
  rw [show (dat1 V c).Φ 0 = PhiS V c 0 from rfl, PhiS]
  iintro ⟨Hp, -, Hr⟩
  isplitl [Hr]; · iexact Hr
  iexact Hp

theorem hout1 (c : Dev nD) :
    (dat1 (F := F) V c).Φ (Fin.last cfg1.N)
      ⊢ iprop((∃ r, prngReg c r) ∗ Pipeline.scopedRest (Ix := HIx 1) (Name := ℕ) (U := UU) (Lvl := ℕ) (Val := Elt F) spec1 c) := by
  refine (show (dat1 V c).Φ (Fin.last cfg1.N) ⊢ PhiS V c 0 from
    PhiS_out V c (Fin.last cfg1.N).val (by rw [Fin.val_last, show cfg1.N = 8 from N_1]; omega)).trans ?_
  rw [PhiS]
  iintro ⟨Hr, Hp⟩
  isplitl [Hp]; · iexact Hp
  iexact Hr

-- The body at any point: the tables come in at the recursion's value so far (at anything at the first point, which zeroes them) and go out one step on; the outputs take the results at the last point and pass through before it.
theorem sound_body1 (c : Dev nD) (t : Fin cfg1.N) :
    iprop(PhiS V c t.val ∗ (dat1 V c).owesAt (none : HIx 1) t.castSucc
        ∗ (∃ d, owns c (ms1_0 t) fullShare ((dat1 V c).before 0 t d))
        ∗ (∃ d, owns c (ms1_1 t) fullShare ((dat1 V c).before 1 t d))
        ∗ (∃ d, owns c (ms1_2 t) fullShare ((dat1 V c).before 2 t d))
        ∗ (∃ d, owns c (ms1_3 t) fullShare ((dat1 V c).before 3 t d))
        ∗ (∃ d, owns c (ms1_4 t) fullShare ((dat1 V c).before 4 t d)))
      ⊢ wp frame (wpE (defs₀ (F := F)) Variants.none c none) Set.univ (bodyAt1 t) (fun _ =>
        iprop(tabs c (owns c scM1_0 fullShare (accAfter (labArr V c) (t.val + 1))) (owns c scM1_1 fullShare (accdAfter (labArr V c) (distArr V c) (t.val + 1)))
          ∗ (dat1 V c).owesAt (none : HIx 1) t.castSucc
          ∗ owns c (ms1_0 t) fullShare (lab256 (labArr V c) t)
          ∗ owns c (ms1_1 t) fullShare (lab64 (labArr V c) t)
          ∗ owns c (ms1_2 t) fullShare (dist8192 (distArr V c) t)
          ∗ (dat1 V c).leavesExact 3 t ∗ (dat1 V c).leavesExact 4 t)) := by
  unfold bodyAt1
  simp only [before1_0, before1_1, before1_2]
  rw [accAfter_succ (labArr V c) t, accdAfter_succ (labArr V c) (distArr V c) t]
  have hN : t.val < 8 := lt_of_lt_of_eq t.isLt (show cfg1.N = 8 from N_1)
  have e0 := hcond1_0 t
  have e1 := hcond1_1 t
  by_cases hc1 : cond1_1 (grid1.coords t)
  · have h7 : t.val = 7 := by have := e1.mp hc1; omega
    have hc0 : ¬cond1_0 (grid1.coords t) := fun h => by have := e0.mp h; omega
    rw [PhiS_pos V c t.val (by omega),
      show (dat1 V c).leavesExact 3 t = owns c (ms1_3 t) fullShare (cntOut (F := F) (labArr V c)) from by
        unfold Dat.leavesExact; rw [(liveAt1 t hc1).1] <;> rfl,
      show (dat1 V c).leavesExact 4 t = owns c (ms1_4 t) fullShare (tailOut (labArr V c) (distArr V c)) from by
        unfold Dat.leavesExact; rw [(liveAt1 t hc1).2] <;> rfl,
      cntOut_last (labArr V c) t h7, tailOut_last (labArr V c) (distArr V c) t h7]
    unfold tabs
    iintro ⟨⟨⟨HS0, HS1, HS2, HR⟩, Hg⟩, Ho, ⟨%d0, H0⟩, ⟨%d1, H1⟩, ⟨%d2, H2⟩, ⟨%d3, H3⟩, ⟨%d4, H4⟩⟩
    iapply (run1_C c (grid1.coords t) _ _ _ _ _ _ _ _ _ _ _ _ _ _ _ _ ⟨hc0, hc1⟩
      (lab256 (labArr V c) t) (lab64 (labArr V c) t) (dist8192 (distArr V c) t) ((dat1 V c).before 3 t d3) ((dat1 V c).before 4 t d4) (accAfter (labArr V c) t.val) (accdAfter (labArr V c) (distArr V c) t.val) Set.univ _)
    iframe H0 H1 H2 H3 H4 HS0 HS1 HS2
    iintro ⟨H0, H1, H2, H3, H4, HS0, HS1, HS2⟩
    iframe HS0 HS1 HS2 HR Hg Ho H0 H1 H2 H3
    iexact H4
  · obtain ⟨⟨i3, f3⟩, i4, f4⟩ := idleAt1 t hc1
    rw [Dat.leavesExact_idle (dat1 V c) 3 t i3 f3, Dat.leavesExact_idle (dat1 V c) 4 t i4 f4]
    by_cases hc0 : cond1_0 (grid1.coords t) <;>
    ( first
      | ( have hz : t.val = 0 := by have := e0.mp hc0; omega
          rw [show PhiS V c t.val = PhiS V c 0 from congrArg (PhiS V c) hz, PhiS_zero_eq,
            show accAfter (labArr V c) t.val = k1_pay6 from congrArg (accAfter (labArr V c)) hz,
            show accdAfter (labArr V c) (distArr V c) t.val = k1_pay7 (F := F) from congrArg (accdAfter (labArr V c) (distArr V c)) hz] )
      | rw [PhiS_pos V c t.val fun h => hc0 (e0.mpr (by omega))]
      unfold tabs
      first
      | ( iintro ⟨⟨⟨⟨%s0, HS0⟩, ⟨%s1, HS1⟩, HS2, HR⟩, Hg⟩, Ho, ⟨%d0, H0⟩, ⟨%d1, H1⟩, ⟨%d2, H2⟩, ⟨%d3, H3⟩, ⟨%d4, H4⟩⟩
          iapply (run1_A c (grid1.coords t) _ _ _ _ _ _ _ _ _ _ _ _ _ _ _ _ ⟨hc0, hc1⟩
            (lab256 (labArr V c) t) (lab64 (labArr V c) t) (dist8192 (distArr V c) t) ((dat1 V c).before 3 t d3) ((dat1 V c).before 4 t d4) s0 s1 Set.univ _) )
      | ( iintro ⟨⟨⟨HS0, HS1, HS2, HR⟩, Hg⟩, Ho, ⟨%d0, H0⟩, ⟨%d1, H1⟩, ⟨%d2, H2⟩, ⟨%d3, H3⟩, ⟨%d4, H4⟩⟩
          iapply (run1_B c (grid1.coords t) _ _ _ _ _ _ _ _ _ _ _ _ _ _ _ _ ⟨hc0, hc1⟩
            (lab256 (labArr V c) t) (lab64 (labArr V c) t) (dist8192 (distArr V c) t) ((dat1 V c).before 3 t d3) ((dat1 V c).before 4 t d4) (accAfter (labArr V c) t.val) (accdAfter (labArr V c) (distArr V c) t.val) Set.univ _) )
      iframe H0 H1 H2 H3 H4 HS0 HS1 HS2
      iintro ⟨H0, H1, H2, H3, H4, HS0, HS1, HS2⟩
      iframe HS0 HS1 HS2 HR Hg Ho H0 H1 H2
      isplitl [H3]; · iexists _; iexact H3
      iexists _; iexact H4 )

theorem body_obligation1 (c : Dev nD) :
    BodyObligation (dat1 (F := F) V c) (defs₀ (F := F)) Variants.none (none : HIx 1) Set.univ := fun t => by
  rw [bigSep_W1, bigSep_W1]
  exact sound_body1 V c t

-- A function read at an index whose every coordinate is the zero offset plus the coordinate itself is read at that index.
private theorem rd_id {S : Shape} {β : Type} (f : S.Idx → β) (y j : S.Idx) (h : ∀ a, (y a).val = 0 * S.size a + 1 * (j a).val) : f y = f j :=
  congrArg f (funext fun a => Fin.ext ((h a).trans (by omega)))
private theorem c01 (n x : ℕ) (h : x < n) : 0 * n ≤ x ∧ x < 0 * n + n := by omega

-- The last point's block covers the array, and reading the result through it is the identity on indices.
theorem arrAt1_3 (c : Dev nD) : (dat1 V c).arrAt 3 cfg1.N = cntOut (F := F) (V c main_v5) := by
  refine (dat1 V c).arrAt_eq_of_cover 3 (cntOut (F := F) (labArr V c)) (fun t _ => ?_) fun (i : S64x128.Idx) => ⟨t1_7, (flush1_3 t1_7).mpr rfl, ?_⟩
  · exact funext fun j => (rd_id (S := S64x128) (cntOut (F := F) (labArr V c)) _ j fun | ⟨0, _⟩ => rfl | ⟨1, _⟩ => rfl).symm
  · show i ∈ ((View.whole main_v7_0).slice (win1_3.rect t1_7)).set
    rw [View.set_slice_whole, Rect.mem_set_unit]
    intro a
    match a with
    | ⟨0, _⟩ => exact c01 _ _ (i 0).isLt
    | ⟨1, _⟩ => exact c01 _ _ (i 1).isLt

theorem arrAt1_4 (c : Dev nD) : (dat1 V c).arrAt 4 cfg1.N = tailOut (V c main_v5) (V c main_v4) := by
  refine (dat1 V c).arrAt_eq_of_cover 4 (tailOut (labArr V c) (distArr V c)) (fun t _ => ?_) fun (i : S1x64.Idx) => ⟨t1_7, (flush1_4 t1_7).mpr rfl, ?_⟩
  · exact funext fun j => (rd_id (S := S1x64) (tailOut (labArr V c) (distArr V c)) _ j fun | ⟨0, _⟩ => rfl | ⟨1, _⟩ => rfl).symm
  · show i ∈ ((View.whole main_v7_1).slice (win1_4.rect t1_7)).set
    rw [View.set_slice_whole, Rect.mem_set_unit]
    intro a
    match a with
    | ⟨0, _⟩ => exact c01 _ _ (i 0).isLt
    | ⟨1, _⟩ => exact c01 _ _ (i 1).isLt

theorem arrAt1_in (c : Dev nD) (w : Fin cfg1.W) (hw : (cfg1.win w).isOut = false) :
    (dat1 V c).arrAt w cfg1.N = V c (Pipeline.arrRef spec1 w) :=
  ((dat1 V c).arrAt_in w hw cfg1.N).trans (A_eq1 V c w)

end Region1

end Cert.KernelIdeal.Hand

end
-- ==== Proof.Main5.lean ====
import proofs.«218716_g83915071029270_cont_9to1c4b_613_31_alg».proof.Proof.Main4
import proofs.«218716_g83915071029270_cont_9to1c4b_613_31_alg».proof.Proof.Region1

noncomputable section

namespace Cert.KernelIdeal.Hand

open Cert.KernelIdeal Cert.KernelIdeal.Gen

open Idealize.ShloMosaic

variable {F : FTy → Type} [FloatOps F]

variable (m : (ℓ : Loc nD τ sig) → Buf (Elt F) ℓ)

theorem dafacts : DAFacts m (fun c => dat1 (V2 m) c) where
  owed c t := owed1 (V2 m) c t
  recd c t := rfl
  s0 c := rfl
  s1 c := rfl
  s2 c := rfl
  s3 c := rfl
  s4 c := rfl
  at0 c w := A_eq1 (V2 m) c w
  atN := arrAt1_in (V2 m)
  hin c := hin1 (V2 m) c
  hout c := hout1 (V2 m) c
  hbody c := body_obligation1 (V2 m) c

end Cert.KernelIdeal.Hand

end
-- ==== Proof.Layout.lean ====
import Idealize.ShloMosaic.Lib.ValueIdx
import Idealize.ShloMosaic.Lib.Pipeline.Value
import Idealize.ShloMosaic.Lib.ValueLayout
import proofs.«218716_g83915071029270_cont_9to1c4b_613_31_alg».proof.Proof.Gen.KernelIdeal
import proofs.«218716_g83915071029270_cont_9to1c4b_613_31_alg».proof.Proof.Spec

noncomputable section

namespace Cert.KernelIdeal.Hand

open Cert.KernelIdeal
open Idealize.ShloMosaic Idealize.ShloMosaic.ValueIdx

variable {F : FTy → Type} [FloatOps F]

def flatIdx (s : Fin 262144) (k : Fin 64) : Fin 16777216 :=
  ⟨(k.val / 8) * 2097152 + (s.val / 128) * 1024 + (k.val % 8) * 128 + s.val % 128, by omega⟩

theorem flatIdx_val (s : Fin 262144) (k : Fin 64) :
    (flatIdx s k).val = (k.val / 8) * 2097152 + (s.val / 128) * 1024 + (k.val % 8) * 128 + s.val % 128 := rfl

def flatOf (x : Vec F S262144x64 .f32) : Vec F S16777216 .f32 :=
  shapeCast S16777216
    (transpose S8x2048x8x128 [0, 2, 1, 3]
      (shapeCast S8x8x2048x128
        (transpose S64x262144 [1, 0] x Gen.transposes_S262144x64_S64x262144_1_0)
        Gen.shapeCasts_S64x262144_S8x8x2048x128)
      Gen.transposes_S8x8x2048x128_S8x2048x8x128_0_2_1_3)
    Gen.shapeCasts_S8x2048x8x128_S16777216

theorem flatOf_apply (x : Vec F S262144x64 .f32) (s : Fin 262144) (k : Fin 64) :
    flatOf x (ix1 (flatIdx s k)) = x (ix2 s k) := by
  let a : Fin 8 := ⟨k.val / 8, by omega⟩
  let b : Fin 2048 := ⟨s.val / 128, by omega⟩
  let c : Fin 8 := ⟨k.val % 8, by omega⟩
  let d : Fin 128 := ⟨s.val % 128, by omega⟩
  unfold flatOf
  refine (shapeCast_apply _ Gen.shapeCasts_S8x2048x8x128_S16777216 (ix1 (flatIdx s k)) (ix4 a b c d) ?_).trans ?_
  · rw [Shape.rowMajor_val_four, Shape.rowMajor_val_one]
    show (((k.val / 8) * 2048 + s.val / 128) * 8 + k.val % 8) * 128 + s.val % 128
      = (k.val / 8) * 2097152 + (s.val / 128) * 1024 + (k.val % 8) * 128 + s.val % 128
    omega
  refine (transpose_apply _ _ Gen.transposes_S8x8x2048x128_S8x2048x8x128_0_2_1_3 (ix4 a b c d) (ix4 a c b d)
    fun e => match e with | ⟨0, _⟩ => rfl | ⟨1, _⟩ => rfl | ⟨2, _⟩ => rfl | ⟨3, _⟩ => rfl).trans ?_
  refine (shapeCast_apply _ Gen.shapeCasts_S64x262144_S8x8x2048x128 (ix4 a c b d) (ix2 k s) ?_).trans ?_
  · rw [Shape.rowMajor_val_four, Shape.rowMajor_val_two]
    show k.val * 262144 + s.val = (((k.val / 8) * 8 + k.val % 8) * 2048 + s.val / 128) * 128 + s.val % 128
    omega
  exact transpose_ix2_apply x Gen.transposes_S262144x64_S64x262144_1_0 k s

def dtOf (x : Vec F S262144x64 .f32) : Vec F S64x262144 .f32 :=
  transpose S64x262144 [1, 0] x Gen.transposes_S262144x64_S64x262144_1_0

theorem dtOf_apply (x : Vec F S262144x64 .f32) (k : Fin 64) (i : Fin 262144) : dtOf x (ix2 k i) = x (ix2 i k) :=
  transpose_ix2_apply x Gen.transposes_S262144x64_S64x262144_1_0 k i

def a2Of (a : IVec S262144 32) : IVec S2048x128 32 := shapeCast S2048x128 a Gen.shapeCasts_S262144_S2048x128

theorem a2Of_apply (a : IVec S262144 32) (r : Fin 2048) (l : Fin 128) :
    a2Of a (ix2 r l) = a (ix1 ⟨r.val * 128 + l.val, by omega⟩) := by
  unfold a2Of
  refine shapeCast_apply a Gen.shapeCasts_S262144_S2048x128 (ix2 r l) (ix1 _) ?_
  rw [Shape.rowMajor_val_two, Shape.rowMajor_val_one]
  rfl

def cs8Of (f6 : Vec F S4096 .f32) : Vec F S32x128 .f32 := shapeCast S32x128 f6 Gen.shapeCasts_S4096_S32x128

theorem cs8Of_apply (f6 : Vec F S4096 .f32) (w : Fin 32) (k : Fin 128) :
    cs8Of f6 (ix2 w k) = f6 (ix1 ⟨w.val * 128 + k.val, by omega⟩) := by
  unfold cs8Of
  refine shapeCast_apply f6 Gen.shapeCasts_S4096_S32x128 (ix2 w k) (ix1 _) ?_
  rw [Shape.rowMajor_val_two, Shape.rowMajor_val_one]
  rfl

end Cert.KernelIdeal.Hand

end
-- ==== Proof.HostVals.lean ====
import Idealize.ShloMosaic.Lib.StableHlo.Run
import proofs.«218716_g83915071029270_cont_9to1c4b_613_31_alg».proof.Proof.Main1
import proofs.«218716_g83915071029270_cont_9to1c4b_613_31_alg».proof.Proof.Layout

noncomputable section

namespace Cert.KernelIdeal.Hand

open Cert.KernelIdeal Cert.KernelIdeal.Gen
open Idealize.ShloMosaic Idealize.ShloMosaic.ValueIdx

variable {F : FTy → Type} [FloatOps F]

theorem afterA_v3 (W : Valuation τ sig (Elt F)) :
    StableHlo.after (opsA (F := F)) W (Proc.devRef .tc main_v3)
      = flatOf (F := F) (W (Proc.devRef .tc main_arg0)) := by
  after_results
  rfl

theorem afterA_v4 (W : Valuation τ sig (Elt F)) :
    StableHlo.after (opsA (F := F)) W (Proc.devRef .tc main_v4)
      = dtOf (F := F) (W (Proc.devRef .tc main_arg0)) := by
  after_results
  rfl

theorem afterA_v5 (W : Valuation τ sig (Elt F)) :
    StableHlo.after (opsA (F := F)) W (Proc.devRef .tc main_v5)
      = a2Of (W (Proc.devRef .tc main_arg1)) := by
  after_results
  rfl

-- a buffer other than the six results keeps its contents
theorem afterA_keep (W : Valuation τ sig (Elt F)) (b : Ref sig .tc)
    (hb : b ≠ main_v0 ∧ b ≠ main_v1 ∧ b ≠ main_v2 ∧ b ≠ main_v3 ∧ b ≠ main_v4 ∧ b ≠ main_v5) :
    StableHlo.after (opsA (F := F)) W (Proc.devRef .tc b) = W (Proc.devRef .tc b) := by
  refine StableHlo.after_of_forall_not_mem (b := Proc.devRef .tc b) _ _ (List.forall_iff_forall_mem.mp ?_)
  simp only [List.Forall, StableHlo.unary_writes, StableHlo.reshape_writes, Finset.mem_singleton]
  exact ⟨StableHlo.devRef_ne_of_ne hb.1, StableHlo.devRef_ne_of_ne hb.2.1, StableHlo.devRef_ne_of_ne hb.2.2.1,
    StableHlo.devRef_ne_of_ne hb.2.2.2.1, StableHlo.devRef_ne_of_ne hb.2.2.2.2.1, StableHlo.devRef_ne_of_ne hb.2.2.2.2.2⟩

theorem afterB_v8 (W : Valuation τ sig (Elt F)) :
    StableHlo.after (opsB (F := F)) W (Proc.devRef .tc main_v8)
      = cs8Of (F := F) (W (Proc.devRef .tc main_v6)) := by
  after_results
  rfl

theorem afterB_keep (W : Valuation τ sig (Elt F)) (b : Ref sig .tc) (hb : b ≠ main_v8) :
    StableHlo.after (opsB (F := F)) W (Proc.devRef .tc b) = W (Proc.devRef .tc b) := by
  refine StableHlo.after_of_forall_not_mem (b := Proc.devRef .tc b) _ _ (List.forall_iff_forall_mem.mp ?_)
  simp only [List.Forall, StableHlo.reshape_writes, Finset.mem_singleton]
  exact StableHlo.devRef_ne_of_ne hb

theorem afterC_v10 (W : Valuation τ sig (Elt F)) :
    StableHlo.after (opsC (F := F)) W (Proc.devRef .tc main_v10)
      = (shapeCast S_ (W (Proc.devRef .tc main_v9) : Vec F S1x1 .f32) shapeCasts_S1x1_S_ : Vec F S_ .f32) := by
  after_results
  rfl

theorem afterC_v10_apply (W : Valuation τ sig (Elt F)) :
    (StableHlo.after (opsC (F := F)) W (Proc.devRef .tc main_v10) : Vec F S_ .f32) ix0
      = (W (Proc.devRef .tc main_v9) : Vec F S1x1 .f32) (ix2 0 0) := by
  rw [afterC_v10]
  refine shapeCast_apply _ shapeCasts_S1x1_S_ ix0 (ix2 0 0) ?_
  rw [Shape.rowMajor_val_two]
  have h := (S_.rowMajor ix0).isLt
  show 0 * 1 + 0 = (S_.rowMajor ix0).val
  have h1 : S_.numel = 1 := by decide
  omega

end Cert.KernelIdeal.Hand

end
-- ==== Proof.ArgsKept.lean ====
import proofs.«218716_g83915071029270_cont_9to1c4b_613_31_alg».proof.Proof.Main3
import proofs.«218716_g83915071029270_cont_9to1c4b_613_31_alg».proof.Proof.HostVals

noncomputable section

namespace Cert.KernelIdeal.Hand

open Cert.KernelIdeal Cert.KernelIdeal.Gen
open Idealize.ShloMosaic Idealize.ShloMosaic.TcCoe Idealize.ShloMosaic.ValueIdx
open Idealize.ShloMosaic.SparseCore.Cfg (HIx)
open Idealize.SL.Sem
open Idealize.ShloMosaic.Pipeline (Dat)

variable {F : FTy → Type} [FloatOps F]
variable (m : (ℓ : Loc nD τ sig) → Buf (Elt F) ℓ)
variable (dA : (c : Dev nD) → Dat τ (Elt F) (HIx 1) ℕ UU ℕ cfg1 c)

-- a buffer nothing writes holds at the end what it held at launch
theorem W6_of_untouched (c : Dev nD) (b : Ref sig .tc) (hC : b ≠ main_v10) (h2 : ∀ w, Pipeline.arrRef spec2 w ≠ b)
    (hB : b ≠ main_v8) (h71 : b ≠ main_v7_1) (h70 : b ≠ main_v7_0) (h6 : b ≠ main_v6)
    (hA : b ≠ main_v0 ∧ b ≠ main_v1 ∧ b ≠ main_v2 ∧ b ≠ main_v3 ∧ b ≠ main_v4 ∧ b ≠ main_v5) :
    W6 m dA c (Proc.devRef .tc b) = m ((c : Thread nD τ).loc b) :=
  calc W6 m dA c (Proc.devRef .tc b)
    _ = W5 m dA c (Proc.devRef .tc b) := StableHlo.reshape_result_ne (h := hC) ..
    _ = W4 m dA c (Proc.devRef .tc b) := W5_of_ne m dA c b h2
    _ = W3 m dA c (Proc.devRef .tc b) := StableHlo.reshape_result_ne (h := hB) ..
    _ = W2 m c (Proc.devRef .tc b) := by
          unfold W3
          rw [Function.update_of_ne (StableHlo.devRef_ne_of_ne h71), Function.update_of_ne (StableHlo.devRef_ne_of_ne h70)]
    _ = W1 m c (Proc.devRef .tc b) := by unfold W2; exact Function.update_of_ne (StableHlo.devRef_ne_of_ne h6) _ _
    _ = W0 m c (Proc.devRef .tc b) := afterA_keep _ b hA
    _ = m ((c : Thread nD τ).loc b) := rfl

theorem W6_arg0 (c : Dev nD) : W6 m dA c (Proc.devRef .tc main_arg0) = m ((c : Thread nD τ).loc main_arg0) :=
  W6_of_untouched m dA c main_arg0 (by decide) (by decide) (by decide) (by decide) (by decide) (by decide) (by decide)

theorem W6_arg1 (c : Dev nD) : W6 m dA c (Proc.devRef .tc main_arg1) = m ((c : Thread nD τ).loc main_arg1) :=
  W6_of_untouched m dA c main_arg1 (by decide) (by decide) (by decide) (by decide) (by decide) (by decide) (by decide)

theorem fa_eq (d : Dev nD) : fa m d = m ((d : Thread nD τ).loc main_arg1) :=
  afterA_keep (W0 m d) main_arg1 (by decide)

end Cert.KernelIdeal.Hand

end
-- ==== Proof.FrameClaim.lean ====
import proofs.«218716_g83915071029270_cont_9to1c4b_613_31_alg».proof.Proof.Main4
import proofs.«218716_g83915071029270_cont_9to1c4b_613_31_alg».proof.Proof.Main5
import proofs.«218716_g83915071029270_cont_9to1c4b_613_31_alg».proof.Proof.ArgsKept
import proofs.«218716_g83915071029270_cont_9to1c4b_613_31_alg».proof.Proof.PreFacts

noncomputable section

namespace Cert.KernelIdeal.Hand

open Cert.KernelIdeal Cert.KernelIdeal.Gen
open Idealize.ShloMosaic Idealize.ShloMosaic.TcCoe Idealize.ShloMosaic.ValueIdx
open Idealize.ShloMosaic.SparseCore.Cfg (HIx)
open Idealize.SL.Sem
open Idealize.ShloMosaic.Pipeline (Dat)

variable {F : FTy → Type} [FloatOps F]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem inRange_fa (m : (ℓ : Loc nD τ sig) → Buf (Elt F) ℓ)
    (hpre : ∀ c : Dev nD, Cert.Pre_input_domain.fn (F := F) (m ((c.tc : Thread nD τ).loc main_arg0)) (m ((c.tc : Thread nD τ).loc main_arg1)) = fun _ => 1#1)
    (d : Dev nD) : Cert.Spec.InRange (fa m d) := by
  rw [show fa m d = m ((d.tc : Thread nD τ).loc main_arg1) from fa_eq m d]
  exact Cert.PreFacts.inRange _ _ (hpre d)

-- the two arguments are among the buffers nothing writes
theorem frame_any [∀ e, Nonempty (Elt F e)] (m : (ℓ : Loc nD τ sig) → Buf (Elt F) ℓ) (ρ : Dev nD → PrngReg)
    (hpre : ∀ c : Dev nD, Cert.Pre_input_domain.fn (F := F) (m ((c.tc : Thread nD τ).loc main_arg0)) (m ((c.tc : Thread nD τ).loc main_arg1)) = fun _ => 1#1) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono
    (fun r hr c => ⟨(hr c _ (mem_uc main_arg0 (by decide))).trans (W6_arg0 m _ c),
      (hr c _ (mem_uc main_arg1 (by decide))).trans (W6_arg1 m _ c)⟩)
    (run_main m ρ _ (dafacts m) (inRange_fa m hpre))

end Cert.KernelIdeal.Hand

end
-- ==== Proof.TileValue.lean ====
import proofs.«218716_g83915071029270_cont_9to1c4b_613_31_alg».proof.Proof.Layout
import proofs.«218716_g83915071029270_cont_9to1c4b_613_31_alg».proof.Proof.TileDefs
import Idealize.ShloMosaic.PureOps.Ideal.Laws
import Mathlib.Algebra.BigOperators.Fin

noncomputable section

namespace Cert.KernelIdeal.Hand

open Cert.KernelIdeal Cert.Spec
open Idealize.ShloMosaic Idealize.ShloMosaic.ValueIdx
open scoped BigOperators

theorem gIx_eq_flatIdx (r : Fin 262144) (al : ℕ) (h : al < 64) : gIx r.val al = flatIdx r ⟨al, h⟩ := by
  apply Fin.ext
  rw [gIx_val r.isLt h, flatIdx_val]
  unfold pIdx
  show al * 128 + al / 8 * 2096128 + (r.val / 128 * 1024 + r.val % 128)
    = al / 8 * 2097152 + r.val / 128 * 1024 + al % 8 * 128 + r.val % 128
  omega

-- The word's position is flatIdx of the row and its label, where the flattened table holds the table's entry.
theorem gathered_flatOf (x : FVec Ideal SX .f32) (a : IVec SA 32) (ha : InRange a) (w : Fin 32) (j : Fin 6144) :
    gathered (F := Ideal) (flatOf (F := Ideal) x) a w j = sel x a (workerRow w j) := by
  unfold gathered
  rw [gIx_eq_flatIdx (wrow w j) _ (ha (wrow w j))]
  exact (flatOf_apply (F := Ideal) x (wrow w j) ⟨_, ha (wrow w j)⟩).trans
    (congrArg x (congrArg (ix2 (wrow w j)) (Fin.ext (col_val ha (wrow w j)).symm)))

theorem accAt_ideal (x : FVec Ideal SX .f32) (a : IVec SA 32) (ha : InRange a) (w : Fin 32) (k : Fin 64) (n : ℕ)
    (hn : n ≤ 96) :
    accAt (F := Ideal) (flatOf (F := Ideal) x) a w k n
      = ∑ g ∈ Finset.range n, (if h : g < 96 then sel x a (workerRow w ⟨g * 64 + k.val, by omega⟩) else 0) := by
  induction n with
  | zero =>
    rw [Finset.range_zero, Finset.sum_empty]
    exact Ideal.ofBits_zero_f32
  | succ n ih =>
    have hn' : n < 96 := hn
    rw [accAt_succ _ _ _ _ hn', ih (by omega), Finset.sum_range_succ, dif_pos hn', gathered_flatOf x a ha]
    show _ + _ = _ + _
    refine congrArg _ (congrArg (sel x a) (congrArg (workerRow w) (Fin.ext ?_)))
    show 64 * n + k.val = n * 64 + k.val
    omega

-- A left fold of 96 additions from zero is the sum of the 96 terms.
theorem tileOut_ideal (x : FVec Ideal SX .f32) (a : IVec SA 32) (ha : InRange a) (w : Fin 32) (k : Fin 64) :
    tileOut (F := Ideal) (flatOf (F := Ideal) x) a w (ix1 ⟨k.val, by omega⟩) = workerSum x a w k := by
  unfold tileOut
  have h64 : ((ix1 (⟨k.val, by omega⟩ : Fin 128) : S128.Idx) 0).val < 64 := k.isLt
  rw [dif_pos h64]
  show accAt (F := Ideal) (flatOf (F := Ideal) x) a w k 96 = _
  rw [accAt_ideal x a ha w k 96 le_rfl]
  unfold workerSum
  rw [← Fin.sum_univ_eq_sum_range (fun g => if h : g < 96 then
      sel x a (workerRow w ⟨g * 64 + k.val, by omega⟩) else 0) 96]
  exact Finset.sum_congr rfl fun g _ => dif_pos g.isLt

theorem cs8Of_assembled (x : FVec Ideal SX .f32) (a : IVec SA 32) (ha : InRange a) (w : Fin 32) (k : Fin 64) :
    cs8Of (F := Ideal)
        (fun i : S4096.Idx => tileOut (F := Ideal) (flatOf (F := Ideal) x) a
          ⟨(i 0).val / 128, by have : (i 0).val < 4096 := (i 0).isLt; omega⟩
          (ix1 ⟨(i 0).val % 128, Nat.mod_lt _ (by decide)⟩))
        (ix2 w ⟨k.val, by omega⟩)
      = workerSum x a w k := by
  rw [cs8Of_apply]
  show tileOut (F := Ideal) (flatOf (F := Ideal) x) a ⟨(w.val * 128 + k.val) / 128, _⟩
      (ix1 ⟨(w.val * 128 + k.val) % 128, _⟩) = _
  have e1 : (⟨(w.val * 128 + k.val) / 128, by omega⟩ : Fin 32) = w :=
    Fin.ext (by show (w.val * 128 + k.val) / 128 = w.val; omega)
  have e2 : (⟨(w.val * 128 + k.val) % 128, Nat.mod_lt _ (by decide)⟩ : Fin 128) = ⟨k.val, by omega⟩ :=
    Fin.ext (by show (w.val * 128 + k.val) % 128 = k.val; omega)
  rw [e1, e2]
  exact tileOut_ideal x a ha w k

end Cert.KernelIdeal.Hand

end
-- ==== Proof.FinalValue.lean ====
import proofs.«218716_g83915071029270_cont_9to1c4b_613_31_alg».proof.Proof.TileValue
import proofs.«218716_g83915071029270_cont_9to1c4b_613_31_alg».proof.Proof.Region1Spec

noncomputable section

namespace Cert.KernelIdeal.Hand

open Cert.KernelIdeal Cert.KernelIdeal.Gen
open Idealize.ShloMosaic Idealize.ShloMosaic.ValueIdx
open scoped BigOperators
open Idealize.SL.Sem

def tilesOf (x : FVec Ideal Cert.Spec.SX .f32) (a : IVec Cert.Spec.SA 32) : Vec Ideal S4096 .f32 :=
  fun i : S4096.Idx => tileOut (F := Ideal) (flatOf (F := Ideal) x) a
    ⟨(i 0).val / 128, by have : (i 0).val < 4096 := (i 0).isLt; omega⟩
    (ix1 ⟨(i 0).val % 128, Nat.mod_lt _ (by decide)⟩)

theorem final_value_of (x : FVec Ideal Cert.Spec.SX .f32) (a : IVec Cert.Spec.SA 32) (ha : Cert.Spec.InRange a)
    (combine : ∀ (cs : FVec Ideal S32x128 .f32) (cst : FVec Ideal S1x64 .f32) (cnt : IVec S64x128 32),
      (∀ (w : Fin 32) (k : Fin 64), cs (ix2 w ⟨k.val, by have := k.isLt; omega⟩) = Cert.Spec.workerSum x a w k) →
      (∀ k : Fin 64, cst (ix2 0 k) = Cert.Spec.tailSum x a k) →
      (∀ k : Fin 64, (∑ l : Fin 128, (cnt (ix2 k l)).toInt) = (Cert.Spec.size a k : ℤ)) →
      (∀ (k : Fin 64) (l : Fin 128), 0 ≤ (cnt (ix2 k l)).toInt) →
      k2_pay1 (F := Ideal) cs cst cnt = fun _ => Cert.Spec.G x a)
    (htail : ∀ k : Fin 64, tailOut (F := Ideal) (a2Of a) (dtOf (F := Ideal) x) (ix2 0 k) = Cert.Spec.tailSum x a k)
    (hcnt : ∀ k : Fin 64, (∑ l : Fin 128, (cntOut (F := Ideal) (a2Of a) (ix2 k l)).toInt) = (Cert.Spec.size a k : ℤ))
    (hcnt0 : ∀ (k : Fin 64) (l : Fin 128), 0 ≤ (cntOut (F := Ideal) (a2Of a) (ix2 k l)).toInt) :
    k2_pay1 (F := Ideal) (cs8Of (F := Ideal) (tilesOf x a)) (tailOut (F := Ideal) (a2Of a) (dtOf (F := Ideal) x))
        (cntOut (F := Ideal) (a2Of a))
      = fun _ => Cert.Spec.G x a :=
  combine _ _ _ (cs8Of_assembled x a ha) htail hcnt hcnt0

theorem cs6_eq_tilesOf (f3 : (d : Dev nD) → Buf (Elt Ideal) (xLoc d)) (fa : (d : Dev nD) → Buf (Elt Ideal) (aLoc d))
    (d : Dev nD) (x : FVec Ideal Cert.Spec.SX .f32) (a : IVec Cert.Spec.SA 32)
    (h3 : f3 d = (flatOf (F := Ideal) x : S16777216.Idx → Ideal .f32)) (h1 : fa d = (a : S262144.Idx → BitVec 32)) :
    cs6 (F := Ideal) f3 fa d = (tilesOf x a : S4096.Idx → Ideal .f32) := by
  unfold cs6 tilesOf
  rw [h3, h1]

end Cert.KernelIdeal.Hand

end
-- ==== Proof.RefSide.Words.lean ====
import Idealize.ShloMosaic.Lib.StableHlo.Predicate
import Idealize.ShloMosaic.Lib.ValueIdx

noncomputable section

namespace Cert.RefSide

open Idealize.ShloMosaic Idealize.ShloMosaic.StableHlo.Predicate

theorem bit_eq_zero_of_ne_one (b : BitVec 1) (h : ¬ b = 1#1) : b = 0#1 := by
  rcases BitVec.eq_zero_or_eq_one b with e | e
  · exact e
  · exact absurd e h

theorem slt_zero_of_small {w : BitVec 32} (hw : w.toNat < 2 ^ 31) : IntOp.cmpi .slt w 0#32 = 0#1 :=
  bit_eq_zero_of_ne_one _ fun h => by
    have := (slt_iff_toNat hw (by decide)).1 h
    simp at this

theorem sge_zero_of_small {w : BitVec 32} (hw : w.toNat < 2 ^ 31) : IntOp.cmpi .sge w 0#32 = 1#1 :=
  (sge_iff_toNat hw (by decide)).2 (by simp)

theorem sle_63_of_lt {w : BitVec 32} (hw : w.toNat < 64) : IntOp.cmpi .sle w 63#32 = 1#1 :=
  (sle_iff_toNat (by omega) (by decide)).2 (by
    have : (63#32 : BitVec 32).toNat = 63 := by decide
    omega)

theorem maxsi_zero_left {w : BitVec 32} (hw : w.toNat < 2 ^ 31) : IntOp.maxsi 0#32 w = w := by
  unfold IntOp.maxsi
  have h0 : (0#32 : BitVec 32).toInt = 0 := by decide
  have hti : w.toInt = w.toNat := toInt_eq_toNat_of_lt hw
  split
  · rename_i hc
    simp only [BitVec.slt, hti, h0, decide_eq_true_eq] at hc
    omega
  · rfl

theorem toInt_maxsi_one {w : BitVec 32} (hw : w.toNat < 2 ^ 31) : (IntOp.maxsi w 1#32).toInt = ((max w.toNat 1 : ℕ) : ℤ) := by
  unfold IntOp.maxsi
  have h1 : (1#32 : BitVec 32).toInt = 1 := by decide
  have hti : w.toInt = w.toNat := toInt_eq_toNat_of_lt hw
  split
  · rename_i hc
    simp only [BitVec.slt, hti, h1, decide_eq_true_eq] at hc
    rw [hti]; congr 1; omega
  · rename_i hc
    simp only [BitVec.slt, hti, h1, decide_eq_true_eq] at hc
    rw [h1]
    have : max w.toNat 1 = 1 := by omega
    rw [this]; rfl

theorem sgt_zero_iff {w : BitVec 32} (hw : w.toNat < 2 ^ 31) : IntOp.cmpi .sgt w 0#32 = 1#1 ↔ 0 < w.toNat := by
  rw [sgt_iff_toNat hw (by decide)]
  simp

theorem select_one' {α : Type} (A B : α) : Scalar.select 1#1 A B = A := rfl
theorem select_zero' {α : Type} (A B : α) : Scalar.select 0#1 A B = B := rfl

end Cert.RefSide

end
-- ==== Proof.CombineValue.lean ====
import proofs.«218716_g83915071029270_cont_9to1c4b_613_31_alg».proof.Proof.Spec
import proofs.«218716_g83915071029270_cont_9to1c4b_613_31_alg».proof.Proof.Gen.KernelIdeal.Skeleton
import proofs.«218716_g83915071029270_cont_9to1c4b_613_31_alg».proof.Proof.RefSide.Words
import Idealize.ShloMosaic.PureOps.Ideal
import Idealize.ShloMosaic.PureOps.Ideal.Laws
import Idealize.ShloMosaic.Lib.ValueIdx
import Idealize.ShloMosaic.Lib.ValueLayout
import Idealize.ShloMosaic.Lib.WordSum
import Mathlib.Algebra.BigOperators.Fin
import Mathlib.Logic.Equiv.Fin.Basic

noncomputable section

open scoped BigOperators

namespace Cert.CombineValue

open Idealize.ShloMosaic Idealize.ShloMosaic.ValueIdx
open Cert.Spec Cert.KernelIdeal Cert.KernelIdeal.Gen Cert.RefSide

-- Rows below 3072 of the 4096 × 64 reading belong to the workers, 96 each, the others to the tail.
theorem colsum_split (x : FVec Ideal SX .f32) (a : IVec SA 32) (k : Fin 64) :
    colsum x a k = (∑ w : Fin 32, workerSum x a w k) + tailSum x a k := by
  unfold colsum workerSum tailSum
  show (∑ r : Fin (32 * 96 + 1024), sel x a (rowOf r k)) = _
  rw [Fin.sum_univ_add, ← Equiv.sum_comp (finProdFinEquiv (m := 32) (n := 96)), Fintype.sum_prod_type]
  refine congrArg₂ (· + ·) (Finset.sum_congr rfl fun w _ => Finset.sum_congr rfl fun g _ => ?_)
    (Finset.sum_congr rfl fun g _ => ?_) <;> refine congrArg (sel x a) (Fin.ext ?_)
  · show (g.val + 96 * w.val) * 64 + k.val = w.val * 6144 + (g.val * 64 + k.val)
    omega
  · show (32 * 96 + g.val) * 64 + k.val = 196608 + (g.val * 64 + k.val)
    omega

theorem coe_sum {ι : Type} (s : Finset ι) (f : ι → ℝ) : ((∑ i ∈ s, f i : ℝ) : EReal) = ∑ i ∈ s, (f i : EReal) := by
  induction s using Finset.cons_induction with
  | empty => simp
  | cons i s hi ih => rw [Finset.sum_cons, Finset.sum_cons, EReal.coe_add, ih]

theorem one_f32 : Ideal.ofBits .f32 0x3F800000#32 = 1 := IdealRules.sign_bit.ideal_onePat .f32

theorem size_le (a : IVec SA 32) (k : Fin 64) : size a k ≤ 262144 :=
  (Finset.card_filter_le _ _).trans (le_of_eq (by rw [Finset.card_univ, Fintype.card_fin]))

theorem toNat_eq_toInt {v : BitVec 32} (h : 0 ≤ v.toInt) : (v.toNat : ℤ) = v.toInt := by
  have hc := BitVec.toInt_eq_toNat_cond v
  have hlt := v.isLt
  split at hc <;> omega

theorem lift_rows (h : S32x128.Reduces [0] S128) (j : S128.Idx) (w : Fin 32) : h.lift j w = ix2 w (j 0) := by
  funext d; apply Fin.ext
  match d with
  | ⟨0, _⟩ => rfl
  | ⟨1, _⟩ => rfl

theorem lift_lanes (h : S64x128.Reduces [1] S64) (j : S64.Idx) (l : Fin 128) : h.lift j l = ix2 (j 0) l := by
  funext d; apply Fin.ext
  match d with
  | ⟨0, _⟩ => rfl
  | ⟨1, _⟩ => rfl

def midEquiv (n : ℕ) : (⟨3, ![1, n, 1]⟩ : Shape).Idx ≃ Fin n where
  toFun i := i 1
  invFun k := ix3 (0 : Fin 1) k (0 : Fin 1)
  left_inv i := by
    funext d
    match d with
    | ⟨0, _⟩ => exact Subsingleton.elim (α := Fin 1) _ _
    | ⟨1, _⟩ => rfl
    | ⟨2, _⟩ => exact Subsingleton.elim (α := Fin 1) _ _
  right_inv _ := rfl

section Word
variable {c : BitVec 32} {n : ℕ}

theorem recip_apply (hc : c.toNat = n) (hn : n ≤ 262144) :
    Scalar.select (IntOp.cmpi .sgt c 0#32)
        (Ideal.div (Ideal.ofBits .f32 0x3F800000#32) ((((IntOp.maxsi c 1#32).toInt : ℤ) : ℝ) : EReal)) (Ideal.ofBits .f32 0x00000000#32)
      = if 0 < n then (((1 : ℝ) / (n : ℝ) : ℝ) : EReal) else 0 := by
  subst hc
  by_cases hp : 0 < c.toNat
  · have hne : ((c.toNat : ℕ) : ℝ) ≠ 0 := by exact_mod_cast (by omega : c.toNat ≠ 0)
    rw [(sgt_zero_iff (by omega)).2 hp, select_one, if_pos hp, one_f32, toInt_maxsi_one (by omega),
      max_eq_left (by omega : 1 ≤ c.toNat), Int.cast_natCast, Ideal.div_coe hne, one_mul]
  · rw [eq_zero_of_ne_one (mt (sgt_zero_iff (by omega)).1 hp), select_zero, if_neg hp, Ideal.ofBits_zero_f32]

theorem indicator_apply (hc : c.toNat = n) (hn : n ≤ 262144) :
    (((((IntOp.cmpi .sgt c 0#32).setWidth 32).toInt : ℤ) : ℝ) : EReal) = if 0 < n then 1 else 0 := by
  subst hc
  by_cases hp : 0 < c.toNat
  · rw [(sgt_zero_iff (by omega)).2 hp, if_pos hp, show ((1#1 : BitVec 1).setWidth 32).toInt = 1 from by decide]; simp
  · rw [eq_zero_of_ne_one (mt (sgt_zero_iff (by omega)).1 hp), if_neg hp, show ((0#1 : BitVec 1).setWidth 32).toInt = 0 from by decide]; simp

end Word

theorem term_eq_mean (x : FVec Ideal SX .f32) (a : IVec SA 32) (k : Fin 64) :
    colsum x a k * (if 0 < size a k then (((1 : ℝ) / (size a k : ℝ) : ℝ) : EReal) else 0) = mean x a k := by
  unfold mean
  by_cases hp : 0 < size a k
  · rw [if_pos hp, if_pos hp, Ideal.div_coe (by exact_mod_cast (by omega : size a k ≠ 0))]
  · rw [if_neg hp, if_neg hp, mul_zero]

theorem sum_indicator (a : IVec SA 32) :
    (∑ k : Fin 64, (if 0 < size a k then (1 : EReal) else 0)) = ((nvalid a : ℕ) : ℝ) := by
  have h : (∑ k : Fin 64, (if 0 < size a k then (1 : ℝ) else 0)) = ((nvalid a : ℕ) : ℝ) := by
    unfold nvalid; rw [Finset.sum_boole]
  rw [← h, coe_sum]
  exact Finset.sum_congr rfl fun k _ => by split <;> simp

theorem max_nvalid (a : IVec SA 32) : max (((nvalid a : ℕ) : ℝ) : EReal) 1 = (((max (nvalid a) 1 : ℕ) : ℝ) : EReal) := by
  rw [Nat.cast_max, Nat.cast_one, ← EReal.coe_one, EReal.coe_strictMono.monotone.map_max]

-- The contraction runs over the one shared axis of length 64; the unit axes have a single coordinate.
theorem dot_apply (L : FVec Ideal S1x64 .f32) (R : FVec Ideal S64x1 .f32) (j : S1x1.Idx) :
    matmul (F := Ideal) dot_S1x64_S64x1_S1x1_1_0_0_1_n_n (some .fp32) L R (constant (F := Ideal) S1x1 .f32 0x00000000#32) j
      = ∑ k : Fin 64, L (ix2 (0 : Fin 1) k) * R (ix2 k (0 : Fin 1)) := by
  refine (Ideal.matmul_constant_zero_apply dot_S1x64_S64x1_S1x1_1_0_0_1_n_n (some .fp32) L R j).trans ?_
  rw [← Equiv.sum_comp (contrEquiv1 dot_S1x64_S64x1_S1x1_1_0_0_1_n_n 64 rfl rfl).symm]
  refine Finset.sum_congr rfl fun k _ => ?_
  have hk := contrEquiv1_symm_val dot_S1x64_S64x1_S1x1_1_0_0_1_n_n 64 rfl rfl k
  refine congrArg₂ (fun p q => L p * R q) (funext fun d => ?_) (funext fun d => ?_)
  · match d with
    | ⟨0, _⟩ => exact Subsingleton.elim (α := Fin 1) _ _
    | ⟨1, _⟩ => exact Fin.ext ((DotDims.lhsIdx_val_of_single (d := dot_S1x64_S64x1_S1x1_1_0_0_1_n_n) (cl := (1 : Fin 2)) rfl j _).trans hk)
  · match d with
    | ⟨0, _⟩ => exact Fin.ext ((DotDims.rhsIdx_val_of_single (d := dot_S1x64_S64x1_S1x1_1_0_0_1_n_n) (cr := (0 : Fin 2)) rfl j _).trans hk)
    | ⟨1, _⟩ => exact Subsingleton.elim (α := Fin 1) _ _

def colSums (cs : FVec Ideal S32x128 .f32) (cst : FVec Ideal S1x64 .f32) : FVec Ideal S1x64 .f32 :=
  addf (extractStridedSlice S1x64 ![0, 0] (shapeCast S1x128 (multiReduction (F := Ideal) .add [0] S128 (shapeCast S32x128 cs shapeCasts_S32x128_S32x128) 0x00000000#32 reduces_S32x128_S128 (.inl rfl) rfl) shapeCasts_S128_S1x128) slices_S1x128_o0_0_S1x64)
    (shapeCast S1x64 cst shapeCasts_S1x64_S1x64)

def counts (cnt : IVec S64x128 32) : IVec S64x1 32 :=
  shapeCast S64x1 (multiReductionI .add [1] S64 (shapeCast S64x128 cnt shapeCasts_S64x128_S64x128) 0#32 reduces_S64x128_S64 rfl) shapeCasts_S64_S64x1

def valid (cnt : IVec S64x128 32) : IVec S64x1 1 := cmpi .sgt (counts cnt) (broadcast S64x1 0#32)

def recips (cnt : IVec S64x128 32) : FVec Ideal S64x1 .f32 :=
  select (valid cnt)
    (divf (broadcast S64x1 (Scalar.ofBits (F := Ideal) .f32 0x3F800000#32)) (sitofp .f32 (maxsi (counts cnt) (broadcast S64x1 1#32))))
    (broadcast S64x1 (Scalar.ofBits (F := Ideal) .f32 0x00000000#32))

def total (cs : FVec Ideal S32x128 .f32) (cst : FVec Ideal S1x64 .f32) (cnt : IVec S64x128 32) : FVec Ideal S1x1 .f32 :=
  matmul (F := Ideal) dot_S1x64_S64x1_S1x1_1_0_0_1_n_n (some .fp32) (colSums cs cst) (recips cnt) (constant (F := Ideal) S1x1 .f32 0x00000000#32)

def occupied (cnt : IVec S64x128 32) : Ideal .f32 :=
  extractAt ![0, 0, 0] (shapeCast S1x1x1 (multiReduction (F := Ideal) .add [1, 2] S1
    (shapeCast S1x64x1 (sitofp (F := Ideal) .f32 (extui 32 (valid cnt) natLt_1_32)) shapeCasts_S64x1_S1x64x1) 0x00000000#32 reduces_S1x64x1_S1 (.inl rfl) rfl)
    shapeCasts_S1_S1x1x1) inpos_S1x1x1_p0_0_0

section Value
variable (x : FVec Ideal SX .f32) (a : IVec SA 32) (cs : FVec Ideal S32x128 .f32) (cst : FVec Ideal S1x64 .f32) (cnt : IVec S64x128 32)
  (hcs : ∀ (w : Fin 32) (k : Fin 64), cs (ix2 w ⟨k.val, by omega⟩) = workerSum x a w k) (hcst : ∀ k : Fin 64, cst (ix2 0 k) = tailSum x a k)
  (hcnt : ∀ k : Fin 64, (∑ l : Fin 128, (cnt (ix2 k l)).toInt) = (size a k : ℤ)) (hcnt0 : ∀ k l, 0 ≤ (cnt (ix2 k l)).toInt)

section
include hcs hcst

theorem colSums_apply (k : Fin 64) : colSums cs cst (ix2 (0 : Fin 1) k) = colsum x a k := by
  rw [colsum_split]
  unfold colSums
  refine congrArg₂ (· + ·) ?_ ((congrFun (shapeCast_self cst _) _).trans (hcst k))
  refine (slice2_axis1_apply (n0 := 1) (n1 := 128) (m := 64) 0 _ slices_S1x128_o0_0_S1x64 (0 : Fin 1) k ⟨k.val, by omega⟩ (Nat.zero_add _).symm).trans ?_
  refine (shapeCast_a_1a_apply (a := 128) _ shapeCasts_S128_S1x128 (0 : Fin 1) _).trans ?_
  refine (Ideal.multiReduction_add_single _ 0x00000000#32 _ _ _ (ix1 ⟨k.val, by omega⟩)).trans ?_
  refine Finset.sum_congr rfl fun w _ => Eq.trans ?_ (hcs w k)
  rw [shapeCast_self]
  exact congrArg cs (lift_rows _ _ w)

end

include hcnt hcnt0

-- No lane count is negative and the 128 of a cluster add up to its size, far inside the word: the word sum does not wrap.
theorem counts_toNat (k : Fin 64) : (counts cnt (ix2 k (0 : Fin 1))).toNat = size a k := by
  have hsum : ∑ l : Fin 128, (cnt (ix2 k l)).toNat = size a k := by
    have hz : ((∑ l : Fin 128, (cnt (ix2 k l)).toNat : ℕ) : ℤ) = (size a k : ℤ) := by
      rw [Nat.cast_sum, ← hcnt k]
      exact Finset.sum_congr rfl fun l _ => toNat_eq_toInt (hcnt0 k l)
    exact_mod_cast hz
  have hfil : ∑ i ∈ Finset.univ.filter (fun i => reduces_S64x128_S64.drop i = ix1 k), (cnt i).toNat = size a k := by
    rw [reduces_S64x128_S64.sum_filter_drop_single (fun i => (cnt i).toNat) (ix1 k), ← hsum]
    exact Finset.sum_congr rfl fun l _ => congrArg (fun i => (cnt i).toNat) (lift_lanes _ (ix1 k) l)
  unfold counts
  rw [shapeCast_apply _ shapeCasts_S64_S64x1 (ix2 k (0 : Fin 1)) (ix1 k) (by
    rw [Shape.rowMajor_val_two, Shape.rowMajor_val_one]; show k.val = k.val * 1 + 0; omega), shapeCast_self]
  exact (WordSum.toNat_multiReductionI_add cnt reduces_S64x128_S64 rfl (ix1 k)
    (by rw [hfil]; exact lt_of_le_of_lt (size_le a k) (by norm_num))).trans hfil

theorem occupied_eq : occupied cnt = (((nvalid a : ℕ) : ℝ) : EReal) := by
  unfold occupied extractAt
  refine (shapeCast_apply (s := S1) (t := S1x1x1) _ _ _ (ix1 (0 : Fin 1)) rfl).trans ?_
  refine (Ideal.multiReduction_add_total _ 0x00000000#32 reduces_S1x64x1_S1 (fun b => by match b with | ⟨0, _⟩ => rfl) (.inl rfl) rfl
    (ix1 (0 : Fin 1))).trans ?_
  rw [← Equiv.sum_comp (midEquiv 64).symm, ← sum_indicator a]
  refine Finset.sum_congr rfl fun k _ => ?_
  show shapeCast S1x64x1 (sitofp (F := Ideal) .f32 (extui 32 (valid cnt) natLt_1_32)) shapeCasts_S64x1_S1x64x1 (ix3 (0 : Fin 1) k (0 : Fin 1)) = _
  refine (shapeCast_ab_1ab_apply _ _ (0 : Fin 1) k (0 : Fin 1)).trans ?_
  exact indicator_apply (counts_toNat a cnt hcnt hcnt0 k) (size_le a k)

include hcs hcst

theorem total_apply (j : S1x1.Idx) : total cs cst cnt j = ∑ k : Fin 64, mean x a k := by
  unfold total
  rw [dot_apply]
  refine Finset.sum_congr rfl fun k _ => ?_
  rw [colSums_apply x a cs cst hcs hcst k, ← term_eq_mean]
  exact congrArg (colsum x a k * ·) (recip_apply (counts_toNat a cnt hcnt hcnt0 k) (size_le a k))

theorem combine_value : Cert.KernelIdeal.Gen.k2_pay1 (F := Ideal) cs cst cnt = fun _ => G x a := by
  funext j
  show Ideal.div (total cs cst cnt j) (max (occupied cnt) (Ideal.ofBits .f32 0x3F800000#32)) = G x a
  rw [total_apply x a cs cst cnt hcs hcst hcnt hcnt0 j, occupied_eq a cnt hcnt hcnt0, one_f32, max_nvalid]
  rfl

end Value

end Cert.CombineValue

end
-- ==== Proof.ValueChain.lean ====
import proofs.«218716_g83915071029270_cont_9to1c4b_613_31_alg».proof.Proof.ArgsKept
import proofs.«218716_g83915071029270_cont_9to1c4b_613_31_alg».proof.Proof.FinalValue
import proofs.«218716_g83915071029270_cont_9to1c4b_613_31_alg».proof.Proof.CombineValue

noncomputable section

namespace Cert.KernelIdeal.Hand

open Cert.KernelIdeal Cert.KernelIdeal.Gen
open Idealize.ShloMosaic Idealize.ShloMosaic.TcCoe Idealize.ShloMosaic.ValueIdx
open Idealize.ShloMosaic.SparseCore.Cfg (HIx)
open Idealize.SL.Sem
open Idealize.ShloMosaic.Pipeline (Dat)

variable {F : FTy → Type} [FloatOps F]
variable (m : (ℓ : Loc nD τ sig) → Buf (Elt F) ℓ)
variable (dA : (c : Dev nD) → Dat τ (Elt F) (HIx 1) ℕ UU ℕ cfg1 c)

theorem V2_v5 (c : Dev nD) : (V2 m c main_v5 : LabArr F) = a2Of (m ((c : Thread nD τ).loc main_arg1)) :=
  (Function.update_of_ne (by decide) _ _).trans (afterA_v5 (W0 m c))
theorem V2_v4 (c : Dev nD) : (V2 m c main_v4 : DistArr F) = dtOf (F := F) (m ((c : Thread nD τ).loc main_arg0)) :=
  (Function.update_of_ne (by decide) _ _).trans (afterA_v4 (W0 m c))

theorem W3_v6 (c : Dev nD) : W3 m dA c o' = cs6 (f3 m) (fa m) c := by
  unfold W3 W2
  rw [Function.update_of_ne (by decide : (o' : DevRef τ sig) ≠ c1'), Function.update_of_ne (by decide : (o' : DevRef τ sig) ≠ c0'),
    Function.update_self]
theorem V4_v8 (c : Dev nD) : (V4 m dA c main_v8 : Vec F S32x128 .f32) = cs8Of (F := F) (cs6 (f3 m) (fa m) c) :=
  (afterB_v8 (W3 m dA c)).trans (congrArg (cs8Of (F := F)) (W3_v6 m dA c))
theorem V4_v7_1 (c : Dev nD) : V4 m dA c main_v7_1 = (dA c).arrAt 4 cfg1.N := by
  refine (afterB_keep (W3 m dA c) main_v7_1 (by decide)).trans ?_
  unfold W3
  exact Function.update_self _ _ _
theorem V4_v7_0 (c : Dev nD) : V4 m dA c main_v7_0 = (dA c).arrAt 3 cfg1.N := by
  refine (afterB_keep (W3 m dA c) main_v7_0 (by decide)).trans ?_
  unfold W3
  rw [Function.update_of_ne (by decide : (c0' : DevRef τ sig) ≠ c1'), Function.update_self]

theorem pay_congr {A A' : Vec F S32x128 .f32} {B B' : Vec F S1x64 .f32} {C C' : Vec F S64x128 .i32}
    (hA : A = A') (hB : B = B') (hC : C = C') : k2_pay1 A B C = k2_pay1 A' B' C' := by
  subst hA; subst hB; subst hC; rfl

-- the returned scalar is the combine stage's function of the three arrays the earlier stages leave
theorem W6_v10 (c : Dev nD) (h3 : (dA c).arrAt 3 cfg1.N = cntOut (F := F) (V2 m c main_v5))
    (h4 : (dA c).arrAt 4 cfg1.N = tailOut (F := F) (V2 m c main_v5) (V2 m c main_v4)) :
    (W6 m dA c (Proc.devRef .tc main_v10) : Vec F S_ .f32) ix0
      = k2_pay1 (cs8Of (F := F) (cs6 (f3 m) (fa m) c))
          (tailOut (F := F) (a2Of (m ((c : Thread nD τ).loc main_arg1))) (dtOf (F := F) (m ((c : Thread nD τ).loc main_arg0))))
          (cntOut (F := F) (a2Of (m ((c : Thread nD τ).loc main_arg1)))) (ix2 0 0) := by
  have e9 : (W5 m dA c (Proc.devRef .tc main_v9) : Vec F S1x1 .f32) = res2 (V4 m dA) c :=
    (W5_arr m dA c 3).trans (arrAt2_3 (V4 m dA) c)
  have e1 : (V4 m dA c main_v7_1 : Vec F S1x64 .f32)
      = tailOut (F := F) (a2Of (m ((c : Thread nD τ).loc main_arg1))) (dtOf (F := F) (m ((c : Thread nD τ).loc main_arg0))) :=
    (V4_v7_1 m dA c).trans (h4.trans (congrArg₂ (tailOut (F := F)) (V2_v5 m c) (V2_v4 m c)))
  have e0 : (V4 m dA c main_v7_0 : Vec F S64x128 .i32) = cntOut (F := F) (a2Of (m ((c : Thread nD τ).loc main_arg1))) :=
    (V4_v7_0 m dA c).trans (h3.trans (congrArg (cntOut (F := F)) (V2_v5 m c)))
  refine (afterC_v10_apply (W5 m dA c)).trans ((congrFun e9 _).trans ?_)
  exact congrFun (pay_congr (V4_v8 m dA c) e1 e0) _

end Cert.KernelIdeal.Hand

end
-- ==== Proof.BincountValueMath.lean ====
import proofs.«218716_g83915071029270_cont_9to1c4b_613_31_alg».proof.Proof.Spec
import Idealize.ShloMosaic.Lib.StableHlo.Predicate
import Mathlib.Logic.Equiv.Fin.Basic
import Mathlib.Data.BitVec
import Mathlib.Algebra.BigOperators.Fin
import Mathlib.Algebra.BigOperators.Ring.Finset

noncomputable section

open scoped BigOperators

namespace Cert.KernelIdeal.Hand

open Idealize.ShloMosaic Idealize.ShloMosaic.ValueIdx Cert.Spec

def flatRow (r : Fin 2048) (l : Fin 128) : Fin 262144 := ⟨r.val * 128 + l.val, by omega⟩

def tailIdx (g : Fin 8) (r : Fin 64) (l : Fin 128) : Fin 262144 :=
  ⟨196608 + 8192 * g.val + 128 * r.val + l.val, by omega⟩

def halfLane (h : Fin 2) (k : Fin 64) : Fin 128 := ⟨64 * h.val + k.val, by omega⟩

def hit16 (k : Fin 64) (w : BitVec 32) : BitVec 1 := IntOp.cmpi .eq (BitVec.ofNat 16 k.val) (w.setWidth 16)

def hit32 (k : Fin 64) (w : BitVec 32) : BitVec 1 := IntOp.cmpi .eq (BitVec.ofNat 32 k.val) w

theorem hit16_eq_one_iff (k : Fin 64) (w : BitVec 32) (hw : w.toNat < 64) : hit16 k w = 1#1 ↔ w.toNat = k.val := by
  show BitVec.ofBool (BitVec.ofNat 16 k.val == w.setWidth 16) = 1#1 ↔ _
  rw [StableHlo.Predicate.ofBool_eq_one_iff, beq_iff_eq, ← BitVec.toNat_inj, BitVec.toNat_ofNat, BitVec.toNat_setWidth]
  omega

theorem hit32_eq_one_iff (k : Fin 64) (w : BitVec 32) : hit32 k w = 1#1 ↔ w.toNat = k.val := by
  show BitVec.ofBool (BitVec.ofNat 32 k.val == w) = 1#1 ↔ _
  rw [StableHlo.Predicate.ofBool_eq_one_iff, beq_iff_eq, ← BitVec.toNat_inj, BitVec.toNat_ofNat]
  omega

def laneCount (a : IVec SA 32) (k : Fin 64) (l : Fin 128) : ℕ :=
  (Finset.univ.filter fun r : Fin 2048 => (a (ix1 (flatRow r l))).toNat = k.val).card

theorem laneCount_le (a : IVec SA 32) (k : Fin 64) (l : Fin 128) : laneCount a k l ≤ 2048 := by
  unfold laneCount
  exact (Finset.card_filter_le _ _).trans (by simp)

theorem size_eq_sum_laneCount (a : IVec SA 32) (k : Fin 64) : size a k = ∑ l : Fin 128, laneCount a k l := by
  unfold size laneCount
  simp only [Finset.card_filter]
  show (∑ i : Fin (2048 * 128), _) = _
  rw [← Equiv.sum_comp (finProdFinEquiv (m := 2048) (n := 128)), Fintype.sum_prod_type, Finset.sum_comm]
  refine Finset.sum_congr rfl fun l _ => Finset.sum_congr rfl fun r _ => ?_
  rw [show finProdFinEquiv (r, l) = flatRow r l from Fin.ext (by show l.val + 128 * r.val = r.val * 128 + l.val; omega)]

theorem setWidth16_bit (b : BitVec 1) : b.setWidth 16 = if b = 1#1 then (1 : BitVec 16) else 0 := by
  rcases BitVec.eq_zero_or_eq_one b with h | h <;> subst h <;> decide

theorem sum_setWidth16_bits {ι : Type} [Fintype ι] (b : ι → BitVec 1) :
    (∑ r, (b r).setWidth 16 : BitVec 16) = ((Finset.univ.filter fun r => b r = 1#1).card : BitVec 16) := by
  simp only [setWidth16_bit]
  exact Finset.sum_boole _ _

theorem toInt_signExtend_natCast (n : ℕ) (hn : n < 2 ^ 15) : (((n : BitVec 16)).signExtend 32).toInt = (n : ℤ) := by
  rw [BitVec.toInt_signExtend_of_le (by decide)]
  have h1 : ((n : BitVec 16)).toNat = n := by
    rw [BitVec.natCast_eq_ofNat, BitVec.toNat_ofNat]
    exact Nat.mod_eq_of_lt (by omega)
  rw [BitVec.toInt_eq_toNat_of_lt (by rw [h1]; omega), h1]

theorem cnt_math (a : IVec SA 32) (ha : InRange a) (c : Fin 64 → Fin 128 → BitVec 32)
    (hc : ∀ k l, c k l
      = ((∑ r : Fin 2048, (hit16 k (a (ix1 (flatRow r l)))).setWidth 16 : BitVec 16)).signExtend 32) (k : Fin 64) :
    (∑ l : Fin 128, (c k l).toInt) = (size a k : ℤ) ∧ ∀ l, 0 ≤ (c k l).toInt := by
  have h : ∀ l, (c k l).toInt = (laneCount a k l : ℤ) := fun l => by
    rw [hc, sum_setWidth16_bits, Finset.filter_congr fun r _ => hit16_eq_one_iff k (a (ix1 (flatRow r l))) (ha _)]
    exact toInt_signExtend_natCast _ (lt_of_le_of_lt (laneCount_le a k l) (by norm_num))
  refine ⟨?_, fun l => by rw [h]; exact Int.natCast_nonneg _⟩
  rw [size_eq_sum_laneCount, Nat.cast_sum]
  exact Finset.sum_congr rfl fun l _ => h l

theorem sum_select_hit32 (x : FVec Ideal SX .f32) (a : IVec SA 32) (ha : InRange a) (i : Fin 262144) :
    (∑ k' : Fin 64, Scalar.select (hit32 k' (a (ix1 i))) (x (ix2 i k')) (0 : EReal)) = sel x a i := by
  rw [Finset.sum_eq_single (col a i) (fun k' _ h => by
      rw [eq_zero_of_ne_one fun h' => h (Fin.ext (((hit32_eq_one_iff _ _).1 h').symm.trans (col_val ha i).symm)), select_zero])
    (fun h => absurd (Finset.mem_univ _) h), (hit32_eq_one_iff _ _).2 (col_val ha i).symm, select_one]
  rfl

theorem tail_math (x : FVec Ideal SX .f32) (a : IVec SA 32) (ha : InRange a) (A : Fin 64 → Fin 128 → EReal)
    (hA : ∀ k' l, A k' l = ∑ g : Fin 8, ∑ r : Fin 64,
      Scalar.select (hit32 k' (a (ix1 (tailIdx g r l)))) (x (ix2 (tailIdx g r l) k')) (0 : EReal)) (k : Fin 64) :
    (∑ k' : Fin 64, A k' (halfLane 0 k)) + (∑ k' : Fin 64, A k' (halfLane 1 k)) = tailSum x a k := by
  have hlane : ∀ l : Fin 128, (∑ k' : Fin 64, A k' l) = ∑ g : Fin 8, ∑ r : Fin 64, sel x a (tailIdx g r l) := fun l => by
    simp only [hA]
    rw [Finset.sum_comm]
    refine Finset.sum_congr rfl fun g _ => ?_
    rw [Finset.sum_comm]
    exact Finset.sum_congr rfl fun r _ => sum_select_hit32 x a ha _
  rw [hlane, hlane, ← Finset.sum_add_distrib]
  unfold tailSum
  show _ = ∑ q : Fin (8 * (64 * 2)), _
  rw [← Equiv.sum_comp (finProdFinEquiv (m := 8) (n := 64 * 2)), Fintype.sum_prod_type]
  refine Finset.sum_congr rfl fun g _ => ?_
  rw [← Finset.sum_add_distrib, ← Equiv.sum_comp (finProdFinEquiv (m := 64) (n := 2)), Fintype.sum_prod_type]
  refine Finset.sum_congr rfl fun r _ => ?_
  rw [Fin.sum_univ_two]
  refine congrArg₂ (· + ·) (congrArg (sel x a) (Fin.ext ?_)) (congrArg (sel x a) (Fin.ext ?_))
  · show 196608 + 8192 * g.val + 128 * r.val + (64 * 0 + k.val)
      = 196608 + ((0 + 2 * r.val + 64 * 2 * g.val) * 64 + k.val)
    omega
  · show 196608 + 8192 * g.val + 128 * r.val + (64 * 1 + k.val)
      = 196608 + ((1 + 2 * r.val + 64 * 2 * g.val) * 64 + k.val)
    omega

def cntRow (g : Fin 8) (t : Fin 16) (j : Fin 16) : Fin 2048 :=
  ⟨256 * g.val + 16 * t.val + j.val, by omega⟩

theorem sum_cntRows {M : Type*} [AddCommMonoid M] (f : Fin 2048 → M) :
    (∑ g : Fin 8, ∑ t : Fin 16, ∑ j : Fin 16, f (cntRow g t j)) = ∑ q : Fin 2048, f q := by
  show _ = ∑ q : Fin (8 * (16 * 16)), f q
  rw [← Equiv.sum_comp (finProdFinEquiv (m := 8) (n := 16 * 16)), Fintype.sum_prod_type]
  refine Finset.sum_congr rfl fun g _ => ?_
  rw [← Equiv.sum_comp (finProdFinEquiv (m := 16) (n := 16)), Fintype.sum_prod_type]
  refine Finset.sum_congr rfl fun t _ => Finset.sum_congr rfl fun j _ => congrArg f (Fin.ext ?_)
  show 256 * g.val + 16 * t.val + j.val = j.val + 16 * t.val + 16 * 16 * g.val
  omega

end Cert.KernelIdeal.Hand

end
-- ==== Proof.BlockReads.lean ====
import proofs.«218716_g83915071029270_cont_9to1c4b_613_31_alg».proof.Proof.Layout
import proofs.«218716_g83915071029270_cont_9to1c4b_613_31_alg».proof.Proof.Region1Spec
import proofs.«218716_g83915071029270_cont_9to1c4b_613_31_alg».proof.Proof.BincountValueMath

noncomputable section

namespace Cert.KernelIdeal.Hand

open Cert.KernelIdeal Cert.KernelIdeal.Gen
open Idealize.ShloMosaic Idealize.ShloMosaic.ValueIdx Idealize.SL.Sem

variable {F : FTy → Type} [FloatOps F]

theorem gridPoints : cfg1.N = 8 := by decide +kernel

-- Which block of each array a grid point reads; decided point by point over the eight points.
theorem win1_index (g : Fin 8) :
    (win1_0.index (Fin.cast gridPoints.symm g) 0 = g.val ∧ win1_0.index (Fin.cast gridPoints.symm g) 1 = 0)
    ∧ (win1_1.index (Fin.cast gridPoints.symm g) 0 = 24 + g.val ∧ win1_1.index (Fin.cast gridPoints.symm g) 1 = 0)
    ∧ win1_2.index (Fin.cast gridPoints.symm g) 0 = 0 ∧ win1_2.index (Fin.cast gridPoints.symm g) 1 = 24 + g.val := by
  fin_cases g <;> decide +kernel

theorem lab256_a2Of (a : IVec S262144 32) (g : Fin 8) (r : Fin 256) (l : Fin 128) :
    lab256 (F := F) (a2Of a) (Fin.cast gridPoints.symm g) (ix2 r l)
      = a (ix1 (flatRow ⟨256 * g.val + r.val, by omega⟩ l)) := by
  have hi := (win1_index g).1
  unfold lab256
  rw [View.read_apply]
  show a2Of a _ = _
  refine (congrArg (a2Of a) (funext fun ax => Fin.ext ?_)).trans (a2Of_apply a ⟨256 * g.val + r.val, by omega⟩ l)
  match ax with
  | ⟨0, _⟩ =>
    show win1_0.index _ 0 * 256 + 1 * r.val = 256 * g.val + r.val
    rw [hi.1]; omega
  | ⟨1, _⟩ =>
    show win1_0.index _ 1 * 128 + 1 * l.val = l.val
    rw [hi.2]; omega

theorem lab64_a2Of (a : IVec S262144 32) (g : Fin 8) (r : Fin 64) (l : Fin 128) :
    lab64 (F := F) (a2Of a) (Fin.cast gridPoints.symm g) (ix2 r l) = a (ix1 (tailIdx g r l)) := by
  have hi := (win1_index g).2.1
  unfold lab64
  rw [View.read_apply]
  show a2Of a _ = _
  refine (congrArg (a2Of a) (funext fun ax => Fin.ext ?_)).trans
    ((a2Of_apply a ⟨64 * (24 + g.val) + r.val, by omega⟩ l).trans (congrArg a (congrArg ix1 (Fin.ext ?_))))
  · match ax with
    | ⟨0, _⟩ =>
      show win1_1.index _ 0 * 64 + 1 * r.val = 64 * (24 + g.val) + r.val
      rw [hi.1]; omega
    | ⟨1, _⟩ =>
      show win1_1.index _ 1 * 128 + 1 * l.val = l.val
      rw [hi.2]; omega
  · show (64 * (24 + g.val) + r.val) * 128 + l.val = 196608 + 8192 * g.val + 128 * r.val + l.val
    omega

theorem dist8192_dtOf (x : Vec F S262144x64 .f32) (g : Fin 8) (k : Fin 64) (r : Fin 64) (l : Fin 128) :
    dist8192 (dtOf x) (Fin.cast gridPoints.symm g) (ix2 k ⟨128 * r.val + l.val, by omega⟩)
      = x (ix2 (tailIdx g r l) k) := by
  have hi := (win1_index g).2.2
  unfold dist8192
  rw [View.read_apply]
  show dtOf x _ = _
  refine (congrArg (dtOf x) (funext fun ax => Fin.ext ?_)).trans (dtOf_apply x k (tailIdx g r l))
  match ax with
  | ⟨0, _⟩ =>
    show win1_2.index _ 0 * 64 + 1 * k.val = k.val
    rw [hi.1]; omega
  | ⟨1, _⟩ =>
    show win1_2.index _ 1 * 8192 + 1 * (128 * r.val + l.val)
      = 196608 + 8192 * g.val + 128 * r.val + l.val
    rw [hi.2]; omega

end Cert.KernelIdeal.Hand

end
-- ==== Proof.BincountValueIdx.lean ====
import Idealize.ShloMosaic.Lib.ValueLayout
import Idealize.ShloMosaic.Lib.Pipeline.Value
import Mathlib.Algebra.BigOperators.Fin

noncomputable section

open scoped BigOperators

namespace Cert.KernelIdeal.Hand

open Idealize.ShloMosaic Idealize.ShloMosaic.ValueIdx

section Pointwise
variable {α : Type}

theorem slices_row_lt {n o : Nat} (h : (⟨2, ![n, 128]⟩ : Shape).Slices ![o, 0] ⟨2, ![1, 128]⟩) : o < n :=
  h.2 (0 : Fin 2)

-- Every row of a broadcast one-row slice is the row it was cut from.
theorem bcastRow_apply {n m : Nat} (X : (⟨2, ![n, 128]⟩ : Shape).Idx → α) (o : Nat)
    (h : (⟨2, ![n, 128]⟩ : Shape).Slices ![o, 0] ⟨2, ![1, 128]⟩)
    (hb : (⟨2, ![1, 128]⟩ : Shape).Broadcasts ⟨2, ![m, 128]⟩) (k : Fin m) (l : Fin 128) :
    broadcastTo ⟨2, ![m, 128]⟩ (extractStridedSlice ⟨2, ![1, 128]⟩ ![o, 0] X h) hb (ix2 k l)
      = X (ix2 ⟨o, slices_row_lt h⟩ l) := by
  rw [broadcastTo_1b_ab_apply]
  exact slice2_axis0_apply o X h 0 l ⟨o, slices_row_lt h⟩ rfl

theorem addi_apply {s : Shape} {w : Nat} (x y : IVec s w) (i : s.Idx) : addi x y i = x i + y i := rfl
theorem cmpi_apply {s : Shape} {w : Nat} (p : CmpIPredicate) (x y : IVec s w) (i : s.Idx) :
    cmpi p x y i = IntOp.cmpi p (x i) (y i) := rfl
theorem extsi_apply {s : Shape} {w v : Nat} (x : IVec s w) (h : w < v) (i : s.Idx) :
    extsi v x h i = (x i).signExtend v := rfl

end Pointwise

-- Unrolls a loop whose every trip adds a term, by induction on the number of trips made.
theorem rec_sum_all {M : Type*} [AddCommMonoid M] {N : ℕ} (f : ℕ → M) (S : Fin N → M)
    (hstep : ∀ t : Fin N, f (t.val + 1) = f t.val + S t) : f N = f 0 + ∑ t : Fin N, S t := by
  have h : ∀ n (hn : n ≤ N), f n = f 0 + ∑ t : Fin n, S (Fin.castLE hn t) := by
    intro n
    induction n with
    | zero => intro _; simp
    | succ n ih =>
      intro hn
      rw [Fin.sum_univ_castSucc, ← add_assoc]
      exact (hstep ⟨n, hn⟩).trans (congrArg (· + _) (ih (Nat.le_of_succ_le hn)))
  exact h N le_rfl

end Cert.KernelIdeal.Hand

end
-- ==== Proof.BincountValueCnt.lean ====
import proofs.«218716_g83915071029270_cont_9to1c4b_613_31_alg».proof.Proof.Region1Spec
import proofs.«218716_g83915071029270_cont_9to1c4b_613_31_alg».proof.Proof.BincountValueMath
import proofs.«218716_g83915071029270_cont_9to1c4b_613_31_alg».proof.Proof.BincountValueIdx

noncomputable section

open scoped BigOperators

namespace Cert.KernelIdeal.Hand

open Cert.KernelIdeal Cert.KernelIdeal.Gen
open Idealize.ShloMosaic Idealize.ShloMosaic.ValueIdx Cert.Spec

variable {F : FTy → Type} [FloatOps F]

theorem trips16 : k1_t1_loop.trips = 16 := by decide +kernel
theorem points8 : cfg1.N = 8 := by decide +kernel
theorem tlt (t : Fin k1_t1_loop.trips) : t.val < 16 := t.isLt.trans_le trips16.le

def bit16 (c : Fin 64) (w : BitVec 16) : BitVec 16 := (IntOp.cmpi .eq (BitVec.ofNat 16 c.val) w).setWidth 16

theorem rows16_apply (lab16 : Vec F S256x128 .i16) (t : Fin k1_t1_loop.trips) (j : Fin 16) (l : Fin 128) :
    rows16 lab16 t (ix2 j l)
      = lab16 (ix2 ⟨16 * t.val + j.val, by have := tlt t; omega⟩ l) := by
  show lab16 ((Rect.unit (s := S256x128) (k1_off1 t) S16x128.size (k1_off1_inb t)).emb (ix2 j l)) = _
  refine congrArg lab16 (funext fun a => Fin.ext ?_)
  rw [Rect.emb_apply]
  match a with
  | ⟨0, _⟩ =>
    show (k1_off1 t) 0 + 1 * j.val = 16 * t.val + j.val
    rw [k1_off1_eq]; show 16 * t.val + 1 * j.val = _; omega
  | ⟨1, _⟩ =>
    show (k1_off1 t) 1 + 1 * l.val = l.val
    rw [k1_off1_eq]; show 0 + 1 * l.val = _; omega

-- A trip is sixteen additions in a row, one per row of the trip; written out, the sum over the rows is the same chain.
theorem accTrip_apply (lab16 : Vec F S256x128 .i16) (t : Fin k1_t1_loop.trips) (acc : Vec F S64x128 .i16)
    (c : Fin 64) (l : Fin 128) :
    accTrip lab16 t acc (ix2 c l) = acc (ix2 c l) + ∑ j : Fin 16, bit16 c (rows16 lab16 t (ix2 j l)) := by
  simp only [Fin.sum_univ_castSucc, Fin.sum_univ_zero, zero_add, ← add_assoc]
  unfold accTrip k1_pay9 k1_pay4 k1_pay5
  simp only [addi_apply, cmpi_apply, extui_apply, bcastRow_apply]
  rw [iota_single_apply]
  rfl

theorem accLoop_apply (lab16 : Vec F S256x128 .i16) (init : Vec F S64x128 .i16) (c : Fin 64) (l : Fin 128) :
    accLoop lab16 init k1_t1_loop.trips (ix2 c l)
      = init (ix2 c l) + ∑ t : Fin k1_t1_loop.trips, ∑ j : Fin 16, bit16 c (rows16 lab16 t (ix2 j l)) :=
  rec_sum_all (fun n => accLoop lab16 init n (ix2 c l)) _ fun t => by
    show accLoop lab16 init (t.val + 1) (ix2 c l) = _
    rw [accLoop_succ, accTrip_apply]

theorem accStep_apply (lab : Vec F S256x128 .i32) (acc : Vec F S64x128 .i16) (c : Fin 64) (l : Fin 128) :
    accStep lab acc (ix2 c l)
      = acc (ix2 c l) + ∑ t : Fin k1_t1_loop.trips, ∑ j : Fin 16,
          (hit16 c (lab (ix2 ⟨16 * t.val + j.val, by have := tlt t; omega⟩ l))).setWidth 16 := by
  unfold accStep k1_pay10
  rw [shapeCast_self, accLoop_apply]
  refine congrArg _ (Finset.sum_congr rfl fun t _ => Finset.sum_congr rfl fun j _ => ?_)
  rw [rows16_apply]
  unfold k1_pay8
  rw [shapeCast_self, shapeCast_self]
  rfl

theorem accAfter_apply (a5 : LabArr F) (c : Fin 64) (l : Fin 128) :
    accAfter a5 cfg1.N (ix2 c l)
      = k1_pay6 (ix2 c l) + ∑ g : Fin cfg1.N, ∑ t : Fin k1_t1_loop.trips, ∑ j : Fin 16,
          (hit16 c (lab256 a5 g (ix2 ⟨16 * t.val + j.val, by have := tlt t; omega⟩ l))).setWidth 16 :=
  rec_sum_all (fun n => accAfter a5 n (ix2 c l)) _ fun g => by
    show accAfter a5 (g.val + 1) (ix2 c l) = _
    rw [accAfter_succ, accStep_apply]

theorem cntOut_apply (a : IVec SA 32) (a5 : LabArr F)
    (hblk : ∀ (g : Fin 8) (r : Fin 256) (l : Fin 128),
      lab256 a5 (Fin.cast points8.symm g) (ix2 r l) = a (ix1 (flatRow ⟨256 * g.val + r.val, by omega⟩ l)))
    (c : Fin 64) (l : Fin 128) :
    cntOut a5 (ix2 c l)
      = ((∑ q : Fin 2048, (hit16 c (a (ix1 (flatRow q l)))).setWidth 16 : BitVec 16)).signExtend 32 := by
  have h8 : accAfter a5 8 = accAfter a5 cfg1.N := by rw [points8]
  show (k1_pay2 (accAfter a5 8)) (ix2 c l) = _
  unfold k1_pay2
  rw [extsi_apply, h8, accAfter_apply]
  unfold k1_pay6
  rw [shapeCast_self]
  refine congrArg (BitVec.signExtend 32) ((BitVec.zero_add _).trans ?_)
  rw [← sum_cntRows fun q => (hit16 c (a (ix1 (flatRow q l)))).setWidth 16]
  refine Fintype.sum_equiv (finCongr points8) _ _ fun g => ?_
  refine Fintype.sum_equiv (finCongr trips16) _ _ fun t => ?_
  refine Finset.sum_congr rfl fun j _ => ?_
  refine congrArg (fun w => (hit16 c w).setWidth 16) ?_
  refine (hblk (finCongr points8 g) ⟨16 * t.val + j.val, by have := tlt t; omega⟩ l).trans ?_
  refine congrArg (fun i => a (ix1 (flatRow i l))) (Fin.ext ?_)
  show 256 * g.val + (16 * t.val + j.val) = 256 * g.val + 16 * t.val + j.val
  omega

end Cert.KernelIdeal.Hand

end
-- ==== Proof.BincountValueTail.lean ====
import proofs.«218716_g83915071029270_cont_9to1c4b_613_31_alg».proof.Proof.Region1Spec
import proofs.«218716_g83915071029270_cont_9to1c4b_613_31_alg».proof.Proof.BincountValueMath
import proofs.«218716_g83915071029270_cont_9to1c4b_613_31_alg».proof.Proof.BincountValueIdx
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx Cert.Spec

theorem points8' : cfg1.N = 8 := by decide +kernel

theorem dslice_apply {F : FTy → Type} [FloatOps F] (dblk : Vec F S64x8192 .f32) (off : ℕ)
    (inb : ∀ a, (![0, off] : Fin 2 → Nat) a + S64x128.size a ≤ S64x8192.size a) (k : Fin 64) (l : Fin 128) :
    dslice dblk off inb (ix2 k l)
      = dblk (ix2 k ⟨off + l.val, by have h : off + 128 ≤ 8192 := inb (1 : Fin 2); omega⟩) := by
  show dblk ((Rect.unit (s := S64x8192) ![0, off] S64x128.size inb).emb (ix2 k l)) = _
  refine congrArg dblk (funext fun a => Fin.ext ?_)
  rw [Rect.emb_apply]
  match a with
  | ⟨0, _⟩ => show 0 + 1 * k.val = k.val; omega
  | ⟨1, _⟩ => show off + 1 * l.val = off + l.val; omega

def tailTerm (lab : Vec Ideal S64x128 .i32) (dblk : Vec Ideal S64x8192 .f32) (k : Fin 64) (l : Fin 128) (r : Fin 64) :
    EReal :=
  Scalar.select (IntOp.cmpi .eq (BitVec.ofNat 32 k.val) (lab (ix2 r l)))
    (dblk (ix2 k ⟨128 * r.val + l.val, by omega⟩))
    (FloatOps.ofBits (F := Ideal) .f32 0x00000000#32)

-- The step is sixty-four additions in a row, one per label row; written out, the sum over the rows is the same chain.
theorem accdStep_apply (lab : Vec Ideal S64x128 .i32) (dblk : Vec Ideal S64x8192 .f32) (accd : Vec Ideal S64x128 .f32)
    (k : Fin 64) (l : Fin 128) :
    accdStep lab dblk accd (ix2 k l) = accd (ix2 k l) + ∑ r : Fin 64, tailTerm lab dblk k l r := by
  simp only [Fin.sum_univ_castSucc, Fin.sum_univ_zero, zero_add, ← add_assoc]
  unfold accdStep
  simp only [k1_pay1, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, addf_apply, select_apply, cmpi_apply, broadcast_apply, shapeCast_self,
    bcastRow_apply]
  rw [iota_single_apply]
  repeat rw [dslice_apply]
  rfl

theorem pay7_apply (k : Fin 64) (l : Fin 128) : k1_pay7 (F := Ideal) (ix2 k l) = 0 := by
  unfold k1_pay7
  rw [shapeCast_self]
  exact Ideal.ofBits_zero_f32

theorem accdAfter_apply (a5 : LabArr Ideal) (d4 : DistArr Ideal) (k : Fin 64) (l : Fin 128) :
    accdAfter a5 d4 cfg1.N (ix2 k l)
      = k1_pay7 (F := Ideal) (ix2 k l) + ∑ g : Fin cfg1.N, ∑ r : Fin 64, tailTerm (lab64 a5 g) (dist8192 d4 g) k l r :=
  rec_sum_all (fun n => accdAfter a5 d4 n (ix2 k l)) _ fun g => by
    show accdAfter a5 d4 (g.val + 1) (ix2 k l) = _
    rw [accdAfter_succ, accdStep_apply]

theorem colSum_apply (v : FVec Ideal S64x128 .f32) (h : S64x128.Reduces [0] S128) (hφ : FKind.Formats .f32)
    (hacc : (0x00000000#32 : BitVec 32) = 0x00000000#32) (l : Fin 128) :
    multiReduction .add [0] S128 v 0x00000000#32 h hφ hacc (ix1 l) = ∑ k' : Fin 64, v (ix2 k' l) := by
  refine (Ideal.multiReduction_add_single v 0x00000000#32 h hφ hacc (ix1 l)).trans ?_
  refine Finset.sum_congr rfl fun k' _ => congrArg v (funext fun c => Fin.ext ?_)
  match c with
  | ⟨0, _⟩ => rfl
  | ⟨1, _⟩ => rfl

theorem pay3_apply (v : Vec Ideal S64x128 .f32) (k : Fin 64) :
    k1_pay3 v (ix2 (0 : Fin 1) k)
      = (∑ k' : Fin 64, v (ix2 k' (halfLane 0 k))) + ∑ k' : Fin 64, v (ix2 k' (halfLane 1 k)) := by
  unfold k1_pay3
  rw [addf_apply,
    slice2_axis1_apply 0 _ slices_S1x128_o0_0_S1x64 (0 : Fin 1) k (halfLane 0 k) (by
      show 64 * (0 : Fin 2).val + k.val = 0 + k.val; simp),
    slice2_axis1_apply 64 _ slices_S1x128_o0_64_S1x64 (0 : Fin 1) k (halfLane 1 k) (by
      show 64 * (1 : Fin 2).val + k.val = 64 + k.val; simp),
    shapeCast_a_1a_apply, shapeCast_a_1a_apply]
  exact congrArg₂ (· + ·) (colSum_apply v _ _ _ _) (colSum_apply v _ _ _ _)

theorem tail_value_of_blocks (x : FVec Ideal SX .f32) (a : IVec SA 32) (ha : InRange a)
    (a5 : LabArr Ideal) (d4 : DistArr Ideal)
    (hlab : ∀ (g : Fin 8) (r : Fin 64) (l : Fin 128),
      lab64 a5 (Fin.cast points8'.symm g) (ix2 r l) = a (ix1 (tailIdx g r l)))
    (hdist : ∀ (g : Fin 8) (k : Fin 64) (r : Fin 64) (l : Fin 128),
      dist8192 d4 (Fin.cast points8'.symm g) (ix2 k ⟨128 * r.val + l.val, by omega⟩)
        = x (ix2 (tailIdx g r l) k))
    (k : Fin 64) :
    tailOut a5 d4 (ix2 (0 : Fin 1) k) = tailSum x a k := by
  have h8 : accdAfter a5 d4 8 = accdAfter a5 d4 cfg1.N := by rw [points8']
  show k1_pay3 (accdAfter a5 d4 8) (ix2 (0 : Fin 1) k) = _
  rw [pay3_apply, h8]
  refine tail_math x a ha (fun k' l => accdAfter a5 d4 cfg1.N (ix2 k' l)) (fun k' l => ?_) k
  show accdAfter a5 d4 cfg1.N (ix2 k' l) = _
  rw [accdAfter_apply, pay7_apply, zero_add]
  refine Fintype.sum_equiv (finCongr points8') _ _ fun g => Finset.sum_congr rfl fun r _ => ?_
  unfold tailTerm
  have e1 : lab64 a5 g (ix2 r l) = a (ix1 (tailIdx (finCongr points8' g) r l)) := hlab (finCongr points8' g) r l
  have e2 : dist8192 d4 g (ix2 k' ⟨128 * r.val + l.val, by omega⟩)
      = x (ix2 (tailIdx (finCongr points8' g) r l) k') := hdist (finCongr points8' g) k' r l
  rw [e1, e2]
  show Scalar.select _ _ (Ideal.ofBits .f32 0x00000000#32) = _
  rw [Ideal.ofBits_zero_f32]
  rfl

end Cert.KernelIdeal.Hand

end
-- ==== Proof.FinalValue2.lean ====
import proofs.«218716_g83915071029270_cont_9to1c4b_613_31_alg».proof.Proof.FinalValue
import proofs.«218716_g83915071029270_cont_9to1c4b_613_31_alg».proof.Proof.BlockReads
import proofs.«218716_g83915071029270_cont_9to1c4b_613_31_alg».proof.Proof.CombineValue
import proofs.«218716_g83915071029270_cont_9to1c4b_613_31_alg».proof.Proof.BincountValueCnt
import proofs.«218716_g83915071029270_cont_9to1c4b_613_31_alg».proof.Proof.BincountValueTail

noncomputable section

namespace Cert.KernelIdeal.Hand

open Cert.KernelIdeal Cert.KernelIdeal.Gen
open Idealize.ShloMosaic Idealize.ShloMosaic.ValueIdx
open scoped BigOperators

theorem final_value (x : FVec Ideal Cert.Spec.SX .f32) (a : IVec Cert.Spec.SA 32) (ha : Cert.Spec.InRange a) :
    k2_pay1 (F := Ideal) (cs8Of (F := Ideal) (tilesOf x a)) (tailOut (F := Ideal) (a2Of a) (dtOf (F := Ideal) x))
        (cntOut (F := Ideal) (a2Of a))
      = fun _ => Cert.Spec.G x a :=
  have hc := cnt_math a ha _ (cntOut_apply (F := Ideal) a (a2Of a) (lab256_a2Of (F := Ideal) a))
  final_value_of x a ha (Cert.CombineValue.combine_value x a)
    (tail_value_of_blocks x a ha (a2Of a) (dtOf (F := Ideal) x) (lab64_a2Of (F := Ideal) a) (dist8192_dtOf (F := Ideal) x))
    (fun k => (hc k).1) (fun k => (hc k).2)

end Cert.KernelIdeal.Hand

end
-- ==== Proof.ValueClaim.lean ====
import proofs.«218716_g83915071029270_cont_9to1c4b_613_31_alg».proof.Proof.FrameClaim
import proofs.«218716_g83915071029270_cont_9to1c4b_613_31_alg».proof.Proof.ValueChain
import proofs.«218716_g83915071029270_cont_9to1c4b_613_31_alg».proof.Proof.FinalValue2

noncomputable section

namespace Cert.KernelIdeal.Hand

open Cert.KernelIdeal Cert.KernelIdeal.Gen
open Idealize.ShloMosaic Idealize.ShloMosaic.TcCoe Idealize.ShloMosaic.ValueIdx
open Idealize.ShloMosaic.SparseCore.Cfg (HIx)
open Idealize.SL.Sem
open Idealize.ShloMosaic.Pipeline (Dat)

-- at the ideal instance that function of the arguments is the specification's value
theorem W6_value (m : (ℓ : Loc nD τ sig) → Buf (Elt Ideal) ℓ) (c : Dev nD) (ha : Cert.Spec.InRange (m ((c : Thread nD τ).loc main_arg1))) :
    W6 m (fun c => dat1 (V2 m) c) c (Proc.devRef .tc main_v10)
      = fun _ => Cert.Spec.G (m ((c : Thread nD τ).loc main_arg0)) (m ((c : Thread nD τ).loc main_arg1)) := by
  funext j
  obtain rfl : j = ix0 := eq_ix0 j
  refine (W6_v10 m _ c (arrAt1_3 (V2 m) c) (arrAt1_4 (V2 m) c)).trans ?_
  rw [cs6_eq_tilesOf (f3 m) (fa m) c _ _ (afterA_v3 (W0 m c)) (fa_eq m c)]
  exact congrFun (final_value _ _ ha) _

theorem value_run (m : (ℓ : Loc nD τ sig) → Buf (Elt Ideal) ℓ) (ρ : Dev nD → PrngReg)
    (hpre : ∀ c : Dev nD, Cert.Pre_input_domain.fn (F := Ideal) (m ((c.tc : Thread nD τ).loc main_arg0)) (m ((c.tc : Thread nD τ).loc main_arg1)) = fun _ => 1#1) :
    θ_run (Cert.KernelIdeal.defs (F := Ideal)) (Cert.KernelIdeal.threads (F := Ideal)) ⟨m, fun _ => 0, ρ⟩ (fun r => ∀ c : Dev nD,
      r.2.mem ((c.tc : Thread nD τ).loc main_v10)
          = (fun _ => Cert.Spec.G (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono
    (fun r hr c =>
      ⟨(hr c _ (mem_uc main_v10 (by decide))).trans (W6_value m c (Cert.PreFacts.inRange _ _ (hpre c))),
        (hr c _ (mem_uc main_arg0 (by decide))).trans (W6_arg0 m _ c),
        (hr c _ (mem_uc main_arg1 (by decide))).trans (W6_arg1 m _ c)⟩)
    (run_main m ρ _ (dafacts m) (inRange_fa m hpre))

end Cert.KernelIdeal.Hand

end
-- ==== Proof.RefRun.lean ====
import proofs.«218716_g83915071029270_cont_9to1c4b_613_31_alg».proof.Proof.Gen.ReferenceIdeal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ unary main_arg1 main_v0 (broadcastInDim S262144x1 ![0] bcast_S262144_S262144x1_0 : (⟨S262144, .i32⟩ : BufTy).Contents (Elt F) → (⟨S262144x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S262144x1, .i32⟩) main_call0_v0) (broadcastInDim S262144x1 ![] bcast_S_S262144x1),
    TRef.binary (TRef.of (T := ⟨S262144x1, .i32⟩) main_v0) (TRef.of (T := ⟨S262144x1, .i32⟩) main_call0_v0) (TRef.of (T := ⟨S262144x1, .i1⟩) main_call0_v1) (cmpi .slt),
    TRef.nullary (TRef.of (T := ⟨S_, .i32⟩) main_call0_c_0) (constantI S_ 32 64#32),
    TRef.unary (TRef.of (T := ⟨S_, .i32⟩) main_call0_c_0) (TRef.of (T := ⟨S262144x1, .i32⟩) main_call0_v2) (broadcastInDim S262144x1 ![] bcast_S_S262144x1),
    TRef.binary (TRef.of (T := ⟨S262144x1, .i32⟩) main_v0) (TRef.of (T := ⟨S262144x1, .i32⟩) main_call0_v2) (TRef.of (T := ⟨S262144x1, .i32⟩) main_call0_v3) addi,
    TRef.ternary (TRef.of (T := ⟨S262144x1, .i1⟩) main_call0_v1) (TRef.of (T := ⟨S262144x1, .i32⟩) main_call0_v3) (TRef.of (T := ⟨S262144x1, .i32⟩) main_v0) (TRef.of (T := ⟨S262144x1, .i32⟩) main_call0_v4) select,
    TRef.reshape (TRef.of (T := ⟨S262144x1, .i32⟩) main_call0_v4) (TRef.of (T := ⟨S262144x1x1, .i32⟩) main_call0_v5) rfl shapeCasts_S262144x1_S262144x1x1,
    TRef.nullary (TRef.of (T := ⟨S1, .i32⟩) main_call0_c_1) (constantI S1 32 63#32),
    TRef.nullary (TRef.of (T := ⟨S_, .i32⟩) main_call0_c_2) (constantI S_ 32 0#32),
    TRef.unary (TRef.of (T := ⟨S_, .i32⟩) main_call0_c_2) (TRef.of (T := ⟨S262144x1x1, .i32⟩) main_call0_v6) (broadcastInDim S262144x1x1 ![] bcast_S_S262144x1x1),
    TRef.binary (TRef.of (T := ⟨S262144x1x1, .i32⟩) main_call0_v5) (TRef.of (T := ⟨S262144x1x1, .i32⟩) main_call0_v6) (TRef.of (T := ⟨S262144x1x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S262144x1x1, .i32⟩) main_call0_v9) (broadcastInDim S262144x1x1 ![0, 1, 2] bcast_S1x1x1_S262144x1x1_0_1_2),
    TRef.binary (TRef.of (T := ⟨S262144x1x1, .i32⟩) main_call0_v5) (TRef.of (T := ⟨S262144x1x1, .i32⟩) main_call0_v9) (TRef.of (T := ⟨S262144x1x1, .i1⟩) main_call0_v10) (cmpi .sle),
    TRef.binary (TRef.of (T := ⟨S262144x1x1, .i1⟩) main_call0_v7) (TRef.of (T := ⟨S262144x1x1, .i1⟩) main_call0_v10) (TRef.of (T := ⟨S262144x1x1, .i1⟩) main_call0_v11) andi,
    TRef.nullary (TRef.of (T := ⟨S_, .i1⟩) main_call0_c_3) (constantI S_ 1 1#1),
    TRef.binary (TRef.of (T := ⟨S262144x1x1, .i1⟩) main_call0_v11) (TRef.of (T := ⟨S_, .i1⟩) main_call0_c_3) (TRef.of (T := ⟨S262144x1, .i1⟩) main_call0_v12) (fun x v => Host.reduce IntOp.andi x v reducesTo_S262144x1x1_S262144x1_d2 h_S_),
    TRef.binary (TRef.of (T := ⟨S262144x64, .f32⟩) main_arg0) (TRef.of (T := ⟨S262144x1x1, .i32⟩) main_call0_v5) (TRef.of (T := ⟨S262144x1, .f32⟩) main_call0_v13) (fun x i => Host.gather gather_S262144x64_S262144x1x1_S262144x1_n_1_0_0_1_2_11 x i),
    TRef.nullary (TRef.of (T := ⟨S_, .f32⟩) main_call0_cst) (constant S_ .f32 0x7FC00000#32),
    TRef.unary (TRef.of (T := ⟨S_, .f32⟩) main_call0_cst) (TRef.of (T := ⟨S262144x1, .f32⟩) main_call0_v14) (broadcastInDim S262144x1 ![] bcast_S_S262144x1),
    TRef.ternary (TRef.of (T := ⟨S262144x1, .i1⟩) main_call0_v12) (TRef.of (T := ⟨S262144x1, .f32⟩) main_call0_v13) (TRef.of (T := ⟨S262144x1, .f32⟩) main_call0_v14) (TRef.of (T := ⟨S262144x1, .f32⟩) main_v1) select,
    reshape main_v1 main_v2 rfl shapeCasts_S262144x1_S262144,
    reshape main_v2 main_v3 rfl shapeCasts_S262144_S4096x64,
    nullary main_c (constantI S_ 32 0#32),
    unary main_c main_v4 (broadcastInDim S64 ![] bcast_S_S64 : (⟨S_, .i32⟩ : BufTy).Contents (Elt F) → (⟨S64, .i32⟩ : BufTy).Contents (Elt F)),
    nullary main_c_0 (constantI S_ 32 0#32),
    TRef.unary (TRef.of (T := ⟨S_, .i32⟩) main_c_0) (TRef.of (T := ⟨S_, .i32⟩) main_call1_v0) id,
    TRef.unary (TRef.of (T := ⟨S_, .i32⟩) main_call1_v0) (TRef.of (T := ⟨S262144, .i32⟩) main_call1_v1) (broadcastInDim S262144 ![] bcast_S_S262144),
    TRef.binary (TRef.of (T := ⟨S262144, .i32⟩) main_call1_v1) (TRef.of (T := ⟨S262144, .i32⟩) main_arg1) (TRef.of (T := ⟨S262144, .i32⟩) main_v5) maxsi,
    nullary main_c_1 (constantI S_ 32 0#32),
    unary main_c_1 main_v6 (broadcastInDim S262144 ![] bcast_S_S262144 : (⟨S_, .i32⟩ : BufTy).Contents (Elt F) → (⟨S262144, .i32⟩ : BufTy).Contents (Elt F)),
    binary main_v5 main_v6 main_v7 (cmpi .slt : (⟨S262144, .i32⟩ : BufTy).Contents (Elt F) → (⟨S262144, .i32⟩ : BufTy).Contents (Elt F) → (⟨S262144, .i1⟩ : BufTy).Contents (Elt F)),
    nullary main_c_2 (constantI S_ 32 64#32),
    unary main_c_2 main_v8 (broadcastInDim S262144 ![] bcast_S_S262144 : (⟨S_, .i32⟩ : BufTy).Contents (Elt F) → (⟨S262144, .i32⟩ : BufTy).Contents (Elt F)),
    binary main_v5 main_v8 main_v9 (addi : (⟨S262144, .i32⟩ : BufTy).Contents (Elt F) → (⟨S262144, .i32⟩ : BufTy).Contents (Elt F) → (⟨S262144, .i32⟩ : BufTy).Contents (Elt F)),
    ternary main_v7 main_v9 main_v5 main_v10 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v10 main_v11 (broadcastInDim S262144x1 ![0] bcast_S262144_S262144x1_0 : (⟨S262144, .i32⟩ : BufTy).Contents (Elt F) → (⟨S262144x1, .i32⟩ : BufTy).Contents (Elt F)),
    nullary main_c_3 (constantI S_ 32 1#32),
    unary main_c_3 main_v12 (broadcastInDim S262144 ![] bcast_S_S262144 : (⟨S_, .i32⟩ : BufTy).Contents (Elt F) → (⟨S262144, .i32⟩ : BufTy).Contents (Elt F)),
    ternary main_v4 main_v11 main_v12 main_v13 ((fun x i u => Host.scatter scatter_S64_S262144x1_S262144_n_0_0_1 IntOp.addi x i u) : (⟨S64, .i32⟩ : BufTy).Contents (Elt F) → (⟨S262144x1, .i32⟩ : BufTy).Contents (Elt F) → (⟨S262144, .i32⟩ : BufTy).Contents (Elt F) → (⟨S64, .i32⟩ : BufTy).Contents (Elt F)),
    nullary main_c_4 (constantI S_ 32 0#32),
    unary main_c_4 main_v14 (broadcastInDim S64 ![] bcast_S_S64 : (⟨S_, .i32⟩ : BufTy).Contents (Elt F) → (⟨S64, .i32⟩ : BufTy).Contents (Elt F)),
    binary main_v13 main_v14 main_v15 (cmpi .sgt : (⟨S64, .i32⟩ : BufTy).Contents (Elt F) → (⟨S64, .i32⟩ : BufTy).Contents (Elt F) → (⟨S64, .i1⟩ : BufTy).Contents (Elt F)),
    nullary main_cst (constant S_ .f32 0x00000000#32),
    binary main_v3 main_cst main_v16 ((fun x v => Host.reduceAdd x v reducesTo_S4096x64_S64_d0 h_S_) : (⟨S4096x64, .f32⟩ : BufTy).Contents (Elt F) → (⟨S_, .f32⟩ : BufTy).Contents (Elt F) → (⟨S64, .f32⟩ : BufTy).Contents (Elt F)),
    nullary main_c_5 (constantI S_ 32 1#32),
    unary main_c_5 main_v17 (broadcastInDim S64 ![] bcast_S_S64 : (⟨S_, .i32⟩ : BufTy).Contents (Elt F) → (⟨S64, .i32⟩ : BufTy).Contents (Elt F)),
    binary main_v13 main_v17 main_v18 (maxsi : (⟨S64, .i32⟩ : BufTy).Contents (Elt F) → (⟨S64, .i32⟩ : BufTy).Contents (Elt F) → (⟨S64, .i32⟩ : BufTy).Contents (Elt F)),
    unary main_v18 main_v19 (sitofp .f32 : (⟨S64, .i32⟩ : BufTy).Contents (Elt F) → (⟨S64, .f32⟩ : BufTy).Contents (Elt F)),
    binary main_v16 main_v19 main_v20 (Host.divf : (⟨S64, .f32⟩ : BufTy).Contents (Elt F) → (⟨S64, .f32⟩ : BufTy).Contents (Elt F) → (⟨S64, .f32⟩ : BufTy).Contents (Elt F)),
    nullary main_cst_6 (constant S_ .f32 0x00000000#32),
    TRef.unary (TRef.of (T := ⟨S_, .f32⟩) main_cst_6) (TRef.of (T := ⟨S64, .f32⟩) main_call2_v0) (broadcastInDim S64 ![] bcast_S_S64),
    TRef.ternary (TRef.of (T := ⟨S64, .i1⟩) main_v15) (TRef.of (T := ⟨S64, .f32⟩) main_v20) (TRef.of (T := ⟨S64, .f32⟩) main_call2_v0) (TRef.of (T := ⟨S64, .f32⟩) main_v21) select,
    unary main_v15 main_v22 ((extui 32 · natLt_1_32) : (⟨S64, .i1⟩ : BufTy).Contents (Elt F) → (⟨S64, .i32⟩ : BufTy).Contents (Elt F)),
    nullary main_c_7 (constantI S_ 32 0#32),
    binary main_v22 main_c_7 main_v23 ((fun x v => Host.reduce IntOp.addi x v reducesTo_S64_S_d0 h_S_) : (⟨S64, .i32⟩ : BufTy).Contents (Elt F) → (⟨S_, .i32⟩ : BufTy).Contents (Elt F) → (⟨S_, .i32⟩ : BufTy).Contents (Elt F)),
    unary main_v15 main_v24 (uitofp .f32 : (⟨S64, .i1⟩ : BufTy).Contents (Elt F) → (⟨S64, .f32⟩ : BufTy).Contents (Elt F)),
    binary main_v21 main_v24 main_v25 (mulf : (⟨S64, .f32⟩ : BufTy).Contents (Elt F) → (⟨S64, .f32⟩ : BufTy).Contents (Elt F) → (⟨S64, .f32⟩ : BufTy).Contents (Elt F)),
    nullary main_cst_8 (constant S_ .f32 0x00000000#32),
    binary main_v25 main_cst_8 main_v26 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_c_9 (constantI S_ 32 1#32),
    binary main_v23 main_c_9 main_v27 (maxsi : (⟨S_, .i32⟩ : BufTy).Contents (Elt F) → (⟨S_, .i32⟩ : BufTy).Contents (Elt F) → (⟨S_, .i32⟩ : BufTy).Contents (Elt F)),
    unary main_v27 main_v28 (sitofp .f32 : (⟨S_, .i32⟩ : BufTy).Contents (Elt F) → (⟨S_, .f32⟩ : BufTy).Contents (Elt F)),
    binary main_v26 main_v28 main_v29 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., reshape_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., binary_bufs_sub .., nullary_bufs_sub .., unary_bufs_sub .., binary_bufs_sub .., unary_bufs_sub .., binary_bufs_sub .., nullary_bufs_sub .., unary_bufs_sub .., ternary_bufs_sub .., unary_bufs_sub .., nullary_bufs_sub .., binary_bufs_sub .., unary_bufs_sub .., binary_bufs_sub .., nullary_bufs_sub .., binary_bufs_sub .., nullary_bufs_sub .., binary_bufs_sub .., unary_bufs_sub .., binary_bufs_sub ..⟩

end Cert.ReferenceIdeal.ValueP

end
-- ==== Proof.RefRead.lean ====
import proofs.«218716_g83915071029270_cont_9to1c4b_613_31_alg».proof.Proof.RefRun
import Idealize.ShloMosaic.Lib.Pipeline.Value
import Idealize.ShloMosaic.PureOps.Ideal.Laws
import Idealize.ShloMosaic.Lib.ValueIdx

noncomputable section

namespace Cert.ReferenceIdeal.ReadP

open Cert.ReferenceIdeal Cert.ReferenceIdeal.Gen Idealize.ShloMosaic Idealize.ShloMosaic.TcCoe Idealize.SL.Sem Idealize.ShloMosaic.StableHlo Idealize.ShloMosaic.ValueIdx

variable {F : FTy → Type} [FloatOps F]

variable (x0 : (⟨S262144x64, .f32⟩ : BufTy).Contents (Elt F)) (x1 : (⟨S262144, .i32⟩ : BufTy).Contents (Elt F))

def val_main_v0 : (⟨S262144x1, .i32⟩ : BufTy).Contents (Elt F) :=
  broadcastInDim S262144x1 ![0] bcast_S262144_S262144x1_0 (x1)
-- A copy along a new unit axis reads the operand at the kept coordinate.
theorem bcast_col {α : Type} (y : S262144.Idx → α) (p : Fin 262144) (q : Fin 1) :
    broadcastInDim S262144x1 ![0] bcast_S262144_S262144x1_0 y (ix2 p q) = y (ix1 p) :=
  broadcastInDim_apply _ bcast_S262144_S262144x1_0 y (ix2 p q) (ix1 p) (fun a => match a with
    | ⟨0, _⟩ => by show p.val = if (262144 : Nat) = 1 then 0 else p.val; rw [if_neg (by decide)])
theorem val_main_v0_apply (p : Fin 262144) (q : Fin 1) : val_main_v0 x1 (ix2 p q) = x1 (ix1 p) := bcast_col x1 p q

def val_main_call0_v1 : (⟨S262144x1, .i1⟩ : BufTy).Contents (Elt F) :=
  cmpi .slt (val_main_v0 x1) (broadcastInDim S262144x1 ![] bcast_S_S262144x1 (constantI S_ 32 0#32))
theorem val_main_call0_v1_apply (i : S262144x1.Idx) :
    val_main_call0_v1 x1 i = IntOp.cmpi .slt (val_main_v0 x1 i) 0#32 := rfl

def val_main_call0_v3 : (⟨S262144x1, .i32⟩ : BufTy).Contents (Elt F) :=
  addi (val_main_v0 x1) (broadcastInDim S262144x1 ![] bcast_S_S262144x1 (constantI S_ 32 64#32))
def val_main_call0_v4 : (⟨S262144x1, .i32⟩ : BufTy).Contents (Elt F) :=
  select (val_main_call0_v1 x1) (val_main_call0_v3 x1) (val_main_v0 x1)
theorem val_main_call0_v4_apply (i : S262144x1.Idx) :
    val_main_call0_v4 x1 i = Scalar.select (val_main_call0_v1 x1 i) (val_main_call0_v3 x1 i) (val_main_v0 x1 i) := rfl

def val_main_call0_v5 : (⟨S262144x1x1, .i32⟩ : BufTy).Contents (Elt F) :=
  shapeCast _ (val_main_call0_v4 x1) shapeCasts_S262144x1_S262144x1x1
theorem val_main_call0_v5_apply (p : Fin 262144) (q r : Fin 1) :
    val_main_call0_v5 x1 (ix3 p q r) = val_main_call0_v4 x1 (ix2 p (0 : Fin 1)) :=
  shapeCast_apply _ shapeCasts_S262144x1_S262144x1x1 (ix3 p q r) (ix2 p 0)
    (by rewrite [Shape.rowMajor_val_two, Shape.rowMajor_val_three]; have := q.isLt; have := r.isLt; show p.val * 1 + 0 = (p.val * 1 + q.val) * 1 + r.val; omega)

def val_main_call0_v7 : (⟨S262144x1x1, .i1⟩ : BufTy).Contents (Elt F) :=
  cmpi .sge (val_main_call0_v5 x1) (broadcastInDim S262144x1x1 ![] bcast_S_S262144x1x1 (constantI S_ 32 0#32))
def val_main_call0_v10 : (⟨S262144x1x1, .i1⟩ : BufTy).Contents (Elt F) :=
  cmpi .sle (val_main_call0_v5 x1) (broadcastInDim S262144x1x1 ![0, 1, 2] bcast_S1x1x1_S262144x1x1_0_1_2
    (broadcastInDim S1x1x1 ![2] bcast_S1_S1x1x1_2 (constantI S1 32 63#32)))
def val_main_call0_v11 : (⟨S262144x1x1, .i1⟩ : BufTy).Contents (Elt F) :=
  andi (val_main_call0_v7 x1) (val_main_call0_v10 x1)
theorem val_main_call0_v11_apply (i : S262144x1x1.Idx) :
    val_main_call0_v11 x1 i
      = IntOp.andi (IntOp.cmpi .sge (val_main_call0_v5 x1 i) 0#32) (IntOp.cmpi .sle (val_main_call0_v5 x1 i) 63#32) := rfl

def val_main_call0_v12 : (⟨S262144x1, .i1⟩ : BufTy).Contents (Elt F) :=
  Host.reduce IntOp.andi (val_main_call0_v11 x1) (constantI S_ 1 1#1) reducesTo_S262144x1x1_S262144x1_d2 h_S_

def val_main_call0_v13 : (⟨S262144x1, .f32⟩ : BufTy).Contents (Elt F) :=
  Host.gather gather_S262144x64_S262144x1x1_S262144x1_n_1_0_0_1_2_11 (x0) (val_main_call0_v5 x1)

def val_main_v1 : (⟨S262144x1, .f32⟩ : BufTy).Contents (Elt F) :=
  select (val_main_call0_v12 x1) (val_main_call0_v13 x0 x1) (broadcastInDim S262144x1 ![] bcast_S_S262144x1 (constant S_ .f32 0x7FC00000#32))
theorem val_main_v1_apply (i : S262144x1.Idx) :
    val_main_v1 x0 x1 i = Scalar.select (val_main_call0_v12 x1 i) (val_main_call0_v13 x0 x1 i) (FloatOps.ofBits .f32 0x7FC00000#32) := rfl

def val_main_v2 : (⟨S262144, .f32⟩ : BufTy).Contents (Elt F) :=
  shapeCast _ (val_main_v1 x0 x1) shapeCasts_S262144x1_S262144
theorem val_main_v2_apply (p : Fin 262144) :
    val_main_v2 x0 x1 (ix1 p) = val_main_v1 x0 x1 (ix2 p (0 : Fin 1)) :=
  shapeCast_apply _ shapeCasts_S262144x1_S262144 (ix1 p) (ix2 p 0)
    (by rewrite [Shape.rowMajor_val_two, Shape.rowMajor_val_one]; show p.val * 1 + 0 = p.val; omega)

def val_main_v3 : (⟨S4096x64, .f32⟩ : BufTy).Contents (Elt F) :=
  shapeCast _ (val_main_v2 x0 x1) shapeCasts_S262144_S4096x64
theorem val_main_v3_apply (r : Fin 4096) (k : Fin 64) :
    val_main_v3 x0 x1 (ix2 r k) = val_main_v2 x0 x1 (ix1 ⟨r.val * 64 + k.val, by omega⟩) :=
  shapeCast_apply _ shapeCasts_S262144_S4096x64 (ix2 r k) (ix1 _)
    (by rewrite [Shape.rowMajor_val_one, Shape.rowMajor_val_two]; rfl)

def val_main_v5 : (⟨S262144, .i32⟩ : BufTy).Contents (Elt F) :=
  maxsi (broadcastInDim S262144 ![] bcast_S_S262144 (id (constantI S_ 32 0#32))) (x1)
theorem val_main_v5_apply (i : S262144.Idx) : val_main_v5 x1 i = IntOp.maxsi 0#32 (x1 i) := rfl

def val_main_v7 : (⟨S262144, .i1⟩ : BufTy).Contents (Elt F) :=
  cmpi .slt (val_main_v5 x1) (broadcastInDim S262144 ![] bcast_S_S262144 (constantI S_ 32 0#32))
def val_main_v9 : (⟨S262144, .i32⟩ : BufTy).Contents (Elt F) :=
  addi (val_main_v5 x1) (broadcastInDim S262144 ![] bcast_S_S262144 (constantI S_ 32 64#32))
def val_main_v10 : (⟨S262144, .i32⟩ : BufTy).Contents (Elt F) :=
  select (val_main_v7 x1) (val_main_v9 x1) (val_main_v5 x1)
theorem val_main_v10_apply (i : S262144.Idx) :
    val_main_v10 x1 i = Scalar.select (IntOp.cmpi .slt (val_main_v5 x1 i) 0#32) (val_main_v9 x1 i) (val_main_v5 x1 i) := rfl

def val_main_v11 : (⟨S262144x1, .i32⟩ : BufTy).Contents (Elt F) :=
  broadcastInDim S262144x1 ![0] bcast_S262144_S262144x1_0 (val_main_v10 x1)
theorem val_main_v11_apply (p : Fin 262144) (q : Fin 1) :
    val_main_v11 x1 (ix2 p q) = val_main_v10 x1 (ix1 p) := bcast_col _ p q

def val_main_v4 : (⟨S64, .i32⟩ : BufTy).Contents (Elt F) :=
  broadcastInDim S64 ![] bcast_S_S64 (constantI S_ 32 0#32)
def val_main_v12 : (⟨S262144, .i32⟩ : BufTy).Contents (Elt F) :=
  broadcastInDim S262144 ![] bcast_S_S262144 (constantI S_ 32 1#32)
def val_main_v13 : (⟨S64, .i32⟩ : BufTy).Contents (Elt F) :=
  Host.scatter scatter_S64_S262144x1_S262144_n_0_0_1 IntOp.addi (val_main_v4 (F := F)) (val_main_v11 x1) (val_main_v12 (F := F))

def val_main_v15 : (⟨S64, .i1⟩ : BufTy).Contents (Elt F) :=
  cmpi .sgt (val_main_v13 x1) (broadcastInDim S64 ![] bcast_S_S64 (constantI S_ 32 0#32))
theorem val_main_v15_apply (i : S64.Idx) :
    val_main_v15 x1 i = IntOp.cmpi .sgt (val_main_v13 x1 i) 0#32 := rfl

def val_main_v16 : (⟨S64, .f32⟩ : BufTy).Contents (Elt F) :=
  Host.reduceAdd (val_main_v3 x0 x1) (constant S_ .f32 0x00000000#32) reducesTo_S4096x64_S64_d0 h_S_

-- The reduction along the first axis starts from the zero constant, so it is the plain sum of the column.
theorem val_main_v16_apply (x0 : (⟨S262144x64, .f32⟩ : BufTy).Contents (Elt Ideal)) (x1 : (⟨S262144, .i32⟩ : BufTy).Contents (Elt Ideal)) (k : Fin 64) :
    val_main_v16 (F := Ideal) x0 x1 (ix1 k) = ∑ r : Fin 4096, val_main_v3 (F := Ideal) x0 x1 (ix2 r k) := by
  unfold val_main_v16
  generalize val_main_v3 (F := Ideal) x0 x1 = y0
  simp only [Host.reduceAdd, Ideal.hostReduceAdd_def]
  rw [Ideal.hostReduceAdd_single reducesTo_S4096x64_S64_d0 (by decide)]
  refine (congrArg (· + _) Ideal.ofBits_zero_f32).trans ((zero_add _).trans (Finset.sum_congr rfl fun r _ => ?_))
  exact congrArg y0 (funext fun a => Fin.ext (by match a with | ⟨0, _⟩ => rfl | ⟨1, _⟩ => rfl))

def val_main_v19 : (⟨S64, .f32⟩ : BufTy).Contents (Elt F) :=
  sitofp .f32 (maxsi (val_main_v13 x1) (broadcastInDim S64 ![] bcast_S_S64 (constantI S_ 32 1#32)))
theorem val_main_v19_apply (i : S64.Idx) :
    val_main_v19 x1 i = FloatOps.sitofp .f32 (IntOp.maxsi (val_main_v13 x1 i) 1#32) := rfl

def val_main_v20 : (⟨S64, .f32⟩ : BufTy).Contents (Elt F) :=
  Host.divf (val_main_v16 x0 x1) (val_main_v19 x1)
theorem val_main_v20_apply (i : S64.Idx) :
    val_main_v20 x0 x1 i = FloatOps.hostDivf (val_main_v16 x0 x1 i) (val_main_v19 x1 i) := rfl

def val_main_v25 : (⟨S64, .f32⟩ : BufTy).Contents (Elt F) :=
  mulf (select (val_main_v15 x1) (val_main_v20 x0 x1) (broadcastInDim S64 ![] bcast_S_S64 (constant S_ .f32 0x00000000#32)))
    (uitofp .f32 (val_main_v15 x1))
theorem val_main_v25_apply (i : S64.Idx) :
    val_main_v25 x0 x1 i = FloatOps.mulf (Scalar.select (val_main_v15 x1 i) (val_main_v20 x0 x1 i) (FloatOps.ofBits .f32 0x00000000#32))
      (FloatOps.uitofp .f32 (val_main_v15 x1 i)) := rfl

def val_main_v23 : (⟨S_, .i32⟩ : BufTy).Contents (Elt F) :=
  Host.reduce IntOp.addi (extui 32 (val_main_v15 x1) natLt_1_32) (constantI S_ 32 0#32) reducesTo_S64_S_d0 h_S_

def val_main_v26 : (⟨S_, .f32⟩ : BufTy).Contents (Elt F) :=
  Host.reduceAdd (val_main_v25 x0 x1) (constant S_ .f32 0x00000000#32) reducesTo_S64_S_d0 h_S_

theorem val_main_v26_apply (x0 : (⟨S262144x64, .f32⟩ : BufTy).Contents (Elt Ideal)) (x1 : (⟨S262144, .i32⟩ : BufTy).Contents (Elt Ideal)) (i : S_.Idx) :
    val_main_v26 (F := Ideal) x0 x1 i = ∑ j : S64.Idx, (val_main_v25 (F := Ideal) x0 x1) j := by
  unfold val_main_v26
  generalize val_main_v25 (F := Ideal) x0 x1 = y0
  simp only [Host.reduceAdd, Ideal.hostReduceAdd_def]
  exact (Ideal.hostReduceAdd_total reducesTo_S64_S_d0 (fun b => b.elim0) y0 _ i).trans
    ((congrArg (· + _) Ideal.ofBits_zero_f32).trans (zero_add _))

def val_main_v28 : (⟨S_, .f32⟩ : BufTy).Contents (Elt F) :=
  sitofp .f32 (maxsi (val_main_v23 x1) (constantI S_ 32 1#32))
theorem val_main_v28_apply (i : S_.Idx) :
    val_main_v28 x1 i = FloatOps.sitofp .f32 (IntOp.maxsi (val_main_v23 x1 i) 1#32) := rfl

def val_main_v29 : (⟨S_, .f32⟩ : BufTy).Contents (Elt F) :=
  Host.divf (val_main_v26 x0 x1) (val_main_v28 x1)
theorem val_main_v29_apply (i : S_.Idx) :
    val_main_v29 x0 x1 i = FloatOps.hostDivf (val_main_v26 x0 x1 i) (val_main_v28 x1 i) := rfl

-- Every weakly fair run ends with the result at the last stage of the two argument arrays, which are left as launched.
set_option maxRecDepth 8192 in
set_option maxHeartbeats 26400000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29) = val_main_v29 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v29).trans (by simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', TRef.ofBuf, TRef.toBuf, cast_eq]; rfl),
      (h c main_arg0).trans (by after_results_simp <;> rfl),
      (h c main_arg1).trans (by after_results_simp <;> rfl)⟩)
    (run_seq ValueP.scopedRefs_eq ValueP.scopedSems_eq defs main (fun _ => ValueP.ops) ValueP.main_eq (fun _ => ValueP.ops_sub) m ρ)

end Cert.ReferenceIdeal.ReadP

end
-- ==== Proof.RefSide.Take.lean ====
import proofs.«218716_g83915071029270_cont_9to1c4b_613_31_alg».proof.ReferenceIdeal
import Idealize.ShloMosaic.Lib.ValueIdx

noncomputable section

namespace Cert.RefSide

open Idealize.ShloMosaic Idealize.ShloMosaic.ValueIdx Cert.ReferenceIdeal

theorem getElem_idxOf_pair {m n : Nat} (a : Fin n) (r : Fin m) (l₁ : List (Fin m)) (l₂ : List (Fin n)) (v₁ : List (Fin m))
    (v₂ : List (Fin n)) (h1 : l₁ = v₁) (h2 : l₂ = v₂) (hv : ∀ h, v₁[List.idxOf a v₂]'h = r)
    (hlt : List.idxOf a l₂ < l₁.length) : l₁[List.idxOf a l₂] = r := by
  subst h1 h2; exact hv hlt

theorem gather_rows {α : Type} (d : GatherDims S262144x64 S262144x1x1 S262144x1)
    (hoff : d.offsetDims = []) (hcoll : d.collapsedSliceDims = [1]) (hob : d.operandBatchingDims = [0])
    (hsb : d.startIndicesBatchingDims = [0]) (hsim : d.startIndexMap = [1]) (hivd : d.indexVectorDim = 2)
    (x : S262144x64.Idx → α) (idx : IVec S262144x1x1 32) (p : Fin 262144) (q : Fin 1) :
    Host.gather d x idx (ix2 p q) = x (ix2 p ⟨min (idx (ix3 p q (0 : Fin 1))).toInt.toNat 63, by omega⟩) := by
  have hbd : d.batchDims = [0, 1] := by
    show Shape.kept _ d.offsetDims = _
    rw [hoff]; decide
  have hsk : d.siKept = [0, 1] := by
    show (List.finRange 3).filter (fun b => decide (b.val ≠ d.indexVectorDim)) = _
    rw [hivd]; decide
  have hb0 : (0 : Fin 2) ∈ d.operandBatchingDims := by rw [hob]; exact List.mem_singleton.mpr rfl
  have hb1 : (1 : Fin 2) ∉ d.operandBatchingDims := by rw [hob]; decide
  have hk0 : (0 : Fin 2) ∉ d.sKept := fun h => ((d.mem_sKept 0).1 h).2 hb0
  have hk1 : (1 : Fin 2) ∉ d.sKept := fun h => ((d.mem_sKept 1).1 h).1 (by rw [hcoll]; exact List.mem_singleton.mpr rfl)
  have hm1 : (1 : Fin 2) ∈ d.startIndexMap := by rw [hsim]; exact List.mem_singleton.mpr rfl
  have hsl : d.sliceSizes 1 = 1 := d.slice_collapsed 1 (by rw [hcoll]; exact List.mem_singleton.mpr rfl)

  have hc0 : ∀ h, (d.siCoord (ix2 p q) 0 h).val = p.val := by
    intro h
    unfold GatherDims.siCoord
    simp only [Fin.val_cast]
    rw [getElem_idxOf_pair (0 : Fin 3) (0 : Fin 2) _ _ _ _ hbd hsk (fun _ => rfl)]
  have hc1 : ∀ h, (d.siCoord (ix2 p q) 1 h).val = q.val := by
    intro h
    unfold GatherDims.siCoord
    simp only [Fin.val_cast]
    rw [getElem_idxOf_pair (1 : Fin 3) (1 : Fin 2) _ _ _ _ hbd hsk (fun _ => rfl)]
  have hc0' : ∀ (b : Fin 3) (hb : b ∈ d.siKept), b = 0 → (d.siCoord (ix2 p q) b hb).val = p.val := by
    intro b hb e; subst e; exact hc0 hb
  have hsi : ∀ c : Fin d.startIndexMap.length, d.siIdx (ix2 p q) c = ix3 p q (0 : Fin 1) := by
    intro c
    have hlen : d.startIndexMap.length = 1 := by rw [hsim]; rfl
    have hc : c.val = 0 := by have := c.isLt; omega
    funext b
    unfold GatherDims.siIdx
    match b with
    | ⟨0, _⟩ => rw [dif_neg (by rw [hivd]; show ¬ (0 : Nat) = 2; omega)]; exact Fin.ext (hc0 _)
    | ⟨1, _⟩ => rw [dif_neg (by rw [hivd]; show ¬ (1 : Nat) = 2; omega)]; exact Fin.ext (hc1 _)
    | ⟨2, _⟩ => rw [dif_pos (by rw [hivd])]; exact Fin.ext hc
  unfold Host.gather
  congr 1
  funext a
  apply Fin.ext
  match a with
  | ⟨0, _⟩ =>
    show d.start _ _ 0 + d.batchCoord _ 0 + d.offCoord _ 0 = p.val
    rw [d.start_batching _ _ _ hb0, d.offCoord_eq_zero _ _ hk0]
    unfold GatherDims.batchCoord
    rw [dif_pos hb0]
    refine (by omega : ∀ X : Nat, X = p.val → 0 + X + 0 = p.val) _ ?_
    exact hc0' _ _ (getElem_idxOf_pair (0 : Fin 2) (0 : Fin 3) _ _ _ _ hsb hob (fun _ => rfl) _)
  | ⟨1, _⟩ =>
    show d.start _ _ 1 + d.batchCoord _ 1 + d.offCoord _ 1 = min (idx (ix3 p q (0 : Fin 1))).toInt.toNat 63
    rw [d.batchCoord_eq_zero _ _ hb1, d.offCoord_eq_zero _ _ hk1]
    unfold GatherDims.start
    rw [dif_pos hm1, hsl, hsi]
    rfl

theorem gather_read [Cert.ReferenceIdeal.Facts₀] {α : Type} (x : S262144x64.Idx → α) (idx : IVec S262144x1x1 32)
    (p : Fin 262144) (q : Fin 1) :
    Host.gather gather_S262144x64_S262144x1x1_S262144x1_n_1_0_0_1_2_11 x idx (ix2 p q)
      = x (ix2 p ⟨min (idx (ix3 p q (0 : Fin 1))).toInt.toNat 63, by omega⟩) :=
  gather_rows _ rfl rfl rfl rfl rfl rfl x idx p q

end Cert.RefSide

end
-- ==== Proof.RefSide.Count.lean ====
import proofs.«218716_g83915071029270_cont_9to1c4b_613_31_alg».proof.Proof.RefSide.Take
import Idealize.ShloMosaic.Lib.ValueIdx
import Idealize.ShloMosaic.Lib.ValueIdxRank1

noncomputable section

namespace Cert.RefSide

open Idealize.ShloMosaic Idealize.ShloMosaic.ValueIdx Cert.ReferenceIdeal

theorem scatter_apply {α : Type} {s si u : Shape} {w : Nat} (d : ScatterDims s si u) (f : α → α → α) (x : s.Idx → α)
    (idx : IVec si w) (upd : u.Idx → α) (k : s.Idx) :
    Host.scatter d f x idx upd k
      = ((List.finRange u.numel).filter fun n => d.resultIdx? (u.rowMajor.symm n) idx = some k).foldl
          (fun acc n => f acc (upd (u.rowMajor.symm n))) (x k) := by
  unfold Host.scatter
  generalize List.finRange u.numel = l
  induction l generalizing x with
  | nil => rfl
  | cons a l ih =>
    rw [List.foldl_cons, ih, List.filter_cons]
    cases hg : d.resultIdx? (u.rowMajor.symm a) idx with
    | none => simp
    | some i =>
      by_cases hk : k = i
      · subst hk; simp
      · have hk' : ¬ i = k := fun e => hk e.symm
        simp [hk, hk']

theorem foldl_add_one_toNat {ι : Type} (l : List ι) (hl : l.length < 2 ^ 32) :
    (l.foldl (fun acc _ => IntOp.addi acc 1#32) 0#32).toNat = l.length := by
  have key : ∀ (l : List ι) (v : BitVec 32), l.foldl (fun acc _ => IntOp.addi acc 1#32) v = v + BitVec.ofNat 32 l.length := by
    intro l
    induction l with
    | nil => intro v; simp
    | cons a l ih =>
      intro v
      rw [List.foldl_cons, ih]
      show v + 1#32 + BitVec.ofNat 32 l.length = v + BitVec.ofNat 32 (l.length + 1)
      apply BitVec.eq_of_toNat_eq
      simp only [BitVec.toNat_add, BitVec.toNat_ofNat]
      omega
  rw [key]
  simp only [BitVec.toNat_add, BitVec.toNat_ofNat]
  omega

theorem length_filter_rowMajor (u : Shape) (P : u.Idx → Prop) [DecidablePred P] :
    ((List.finRange u.numel).filter fun n => P (u.rowMajor.symm n)).length = (Finset.univ.filter P).card := by
  have h1 : ((List.finRange u.numel).filter fun n => P (u.rowMajor.symm n)).length
      = (Finset.univ.filter fun n : Fin u.numel => P (u.rowMajor.symm n)).card := by
    simp [Finset.card, Finset.filter, Fin.univ_def]
  rw [h1]
  exact Finset.card_equiv u.rowMajor.symm (fun n => by simp)

theorem scatter_resultIdx (d : ScatterDims S64 S262144x1 S262144)
    (huw : d.updateWindowDims = []) (hiw : d.insertedWindowDims = [0]) (hsd : d.scatterDimsToOperandDims = [0])
    (hivd : d.indexVectorDim = 1) (idx : IVec S262144x1 32) (p : Fin 262144)
    (hv : (idx (ix2 p (0 : Fin 1))).toNat < 64) :
    d.resultIdx? (ix1 p) idx = some (ix1 ⟨(idx (ix2 p (0 : Fin 1))).toNat, hv⟩) := by
  have hus : d.uScatter = [0] := by
    show Shape.kept _ d.updateWindowDims = _
    rw [huw]; decide
  have hsk : d.siKept = [0] := by
    show (List.finRange 2).filter (fun b => decide (b.val ≠ d.indexVectorDim)) = _
    rw [hivd]; decide
  have hm0 : (0 : Fin 1) ∈ d.scatterDimsToOperandDims := by rw [hsd]; decide
  have hnk : (0 : Fin 1) ∉ d.sKept := by
    show (0 : Fin 1) ∉ Shape.kept _ d.insertedWindowDims
    rw [hiw]; decide
  have hc0 : ∀ h, (d.siCoord (ix1 p) 0 h).val = p.val := by
    intro h
    unfold ScatterDims.siCoord
    simp only [Fin.val_cast]
    rw [getElem_idxOf_pair (0 : Fin 2) (0 : Fin 1) _ _ _ _ hus hsk (fun _ => rfl)]
  have hsi : ∀ c : Fin d.scatterDimsToOperandDims.length, d.siIdx (ix1 p) c = ix2 p (0 : Fin 1) := by
    intro c
    have hlen : d.scatterDimsToOperandDims.length = 1 := by rw [hsd]; rfl
    have hc : c.val = 0 := by have := c.isLt; omega
    funext b
    unfold ScatterDims.siIdx
    match b with
    | ⟨0, _⟩ => rw [dif_neg (by rw [hivd]; show ¬ (0 : Nat) = 1; omega)]; exact Fin.ext (hc0 _)
    | ⟨1, _⟩ => rw [dif_pos (by rw [hivd])]; exact Fin.ext hc
  have hti : (idx (ix2 p (0 : Fin 1))).toInt = ((idx (ix2 p (0 : Fin 1))).toNat : Int) :=
    BitVec.toInt_eq_toNat_of_lt (by omega)
  have hsum : ∀ a : Fin 1, d.start (ix1 p) idx a + d.window (ix1 p) a = ((idx (ix2 p (0 : Fin 1))).toNat : Int) := by
    intro a
    rw [Subsingleton.elim a 0]
    unfold ScatterDims.start ScatterDims.window
    rw [dif_pos hm0, dif_neg hnk, hsi, hti]
    simp
  have h64 : ∀ a : Fin 1, S64.size a = 64 := fun a => by rw [Subsingleton.elim a 0]; rfl
  unfold ScatterDims.resultIdx?
  rw [dif_pos (fun a => by rw [hsum a, h64 a]; constructor <;> omega)]
  refine congrArg some (funext fun a => Fin.ext ?_)
  rw [Subsingleton.elim a 0]
  show (d.start (ix1 p) idx 0 + d.window (ix1 p) 0).toNat = (idx (ix2 p (0 : Fin 1))).toNat
  rw [hsum]
  rfl

theorem scatter_count_of (d : ScatterDims S64 S262144x1 S262144)
    (huw : d.updateWindowDims = []) (hiw : d.insertedWindowDims = [0]) (hsd : d.scatterDimsToOperandDims = [0])
    (hivd : d.indexVectorDim = 1) (x : S64.Idx → BitVec 32) (idx : IVec S262144x1 32) (upd : S262144.Idx → BitVec 32)
    (hx : ∀ i, x i = 0#32) (hupd : ∀ j, upd j = 1#32)
    (hidx : ∀ p : Fin 262144, (idx (ix2 p (0 : Fin 1))).toNat < 64) (k : Fin 64) :
    (Host.scatter d IntOp.addi x idx upd (ix1 k)).toNat
      = (Finset.univ.filter fun p : Fin 262144 => (idx (ix2 p (0 : Fin 1))).toNat = k.val).card := by
  rw [scatter_apply]
  simp only [hx, hupd]
  have hlen : ((List.finRange S262144.numel).filter fun n => d.resultIdx? (S262144.rowMajor.symm n) idx = some (ix1 k)).length
      = (Finset.univ.filter fun p : Fin 262144 => (idx (ix2 p (0 : Fin 1))).toNat = k.val).card := by
    rw [length_filter_rowMajor S262144 (fun j => d.resultIdx? j idx = some (ix1 k))]
    refine Finset.card_equiv idxEquiv1 (fun j => ?_)
    simp only [Finset.mem_filter, Finset.mem_univ, true_and]
    obtain ⟨p, rfl⟩ : ∃ p : Fin 262144, j = ix1 p := ⟨j 0, eq_ix1 j⟩
    rw [scatter_resultIdx d huw hiw hsd hivd idx p (hidx p)]
    show some (ix1 (⟨(idx (ix2 p (0 : Fin 1))).toNat, hidx p⟩ : Fin 64)) = some (ix1 k) ↔ (idx (ix2 p (0 : Fin 1))).toNat = k.val
    exact ⟨fun e => congrArg Fin.val (congrFun (Option.some.inj e) 0), fun e => congrArg (fun i => some (ix1 i)) (Fin.ext e)⟩
  rw [foldl_add_one_toNat _ (by rw [hlen]; exact lt_of_le_of_lt (Finset.card_le_univ _) (by simp)), hlen]

theorem scatter_count [Cert.ReferenceIdeal.Facts₀] (x : S64.Idx → BitVec 32) (idx : IVec S262144x1 32) (upd : S262144.Idx → BitVec 32)
    (hx : ∀ i, x i = 0#32) (hupd : ∀ j, upd j = 1#32)
    (hidx : ∀ p : Fin 262144, (idx (ix2 p (0 : Fin 1))).toNat < 64) (k : Fin 64) :
    (Host.scatter scatter_S64_S262144x1_S262144_n_0_0_1 IntOp.addi x idx upd (ix1 k)).toNat
      = (Finset.univ.filter fun p : Fin 262144 => (idx (ix2 p (0 : Fin 1))).toNat = k.val).card :=
  scatter_count_of _ rfl rfl rfl rfl x idx upd hx hupd hidx k

end Cert.RefSide

end
-- ==== Proof.RefSide.Reduce.lean ====
import Idealize.ShloMosaic.Lib.StableHlo.Predicate
import Idealize.ShloMosaic.Lib.ValueIdx
import Idealize.ShloMosaic.Lib.ValueIdxRank1

noncomputable section

namespace Cert.RefSide

open Idealize.ShloMosaic Idealize.ShloMosaic.ValueIdx

theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl, hinit]
  generalize (((List.finRange s.numel).map s.rowMajor.symm).filter fun i => h.drop i = j) = l
  induction l with
  | nil => rfl
  | cons a l ih =>
    rw [List.foldl_cons, hx]
    exact ih

theorem toNat_reduce_count_all {n : Nat} (hn : n < 2 ^ 32) (mask : IVec ⟨1, ![n]⟩ 1) (hw : 1 < 32)
    (h : (⟨1, ![n]⟩ : Shape).ReducesTo [0] ⟨0, ![]⟩) {u : Shape} (hu : 0 < u.numel) (j : (⟨0, ![]⟩ : Shape).Idx) :
    (Host.reduce IntOp.addi (extui 32 mask hw) (constantI u 32 0#32) h hu j).toNat
      = (Finset.univ.filter (fun q : Fin n => mask (ix1 q) = 1#1)).card := by
  classical
  rw [Host.reduce_eq_fold]
  have hval : ∀ i, (extui 32 mask hw i).toNat = if mask i = 1#1 then 1 else 0 :=
    fun i => StableHlo.Predicate.toNat_setWidth_bit (mask i)
  have hall : (Finset.univ.filter fun i : (⟨1, ![n]⟩ : Shape).Idx => h.drop i = j) = Finset.univ := by
    apply Finset.filter_true_of_mem
    intro i _
    exact funext fun b => b.elim0
  have hsum : ∑ i ∈ (Finset.univ : Finset (⟨1, ![n]⟩ : Shape).Idx), (extui 32 mask hw i).toNat
      = (Finset.univ.filter (fun q : Fin n => mask (ix1 q) = 1#1)).card := by
    rw [Finset.card_filter, ← Equiv.sum_comp (idxEquiv1 (n := n)).symm]
    exact Finset.sum_congr rfl fun q _ => hval _
  show (Finset.fold IntOp.addi 0#32 (extui 32 mask hw) (Finset.univ.filter fun i : (⟨1, ![n]⟩ : Shape).Idx => h.drop i = j)).toNat = _
  rw [hall, StableHlo.Predicate.toNat_fold_addi _ _ (by
    rw [hsum]; exact lt_of_le_of_lt (Finset.card_le_univ _) (by simpa using hn)), hsum]

end Cert.RefSide

end
-- ==== Proof.RefSide.Stages.lean ====
import proofs.«218716_g83915071029270_cont_9to1c4b_613_31_alg».proof.Proof.RefRead
import proofs.«218716_g83915071029270_cont_9to1c4b_613_31_alg».proof.Proof.Spec
import proofs.«218716_g83915071029270_cont_9to1c4b_613_31_alg».proof.Proof.RefSide.Take
import proofs.«218716_g83915071029270_cont_9to1c4b_613_31_alg».proof.Proof.RefSide.Count
import proofs.«218716_g83915071029270_cont_9to1c4b_613_31_alg».proof.Proof.RefSide.Reduce
import proofs.«218716_g83915071029270_cont_9to1c4b_613_31_alg».proof.Proof.RefSide.Words
import Idealize.ShloMosaic.Lib.StableHlo.Predicate
import Idealize.ShloMosaic.Lib.ValueIdxRank1

noncomputable section

open scoped BigOperators

namespace Cert.RefSide
open Idealize.ShloMosaic Idealize.ShloMosaic.ValueIdx Cert.ReferenceIdeal Cert.ReferenceIdeal.Gen Cert.ReferenceIdeal.ReadP Cert.Spec

theorem labels_take (a : IVec SA 32) (h : InRange a) (p : Fin 262144) (q r : Fin 1) :
    val_main_call0_v5 (F := Ideal) a (ix3 p q r) = a (ix1 p) := by
  rw [val_main_call0_v5_apply, val_main_call0_v4_apply, val_main_call0_v1_apply, val_main_v0_apply,
    slt_zero_of_small (by have := h p; omega), select_zero']

theorem mask_take (a : IVec SA 32) (h : InRange a) (j : S262144x1.Idx) : val_main_call0_v12 (F := Ideal) a j = 1#1 := by
  unfold val_main_call0_v12
  refine reduce_andi_ones _ _ _ _ (fun i => ?_) (fun _ => rfl) j
  obtain ⟨p, q, r, rfl⟩ : ∃ (p : Fin 262144) (q r : Fin 1), i = ix3 p q r := ⟨i 0, i 1, i 2, eq_ix3 i⟩
  rw [val_main_call0_v11_apply, labels_take a h, sge_zero_of_small (by have := h p; omega), sle_63_of_lt (h p)]
  rfl

theorem sel_read (x : FVec Ideal SX .f32) (a : IVec SA 32) (h : InRange a) (p : Fin 262144) (q : Fin 1) :
    val_main_v1 (F := Ideal) x a (ix2 p q) = sel x a p := by
  rw [val_main_v1_apply, mask_take a h, select_one']
  unfold val_main_call0_v13
  rw [gather_read]
  unfold sel
  refine congrArg x (congrArg (ix2 p) (Fin.ext ?_))
  have hp := h p
  have hti : (a (ix1 p)).toInt = ((a (ix1 p)).toNat : ℤ) := StableHlo.Predicate.toInt_eq_toNat_of_lt (by omega)
  show min (val_main_call0_v5 (F := Ideal) a (ix3 p q (0 : Fin 1))).toInt.toNat 63 = (col a p).val
  rw [labels_take a h, col_val h p, hti, Int.toNat_natCast]
  omega

theorem colsum_read (x : FVec Ideal SX .f32) (a : IVec SA 32) (h : InRange a) (k : Fin 64) :
    val_main_v16 (F := Ideal) x a (ix1 k) = colsum x a k := by
  rw [val_main_v16_apply]
  unfold colsum
  refine Finset.sum_congr rfl fun r _ => ?_
  rw [val_main_v3_apply, val_main_v2_apply]
  exact sel_read x a h (rowOf r k) 0

theorem sitofp_of_toInt (w : BitVec 32) (n : ℕ) (hw : w.toInt = (n : ℤ)) :
    FloatOps.sitofp (F := Ideal) .f32 w = (((n : ℕ) : ℝ) : EReal) := by
  show (((w.toInt : ℝ)) : EReal) = _
  rw [hw, Int.cast_natCast]

theorem mulf_bit_one (A : Ideal .f32) : FloatOps.mulf A (FloatOps.uitofp (F := Ideal) .f32 (1#1 : BitVec 1)) = A := by
  show A * (((1 : ℕ) : ℝ) : EReal) = A
  rw [Nat.cast_one, EReal.coe_one, mul_one]

theorem mulf_bit_zero : FloatOps.mulf (Ideal.ofBits .f32 0#32 : Ideal .f32) (FloatOps.uitofp (F := Ideal) .f32 (0#1 : BitVec 1)) = 0 := by
  rw [Ideal.ofBits_zero_f32]
  show (0 : EReal) * (((0 : ℕ) : ℝ) : EReal) = 0
  rw [zero_mul]

theorem labels_count (a : IVec SA 32) (h : InRange a) (p : Fin 262144) (q : Fin 1) :
    val_main_v11 (F := Ideal) a (ix2 p q) = a (ix1 p) := by
  have hp := h p
  have h5 : val_main_v5 (F := Ideal) a (ix1 p) = a (ix1 p) := by
    rw [val_main_v5_apply, maxsi_zero_left (by omega)]
  rw [val_main_v11_apply, val_main_v10_apply, h5, slt_zero_of_small (by omega), select_zero']

theorem size_read (a : IVec SA 32) (h : InRange a) (k : Fin 64) : (val_main_v13 (F := Ideal) a (ix1 k)).toNat = size a k := by
  have hc := scatter_count (val_main_v4 (F := Ideal)) (val_main_v11 (F := Ideal) a) (val_main_v12 (F := Ideal))
    (fun _ => rfl) (fun _ => rfl) (fun p => by rw [labels_count a h]; exact h p) k
  refine hc.trans ?_
  unfold size
  refine congrArg Finset.card ?_
  exact Finset.filter_congr (fun p _ => by rw [labels_count a h])

theorem size_le (a : IVec SA 32) (k : Fin 64) : size a k ≤ 262144 := by
  unfold size
  exact le_trans (Finset.card_le_univ _) (le_of_eq (Fintype.card_fin _))

theorem valid_read (a : IVec SA 32) (h : InRange a) (k : Fin 64) : val_main_v15 (F := Ideal) a (ix1 k) = 1#1 ↔ 0 < size a k := by
  have hs := size_le a k
  have hr := size_read a h k
  rw [val_main_v15_apply, sgt_zero_iff (by omega), hr]

theorem mean_read (x : FVec Ideal SX .f32) (a : IVec SA 32) (h : InRange a) (k : Fin 64) :
    val_main_v25 (F := Ideal) x a (ix1 k) = mean x a k := by
  have hle := size_le a k
  have hr := size_read a h k
  rw [val_main_v25_apply]
  unfold mean
  by_cases hs : 0 < size a k
  · have hv := (valid_read a h k).2 hs
    have hden : FloatOps.sitofp (F := Ideal) .f32 (IntOp.maxsi (val_main_v13 (F := Ideal) a (ix1 k)) 1#32)
        = (((size a k : ℕ) : ℝ) : EReal) :=
      sitofp_of_toInt _ _ (by rw [toInt_maxsi_one (by omega), hr, max_eq_left hs])
    rw [hv, select_one', if_pos hs, mulf_bit_one, val_main_v20_apply, colsum_read x a h, val_main_v19_apply, hden]
    rfl
  · have hv : val_main_v15 (F := Ideal) a (ix1 k) = 0#1 :=
      bit_eq_zero_of_ne_one _ (fun e => hs ((valid_read a h k).1 e))
    rw [hv, select_zero', if_neg hs]
    exact mulf_bit_zero

theorem means_sum_read (x : FVec Ideal SX .f32) (a : IVec SA 32) (h : InRange a) (i : S_.Idx) :
    val_main_v26 (F := Ideal) x a i = ∑ k : Fin 64, mean x a k := by
  rw [val_main_v26_apply, ← Equiv.sum_comp (idxEquiv1 (n := 64)).symm]
  exact Finset.sum_congr rfl fun k _ => mean_read x a h k

theorem nvalid_read (a : IVec SA 32) (h : InRange a) (i : S_.Idx) : (val_main_v23 (F := Ideal) a i).toNat = nvalid a := by
  have hc := toNat_reduce_count_all (n := 64) (by decide) (val_main_v15 (F := Ideal) a) natLt_1_32 reducesTo_S64_S_d0
    (u := S_) h_S_ i
  refine Eq.trans ?_ (hc.trans ?_)
  · rfl
  · unfold nvalid
    refine congrArg Finset.card ?_
    exact Finset.filter_congr (fun k _ => valid_read a h k)

theorem nvalid_le (a : IVec SA 32) : nvalid a ≤ 64 := by
  unfold nvalid
  exact le_trans (Finset.card_le_univ _) (le_of_eq (Fintype.card_fin _))

theorem denom_read (a : IVec SA 32) (h : InRange a) (i : S_.Idx) :
    val_main_v28 (F := Ideal) a i = (((max (nvalid a) 1 : ℕ) : ℝ) : EReal) := by
  have hle := nvalid_le a
  have hr := nvalid_read a h i
  rw [val_main_v28_apply]
  exact sitofp_of_toInt _ _ (by rw [toInt_maxsi_one (by omega), hr])

theorem val_eq_G (x : FVec Ideal SX .f32) (a : IVec SA 32) (h : InRange a) :
    val_main_v29 (F := Ideal) x a = fun _ => G x a := by
  funext i
  rw [val_main_v29_apply, means_sum_read x a h, denom_read a h]
  rfl

end Cert.RefSide

end
-- ==== Proof.RefSide.lean ====
import proofs.«218716_g83915071029270_cont_9to1c4b_613_31_alg».proof.Defs
import proofs.«218716_g83915071029270_cont_9to1c4b_613_31_alg».proof.Proof.RefRead
import proofs.«218716_g83915071029270_cont_9to1c4b_613_31_alg».proof.Proof.Spec
import proofs.«218716_g83915071029270_cont_9to1c4b_613_31_alg».proof.Proof.PreFacts
import proofs.«218716_g83915071029270_cont_9to1c4b_613_31_alg».proof.Proof.RefSide.Stages

noncomputable section

namespace Cert.RefSide

open Idealize.ShloMosaic Idealize.SL.Sem Cert.ReferenceIdeal

-- The labels' range comes from the precondition; under it the reference's last stage is the specification.
theorem run [Cert.ReferenceIdeal.Facts] [Cert.Pre_input_domain.Facts] (m : (ℓ : Loc nD τ sig) → Buf (Elt Ideal) ℓ)
    (g : Dev nD → PrngReg) (hpre : Cert.Pre_ReferenceIdeal m) :
    θ_run (defs (F := Ideal)) (onTc (τ := τ) (main (F := Ideal))) ⟨m, fun _ => 0, g⟩
      (fun r => ∀ c : Dev nD,
        r.2.mem ((c.tc : Thread nD τ).loc main_v29)
            = (fun _ => Cert.Spec.G (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run _ _ _).mono
    (fun _ hr c => ⟨(hr c).1.trans (val_eq_G _ _ (Cert.PreFacts.inRange _ _ (hpre c))), (hr c).2⟩)
    (ReadP.run (F := Ideal) m g)

theorem frame [Cert.ReferenceIdeal.Facts] [Cert.Pre_input_domain.Facts] : Cert.frame_ReferenceIdeal :=
  fun m ρ _ => (θ_run _ _ _).mono (fun _ hr c => (hr c).2) (ReadP.run (F := Ideal) m ρ)

end Cert.RefSide

end
-- ==== Proof.lean ====
import proofs.«218716_g83915071029270_cont_9to1c4b_613_31_alg».proof.Defs
import proofs.«218716_g83915071029270_cont_9to1c4b_613_31_alg».proof.Proof.Gen.Kernel
import proofs.«218716_g83915071029270_cont_9to1c4b_613_31_alg».proof.Proof.Gen.KernelIdeal
import proofs.«218716_g83915071029270_cont_9to1c4b_613_31_alg».proof.Proof.Gen.ReferenceIdeal
import proofs.«218716_g83915071029270_cont_9to1c4b_613_31_alg».proof.Proof.Gen.Pre_input_domain
import proofs.«218716_g83915071029270_cont_9to1c4b_613_31_alg».proof.Proof.K.FrameClaim
import proofs.«218716_g83915071029270_cont_9to1c4b_613_31_alg».proof.Proof.FrameClaim
import proofs.«218716_g83915071029270_cont_9to1c4b_613_31_alg».proof.Proof.ValueClaim
import proofs.«218716_g83915071029270_cont_9to1c4b_613_31_alg».proof.Proof.RefSide

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    fun m g hpre => Cert.Kernel.Hand.frame_any m g hpre,
    fun m g hpre => Cert.KernelIdeal.Hand.frame_any m g hpre,
    Cert.RefSide.frame,
    trivial,
    fun m g m' g' hpre hagree =>
      ⟨fun c => fun _ => Cert.Spec.G (m ((c.tc : Thread Cert.KernelIdeal.nD Cert.KernelIdeal.τ).loc Cert.KernelIdeal.main_arg0))
          (m ((c.tc : Thread Cert.KernelIdeal.nD Cert.KernelIdeal.τ).loc Cert.KernelIdeal.main_arg1)),
        Cert.KernelIdeal.Hand.value_run m g hpre,
        (θ_run _ _ _).mono
          (fun r hr c => ⟨by rw [(hr c).1, (hagree c).1, (hagree c).2]; exact rfl, (hr c).2⟩)
          (Cert.RefSide.run m' g' (fun c => by rw [(hagree c).1, (hagree c).2]; exact hpre c))⟩⟩

end Cert.Proof

end
